-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S3x128x128 : Shape := ⟨3, ![3, 128, 128]⟩
abbrev S3x128 : Shape := ⟨2, ![3, 128]⟩
abbrev S2x800000 : Shape := ⟨2, ![2, 800000]⟩
abbrev S50000 : Shape := ⟨1, ![50000]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part1 {F : FTy → Type} [FloatOps F] (main_arg4 : FVec F S3x128 .f32) (main_arg5 : IVec S2x800000 32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg4
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : IVec S1x800000 32 := (extractStridedSlice S1x800000 ![0, 0] · slices_S2x800000_S1x800000_0_0) main_arg5
  let main_v25 : IVec S800000 32 := shapeCast S800000 main_v24 shapeCasts_S1x800000_S800000
  let main_c_8 : IVec S_ 32 := constantI S_ 32 0#32
  let main_v26 : IVec S800000 32 := broadcastInDim S800000 ![] bcast_S_S800000 main_c_8
  let main_v27 : IVec S800000 1 := cmpi .sge main_v25 main_v26
  let main_c_9 : IVec S_ 32 := constantI S_ 32 50000#32
  let main_v28 : IVec S800000 32 := broadcastInDim S800000 ![] bcast_S_S800000 main_c_9
  let main_v29 : IVec S800000 1 := cmpi .slt main_v25 main_v28
  let main_v30 : IVec S800000 1 := andi main_v27 main_v29
  let main_c_10 : IVec S_ 1 := constantI S_ 1 1#1
  let main_v31 : IVec S_ 1 := (fun x v => Host.reduce IntOp.andi x v reducesTo_S800000_S_d0 h_S_) main_v30 main_c_10
  let main_v32 : IVec S_ 1 := andi main_v23 main_v31
  main_v32

def fn {F : FTy → Type} [FloatOps F] (main_arg0 : FVec F S50000x128 .f32) (main_arg1 : FVec F S3x128x128 .f32) (main_arg2 : FVec F S3x128 .f32) (main_arg3 : FVec F S3x128x128 .f32) (main_arg4 : FVec F S3x128 .f32) (main_arg5 : IVec S2x800000 32) (main_arg6 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg1
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg2
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg3
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg4 main_arg5 main_v13 main_v16
-- ==== Kernel.lean ====
abbrev S50000x128 : Shape := ⟨2, ![50000, 128]⟩
abbrev S3x128x128 : Shape := ⟨3, ![3, 128, 128]⟩
abbrev S3x128 : Shape := ⟨2, ![3, 128]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S64 : Shape := ⟨1, ![64]⟩
abbrev S50000x1 : Shape := ⟨2, ![50000, 1]⟩
abbrev S51200x128 : Shape := ⟨2, ![51200, 128]⟩
abbrev S1 : Shape := ⟨1, ![1]⟩
abbrev S51200x1 : Shape := ⟨2, ![51200, 1]⟩
abbrev S2 : Shape := ⟨1, ![2]⟩
abbrev S51200 : Shape := ⟨1, ![51200]⟩
abbrev S800768 : Shape := ⟨1, ![800768]⟩
abbrev S800768x128 : Shape := ⟨2, ![800768, 128]⟩
abbrev S2048 : Shape := ⟨1, ![2048]⟩
abbrev S2048x128 : Shape := ⟨2, ![2048, 128]⟩
abbrev S2048x2048 : Shape := ⟨2, ![2048, 2048]⟩
abbrev S2048x1 : Shape := ⟨2, ![2048, 1]⟩
abbrev S1x2048 : Shape := ⟨2, ![1, 2048]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S128x2048 : Shape := ⟨2, ![128, 2048]⟩
abbrev S64x128 : Shape := ⟨2, ![64, 128]⟩
abbrev S64x1 : Shape := ⟨2, ![64, 1]⟩

abbrev nBuf : Space → Nat
  | .hbm => 127
  | .vmem => 71
  | .smem => 0
  | _ => 0

abbrev bufTy : (tb : Table) → Fin (tcTables nBuf tb) → BufTy
  | .hbm, ⟨0, _⟩ => ⟨S50000x128, .f32⟩
  | .hbm, ⟨1, _⟩ => ⟨S3x128x128, .f32⟩
  | .hbm, ⟨2, _⟩ => ⟨S3x128, .f32⟩
  | .hbm, ⟨3, _⟩ => ⟨S3x128x128, .f32⟩
  | .hbm, ⟨4, _⟩ => ⟨S3x128, .f32⟩
  | .hbm, ⟨5, _⟩ => ⟨S2x800000, .i32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S50000, .i32⟩
  | .hbm, ⟨13, _⟩ => ⟨S_, .i32⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S_, .i32⟩
  | .hbm, ⟨26, _⟩ => ⟨S800000, .i32⟩
  | .hbm, ⟨27, _⟩ => ⟨S50000, .i32⟩
  | .hbm, ⟨28, _⟩ => ⟨S_, .i32⟩
  | .hbm, ⟨29, _⟩ => ⟨S_, .i32⟩
  | .hbm, ⟨30, _⟩ => ⟨S50000, .i32⟩
  | .hbm, ⟨31, _⟩ => ⟨S50000, .i32⟩
  | .hbm, ⟨32, _⟩ => ⟨S50000, .f32⟩
  | .hbm, ⟨33, _⟩ => ⟨S_, .i32⟩
  | .hbm, ⟨34, _⟩ => ⟨S64, .i32⟩
  | .hbm, ⟨35, _⟩ => ⟨S_, .i32⟩
  | .hbm, ⟨36, _⟩ => ⟨S_, .i32⟩
  | .hbm, ⟨37, _⟩ => ⟨S50000, .i32⟩
  | .hbm, ⟨38, _⟩ => ⟨S50000, .i32⟩
  | .hbm, ⟨39, _⟩ => ⟨S_, .i32⟩
  | .hbm, ⟨40, _⟩ => ⟨S50000, .i32⟩
  | .hbm, ⟨41, _⟩ => ⟨S50000, .i1⟩
  | .hbm, ⟨42, _⟩ => ⟨S_, .i32⟩
  | .hbm, ⟨43, _⟩ => ⟨S50000, .i32⟩
  | .hbm, ⟨44, _⟩ => ⟨S50000, .i32⟩
  | .hbm, ⟨45, _⟩ => ⟨S50000, .i32⟩
  | .hbm, ⟨46, _⟩ => ⟨S50000x1, .i32⟩
  | .hbm, ⟨47, _⟩ => ⟨S_, .i32⟩
  | .hbm, ⟨48, _⟩ => ⟨S50000, .i32⟩
  | .hbm, ⟨49, _⟩ => ⟨S64, .i32⟩
  | .hbm, ⟨50, _⟩ => ⟨S_, .i32⟩
  | .hbm, ⟨51, _⟩ => ⟨S_, .i32⟩
  | .hbm, ⟨52, _⟩ => ⟨S64, .i32⟩
  | .hbm, ⟨53, _⟩ => ⟨S64, .i32⟩
  | .hbm, ⟨54, _⟩ => ⟨S64, .f32⟩
  | .hbm, ⟨55, _⟩ => ⟨S_, .f32⟩
  | .hbm, ⟨56, _⟩ => ⟨S51200x128, .f32⟩
  | .hbm, ⟨57, _⟩ => ⟨S_, .i32⟩
  | .hbm, ⟨58, _⟩ => ⟨S1, .i32⟩
  | .hbm, ⟨59, _⟩ => ⟨S51200x128, .f32⟩
  | .hbm, ⟨60, _⟩ => ⟨S_, .f32⟩
  | .hbm, ⟨61, _⟩ => ⟨S51200x1, .f32⟩
  | .hbm, ⟨62, _⟩ => ⟨S_, .i32⟩
  | .hbm, ⟨63, _⟩ => ⟨S1, .i32⟩
  | .hbm, ⟨64, _⟩ => ⟨S_, .i32⟩
  | .hbm, ⟨65, _⟩ => ⟨S1, .i32⟩
  | .hbm, ⟨66, _⟩ => ⟨S2, .i32⟩
  | .hbm, ⟨67, _⟩ => ⟨S51200x1, .f32⟩
  | .hbm, ⟨68, _⟩ => ⟨S_, .i32⟩
  | .hbm, ⟨69, _⟩ => ⟨S51200, .i32⟩
  | .hbm, ⟨70, _⟩ => ⟨S_, .i32⟩
  | .hbm, ⟨71, _⟩ => ⟨S1, .i32⟩
  | .hbm, ⟨72, _⟩ => ⟨S51200, .i32⟩
  | .hbm, ⟨73, _⟩ => ⟨S_, .i32⟩
  | .hbm, ⟨74, _⟩ => ⟨S800768, .i32⟩
  | .hbm, ⟨75, _⟩ => ⟨S_, .i32⟩
  | .hbm, ⟨76, _⟩ => ⟨S1, .i32⟩
  | .hbm, ⟨77, _⟩ => ⟨S800768, .i32⟩
  | .hbm, ⟨78, _⟩ => ⟨S_, .i32⟩
  | .hbm, ⟨79, _⟩ => ⟨S800768, .i32⟩
  | .hbm, ⟨80, _⟩ => ⟨S_, .i32⟩
  | .hbm, ⟨81, _⟩ => ⟨S1, .i32⟩
  | .hbm, ⟨82, _⟩ => ⟨S800768, .i32⟩
  | .hbm, ⟨83, _⟩ => ⟨S800768x128, .f32⟩
  | .hbm, ⟨84, _⟩ => ⟨S51200x128, .f32⟩
  | .hbm, ⟨85, _⟩ => ⟨S1x128x128, .f32⟩
  | .hbm, ⟨86, _⟩ => ⟨S128x128, .f32⟩
  | .hbm, ⟨87, _⟩ => ⟨S1x128, .f32⟩
  | .hbm, ⟨88, _⟩ => ⟨S128, .f32⟩
  | .hbm, ⟨89, _⟩ => ⟨S1x128, .f32⟩
  | .hbm, ⟨90, _⟩ => ⟨S1x128x128, .f32⟩
  | .hbm, ⟨91, _⟩ => ⟨S128x128, .f32⟩
  | .hbm, ⟨92, _⟩ => ⟨S1x128, .f32⟩
  | .hbm, ⟨93, _⟩ => ⟨S128, .f32⟩
  | .hbm, ⟨94, _⟩ => ⟨S1x128, .f32⟩
  | .hbm, ⟨95, _⟩ => ⟨S51200x128, .f32⟩
  | .hbm, ⟨96, _⟩ => ⟨S800768x128, .f32⟩
  | .hbm, ⟨97, _⟩ => ⟨S51200x128, .f32⟩
  | .hbm, ⟨98, _⟩ => ⟨S1x128x128, .f32⟩
  | .hbm, ⟨99, _⟩ => ⟨S128x128, .f32⟩
  | .hbm, ⟨100, _⟩ => ⟨S1x128, .f32⟩
  | .hbm, ⟨101, _⟩ => ⟨S128, .f32⟩
  | .hbm, ⟨102, _⟩ => ⟨S1x128, .f32⟩
  | .hbm, ⟨103, _⟩ => ⟨S1x128x128, .f32⟩
  | .hbm, ⟨104, _⟩ => ⟨S128x128, .f32⟩
  | .hbm, ⟨105, _⟩ => ⟨S1x128, .f32⟩
  | .hbm, ⟨106, _⟩ => ⟨S128, .f32⟩
  | .hbm, ⟨107, _⟩ => ⟨S1x128, .f32⟩
  | .hbm, ⟨108, _⟩ => ⟨S51200x128, .f32⟩
  | .hbm, ⟨109, _⟩ => ⟨S800768x128, .f32⟩
  | .hbm, ⟨110, _⟩ => ⟨S51200x128, .f32⟩
  | .hbm, ⟨111, _⟩ => ⟨S1x128x128, .f32⟩
  | .hbm, ⟨112, _⟩ => ⟨S128x128, .f32⟩
  | .hbm, ⟨113, _⟩ => ⟨S1x128, .f32⟩
  | .hbm, ⟨114, _⟩ => ⟨S128, .f32⟩
  | .hbm, ⟨115, _⟩ => ⟨S1x128, .f32⟩
  | .hbm, ⟨116, _⟩ => ⟨S1x128x128, .f32⟩
  | .hbm, ⟨117, _⟩ => ⟨S128x128, .f32⟩
  | .hbm, ⟨118, _⟩ => ⟨S1x128, .f32⟩
  | .hbm, ⟨119, _⟩ => ⟨S128, .f32⟩
  | .hbm, ⟨120, _⟩ => ⟨S1x128, .f32⟩
  | .hbm, ⟨121, _⟩ => ⟨S51200x128, .f32⟩
  | .hbm, ⟨122, _⟩ => ⟨S128x128, .f32⟩
  | .hbm, ⟨123, _⟩ => ⟨S64x128, .f32⟩
  | .hbm, ⟨124, _⟩ => ⟨S64x1, .f32⟩
  | .hbm, ⟨125, _⟩ => ⟨S64x128, .f32⟩
  | .hbm, ⟨126, _⟩ => ⟨S64x128, .f32⟩
  | .local _ .vmem, ⟨0, _⟩ => ⟨S51200x128, .f32⟩
  | .local _ .vmem, ⟨1, _⟩ => ⟨S2048, .i32⟩
  | .local _ .vmem, ⟨2, _⟩ => ⟨S2048, .i32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048, .i32⟩
  | .local _ .vmem, ⟨8, _⟩ => ⟨S2048, .i32⟩
  | .local _ .vmem, ⟨9, _⟩ => ⟨S51200x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x1, .f32⟩
  | .local _ .vmem, ⟨15, _⟩ => ⟨S2048x1, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S2048x128, .f32⟩
  | .local _ .vmem, ⟨21, _⟩ => ⟨S2048x128, .f32⟩
  | .local _ .vmem, ⟨22, _⟩ => ⟨S51200x128, .f32⟩
  | .local _ .vmem, ⟨23, _⟩ => ⟨S2048, .i32⟩
  | .local _ .vmem, ⟨24, _⟩ => ⟨S2048, .i32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048, .i32⟩
  | .local _ .vmem, ⟨30, _⟩ => ⟨S2048, .i32⟩
  | .local _ .vmem, ⟨31, _⟩ => ⟨S51200x128, .f32⟩
  | .local _ .vmem, ⟨32, _⟩ => ⟨S2048x128, .f32⟩
  | .local _ .vmem, ⟨33, _⟩ => ⟨S2048x128, .f32⟩
  | .local _ .vmem, ⟨34, _⟩ => ⟨S2048x128, .f32⟩
  | .local _ .vmem, ⟨35, _⟩ => ⟨S2048x128, .f32⟩
  | .local _ .vmem, ⟨36, _⟩ => ⟨S2048x1, .f32⟩
  | .local _ .vmem, ⟨37, _⟩ => ⟨S2048x1, .f32⟩
  | .local _ .vmem, ⟨38, _⟩ => ⟨S128x128, .f32⟩
  | .local _ .vmem, ⟨39, _⟩ => ⟨S1x128, .f32⟩
  | .local _ .vmem, ⟨40, _⟩ => ⟨S128x128, .f32⟩
  | .local _ .vmem, ⟨41, _⟩ => ⟨S1x128, .f32⟩
  | .local _ .vmem, ⟨42, _⟩ => ⟨S2048x128, .f32⟩
  | .local _ .vmem, ⟨43, _⟩ => ⟨S2048x128, .f32⟩
  | .local _ .vmem, ⟨44, _⟩ => ⟨S51200x128, .f32⟩
  | .local _ .vmem, ⟨45, _⟩ => ⟨S2048, .i32⟩
  | .local _ .vmem, ⟨46, _⟩ => ⟨S2048, .i32⟩
  | .local _ .vmem, ⟨47, _⟩ => ⟨S2048x128, .f32⟩
  | .local _ .vmem, ⟨48, _⟩ => ⟨S2048x128, .f32⟩
  | .local _ .vmem, ⟨49, _⟩ => ⟨S2048x128, .f32⟩
  | .local _ .vmem, ⟨50, _⟩ => ⟨S2048x128, .f32⟩
  | .local _ .vmem, ⟨51, _⟩ => ⟨S2048, .i32⟩
  | .local _ .vmem, ⟨52, _⟩ => ⟨S2048, .i32⟩
  | .local _ .vmem, ⟨53, _⟩ => ⟨S51200x128, .f32⟩
  | .local _ .vmem, ⟨54, _⟩ => ⟨S2048x128, .f32⟩
  | .local _ .vmem, ⟨55, _⟩ => ⟨S2048x128, .f32⟩
  | .local _ .vmem, ⟨56, _⟩ => ⟨S2048x128, .f32⟩
  | .local _ .vmem, ⟨57, _⟩ => ⟨S2048x128, .f32⟩
  | .local _ .vmem, ⟨58, _⟩ => ⟨S2048x1, .f32⟩
  | .local _ .vmem, ⟨59, _⟩ => ⟨S2048x1, .f32⟩
  | .local _ .vmem, ⟨60, _⟩ => ⟨S128x128, .f32⟩
  | .local _ .vmem, ⟨61, _⟩ => ⟨S1x128, .f32⟩
  | .local _ .vmem, ⟨62, _⟩ => ⟨S128x128, .f32⟩
  | .local _ .vmem, ⟨63, _⟩ => ⟨S1x128, .f32⟩
  | .local _ .vmem, ⟨64, _⟩ => ⟨S2048x128, .f32⟩
  | .local _ .vmem, ⟨65, _⟩ => ⟨S2048x128, .f32⟩
  | .local _ .vmem, ⟨66, _⟩ => ⟨S2048x128, .f32⟩
  | .local _ .vmem, ⟨67, _⟩ => ⟨S2048x128, .f32⟩
  | .local _ .vmem, ⟨68, _⟩ => ⟨S2048, .i32⟩
  | .local _ .vmem, ⟨69, _⟩ => ⟨S2048, .i32⟩
  | .local _ .vmem, ⟨70, _⟩ => ⟨S128x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_c_4 : Ref sig .tc := ⟨.hbm, 28, rfl⟩
abbrev main_call1_v0 : Ref sig .tc := ⟨.hbm, 29, rfl⟩
abbrev main_call1_v1 : Ref sig .tc := ⟨.hbm, 30, rfl⟩
abbrev main_v14 : Ref sig .tc := ⟨.hbm, 31, rfl⟩
abbrev main_v15 : Ref sig .tc := ⟨.hbm, 32, rfl⟩
abbrev main_c_5 : Ref sig .tc := ⟨.hbm, 33, rfl⟩
abbrev main_v16 : Ref sig .tc := ⟨.hbm, 34, rfl⟩
abbrev main_c_6 : Ref sig .tc := ⟨.hbm, 35, rfl⟩
abbrev main_call2_v0 : Ref sig .tc := ⟨.hbm, 36, rfl⟩
abbrev main_call2_v1 : Ref sig .tc := ⟨.hbm, 37, rfl⟩
abbrev main_v17 : Ref sig .tc := ⟨.hbm, 38, rfl⟩
abbrev main_c_7 : Ref sig .tc := ⟨.hbm, 39, rfl⟩
abbrev main_v18 : Ref sig .tc := ⟨.hbm, 40, rfl⟩
abbrev main_v19 : Ref sig .tc := ⟨.hbm, 41, rfl⟩
abbrev main_c_8 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_9 : Ref sig .tc := ⟨.hbm, 47, rfl⟩
abbrev main_v24 : Ref sig .tc := ⟨.hbm, 48, rfl⟩
abbrev main_v25 : Ref sig .tc := ⟨.hbm, 49, rfl⟩
abbrev main_c_10 : Ref sig .tc := ⟨.hbm, 50, rfl⟩
abbrev main_call3_v0 : Ref sig .tc := ⟨.hbm, 51, rfl⟩
abbrev main_call3_v1 : Ref sig .tc := ⟨.hbm, 52, rfl⟩
abbrev main_v26 : Ref sig .tc := ⟨.hbm, 53, rfl⟩
abbrev main_v27 : Ref sig .tc := ⟨.hbm, 54, rfl⟩
abbrev main_cst : Ref sig .tc := ⟨.hbm, 55, rfl⟩
abbrev main_v28 : Ref sig .tc := ⟨.hbm, 56, rfl⟩
abbrev main_c_11 : Ref sig .tc := ⟨.hbm, 57, rfl⟩
abbrev main_v29 : Ref sig .tc := ⟨.hbm, 58, rfl⟩
abbrev main_v30 : Ref sig .tc := ⟨.hbm, 59, rfl⟩
abbrev main_cst_12 : Ref sig .tc := ⟨.hbm, 60, rfl⟩
abbrev main_v31 : Ref sig .tc := ⟨.hbm, 61, rfl⟩
abbrev main_c_13 : Ref sig .tc := ⟨.hbm, 62, rfl⟩
abbrev main_v32 : Ref sig .tc := ⟨.hbm, 63, rfl⟩
abbrev main_c_14 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_c_15 : Ref sig .tc := ⟨.hbm, 68, rfl⟩
abbrev main_v36 : Ref sig .tc := ⟨.hbm, 69, rfl⟩
abbrev main_c_16 : Ref sig .tc := ⟨.hbm, 70, rfl⟩
abbrev main_v37 : Ref sig .tc := ⟨.hbm, 71, rfl⟩
abbrev main_v38 : Ref sig .tc := ⟨.hbm, 72, rfl⟩
abbrev main_c_17 : Ref sig .tc := ⟨.hbm, 73, rfl⟩
abbrev main_v39 : Ref sig .tc := ⟨.hbm, 74, rfl⟩
abbrev main_c_18 : Ref sig .tc := ⟨.hbm, 75, rfl⟩
abbrev main_v40 : Ref sig .tc := ⟨.hbm, 76, rfl⟩
abbrev main_v41 : Ref sig .tc := ⟨.hbm, 77, rfl⟩
abbrev main_c_19 : Ref sig .tc := ⟨.hbm, 78, rfl⟩
abbrev main_v42 : Ref sig .tc := ⟨.hbm, 79, rfl⟩
abbrev main_c_20 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg7_1 : Ref sig .tc := ⟨.vmem, 21, rfl⟩
abbrev cc3_stg0_0 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg6_0 : Ref sig .tc := ⟨.vmem, 41, rfl⟩
abbrev cc5_stg7_0 : Ref sig .tc := ⟨.vmem, 42, rfl⟩
abbrev cc5_stg7_1 : Ref sig .tc := ⟨.vmem, 43, rfl⟩
abbrev cc6_stg0_0 : Ref sig .tc := ⟨.vmem, 44, rfl⟩
abbrev cc6_stg1_0 : Ref sig .tc := ⟨.vmem, 45, rfl⟩
abbrev cc6_stg1_1 : Ref sig .tc := ⟨.vmem, 46, rfl⟩
abbrev cc6_stg2_0 : Ref sig .tc := ⟨.vmem, 47, rfl⟩
abbrev cc6_stg2_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg1_1 : Ref sig .tc := ⟨.vmem, 57, rfl⟩
abbrev cc8_stg2_0 : Ref sig .tc := ⟨.vmem, 58, rfl⟩
abbrev cc8_stg2_1 : Ref sig .tc := ⟨.vmem, 59, rfl⟩
abbrev cc8_stg3_0 : Ref sig .tc := ⟨.vmem, 60, rfl⟩
abbrev cc8_stg4_0 : Ref sig .tc := ⟨.vmem, 61, rfl⟩
abbrev cc8_stg5_0 : Ref sig .tc := ⟨.vmem, 62, rfl⟩
abbrev cc8_stg6_0 : Ref sig .tc := ⟨.vmem, 63, rfl⟩
abbrev cc8_stg7_0 : Ref sig .tc := ⟨.vmem, 64, rfl⟩
abbrev cc8_stg7_1 : Ref sig .tc := ⟨.vmem, 65, rfl⟩
abbrev cc9_stg0_0 : Ref sig .tc := ⟨.vmem, 66, rfl⟩
abbrev cc9_stg0_1 : Ref sig .tc := ⟨.vmem, 67, rfl⟩
abbrev cc9_stg1_0 : Ref sig .tc := ⟨.vmem, 68, rfl⟩
abbrev cc9_stg1_1 : Ref sig .tc := ⟨.vmem, 69, rfl⟩
abbrev cc9_stg2_0 : Ref sig .tc := ⟨.vmem, 70, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem7_1 : DmaSem sig := 21
abbrev cc3_sem0_0 : DmaSem sig := 22
abbrev cc3_sem1_0 : DmaSem sig := 23
abbrev cc3_sem1_1 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc5_sem3_0 : DmaSem sig := 38
abbrev cc5_sem4_0 : DmaSem sig := 39
abbrev cc5_sem5_0 : DmaSem sig := 40
abbrev cc5_sem6_0 : DmaSem sig := 41
abbrev cc5_sem7_0 : DmaSem sig := 42
abbrev cc5_sem7_1 : DmaSem sig := 43
abbrev cc6_sem0_0 : DmaSem sig := 44
abbrev cc6_sem1_0 : DmaSem sig := 45
abbrev cc6_sem1_1 : DmaSem sig := 46
abbrev cc6_sem2_0 : DmaSem sig := 47
abbrev cc6_sem2_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc8_sem0_0 : DmaSem sig := 54
abbrev cc8_sem0_1 : DmaSem sig := 55
abbrev cc8_sem1_0 : DmaSem sig := 56
abbrev cc8_sem1_1 : DmaSem sig := 57
abbrev cc8_sem2_0 : DmaSem sig := 58
abbrev cc8_sem2_1 : DmaSem sig := 59
abbrev cc8_sem3_0 : DmaSem sig := 60
abbrev cc8_sem4_0 : DmaSem sig := 61
abbrev cc8_sem5_0 : DmaSem sig := 62
abbrev cc8_sem6_0 : DmaSem sig := 63
abbrev cc8_sem7_0 : DmaSem sig := 64
abbrev cc8_sem7_1 : DmaSem sig := 65
abbrev cc9_sem0_0 : DmaSem sig := 66
abbrev cc9_sem0_1 : DmaSem sig := 67
abbrev cc9_sem1_0 : DmaSem sig := 68
abbrev cc9_sem1_1 : DmaSem sig := 69
abbrev cc9_sem2_0 : DmaSem sig := 70

abbrev nD : Nat := 1
abbrev τ : Topo := Topo.v7x

variable {F : FTy → Type} [FloatOps F]

abbrev grid0 : Pipeline.Grid := ⟨1, ![391], ![false]⟩

@[reducible] def k0_t1_loop : Scf.Loop 32 :=
  let c0_i32 : BitVec 32 := 0#32
  let c25_i32 : BitVec 32 := 25#32
  let v4 : BitVec 32 := Scalar.addi c0_i32 c25_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c2048_i32 : BitVec 32 := 2048#32
  let v5 : BitVec 32 := Scalar.muli arg4 c2048_i32
  v5
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c2048_i32 : BitVec 32 := 2048#32
  let v5 : BitVec 32 := Scalar.muli arg4 c2048_i32
  let v6 : BitVec 32 := v5
  let v16 : Index := Scalar.indexCast v6
  let c0_3 : Index := 0#32
  ![v16.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S51200x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![391], ![false]⟩

@[reducible] def k1_t1_loop : Scf.Loop 32 :=
  let c0_i32_3 : BitVec 32 := 0#32
  let c25_i32 : BitVec 32 := 25#32
  let v8 : BitVec 32 := Scalar.addi c0_i32_3 c25_i32
  let c1_i32 : BitVec 32 := 1#32
  ⟨c0_i32_3, v8, c1_i32⟩
def k1_mult1 (k1_t1 : Fin k1_t1_loop.trips) : BitVec 32 :=
  let c0_i32_3 : BitVec 32 := 0#32
  let c1_i32 : BitVec 32 := 1#32
  let arg4 : BitVec 32 := Scf.iv c0_i32_3 c1_i32 k1_t1
  let c2048_i32 : BitVec 32 := 2048#32
  let v9 : BitVec 32 := Scalar.muli arg4 c2048_i32
  v9
def k1_off1 (k1_t1 : Fin k1_t1_loop.trips) : Fin 2 → Nat :=
  let c0_i32_3 : BitVec 32 := 0#32
  let c1_i32 : BitVec 32 := 1#32
  let arg4 : BitVec 32 := Scf.iv c0_i32_3 c1_i32 k1_t1
  let c2048_i32 : BitVec 32 := 2048#32
  let v9 : BitVec 32 := Scalar.muli arg4 c2048_i32
  let v10 : BitVec 32 := v9
  let v21 : Index := Scalar.indexCast v10
  let c0_5 : Index := 0#32
  ![v21.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S51200x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2048x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![391], ![false]⟩

@[reducible] def k3_t1_loop : Scf.Loop 32 :=
  let c0_i32 : BitVec 32 := 0#32
  let c25_i32 : BitVec 32 := 25#32
  let v4 : BitVec 32 := Scalar.addi c0_i32 c25_i32
  let c1_i32 : BitVec 32 := 1#32
  ⟨c0_i32, v4, c1_i32⟩
def k3_mult1 (k3_t1 : Fin k3_t1_loop.trips) : BitVec 32 :=
  let c0_i32 : BitVec 32 := 0#32
  let c1_i32 : BitVec 32 := 1#32
  let arg4 : BitVec 32 := Scf.iv c0_i32 c1_i32 k3_t1
  let c2048_i32 : BitVec 32 := 2048#32
  let v5 : BitVec 32 := Scalar.muli arg4 c2048_i32
  v5
def k3_off1 (k3_t1 : Fin k3_t1_loop.trips) : Fin 2 → Nat :=
  let c0_i32 : BitVec 32 := 0#32
  let c1_i32 : BitVec 32 := 1#32
  let arg4 : BitVec 32 := Scf.iv c0_i32 c1_i32 k3_t1
  let c2048_i32 : BitVec 32 := 2048#32
  let v5 : BitVec 32 := Scalar.muli arg4 c2048_i32
  let v6 : BitVec 32 := v5
  let v16 : Index := Scalar.indexCast v6
  let c0_3 : Index := 0#32
  ![v16.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 1 → Nat :=
  let arg0 : BitVec 32 := BitVec.ofNat 32 (i 0).val
  let c0_i32 : BitVec 32 := 0#32
  ![arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S51200x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S2048 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![391], ![false]⟩

@[reducible] def k4_t1_loop : Scf.Loop 32 :=
  let c0_i32_3 : BitVec 32 := 0#32
  let c25_i32 : BitVec 32 := 25#32
  let v8 : BitVec 32 := Scalar.addi c0_i32_3 c25_i32
  let c1_i32 : BitVec 32 := 1#32
  ⟨c0_i32_3, v8, c1_i32⟩
def k4_mult1 (k4_t1 : Fin k4_t1_loop.trips) : BitVec 32 :=
  let c0_i32_3 : BitVec 32 := 0#32
  let c1_i32 : BitVec 32 := 1#32
  let arg4 : BitVec 32 := Scf.iv c0_i32_3 c1_i32 k4_t1
  let c2048_i32 : BitVec 32 := 2048#32
  let v9 : BitVec 32 := Scalar.muli arg4 c2048_i32
  v9
def k4_off1 (k4_t1 : Fin k4_t1_loop.trips) : Fin 2 → Nat :=
  let c0_i32_3 : BitVec 32 := 0#32
  let c1_i32 : BitVec 32 := 1#32
  let arg4 : BitVec 32 := Scf.iv c0_i32_3 c1_i32 k4_t1
  let c2048_i32 : BitVec 32 := 2048#32
  let v9 : BitVec 32 := Scalar.muli arg4 c2048_i32
  let v10 : BitVec 32 := v9
  let v21 : Index := Scalar.indexCast v10
  let c0_5 : Index := 0#32
  ![v21.toNat, 0]
def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  ![arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S51200x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2048x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S2048x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![391], ![false]⟩

@[reducible] def k6_t1_loop : Scf.Loop 32 :=
  let c0_i32 : BitVec 32 := 0#32
  let c25_i32 : BitVec 32 := 25#32
  let v4 : BitVec 32 := Scalar.addi c0_i32 c25_i32
  let c1_i32 : BitVec 32 := 1#32
  ⟨c0_i32, v4, c1_i32⟩
def k6_mult1 (k6_t1 : Fin k6_t1_loop.trips) : BitVec 32 :=
  let c0_i32 : BitVec 32 := 0#32
  let c1_i32 : BitVec 32 := 1#32
  let arg4 : BitVec 32 := Scf.iv c0_i32 c1_i32 k6_t1
  let c2048_i32 : BitVec 32 := 2048#32
  let v5 : BitVec 32 := Scalar.muli arg4 c2048_i32
  v5
def k6_off1 (k6_t1 : Fin k6_t1_loop.trips) : Fin 2 → Nat :=
  let c0_i32 : BitVec 32 := 0#32
  let c1_i32 : BitVec 32 := 1#32
  let arg4 : BitVec 32 := Scf.iv c0_i32 c1_i32 k6_t1
  let c2048_i32 : BitVec 32 := 2048#32
  let v5 : BitVec 32 := Scalar.muli arg4 c2048_i32
  let v6 : BitVec 32 := v5
  let v16 : Index := Scalar.indexCast v6
  let c0_3 : Index := 0#32
  ![v16.toNat, 0]
def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 1 → Nat :=
  let arg0 : BitVec 32 := BitVec.ofNat 32 (i 0).val
  let c0_i32 : BitVec 32 := 0#32
  ![arg0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S51200x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 2 → Memref sig .tc .vmem S2048 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2048x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![391], ![false]⟩

@[reducible] def k7_t1_loop : Scf.Loop 32 :=
  let c0_i32_3 : BitVec 32 := 0#32
  let c25_i32 : BitVec 32 := 25#32
  let v8 : BitVec 32 := Scalar.addi c0_i32_3 c25_i32
  let c1_i32 : BitVec 32 := 1#32
  ⟨c0_i32_3, v8, c1_i32⟩
def k7_mult1 (k7_t1 : Fin k7_t1_loop.trips) : BitVec 32 :=
  let c0_i32_3 : BitVec 32 := 0#32
  let c1_i32 : BitVec 32 := 1#32
  let arg4 : BitVec 32 := Scf.iv c0_i32_3 c1_i32 k7_t1
  let c2048_i32 : BitVec 32 := 2048#32
  let v9 : BitVec 32 := Scalar.muli arg4 c2048_i32
  v9
def k7_off1 (k7_t1 : Fin k7_t1_loop.trips) : Fin 2 → Nat :=
  let c0_i32_3 : BitVec 32 := 0#32
  let c1_i32 : BitVec 32 := 1#32
  let arg4 : BitVec 32 := Scf.iv c0_i32_3 c1_i32 k7_t1
  let c2048_i32 : BitVec 32 := 2048#32
  let v9 : BitVec 32 := Scalar.muli arg4 c2048_i32
  let v10 : BitVec 32 := v9
  let v21 : Index := Scalar.indexCast v10
  let c0_5 : Index := 0#32
  ![v21.toNat, 0]
def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 1 → Nat :=
  let arg0 : BitVec 32 := BitVec.ofNat 32 (i 0).val
  let c0_i32 : BitVec 32 := 0#32
  ![arg0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2048x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2048 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S51200x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2048x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2048x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2048x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S2048x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 1 → Nat :=
  let arg0 : BitVec 32 := BitVec.ofNat 32 (i 0).val
  let c0_i32 : BitVec 32 := 0#32
  ![arg0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S2048x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2048 .i32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S64 : S_.BroadcastsInDim S64 (![] : Fin 0 → Fin S64.rank)
  bcast_S50000_S50000x1_0 : S50000.BroadcastsInDim S50000x1 (![0] : Fin 1 → Fin S50000x1.rank)
  bcast_S_S51200x128 : S_.BroadcastsInDim S51200x128 (![] : Fin 0 → Fin S51200x128.rank)
  bcast_S_S1 : S_.BroadcastsInDim S1 (![] : Fin 0 → Fin S1.rank)
  bcast_S_S51200x1 : S_.BroadcastsInDim S51200x1 (![] : Fin 0 → Fin S51200x1.rank)
  concatenates_S1_S1_S2_d0 : Shape.Concatenates [S1, S1] S2 0
  bcast_S_S51200 : S_.BroadcastsInDim S51200 (![] : Fin 0 → Fin S51200.rank)
  bcast_S_S800768 : S_.BroadcastsInDim S800768 (![] : Fin 0 → Fin S800768.rank)
  inb_S2048x128_S2048x128_0_0 : ∀ a, (![0, 0] : Fin 2 → Nat) a + S2048x128.size a ≤ S2048x128.size a
  h_S2048x128 : 0 < S2048x128.numel
  inb_S2048_S2048_0 : ∀ a, (![0] : Fin 1 → Nat) a + S2048.size a ≤ S2048.size a
  h_S2048 : 0 < S2048.numel
  shapeCasts_S2048_S2048 : S2048.ShapeCasts S2048
  iota_S2048x2048_d1_w32 : S2048x2048.Iotas .tc 32 [1]
  shapeCasts_S2048_S2048x1 : S2048.ShapeCasts S2048x1
  broadcasts_S2048x1_S2048x2048 : S2048x1.Broadcasts S2048x2048
  natLt_1_32 : 1 < 32
  bitsLt_bf16_f32 : FTy.bits .bf16 < FTy.bits .f32
  shapeCasts_S2048x128_S2048x128 : S2048x128.ShapeCasts S2048x128
  inb_S51200x128_S51200x128_0_0 : ∀ a, (![0, 0] : Fin 2 → Nat) a + S51200x128.size a ≤ S51200x128.size a
  h_S51200x128 : 0 < S51200x128.numel
  iota_S2048x2048_d0_w32 : S2048x2048.Iotas .tc 32 [0]
  shapeCasts_S2048_S1x2048 : S2048.ShapeCasts S1x2048
  broadcasts_S1x2048_S2048x2048 : S1x2048.Broadcasts S2048x2048
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  iota_S128x2048_d0_w32 : S128x2048.Iotas .tc 32 [0]
  broadcasts_S1x2048_S128x2048 : S1x2048.Broadcasts S128x2048
  slices_S128x128_S64x128_0_0 : S128x128.Slices ![0, 0] S64x128
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S50000_S800000x1_S800000_n_0_0_1_wf : ScatterDims.WF S50000 S800000x1 S800000 [] [0] [0] 1
  scatter_S64_S50000x1_S50000_n_0_0_1_wf : ScatterDims.WF S64 S50000x1 S50000 [] [0] [0] 1
  scatter_S51200x128_S1_S50000x128_01_n_0_0_wf : ScatterDims.WF S51200x128 S1 S50000x128 [0, 1] [] [0] 0
  scatter_S51200x1_S2_S50000_0_1_01_0_wf : ScatterDims.WF S51200x1 S2 S50000 [0] [1] [0, 1] 0
  scatter_S51200_S1_S50000_0_n_0_0_wf : ScatterDims.WF S51200 S1 S50000 [0] [] [0] 0
  scatter_S800768_S1_S800000_0_n_0_0_wf : ScatterDims.WF S800768 S1 S800000 [0] [] [0] 0
  dot_S2048x2048_S2048x128_S2048x128_1_0_0_1_n_n_wf : DotDims.WF S2048x2048 S2048x128 S2048x128 [1] [0] [0] [1] [] []
  dot_S2048x128_S128x128_S2048x128_1_0_0_1_n_n_wf : DotDims.WF S2048x128 S128x128 S2048x128 [1] [0] [0] [1] [] []
  dot_S128x2048_S2048x128_S128x128_1_0_0_1_n_n_wf : DotDims.WF S128x2048 S2048x128 S128x128 [1] [0] [0] [1] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S2048x128.size a ≤ S51200x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S51200x128.size a ≤ S51200x128.size a
  hwx0_0 : ∀ i : grid0.Coords, EltTy.bits .f32 = 32 ∨ (Rect.block (s := S51200x128) S51200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S800768.size a
  hwx0_1 : ∀ i : grid0.Coords, EltTy.bits .i32 = 32 ∨ (Rect.block (s := S800768) S2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S800768x128.size a
  hwx0_2 : ∀ i : grid0.Coords, EltTy.bits .f32 = 32 ∨ (Rect.block (s := S800768x128) S2048x128.size (cc0_transform_2 i) (hinb0_2 i)).WholeWords (EltTy.packing .f32)
  hrank1 : 0 < grid1.rank
  k1_t1_ok : k1_t1_loop.OK
  k1_mult1_dvd : ∀ k1_t1 : Fin k1_t1_loop.trips, 2048 ∣ (k1_mult1 k1_t1).toNat
  k1_off1_inb : ∀ k1_t1 : Fin k1_t1_loop.trips, ∀ a, (k1_off1 k1_t1) a + S2048x128.size a ≤ S51200x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S800768x128.size a
  hwx1_0 : ∀ i : grid1.Coords, EltTy.bits .f32 = 32 ∨ (Rect.block (s := S800768x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048.size a ≤ S800768.size a
  hwx1_1 : ∀ i : grid1.Coords, EltTy.bits .i32 = 32 ∨ (Rect.block (s := S800768) S2048.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S51200x128.size a ≤ S51200x128.size a
  hwx1_2 : ∀ i : grid1.Coords, EltTy.bits .f32 = 32 ∨ (Rect.block (s := S51200x128) S51200x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S51200x128.size a
  hwx2_0 : ∀ i : grid2.Coords, EltTy.bits .f32 = 32 ∨ (Rect.block (s := S51200x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S51200x128.size a
  hwx2_1 : ∀ i : grid2.Coords, EltTy.bits .f32 = 32 ∨ (Rect.block (s := S51200x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S51200x1.size a
  hwx2_2 : ∀ i : grid2.Coords, EltTy.bits .f32 = 32 ∨ (Rect.block (s := S51200x1) S2048x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2048x128.size a ≤ S51200x128.size a
  hwx2_7 : ∀ i : grid2.Coords, EltTy.bits .f32 = 32 ∨ (Rect.block (s := S51200x128) S2048x128.size (cc2_transform_7 i) (hinb2_7 i)).WholeWords (EltTy.packing .f32)
  hrank3 : 0 < grid3.rank
  k3_t1_ok : k3_t1_loop.OK
  k3_mult1_dvd : ∀ k3_t1 : Fin k3_t1_loop.trips, 2048 ∣ (k3_mult1 k3_t1).toNat
  k3_off1_inb : ∀ k3_t1 : Fin k3_t1_loop.trips, ∀ a, (k3_off1 k3_t1) a + S2048x128.size a ≤ S51200x128.size a
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S51200x128.size a ≤ S51200x128.size a
  hwx3_0 : ∀ i : grid3.Coords, EltTy.bits .f32 = 32 ∨ (Rect.block (s := S51200x128) S51200x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048.size a ≤ S800768.size a
  hwx3_1 : ∀ i : grid3.Coords, EltTy.bits .i32 = 32 ∨ (Rect.block (s := S800768) S2048.size (cc3_transform_1 i) (hinb3_1 i)).WholeWords (EltTy.packing .i32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x128.size a ≤ S800768x128.size a
  hwx3_2 : ∀ i : grid3.Coords, EltTy.bits .f32 = 32 ∨ (Rect.block (s := S800768x128) S2048x128.size (cc3_transform_2 i) (hinb3_2 i)).WholeWords (EltTy.packing .f32)
  hrank4 : 0 < grid4.rank
  k4_t1_ok : k4_t1_loop.OK
  k4_mult1_dvd : ∀ k4_t1 : Fin k4_t1_loop.trips, 2048 ∣ (k4_mult1 k4_t1).toNat
  k4_off1_inb : ∀ k4_t1 : Fin k4_t1_loop.trips, ∀ a, (k4_off1 k4_t1) a + S2048x128.size a ≤ S51200x128.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S800768x128.size a
  hwx4_0 : ∀ i : grid4.Coords, EltTy.bits .f32 = 32 ∨ (Rect.block (s := S800768x128) S2048x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048.size a ≤ S800768.size a
  hwx4_1 : ∀ i : grid4.Coords, EltTy.bits .i32 = 32 ∨ (Rect.block (s := S800768) S2048.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S51200x128.size a ≤ S51200x128.size a
  hwx4_2 : ∀ i : grid4.Coords, EltTy.bits .f32 = 32 ∨ (Rect.block (s := S51200x128) S51200x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x128.size a ≤ S51200x128.size a
  hwx5_0 : ∀ i : grid5.Coords, EltTy.bits .f32 = 32 ∨ (Rect.block (s := S51200x128) S2048x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x128.size a ≤ S51200x128.size a
  hwx5_1 : ∀ i : grid5.Coords, EltTy.bits .f32 = 32 ∨ (Rect.block (s := S51200x128) S2048x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x1.size a ≤ S51200x1.size a
  hwx5_2 : ∀ i : grid5.Coords, EltTy.bits .f32 = 32 ∨ (Rect.block (s := S51200x1) S2048x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2048x128.size a ≤ S51200x128.size a
  hwx5_7 : ∀ i : grid5.Coords, EltTy.bits .f32 = 32 ∨ (Rect.block (s := S51200x128) S2048x128.size (cc5_transform_7 i) (hinb5_7 i)).WholeWords (EltTy.packing .f32)
  hrank6 : 0 < grid6.rank
  k6_t1_ok : k6_t1_loop.OK
  k6_mult1_dvd : ∀ k6_t1 : Fin k6_t1_loop.trips, 2048 ∣ (k6_mult1 k6_t1).toNat
  k6_off1_inb : ∀ k6_t1 : Fin k6_t1_loop.trips, ∀ a, (k6_off1 k6_t1) a + S2048x128.size a ≤ S51200x128.size a
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S51200x128.size a ≤ S51200x128.size a
  hwx6_0 : ∀ i : grid6.Coords, EltTy.bits .f32 = 32 ∨ (Rect.block (s := S51200x128) S51200x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2048.size a ≤ S800768.size a
  hwx6_1 : ∀ i : grid6.Coords, EltTy.bits .i32 = 32 ∨ (Rect.block (s := S800768) S2048.size (cc6_transform_1 i) (hinb6_1 i)).WholeWords (EltTy.packing .i32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2048x128.size a ≤ S800768x128.size a
  hwx6_2 : ∀ i : grid6.Coords, EltTy.bits .f32 = 32 ∨ (Rect.block (s := S800768x128) S2048x128.size (cc6_transform_2 i) (hinb6_2 i)).WholeWords (EltTy.packing .f32)
  hrank7 : 0 < grid7.rank
  k7_t1_ok : k7_t1_loop.OK
  k7_mult1_dvd : ∀ k7_t1 : Fin k7_t1_loop.trips, 2048 ∣ (k7_mult1 k7_t1).toNat
  k7_off1_inb : ∀ k7_t1 : Fin k7_t1_loop.trips, ∀ a, (k7_off1 k7_t1) a + S2048x128.size a ≤ S51200x128.size a
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x128.size a ≤ S800768x128.size a
  hwx7_0 : ∀ i : grid7.Coords, EltTy.bits .f32 = 32 ∨ (Rect.block (s := S800768x128) S2048x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2048.size a ≤ S800768.size a
  hwx7_1 : ∀ i : grid7.Coords, EltTy.bits .i32 = 32 ∨ (Rect.block (s := S800768) S2048.size (cc7_transform_1 i) (hinb7_1 i)).WholeWords (EltTy.packing .i32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S51200x128.size a ≤ S51200x128.size a
  hwx7_2 : ∀ i : grid7.Coords, EltTy.bits .f32 = 32 ∨ (Rect.block (s := S51200x128) S51200x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2048x128.size a ≤ S51200x128.size a
  hwx8_0 : ∀ i : grid8.Coords, EltTy.bits .f32 = 32 ∨ (Rect.block (s := S51200x128) S2048x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2048x128.size a ≤ S51200x128.size a
  hwx8_1 : ∀ i : grid8.Coords, EltTy.bits .f32 = 32 ∨ (Rect.block (s := S51200x128) S2048x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2048x1.size a ≤ S51200x1.size a
  hwx8_2 : ∀ i : grid8.Coords, EltTy.bits .f32 = 32 ∨ (Rect.block (s := S51200x1) S2048x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x128.size a ≤ S128x128.size a
  hwx8_5 : ∀ i : grid8.Coords, EltTy.bits .f32 = 32 ∨ (Rect.block (s := S128x128) S128x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S2048x128.size a ≤ S51200x128.size a
  hwx8_7 : ∀ i : grid8.Coords, EltTy.bits .f32 = 32 ∨ (Rect.block (s := S51200x128) S2048x128.size (cc8_transform_7 i) (hinb8_7 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2048x128.size a ≤ S51200x128.size a
  hwx9_0 : ∀ i : grid9.Coords, EltTy.bits .f32 = 32 ∨ (Rect.block (s := S51200x128) S2048x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2048.size a ≤ S51200.size a
  hwx9_1 : ∀ i : grid9.Coords, EltTy.bits .i32 = 32 ∨ (Rect.block (s := S51200) S2048.size (cc9_transform_1 i) (hinb9_1 i)).WholeWords (EltTy.packing .i32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S51200x128_S1_S50000x128_01_n_0_0 : ScatterDims S51200x128 S1 S50000x128 where
  updateWindowDims := [0, 1]
  insertedWindowDims := []
  scatterDimsToOperandDims := [0]
  indexVectorDim := 0
  wf := scatter_S51200x128_S1_S50000x128_01_n_0_0_wf
def scatter_S51200x1_S2_S50000_0_1_01_0 : ScatterDims S51200x1 S2 S50000 where
  updateWindowDims := [0]
  insertedWindowDims := [1]
  scatterDimsToOperandDims := [0, 1]
  indexVectorDim := 0
  wf := scatter_S51200x1_S2_S50000_0_1_01_0_wf
def scatter_S51200_S1_S50000_0_n_0_0 : ScatterDims S51200 S1 S50000 where
  updateWindowDims := [0]
  insertedWindowDims := []
  scatterDimsToOperandDims := [0]
  indexVectorDim := 0
  wf := scatter_S51200_S1_S50000_0_n_0_0_wf
def scatter_S800768_S1_S800000_0_n_0_0 : ScatterDims S800768 S1 S800000 where
  updateWindowDims := [0]
  insertedWindowDims := []
  scatterDimsToOperandDims := [0]
  indexVectorDim := 0
  wf := scatter_S800768_S1_S800000_0_n_0_0_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S128x2048_S2048x128_S128x128_1_0_0_1_n_n : DotDims S128x2048 S2048x128 S128x128 where
  lhsContracting := [1]
  rhsContracting := [0]
  lhsNonContracting := [0]
  rhsNonContracting := [1]
  lhsBatch := []
  rhsBatch := []
  wf := dot_S128x2048_S2048x128_S128x128_1_0_0_1_n_n_wf

abbrev win0_0 : Pipeline.Window sig grid0 :=
  Pipeline.Window.ofSpec (Memref.whole main_v30) S51200x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v41) S2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S51200x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v30) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v48) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v56) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v57) S2048x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v57) S51200x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v41) S2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S2048x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S2048x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v44) S2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v59) S51200x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v57) S2048x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v59) S2048x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v35) S2048x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v61) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v64) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v66) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v69) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v70) S2048x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v70) S51200x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v41) S2048.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v71) S2048x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v71) S2048x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v44) S2048.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v72) S51200x128.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v70) S2048x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v72) S2048x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v35) S2048x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v74) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v77) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v79) S128x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v82) S1x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v83) S2048x128.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_v83) S2048x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v38) S2048.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v84) S128x128.size cc9_transform_2 reads9_2 true true 1 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S50000x128 : Shape := ⟨2, ![50000, 128]⟩
abbrev S3x128x128 : Shape := ⟨3, ![3, 128, 128]⟩
abbrev S3x128 : Shape := ⟨2, ![3, 128]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S64x128 : Shape := ⟨2, ![64, 128]⟩
abbrev S64 : Shape := ⟨1, ![64]⟩
abbrev S64x1 : Shape := ⟨2, ![64, 1]⟩

abbrev nBuf : Space → Nat
  | .hbm => 168
  | .vmem => 0
  | .smem => 0
  | _ => 0

abbrev hbmTy0_0 (i : Nat) : BufTy := match i % 128 with
  | 0 => ⟨S50000x128, .f32⟩
  | 1 => ⟨S3x128x128, .f32⟩
  | 2 => ⟨S3x128, .f32⟩
  | 3 => ⟨S3x128x128, .f32⟩
  | 4 => ⟨S3x128, .f32⟩
  | 5 => ⟨S2x800000, .i32⟩
  | 6 => ⟨S50000, .i32⟩
  | 7 => ⟨S1x800000, .i32⟩
  | 8 => ⟨S800000, .i32⟩
  | 9 => ⟨S1x800000, .i32⟩
  | 10 => ⟨S800000, .i32⟩
  | 11 => ⟨S_, .i32⟩
  | 12 => ⟨S50000, .i32⟩
  | 13 => ⟨S_, .i32⟩
  | 14 => ⟨S_, .i32⟩
  | 15 => ⟨S800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S_, .i32⟩
  | 26 => ⟨S800000, .i32⟩
  | 27 => ⟨S50000, .i32⟩
  | 28 => ⟨S_, .i32⟩
  | 29 => ⟨S_, .i32⟩
  | 30 => ⟨S50000, .i32⟩
  | 31 => ⟨S50000, .i32⟩
  | 32 => ⟨S50000, .f32⟩
  | 33 => ⟨S50000x1, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x128, .f32⟩
  | 43 => ⟨S_, .f32⟩
  | 44 => ⟨S50000x128, .f32⟩
  | 45 => ⟨S800000x1, .i32⟩
  | 46 => ⟨S50000x128, .f32⟩
  | 47 => ⟨S50000x128, .f32⟩
  | 48 => ⟨S50000x128, .f32⟩
  | 49 => ⟨S1x128x128, .f32⟩
  | 50 => ⟨S128x128, .f32⟩
  | 51 => ⟨S50000x128, .f32⟩
  | 52 => ⟨S1x128, .f32⟩
  | 53 => ⟨S128, .f32⟩
  | 54 => ⟨S1x128, .f32⟩
  | 55 => ⟨S50000x128, .f32⟩
  | 56 => ⟨S50000x128, .f32⟩
  | 57 => ⟨S1x128x128, .f32⟩
  | 58 => ⟨S128x128, .f32⟩
  | 59 => ⟨S50000x128, .f32⟩
  | 60 => ⟨S50000x128, .f32⟩
  | 61 => ⟨S1x128, .f32⟩
  | 62 => ⟨S128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x128, .f32⟩
  | 78 => ⟨S_, .f32⟩
  | 79 => ⟨S50000x128, .f32⟩
  | 80 => ⟨S800000x1, .i32⟩
  | 81 => ⟨S50000x128, .f32⟩
  | 82 => ⟨S50000x128, .f32⟩
  | 83 => ⟨S50000x128, .f32⟩
  | 84 => ⟨S1x128x128, .f32⟩
  | 85 => ⟨S128x128, .f32⟩
  | 86 => ⟨S50000x128, .f32⟩
  | 87 => ⟨S1x128, .f32⟩
  | 88 => ⟨S128, .f32⟩
  | 89 => ⟨S1x128, .f32⟩
  | 90 => ⟨S50000x128, .f32⟩
  | 91 => ⟨S50000x128, .f32⟩
  | 92 => ⟨S1x128x128, .f32⟩
  | 93 => ⟨S128x128, .f32⟩
  | 94 => ⟨S50000x128, .f32⟩
  | 95 => ⟨S50000x128, .f32⟩
  | 96 => ⟨S1x128, .f32⟩
  | 97 => ⟨S128, .f32⟩
  | 98 => ⟨S1x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x128, .f32⟩
  | 113 => ⟨S_, .f32⟩
  | 114 => ⟨S50000x128, .f32⟩
  | 115 => ⟨S800000x1, .i32⟩
  | 116 => ⟨S50000x128, .f32⟩
  | 117 => ⟨S50000x128, .f32⟩
  | 118 => ⟨S50000x128, .f32⟩
  | 119 => ⟨S1x128x128, .f32⟩
  | 120 => ⟨S128x128, .f32⟩
  | 121 => ⟨S50000x128, .f32⟩
  | 122 => ⟨S1x128, .f32⟩
  | 123 => ⟨S128, .f32⟩
  | 124 => ⟨S1x128, .f32⟩
  | 125 => ⟨S50000x128, .f32⟩
  | 126 => ⟨S50000x128, .f32⟩
  | 127 => ⟨S1x128x128, .f32⟩
  | _ => ⟨S50000x128, .f32⟩

abbrev hbmTy0_1 (i : Nat) : BufTy := match i % 128 with
  | 0 => ⟨S128x128, .f32⟩
  | 1 => ⟨S50000x128, .f32⟩
  | 2 => ⟨S50000x128, .f32⟩
  | 3 => ⟨S1x128, .f32⟩
  | 4 => ⟨S128, .f32⟩
  | 5 => ⟨S1x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S_, .f32⟩
  | 12 => ⟨S64x128, .f32⟩
  | 13 => ⟨S50000x1, .i32⟩
  | 14 => ⟨S64x128, .f32⟩
  | 15 => ⟨S_, .i32⟩
  | 16 => ⟨S64, .i32⟩
  | 17 => ⟨S_, .i32⟩
  | 18 => ⟨S_, .i32⟩
  | 19 => ⟨S50000, .i32⟩
  | 20 => ⟨S50000, .i32⟩
  | 21 => ⟨S_, .i32⟩
  | 22 => ⟨S50000, .i32⟩
  | 23 => ⟨S50000, .i1⟩
  | 24 => ⟨S_, .i32⟩
  | 25 => ⟨S50000, .i32⟩
  | 26 => ⟨S50000, .i32⟩
  | 27 => ⟨S50000, .i32⟩
  | 28 => ⟨S50000x1, .i32⟩
  | 29 => ⟨S_, .i32⟩
  | 30 => ⟨S50000, .i32⟩
  | 31 => ⟨S64, .i32⟩
  | 32 => ⟨S_, .i32⟩
  | 33 => ⟨S_, .i32⟩
  | 34 => ⟨S64, .i32⟩
  | 35 => ⟨S64, .i32⟩
  | 36 => ⟨S64, .f32⟩
  | 37 => ⟨S64x1, .f32⟩
  | 38 => ⟨S64x128, .f32⟩
  | 39 => ⟨S64x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_c_4 : Ref sig .tc := ⟨.hbm, 28, rfl⟩
abbrev main_call1_v0 : Ref sig .tc := ⟨.hbm, 29, rfl⟩
abbrev main_call1_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_c_6 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call2_cst : Ref sig .tc := ⟨.hbm, 66, rfl⟩
abbrev main_call2_v0 : Ref sig .tc := ⟨.hbm, 67, rfl⟩
abbrev main_v46 : Ref sig .tc := ⟨.hbm, 68, rfl⟩
abbrev main_c_7 : Ref sig .tc := ⟨.hbm, 69, rfl⟩
abbrev main_v47 : Ref sig .tc := ⟨.hbm, 70, rfl⟩
abbrev main_v48 : Ref sig .tc := ⟨.hbm, 71, rfl⟩
abbrev main_c_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_call3_cst : Ref sig .tc := ⟨.hbm, 101, rfl⟩
abbrev main_call3_v0 : Ref sig .tc := ⟨.hbm, 102, rfl⟩
abbrev main_v76 : Ref sig .tc := ⟨.hbm, 103, rfl⟩
abbrev main_c_10 : Ref sig .tc := ⟨.hbm, 104, rfl⟩
abbrev main_v77 : Ref sig .tc := ⟨.hbm, 105, rfl⟩
abbrev main_v78 : Ref sig .tc := ⟨.hbm, 106, rfl⟩
abbrev main_c_11 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_12 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_call4_cst : Ref sig .tc := ⟨.hbm, 136, rfl⟩
abbrev main_call4_v0 : Ref sig .tc := ⟨.hbm, 137, rfl⟩
abbrev main_v106 : Ref sig .tc := ⟨.hbm, 138, rfl⟩
abbrev main_cst_13 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_c_14 : Ref sig .tc := ⟨.hbm, 143, rfl⟩
abbrev main_v110 : Ref sig .tc := ⟨.hbm, 144, rfl⟩
abbrev main_c_15 : Ref sig .tc := ⟨.hbm, 145, rfl⟩
abbrev main_call5_v0 : Ref sig .tc := ⟨.hbm, 146, rfl⟩
abbrev main_call5_v1 : Ref sig .tc := ⟨.hbm, 147, rfl⟩
abbrev main_v111 : Ref sig .tc := ⟨.hbm, 148, rfl⟩
abbrev main_c_16 : Ref sig .tc := ⟨.hbm, 149, rfl⟩
abbrev main_v112 : Ref sig .tc := ⟨.hbm, 150, rfl⟩
abbrev main_v113 : Ref sig .tc := ⟨.hbm, 151, rfl⟩
abbrev main_c_17 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_c_18 : Ref sig .tc := ⟨.hbm, 157, rfl⟩
abbrev main_v118 : Ref sig .tc := ⟨.hbm, 158, rfl⟩
abbrev main_v119 : Ref sig .tc := ⟨.hbm, 159, rfl⟩
abbrev main_c_19 : Ref sig .tc := ⟨.hbm, 160, rfl⟩
abbrev main_call6_v0 : Ref sig .tc := ⟨.hbm, 161, rfl⟩
abbrev main_call6_v1 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.RefStages.lean ====
import proofs.«416123_j75222057222468_1_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_v0 (x5 : (⟨S2x800000, .i32⟩ : BufTy).Contents (Elt F)) : (⟨S1x800000, .i32⟩ : BufTy).Contents (Elt F) :=
  extractStridedSlice S1x800000 ![0, 0] (x5) slices_S2x800000_S1x800000_0_0

def val_main_v1 (x5 : (⟨S2x800000, .i32⟩ : BufTy).Contents (Elt F)) : (⟨S800000, .i32⟩ : BufTy).Contents (Elt F) :=
  shapeCast _ (val_main_v0 (F := F) x5) shapeCasts_S1x800000_S800000

def val_main_v2 (x5 : (⟨S2x800000, .i32⟩ : BufTy).Contents (Elt F)) : (⟨S1x800000, .i32⟩ : BufTy).Contents (Elt F) :=
  extractStridedSlice S1x800000 ![1, 0] (x5) slices_S2x800000_S1x800000_1_0

def val_main_v3 (x5 : (⟨S2x800000, .i32⟩ : BufTy).Contents (Elt F)) : (⟨S800000, .i32⟩ : BufTy).Contents (Elt F) :=
  shapeCast _ (val_main_v2 (F := F) x5) shapeCasts_S1x800000_S800000

def val_main_c : (⟨S_, .i32⟩ : BufTy).Contents (Elt F) :=
  constantI S_ 32 0#32

def val_main_v4 : (⟨S50000, .i32⟩ : BufTy).Contents (Elt F) :=
  broadcastInDim S50000 ![] bcast_S_S50000 (val_main_c (F := F))

def val_main_c_0 : (⟨S_, .i32⟩ : BufTy).Contents (Elt F) :=
  constantI S_ 32 0#32

def val_main_call0_v0 : (⟨S_, .i32⟩ : BufTy).Contents (Elt F) :=
  id (val_main_c_0 (F := F))

def val_main_call0_v1 : (⟨S800000, .i32⟩ : BufTy).Contents (Elt F) :=
  broadcastInDim S800000 ![] bcast_S_S800000 (val_main_call0_v0 (F := F))

def val_main_v5 (x5 : (⟨S2x800000, .i32⟩ : BufTy).Contents (Elt F)) : (⟨S800000, .i32⟩ : BufTy).Contents (Elt F) :=
  maxsi (val_main_call0_v1 (F := F)) (val_main_v3 (F := F) x5)

def val_main_c_1 : (⟨S_, .i32⟩ : BufTy).Contents (Elt F) :=
  constantI S_ 32 0#32

def val_main_v6 : (⟨S800000, .i32⟩ : BufTy).Contents (Elt F) :=
  broadcastInDim S800000 ![] bcast_S_S800000 (val_main_c_1 (F := F))

def val_main_v7 (x5 : (⟨S2x800000, .i32⟩ : BufTy).Contents (Elt F)) : (⟨S800000, .i1⟩ : BufTy).Contents (Elt F) :=
  cmpi .slt (val_main_v5 (F := F) x5) (val_main_v6 (F := F))

def val_main_c_2 : (⟨S_, .i32⟩ : BufTy).Contents (Elt F) :=
  constantI S_ 32 50000#32

def val_main_v8 : (⟨S800000, .i32⟩ : BufTy).Contents (Elt F) :=
  broadcastInDim S800000 ![] bcast_S_S800000 (val_main_c_2 (F := F))

def val_main_v9 (x5 : (⟨S2x800000, .i32⟩ : BufTy).Contents (Elt F)) : (⟨S800000, .i32⟩ : BufTy).Contents (Elt F) :=
  addi (val_main_v5 (F := F) x5) (val_main_v8 (F := F))

def val_main_v10 (x5 : (⟨S2x800000, .i32⟩ : BufTy).Contents (Elt F)) : (⟨S800000, .i32⟩ : BufTy).Contents (Elt F) :=
  select (val_main_v7 (F := F) x5) (val_main_v9 (F := F) x5) (val_main_v5 (F := F) x5)

def val_main_v11 (x5 : (⟨S2x800000, .i32⟩ : BufTy).Contents (Elt F)) : (⟨S800000x1, .i32⟩ : BufTy).Contents (Elt F) :=
  broadcastInDim S800000x1 ![0] bcast_S800000_S800000x1_0 (val_main_v10 (F := F) x5)

def val_main_c_3 : (⟨S_, .i32⟩ : BufTy).Contents (Elt F) :=
  constantI S_ 32 1#32

def val_main_v12 : (⟨S800000, .i32⟩ : BufTy).Contents (Elt F) :=
  broadcastInDim S800000 ![] bcast_S_S800000 (val_main_c_3 (F := F))

def val_main_v13 (x5 : (⟨S2x800000, .i32⟩ : BufTy).Contents (Elt F)) : (⟨S50000, .i32⟩ : BufTy).Contents (Elt F) :=
  Host.scatter scatter_S50000_S800000x1_S800000_n_0_0_1 IntOp.addi (val_main_v4 (F := F)) (val_main_v11 (F := F) x5) (val_main_v12 (F := F))

def val_main_c_4 : (⟨S_, .i32⟩ : BufTy).Contents (Elt F) :=
  constantI S_ 32 1#32

def val_main_call1_v0 : (⟨S_, .i32⟩ : BufTy).Contents (Elt F) :=
  id (val_main_c_4 (F := F))

def val_main_call1_v1 : (⟨S50000, .i32⟩ : BufTy).Contents (Elt F) :=
  broadcastInDim S50000 ![] bcast_S_S50000 (val_main_call1_v0 (F := F))

def val_main_v14 (x5 : (⟨S2x800000, .i32⟩ : BufTy).Contents (Elt F)) : (⟨S50000, .i32⟩ : BufTy).Contents (Elt F) :=
  maxsi (val_main_call1_v1 (F := F)) (val_main_v13 (F := F) x5)

def val_main_v15 (x5 : (⟨S2x800000, .i32⟩ : BufTy).Contents (Elt F)) : (⟨S50000, .f32⟩ : BufTy).Contents (Elt F) :=
  sitofp .f32 (val_main_v14 (F := F) x5)

def val_main_v16 (x5 : (⟨S2x800000, .i32⟩ : BufTy).Contents (Elt F)) : (⟨S50000x1, .f32⟩ : BufTy).Contents (Elt F) :=
  broadcastInDim S50000x1 ![0] bcast_S50000_S50000x1_0 (val_main_v15 (F := F) x5)

def val_main_c_5 : (⟨S_, .i32⟩ : BufTy).Contents (Elt F) :=
  constantI S_ 32 0#32

def val_main_v17 : (⟨S800000, .i32⟩ : BufTy).Contents (Elt F) :=
  broadcastInDim S800000 ![] bcast_S_S800000 (val_main_c_5 (F := F))

def val_main_v18 (x5 : (⟨S2x800000, .i32⟩ : BufTy).Contents (Elt F)) : (⟨S800000, .i1⟩ : BufTy).Contents (Elt F) :=
  cmpi .slt (val_main_v1 (F := F) x5) (val_main_v17 (F := F))

def val_main_c_6 : (⟨S_, .i32⟩ : BufTy).Contents (Elt F) :=
  constantI S_ 32 50000#32

def val_main_v19 : (⟨S800000, .i32⟩ : BufTy).Contents (Elt F) :=
  broadcastInDim S800000 ![] bcast_S_S800000 (val_main_c_6 (F := F))

def val_main_v20 (x5 : (⟨S2x800000, .i32⟩ : BufTy).Contents (Elt F)) : (⟨S800000, .i32⟩ : BufTy).Contents (Elt F) :=
  addi (val_main_v1 (F := F) x5) (val_main_v19 (F := F))

def val_main_v21 (x5 : (⟨S2x800000, .i32⟩ : BufTy).Contents (Elt F)) : (⟨S800000, .i32⟩ : BufTy).Contents (Elt F) :=
  select (val_main_v18 (F := F) x5) (val_main_v20 (F := F) x5) (val_main_v1 (F := F) x5)

def val_main_v22 (x5 : (⟨S2x800000, .i32⟩ : BufTy).Contents (Elt F)) : (⟨S800000x1, .i32⟩ : BufTy).Contents (Elt F) :=
  broadcastInDim S800000x1 ![0] bcast_S800000_S800000x1_0 (val_main_v21 (F := F) x5)

def val_main_v23 (x0 : (⟨S50000x128, .f32⟩ : BufTy).Contents (Elt F)) (x5 : (⟨S2x800000, .i32⟩ : BufTy).Contents (Elt F)) : (⟨S800000x128, .f32⟩ : BufTy).Contents (Elt F) :=
  Host.gather gather_S50000x128_S800000x1_S800000x128_1_0_n_n_0_1_1128 (x0) (val_main_v22 (F := F) x5)

def val_main_cst : (⟨S_, .f32⟩ : BufTy).Contents (Elt F) :=
  constant S_ .f32 0x00000000#32

def val_main_v24 : (⟨S50000x128, .f32⟩ : BufTy).Contents (Elt F) :=
  broadcastInDim S50000x128 ![] bcast_S_S50000x128 (val_main_cst (F := F))

def val_main_v25 (x5 : (⟨S2x800000, .i32⟩ : BufTy).Contents (Elt F)) : (⟨S800000x1, .i32⟩ : BufTy).Contents (Elt F) :=
  broadcastInDim S800000x1 ![0] bcast_S800000_S800000x1_0 (val_main_v3 (F := F) x5)

def val_main_v26 (x0 : (⟨S50000x128, .f32⟩ : BufTy).Contents (Elt F)) (x5 : (⟨S2x800000, .i32⟩ : BufTy).Contents (Elt F)) : (⟨S50000x128, .f32⟩ : BufTy).Contents (Elt F) :=
  Host.scatterAdd scatter_S50000x128_S800000x1_S800000x128_1_0_0_1 (val_main_v24 (F := F)) (val_main_v25 (F := F) x5) (val_main_v23 (F := F) x0 x5)

def val_main_v27 (x5 : (⟨S2x800000, .i32⟩ : BufTy).Contents (Elt F)) : (⟨S50000x128, .f32⟩ : BufTy).Contents (Elt F) :=
  broadcastInDim S50000x128 ![0, 1] bcast_S50000x1_S50000x128_0_1 (val_main_v16 (F := F) x5)

def val_main_v28 (x0 : (⟨S50000x128, .f32⟩ : BufTy).Contents (Elt F)) (x5 : (⟨S2x800000, .i32⟩ : BufTy).Contents (Elt F)) : (⟨S50000x128, .f32⟩ : BufTy).Contents (Elt F) :=
  Host.divf (val_main_v26 (F := F) x0 x5) (val_main_v27 (F := F) x5)

def val_main_v29 (x1 : (⟨S3x128x128, .f32⟩ : BufTy).Contents (Elt F)) : (⟨S1x128x128, .f32⟩ : BufTy).Contents (Elt F) :=
  extractStridedSlice S1x128x128 ![0, 0, 0] (x1) slices_S3x128x128_S1x128x128_0_0_0

def val_main_v30 (x1 : (⟨S3x128x128, .f32⟩ : BufTy).Contents (Elt F)) : (⟨S128x128, .f32⟩ : BufTy).Contents (Elt F) :=
  shapeCast _ (val_main_v29 (F := F) x1) shapeCasts_S1x128x128_S128x128

def val_main_v31 (x0 : (⟨S50000x128, .f32⟩ : BufTy).Contents (Elt F)) (x1 : (⟨S3x128x128, .f32⟩ : BufTy).Contents (Elt F)) : (⟨S50000x128, .f32⟩ : BufTy).Contents (Elt F) :=
  Host.dotGeneral dot_S50000x128_S128x128_S50000x128_1_0_0_1_n_n none (x0) (val_main_v30 (F := F) x1)

def val_main_v32 (x2 : (⟨S3x128, .f32⟩ : BufTy).Contents (Elt F)) : (⟨S1x128, .f32⟩ : BufTy).Contents (Elt F) :=
  extractStridedSlice S1x128 ![0, 0] (x2) slices_S3x128_S1x128_0_0

def val_main_v33 (x2 : (⟨S3x128, .f32⟩ : BufTy).Contents (Elt F)) : (⟨S128, .f32⟩ : BufTy).Contents (Elt F) :=
  shapeCast _ (val_main_v32 (F := F) x2) shapeCasts_S1x128_S128

def val_main_v34 (x2 : (⟨S3x128, .f32⟩ : BufTy).Contents (Elt F)) : (⟨S1x128, .f32⟩ : BufTy).Contents (Elt F) :=
  broadcastInDim S1x128 ![1] bcast_S128_S1x128_1 (val_main_v33 (F := F) x2)

def val_main_v35 (x2 : (⟨S3x128, .f32⟩ : BufTy).Contents (Elt F)) : (⟨S50000x128, .f32⟩ : BufTy).Contents (Elt F) :=
  broadcastInDim S50000x128 ![0, 1] bcast_S1x128_S50000x128_0_1 (val_main_v34 (F := F) x2)

def val_main_v36 (x0 : (⟨S50000x128, .f32⟩ : BufTy).Contents (Elt F)) (x1 : (⟨S3x128x128, .f32⟩ : BufTy).Contents (Elt F)) (x2 : (⟨S3x128, .f32⟩ : BufTy).Contents (Elt F)) : (⟨S50000x128, .f32⟩ : BufTy).Contents (Elt F) :=
  addf (val_main_v31 (F := F) x0 x1) (val_main_v35 (F := F) x2)

def val_main_v37 (x3 : (⟨S3x128x128, .f32⟩ : BufTy).Contents (Elt F)) : (⟨S1x128x128, .f32⟩ : BufTy).Contents (Elt F) :=
  extractStridedSlice S1x128x128 ![0, 0, 0] (x3) slices_S3x128x128_S1x128x128_0_0_0

def val_main_v38 (x3 : (⟨S3x128x128, .f32⟩ : BufTy).Contents (Elt F)) : (⟨S128x128, .f32⟩ : BufTy).Contents (Elt F) :=
  shapeCast _ (val_main_v37 (F := F) x3) shapeCasts_S1x128x128_S128x128

def val_main_v39 (x0 : (⟨S50000x128, .f32⟩ : BufTy).Contents (Elt F)) (x3 : (⟨S3x128x128, .f32⟩ : BufTy).Contents (Elt F)) (x5 : (⟨S2x800000, .i32⟩ : BufTy).Contents (Elt F)) : (⟨S50000x128, .f32⟩ : BufTy).Contents (Elt F) :=
  Host.dotGeneral dot_S50000x128_S128x128_S50000x128_1_0_0_1_n_n none (val_main_v28 (F := F) x0 x5) (val_main_v38 (F := F) x3)

def val_main_v40 (x0 : (⟨S50000x128, .f32⟩ : BufTy).Contents (Elt F)) (x1 : (⟨S3x128x128, .f32⟩ : BufTy).Contents (Elt F)) (x2 : (⟨S3x128, .f32⟩ : BufTy).Contents (Elt F)) (x3 : (⟨S3x128x128, .f32⟩ : BufTy).Contents (Elt F)) (x5 : (⟨S2x800000, .i32⟩ : BufTy).Contents (Elt F)) : (⟨S50000x128, .f32⟩ : BufTy).Contents (Elt F) :=
  addf (val_main_v36 (F := F) x0 x1 x2) (val_main_v39 (F := F) x0 x3 x5)

def val_main_v41 (x4 : (⟨S3x128, .f32⟩ : BufTy).Contents (Elt F)) : (⟨S1x128, .f32⟩ : BufTy).Contents (Elt F) :=
  extractStridedSlice S1x128 ![0, 0] (x4) slices_S3x128_S1x128_0_0

def val_main_v42 (x4 : (⟨S3x128, .f32⟩ : BufTy).Contents (Elt F)) : (⟨S128, .f32⟩ : BufTy).Contents (Elt F) :=
  shapeCast _ (val_main_v41 (F := F) x4) shapeCasts_S1x128_S128

def val_main_v43 (x4 : (⟨S3x128, .f32⟩ : BufTy).Contents (Elt F)) : (⟨S1x128, .f32⟩ : BufTy).Contents (Elt F) :=
  broadcastInDim S1x128 ![1] bcast_S128_S1x128_1 (val_main_v42 (F := F) x4)

def val_main_v44 (x4 : (⟨S3x128, .f32⟩ : BufTy).Contents (Elt F)) : (⟨S50000x128, .f32⟩ : BufTy).Contents (Elt F) :=
  broadcastInDim S50000x128 ![0, 1] bcast_S1x128_S50000x128_0_1 (val_main_v43 (F := F) x4)

def val_main_v45 (x0 : (⟨S50000x128, .f32⟩ : BufTy).Contents (Elt F)) (x1 : (⟨S3x128x128, .f32⟩ : BufTy).Contents (Elt F)) (x2 : (⟨S3x128, .f32⟩ : BufTy).Contents (Elt F)) (x3 : (⟨S3x128x128, .f32⟩ : BufTy).Contents (Elt F)) (x4 : (⟨S3x128, .f32⟩ : BufTy).Contents (Elt F)) (x5 : (⟨S2x800000, .i32⟩ : BufTy).Contents (Elt F)) : (⟨S50000x128, .f32⟩ : BufTy).Contents (Elt F) :=
  addf (val_main_v40 (F := F) x0 x1 x2 x3 x5) (val_main_v44 (F := F) x4)

def val_main_call2_cst : (⟨S_, .f32⟩ : BufTy).Contents (Elt F) :=
  constant S_ .f32 0x00000000#32

def val_main_call2_v0 : (⟨S50000x128, .f32⟩ : BufTy).Contents (Elt F) :=
  broadcastInDim S50000x128 ![] bcast_S_S50000x128 (val_main_call2_cst (F := F))

def val_main_v46 (x0 : (⟨S50000x128, .f32⟩ : BufTy).Contents (Elt F)) (x1 : (⟨S3x128x128, .f32⟩ : BufTy).Contents (Elt F)) (x2 : (⟨S3x128, .f32⟩ : BufTy).Contents (Elt F)) (x3 : (⟨S3x128x128, .f32⟩ : BufTy).Contents (Elt F)) (x4 : (⟨S3x128, .f32⟩ : BufTy).Contents (Elt F)) (x5 : (⟨S2x800000, .i32⟩ : BufTy).Contents (Elt F)) : (⟨S50000x128, .f32⟩ : BufTy).Contents (Elt F) :=
  maximumf (val_main_v45 (F := F) x0 x1 x2 x3 x4 x5) (val_main_call2_v0 (F := F))

def val_main_c_7 : (⟨S_, .i32⟩ : BufTy).Contents (Elt F) :=
  constantI S_ 32 0#32

def val_main_v47 : (⟨S800000, .i32⟩ : BufTy).Contents (Elt F) :=
  broadcastInDim S800000 ![] bcast_S_S800000 (val_main_c_7 (F := F))

def val_main_v48 (x5 : (⟨S2x800000, .i32⟩ : BufTy).Contents (Elt F)) : (⟨S800000, .i1⟩ : BufTy).Contents (Elt F) :=
  cmpi .slt (val_main_v1 (F := F) x5) (val_main_v47 (F := F))

def val_main_c_8 : (⟨S_, .i32⟩ : BufTy).Contents (Elt F) :=
  constantI S_ 32 50000#32

def val_main_v49 : (⟨S800000, .i32⟩ : BufTy).Contents (Elt F) :=
  broadcastInDim S800000 ![] bcast_S_S800000 (val_main_c_8 (F := F))

def val_main_v50 (x5 : (⟨S2x800000, .i32⟩ : BufTy).Contents (Elt F)) : (⟨S800000, .i32⟩ : BufTy).Contents (Elt F) :=
  addi (val_main_v1 (F := F) x5) (val_main_v49 (F := F))

def val_main_v51 (x5 : (⟨S2x800000, .i32⟩ : BufTy).Contents (Elt F)) : (⟨S800000, .i32⟩ : BufTy).Contents (Elt F) :=
  select (val_main_v48 (F := F) x5) (val_main_v50 (F := F) x5) (val_main_v1 (F := F) x5)

def val_main_v52 (x5 : (⟨S2x800000, .i32⟩ : BufTy).Contents (Elt F)) : (⟨S800000x1, .i32⟩ : BufTy).Contents (Elt F) :=
  broadcastInDim S800000x1 ![0] bcast_S800000_S800000x1_0 (val_main_v51 (F := F) x5)

def val_main_v53 (x0 : (⟨S50000x128, .f32⟩ : BufTy).Contents (Elt F)) (x1 : (⟨S3x128x128, .f32⟩ : BufTy).Contents (Elt F)) (x2 : (⟨S3x128, .f32⟩ : BufTy).Contents (Elt F)) (x3 : (⟨S3x128x128, .f32⟩ : BufTy).Contents (Elt F)) (x4 : (⟨S3x128, .f32⟩ : BufTy).Contents (Elt F)) (x5 : (⟨S2x800000, .i32⟩ : BufTy).Contents (Elt F)) : (⟨S800000x128, .f32⟩ : BufTy).Contents (Elt F) :=
  Host.gather gather_S50000x128_S800000x1_S800000x128_1_0_n_n_0_1_1128 (val_main_v46 (F := F) x0 x1 x2 x3 x4 x5) (val_main_v52 (F := F) x5)

def val_main_cst_9 : (⟨S_, .f32⟩ : BufTy).Contents (Elt F) :=
  constant S_ .f32 0x00000000#32

def val_main_v54 : (⟨S50000x128, .f32⟩ : BufTy).Contents (Elt F) :=
  broadcastInDim S50000x128 ![] bcast_S_S50000x128 (val_main_cst_9 (F := F))

def val_main_v55 (x5 : (⟨S2x800000, .i32⟩ : BufTy).Contents (Elt F)) : (⟨S800000x1, .i32⟩ : BufTy).Contents (Elt F) :=
  broadcastInDim S800000x1 ![0] bcast_S800000_S800000x1_0 (val_main_v3 (F := F) x5)

def val_main_v56 (x0 : (⟨S50000x128, .f32⟩ : BufTy).Contents (Elt F)) (x1 : (⟨S3x128x128, .f32⟩ : BufTy).Contents (Elt F)) (x2 : (⟨S3x128, .f32⟩ : BufTy).Contents (Elt F)) (x3 : (⟨S3x128x128, .f32⟩ : BufTy).Contents (Elt F)) (x4 : (⟨S3x128, .f32⟩ : BufTy).Contents (Elt F)) (x5 : (⟨S2x800000, .i32⟩ : BufTy).Contents (Elt F)) : (⟨S50000x128, .f32⟩ : BufTy).Contents (Elt F) :=
  Host.scatterAdd scatter_S50000x128_S800000x1_S800000x128_1_0_0_1 (val_main_v54 (F := F)) (val_main_v55 (F := F) x5) (val_main_v53 (F := F) x0 x1 x2 x3 x4 x5)

def val_main_v57 (x5 : (⟨S2x800000, .i32⟩ : BufTy).Contents (Elt F)) : (⟨S50000x128, .f32⟩ : BufTy).Contents (Elt F) :=
  broadcastInDim S50000x128 ![0, 1] bcast_S50000x1_S50000x128_0_1 (val_main_v16 (F := F) x5)

def val_main_v58 (x0 : (⟨S50000x128, .f32⟩ : BufTy).Contents (Elt F)) (x1 : (⟨S3x128x128, .f32⟩ : BufTy).Contents (Elt F)) (x2 : (⟨S3x128, .f32⟩ : BufTy).Contents (Elt F)) (x3 : (⟨S3x128x128, .f32⟩ : BufTy).Contents (Elt F)) (x4 : (⟨S3x128, .f32⟩ : BufTy).Contents (Elt F)) (x5 : (⟨S2x800000, .i32⟩ : BufTy).Contents (Elt F)) : (⟨S50000x128, .f32⟩ : BufTy).Contents (Elt F) :=
  Host.divf (val_main_v56 (F := F) x0 x1 x2 x3 x4 x5) (val_main_v57 (F := F) x5)

def val_main_v59 (x1 : (⟨S3x128x128, .f32⟩ : BufTy).Contents (Elt F)) : (⟨S1x128x128, .f32⟩ : BufTy).Contents (Elt F) :=
  extractStridedSlice S1x128x128 ![1, 0, 0] (x1) slices_S3x128x128_S1x128x128_1_0_0

def val_main_v60 (x1 : (⟨S3x128x128, .f32⟩ : BufTy).Contents (Elt F)) : (⟨S128x128, .f32⟩ : BufTy).Contents (Elt F) :=
  shapeCast _ (val_main_v59 (F := F) x1) shapeCasts_S1x128x128_S128x128

def val_main_v61 (x0 : (⟨S50000x128, .f32⟩ : BufTy).Contents (Elt F)) (x1 : (⟨S3x128x128, .f32⟩ : BufTy).Contents (Elt F)) (x2 : (⟨S3x128, .f32⟩ : BufTy).Contents (Elt F)) (x3 : (⟨S3x128x128, .f32⟩ : BufTy).Contents (Elt F)) (x4 : (⟨S3x128, .f32⟩ : BufTy).Contents (Elt F)) (x5 : (⟨S2x800000, .i32⟩ : BufTy).Contents (Elt F)) : (⟨S50000x128, .f32⟩ : BufTy).Contents (Elt F) :=
  Host.dotGeneral dot_S50000x128_S128x128_S50000x128_1_0_0_1_n_n none (val_main_v46 (F := F) x0 x1 x2 x3 x4 x5) (val_main_v60 (F := F) x1)

def val_main_v62 (x2 : (⟨S3x128, .f32⟩ : BufTy).Contents (Elt F)) : (⟨S1x128, .f32⟩ : BufTy).Contents (Elt F) :=
  extractStridedSlice S1x128 ![1, 0] (x2) slices_S3x128_S1x128_1_0

def val_main_v63 (x2 : (⟨S3x128, .f32⟩ : BufTy).Contents (Elt F)) : (⟨S128, .f32⟩ : BufTy).Contents (Elt F) :=
  shapeCast _ (val_main_v62 (F := F) x2) shapeCasts_S1x128_S128

def val_main_v64 (x2 : (⟨S3x128, .f32⟩ : BufTy).Contents (Elt F)) : (⟨S1x128, .f32⟩ : BufTy).Contents (Elt F) :=
  broadcastInDim S1x128 ![1] bcast_S128_S1x128_1 (val_main_v63 (F := F) x2)

def val_main_v65 (x2 : (⟨S3x128, .f32⟩ : BufTy).Contents (Elt F)) : (⟨S50000x128, .f32⟩ : BufTy).Contents (Elt F) :=
  broadcastInDim S50000x128 ![0, 1] bcast_S1x128_S50000x128_0_1 (val_main_v64 (F := F) x2)

def val_main_v66 (x0 : (⟨S50000x128, .f32⟩ : BufTy).Contents (Elt F)) (x1 : (⟨S3x128x128, .f32⟩ : BufTy).Contents (Elt F)) (x2 : (⟨S3x128, .f32⟩ : BufTy).Contents (Elt F)) (x3 : (⟨S3x128x128, .f32⟩ : BufTy).Contents (Elt F)) (x4 : (⟨S3x128, .f32⟩ : BufTy).Contents (Elt F)) (x5 : (⟨S2x800000, .i32⟩ : BufTy).Contents (Elt F)) : (⟨S50000x128, .f32⟩ : BufTy).Contents (Elt F) :=
  addf (val_main_v61 (F := F) x0 x1 x2 x3 x4 x5) (val_main_v65 (F := F) x2)

def val_main_v67 (x3 : (⟨S3x128x128, .f32⟩ : BufTy).Contents (Elt F)) : (⟨S1x128x128, .f32⟩ : BufTy).Contents (Elt F) :=
  extractStridedSlice S1x128x128 ![1, 0, 0] (x3) slices_S3x128x128_S1x128x128_1_0_0

def val_main_v68 (x3 : (⟨S3x128x128, .f32⟩ : BufTy).Contents (Elt F)) : (⟨S128x128, .f32⟩ : BufTy).Contents (Elt F) :=
  shapeCast _ (val_main_v67 (F := F) x3) shapeCasts_S1x128x128_S128x128

def val_main_v69 (x0 : (⟨S50000x128, .f32⟩ : BufTy).Contents (Elt F)) (x1 : (⟨S3x128x128, .f32⟩ : BufTy).Contents (Elt F)) (x2 : (⟨S3x128, .f32⟩ : BufTy).Contents (Elt F)) (x3 : (⟨S3x128x128, .f32⟩ : BufTy).Contents (Elt F)) (x4 : (⟨S3x128, .f32⟩ : BufTy).Contents (Elt F)) (x5 : (⟨S2x800000, .i32⟩ : BufTy).Contents (Elt F)) : (⟨S50000x128, .f32⟩ : BufTy).Contents (Elt F) :=
  Host.dotGeneral dot_S50000x128_S128x128_S50000x128_1_0_0_1_n_n none (val_main_v58 (F := F) x0 x1 x2 x3 x4 x5) (val_main_v68 (F := F) x3)

def val_main_v70 (x0 : (⟨S50000x128, .f32⟩ : BufTy).Contents (Elt F)) (x1 : (⟨S3x128x128, .f32⟩ : BufTy).Contents (Elt F)) (x2 : (⟨S3x128, .f32⟩ : BufTy).Contents (Elt F)) (x3 : (⟨S3x128x128, .f32⟩ : BufTy).Contents (Elt F)) (x4 : (⟨S3x128, .f32⟩ : BufTy).Contents (Elt F)) (x5 : (⟨S2x800000, .i32⟩ : BufTy).Contents (Elt F)) : (⟨S50000x128, .f32⟩ : BufTy).Contents (Elt F) :=
  addf (val_main_v66 (F := F) x0 x1 x2 x3 x4 x5) (val_main_v69 (F := F) x0 x1 x2 x3 x4 x5)

def val_main_v71 (x4 : (⟨S3x128, .f32⟩ : BufTy).Contents (Elt F)) : (⟨S1x128, .f32⟩ : BufTy).Contents (Elt F) :=
  extractStridedSlice S1x128 ![1, 0] (x4) slices_S3x128_S1x128_1_0

def val_main_v72 (x4 : (⟨S3x128, .f32⟩ : BufTy).Contents (Elt F)) : (⟨S128, .f32⟩ : BufTy).Contents (Elt F) :=
  shapeCast _ (val_main_v71 (F := F) x4) shapeCasts_S1x128_S128

def val_main_v73 (x4 : (⟨S3x128, .f32⟩ : BufTy).Contents (Elt F)) : (⟨S1x128, .f32⟩ : BufTy).Contents (Elt F) :=
  broadcastInDim S1x128 ![1] bcast_S128_S1x128_1 (val_main_v72 (F := F) x4)

def val_main_v74 (x4 : (⟨S3x128, .f32⟩ : BufTy).Contents (Elt F)) : (⟨S50000x128, .f32⟩ : BufTy).Contents (Elt F) :=
  broadcastInDim S50000x128 ![0, 1] bcast_S1x128_S50000x128_0_1 (val_main_v73 (F := F) x4)

def val_main_v75 (x0 : (⟨S50000x128, .f32⟩ : BufTy).Contents (Elt F)) (x1 : (⟨S3x128x128, .f32⟩ : BufTy).Contents (Elt F)) (x2 : (⟨S3x128, .f32⟩ : BufTy).Contents (Elt F)) (x3 : (⟨S3x128x128, .f32⟩ : BufTy).Contents (Elt F)) (x4 : (⟨S3x128, .f32⟩ : BufTy).Contents (Elt F)) (x5 : (⟨S2x800000, .i32⟩ : BufTy).Contents (Elt F)) : (⟨S50000x128, .f32⟩ : BufTy).Contents (Elt F) :=
  addf (val_main_v70 (F := F) x0 x1 x2 x3 x4 x5) (val_main_v74 (F := F) x4)

def val_main_call3_cst : (⟨S_, .f32⟩ : BufTy).Contents (Elt F) :=
  constant S_ .f32 0x00000000#32

def val_main_call3_v0 : (⟨S50000x128, .f32⟩ : BufTy).Contents (Elt F) :=
  broadcastInDim S50000x128 ![] bcast_S_S50000x128 (val_main_call3_cst (F := F))

def val_main_v76 (x0 : (⟨S50000x128, .f32⟩ : BufTy).Contents (Elt F)) (x1 : (⟨S3x128x128, .f32⟩ : BufTy).Contents (Elt F)) (x2 : (⟨S3x128, .f32⟩ : BufTy).Contents (Elt F)) (x3 : (⟨S3x128x128, .f32⟩ : BufTy).Contents (Elt F)) (x4 : (⟨S3x128, .f32⟩ : BufTy).Contents (Elt F)) (x5 : (⟨S2x800000, .i32⟩ : BufTy).Contents (Elt F)) : (⟨S50000x128, .f32⟩ : BufTy).Contents (Elt F) :=
  maximumf (val_main_v75 (F := F) x0 x1 x2 x3 x4 x5) (val_main_call3_v0 (F := F))

def val_main_c_10 : (⟨S_, .i32⟩ : BufTy).Contents (Elt F) :=
  constantI S_ 32 0#32

def val_main_v77 : (⟨S800000, .i32⟩ : BufTy).Contents (Elt F) :=
  broadcastInDim S800000 ![] bcast_S_S800000 (val_main_c_10 (F := F))

def val_main_v78 (x5 : (⟨S2x800000, .i32⟩ : BufTy).Contents (Elt F)) : (⟨S800000, .i1⟩ : BufTy).Contents (Elt F) :=
  cmpi .slt (val_main_v1 (F := F) x5) (val_main_v77 (F := F))

def val_main_c_11 : (⟨S_, .i32⟩ : BufTy).Contents (Elt F) :=
  constantI S_ 32 50000#32

def val_main_v79 : (⟨S800000, .i32⟩ : BufTy).Contents (Elt F) :=
  broadcastInDim S800000 ![] bcast_S_S800000 (val_main_c_11 (F := F))

def val_main_v80 (x5 : (⟨S2x800000, .i32⟩ : BufTy).Contents (Elt F)) : (⟨S800000, .i32⟩ : BufTy).Contents (Elt F) :=
  addi (val_main_v1 (F := F) x5) (val_main_v79 (F := F))

def val_main_v81 (x5 : (⟨S2x800000, .i32⟩ : BufTy).Contents (Elt F)) : (⟨S800000, .i32⟩ : BufTy).Contents (Elt F) :=
  select (val_main_v78 (F := F) x5) (val_main_v80 (F := F) x5) (val_main_v1 (F := F) x5)

def val_main_v82 (x5 : (⟨S2x800000, .i32⟩ : BufTy).Contents (Elt F)) : (⟨S800000x1, .i32⟩ : BufTy).Contents (Elt F) :=
  broadcastInDim S800000x1 ![0] bcast_S800000_S800000x1_0 (val_main_v81 (F := F) x5)

def val_main_v83 (x0 : (⟨S50000x128, .f32⟩ : BufTy).Contents (Elt F)) (x1 : (⟨S3x128x128, .f32⟩ : BufTy).Contents (Elt F)) (x2 : (⟨S3x128, .f32⟩ : BufTy).Contents (Elt F)) (x3 : (⟨S3x128x128, .f32⟩ : BufTy).Contents (Elt F)) (x4 : (⟨S3x128, .f32⟩ : BufTy).Contents (Elt F)) (x5 : (⟨S2x800000, .i32⟩ : BufTy).Contents (Elt F)) : (⟨S800000x128, .f32⟩ : BufTy).Contents (Elt F) :=
  Host.gather gather_S50000x128_S800000x1_S800000x128_1_0_n_n_0_1_1128 (val_main_v76 (F := F) x0 x1 x2 x3 x4 x5) (val_main_v82 (F := F) x5)

def val_main_cst_12 : (⟨S_, .f32⟩ : BufTy).Contents (Elt F) :=
  constant S_ .f32 0x00000000#32

def val_main_v84 : (⟨S50000x128, .f32⟩ : BufTy).Contents (Elt F) :=
  broadcastInDim S50000x128 ![] bcast_S_S50000x128 (val_main_cst_12 (F := F))

def val_main_v85 (x5 : (⟨S2x800000, .i32⟩ : BufTy).Contents (Elt F)) : (⟨S800000x1, .i32⟩ : BufTy).Contents (Elt F) :=
  broadcastInDim S800000x1 ![0] bcast_S800000_S800000x1_0 (val_main_v3 (F := F) x5)

def val_main_v86 (x0 : (⟨S50000x128, .f32⟩ : BufTy).Contents (Elt F)) (x1 : (⟨S3x128x128, .f32⟩ : BufTy).Contents (Elt F)) (x2 : (⟨S3x128, .f32⟩ : BufTy).Contents (Elt F)) (x3 : (⟨S3x128x128, .f32⟩ : BufTy).Contents (Elt F)) (x4 : (⟨S3x128, .f32⟩ : BufTy).Contents (Elt F)) (x5 : (⟨S2x800000, .i32⟩ : BufTy).Contents (Elt F)) : (⟨S50000x128, .f32⟩ : BufTy).Contents (Elt F) :=
  Host.scatterAdd scatter_S50000x128_S800000x1_S800000x128_1_0_0_1 (val_main_v84 (F := F)) (val_main_v85 (F := F) x5) (val_main_v83 (F := F) x0 x1 x2 x3 x4 x5)

def val_main_v87 (x5 : (⟨S2x800000, .i32⟩ : BufTy).Contents (Elt F)) : (⟨S50000x128, .f32⟩ : BufTy).Contents (Elt F) :=
  broadcastInDim S50000x128 ![0, 1] bcast_S50000x1_S50000x128_0_1 (val_main_v16 (F := F) x5)

def val_main_v88 (x0 : (⟨S50000x128, .f32⟩ : BufTy).Contents (Elt F)) (x1 : (⟨S3x128x128, .f32⟩ : BufTy).Contents (Elt F)) (x2 : (⟨S3x128, .f32⟩ : BufTy).Contents (Elt F)) (x3 : (⟨S3x128x128, .f32⟩ : BufTy).Contents (Elt F)) (x4 : (⟨S3x128, .f32⟩ : BufTy).Contents (Elt F)) (x5 : (⟨S2x800000, .i32⟩ : BufTy).Contents (Elt F)) : (⟨S50000x128, .f32⟩ : BufTy).Contents (Elt F) :=
  Host.divf (val_main_v86 (F := F) x0 x1 x2 x3 x4 x5) (val_main_v87 (F := F) x5)

def val_main_v89 (x1 : (⟨S3x128x128, .f32⟩ : BufTy).Contents (Elt F)) : (⟨S1x128x128, .f32⟩ : BufTy).Contents (Elt F) :=
  extractStridedSlice S1x128x128 ![2, 0, 0] (x1) slices_S3x128x128_S1x128x128_2_0_0

def val_main_v90 (x1 : (⟨S3x128x128, .f32⟩ : BufTy).Contents (Elt F)) : (⟨S128x128, .f32⟩ : BufTy).Contents (Elt F) :=
  shapeCast _ (val_main_v89 (F := F) x1) shapeCasts_S1x128x128_S128x128

def val_main_v91 (x0 : (⟨S50000x128, .f32⟩ : BufTy).Contents (Elt F)) (x1 : (⟨S3x128x128, .f32⟩ : BufTy).Contents (Elt F)) (x2 : (⟨S3x128, .f32⟩ : BufTy).Contents (Elt F)) (x3 : (⟨S3x128x128, .f32⟩ : BufTy).Contents (Elt F)) (x4 : (⟨S3x128, .f32⟩ : BufTy).Contents (Elt F)) (x5 : (⟨S2x800000, .i32⟩ : BufTy).Contents (Elt F)) : (⟨S50000x128, .f32⟩ : BufTy).Contents (Elt F) :=
  Host.dotGeneral dot_S50000x128_S128x128_S50000x128_1_0_0_1_n_n none (val_main_v76 (F := F) x0 x1 x2 x3 x4 x5) (val_main_v90 (F := F) x1)

def val_main_v92 (x2 : (⟨S3x128, .f32⟩ : BufTy).Contents (Elt F)) : (⟨S1x128, .f32⟩ : BufTy).Contents (Elt F) :=
  extractStridedSlice S1x128 ![2, 0] (x2) slices_S3x128_S1x128_2_0

def val_main_v93 (x2 : (⟨S3x128, .f32⟩ : BufTy).Contents (Elt F)) : (⟨S128, .f32⟩ : BufTy).Contents (Elt F) :=
  shapeCast _ (val_main_v92 (F := F) x2) shapeCasts_S1x128_S128

def val_main_v94 (x2 : (⟨S3x128, .f32⟩ : BufTy).Contents (Elt F)) : (⟨S1x128, .f32⟩ : BufTy).Contents (Elt F) :=
  broadcastInDim S1x128 ![1] bcast_S128_S1x128_1 (val_main_v93 (F := F) x2)

def val_main_v95 (x2 : (⟨S3x128, .f32⟩ : BufTy).Contents (Elt F)) : (⟨S50000x128, .f32⟩ : BufTy).Contents (Elt F) :=
  broadcastInDim S50000x128 ![0, 1] bcast_S1x128_S50000x128_0_1 (val_main_v94 (F := F) x2)

def val_main_v96 (x0 : (⟨S50000x128, .f32⟩ : BufTy).Contents (Elt F)) (x1 : (⟨S3x128x128, .f32⟩ : BufTy).Contents (Elt F)) (x2 : (⟨S3x128, .f32⟩ : BufTy).Contents (Elt F)) (x3 : (⟨S3x128x128, .f32⟩ : BufTy).Contents (Elt F)) (x4 : (⟨S3x128, .f32⟩ : BufTy).Contents (Elt F)) (x5 : (⟨S2x800000, .i32⟩ : BufTy).Contents (Elt F)) : (⟨S50000x128, .f32⟩ : BufTy).Contents (Elt F) :=
  addf (val_main_v91 (F := F) x0 x1 x2 x3 x4 x5) (val_main_v95 (F := F) x2)

def val_main_v97 (x3 : (⟨S3x128x128, .f32⟩ : BufTy).Contents (Elt F)) : (⟨S1x128x128, .f32⟩ : BufTy).Contents (Elt F) :=
  extractStridedSlice S1x128x128 ![2, 0, 0] (x3) slices_S3x128x128_S1x128x128_2_0_0

def val_main_v98 (x3 : (⟨S3x128x128, .f32⟩ : BufTy).Contents (Elt F)) : (⟨S128x128, .f32⟩ : BufTy).Contents (Elt F) :=
  shapeCast _ (val_main_v97 (F := F) x3) shapeCasts_S1x128x128_S128x128

def val_main_v99 (x0 : (⟨S50000x128, .f32⟩ : BufTy).Contents (Elt F)) (x1 : (⟨S3x128x128, .f32⟩ : BufTy).Contents (Elt F)) (x2 : (⟨S3x128, .f32⟩ : BufTy).Contents (Elt F)) (x3 : (⟨S3x128x128, .f32⟩ : BufTy).Contents (Elt F)) (x4 : (⟨S3x128, .f32⟩ : BufTy).Contents (Elt F)) (x5 : (⟨S2x800000, .i32⟩ : BufTy).Contents (Elt F)) : (⟨S50000x128, .f32⟩ : BufTy).Contents (Elt F) :=
  Host.dotGeneral dot_S50000x128_S128x128_S50000x128_1_0_0_1_n_n none (val_main_v88 (F := F) x0 x1 x2 x3 x4 x5) (val_main_v98 (F := F) x3)

def val_main_v100 (x0 : (⟨S50000x128, .f32⟩ : BufTy).Contents (Elt F)) (x1 : (⟨S3x128x128, .f32⟩ : BufTy).Contents (Elt F)) (x2 : (⟨S3x128, .f32⟩ : BufTy).Contents (Elt F)) (x3 : (⟨S3x128x128, .f32⟩ : BufTy).Contents (Elt F)) (x4 : (⟨S3x128, .f32⟩ : BufTy).Contents (Elt F)) (x5 : (⟨S2x800000, .i32⟩ : BufTy).Contents (Elt F)) : (⟨S50000x128, .f32⟩ : BufTy).Contents (Elt F) :=
  addf (val_main_v96 (F := F) x0 x1 x2 x3 x4 x5) (val_main_v99 (F := F) x0 x1 x2 x3 x4 x5)

def val_main_v101 (x4 : (⟨S3x128, .f32⟩ : BufTy).Contents (Elt F)) : (⟨S1x128, .f32⟩ : BufTy).Contents (Elt F) :=
  extractStridedSlice S1x128 ![2, 0] (x4) slices_S3x128_S1x128_2_0

def val_main_v102 (x4 : (⟨S3x128, .f32⟩ : BufTy).Contents (Elt F)) : (⟨S128, .f32⟩ : BufTy).Contents (Elt F) :=
  shapeCast _ (val_main_v101 (F := F) x4) shapeCasts_S1x128_S128

def val_main_v103 (x4 : (⟨S3x128, .f32⟩ : BufTy).Contents (Elt F)) : (⟨S1x128, .f32⟩ : BufTy).Contents (Elt F) :=
  broadcastInDim S1x128 ![1] bcast_S128_S1x128_1 (val_main_v102 (F := F) x4)

def val_main_v104 (x4 : (⟨S3x128, .f32⟩ : BufTy).Contents (Elt F)) : (⟨S50000x128, .f32⟩ : BufTy).Contents (Elt F) :=
  broadcastInDim S50000x128 ![0, 1] bcast_S1x128_S50000x128_0_1 (val_main_v103 (F := F) x4)

def val_main_v105 (x0 : (⟨S50000x128, .f32⟩ : BufTy).Contents (Elt F)) (x1 : (⟨S3x128x128, .f32⟩ : BufTy).Contents (Elt F)) (x2 : (⟨S3x128, .f32⟩ : BufTy).Contents (Elt F)) (x3 : (⟨S3x128x128, .f32⟩ : BufTy).Contents (Elt F)) (x4 : (⟨S3x128, .f32⟩ : BufTy).Contents (Elt F)) (x5 : (⟨S2x800000, .i32⟩ : BufTy).Contents (Elt F)) : (⟨S50000x128, .f32⟩ : BufTy).Contents (Elt F) :=
  addf (val_main_v100 (F := F) x0 x1 x2 x3 x4 x5) (val_main_v104 (F := F) x4)

def val_main_call4_cst : (⟨S_, .f32⟩ : BufTy).Contents (Elt F) :=
  constant S_ .f32 0x00000000#32

def val_main_call4_v0 : (⟨S50000x128, .f32⟩ : BufTy).Contents (Elt F) :=
  broadcastInDim S50000x128 ![] bcast_S_S50000x128 (val_main_call4_cst (F := F))

def val_main_v106 (x0 : (⟨S50000x128, .f32⟩ : BufTy).Contents (Elt F)) (x1 : (⟨S3x128x128, .f32⟩ : BufTy).Contents (Elt F)) (x2 : (⟨S3x128, .f32⟩ : BufTy).Contents (Elt F)) (x3 : (⟨S3x128x128, .f32⟩ : BufTy).Contents (Elt F)) (x4 : (⟨S3x128, .f32⟩ : BufTy).Contents (Elt F)) (x5 : (⟨S2x800000, .i32⟩ : BufTy).Contents (Elt F)) : (⟨S50000x128, .f32⟩ : BufTy).Contents (Elt F) :=
  maximumf (val_main_v105 (F := F) x0 x1 x2 x3 x4 x5) (val_main_call4_v0 (F := F))

def val_main_cst_13 : (⟨S_, .f32⟩ : BufTy).Contents (Elt F) :=
  constant S_ .f32 0x00000000#32

theorem val_main_cst_13_apply (i : S_.Idx) :
    val_main_cst_13 (F := F) i = FloatOps.ofBits .f32 0x00000000#32 := rfl

def val_main_v107 : (⟨S64x128, .f32⟩ : BufTy).Contents (Elt F) :=
  broadcastInDim S64x128 ![] bcast_S_S64x128 (val_main_cst_13 (F := F))

abbrev idx_main_v107 (i : S64x128.Idx) : S_.Idx := fun a => a.elim0

theorem val_main_v107_apply (i : S64x128.Idx) :
    val_main_v107 (F := F) i = val_main_cst_13 (F := F) (idx_main_v107 i) := by
  unfold val_main_v107
  generalize val_main_cst_13 (F := F) = y
  exact broadcastInDim_apply _ bcast_S_S64x128 y i (idx_main_v107 i) (fun a => a.elim0)

def val_main_v108 (x6 : (⟨S50000, .i32⟩ : BufTy).Contents (Elt F)) : (⟨S50000x1, .i32⟩ : BufTy).Contents (Elt F) :=
  broadcastInDim S50000x1 ![0] bcast_S50000_S50000x1_0 (x6)

abbrev idx_main_v108 (i : S50000x1.Idx) : S50000.Idx := fun a => match a with
  | ⟨0, _⟩ => ⟨(i 0).val, (i 0).isLt⟩

theorem val_main_v108_apply (x6 : (⟨S50000, .i32⟩ : BufTy).Contents (Elt F)) (i : S50000x1.Idx) :
    val_main_v108 (F := F) x6 i = x6 (idx_main_v108 i) := by
  unfold val_main_v108
  exact broadcastInDim_apply _ bcast_S50000_S50000x1_0 x6 i (idx_main_v108 i) (fun a => match a with
    | ⟨0, _⟩ => by show (i 0).val = if (50000 : Nat) = 1 then 0 else (i 0).val; rw [if_neg (by decide)])

def val_main_v109 (x0 : (⟨S50000x128, .f32⟩ : BufTy).Contents (Elt F)) (x1 : (⟨S3x128x128, .f32⟩ : BufTy).Contents (Elt F)) (x2 : (⟨S3x128, .f32⟩ : BufTy).Contents (Elt F)) (x3 : (⟨S3x128x128, .f32⟩ : BufTy).Contents (Elt F)) (x4 : (⟨S3x128, .f32⟩ : BufTy).Contents (Elt F)) (x5 : (⟨S2x800000, .i32⟩ : BufTy).Contents (Elt F)) (x6 : (⟨S50000, .i32⟩ : BufTy).Contents (Elt F)) : (⟨S64x128, .f32⟩ : BufTy).Contents (Elt F) :=
  Host.scatterAdd scatter_S64x128_S50000x1_S50000x128_1_0_0_1 (val_main_v107 (F := F)) (val_main_v108 (F := F) x6) (val_main_v106 (F := F) x0 x1 x2 x3 x4 x5)

def val_main_c_14 : (⟨S_, .i32⟩ : BufTy).Contents (Elt F) :=
  constantI S_ 32 0#32

def val_main_v110 : (⟨S64, .i32⟩ : BufTy).Contents (Elt F) :=
  broadcastInDim S64 ![] bcast_S_S64 (val_main_c_14 (F := F))

def val_main_c_15 : (⟨S_, .i32⟩ : BufTy).Contents (Elt F) :=
  constantI S_ 32 0#32

def val_main_call5_v0 : (⟨S_, .i32⟩ : BufTy).Contents (Elt F) :=
  id (val_main_c_15 (F := F))

def val_main_call5_v1 : (⟨S50000, .i32⟩ : BufTy).Contents (Elt F) :=
  broadcastInDim S50000 ![] bcast_S_S50000 (val_main_call5_v0 (F := F))

def val_main_v111 (x6 : (⟨S50000, .i32⟩ : BufTy).Contents (Elt F)) : (⟨S50000, .i32⟩ : BufTy).Contents (Elt F) :=
  maxsi (val_main_call5_v1 (F := F)) (x6)

def val_main_c_16 : (⟨S_, .i32⟩ : BufTy).Contents (Elt F) :=
  constantI S_ 32 0#32

def val_main_v112 : (⟨S50000, .i32⟩ : BufTy).Contents (Elt F) :=
  broadcastInDim S50000 ![] bcast_S_S50000 (val_main_c_16 (F := F))

def val_main_v113 (x6 : (⟨S50000, .i32⟩ : BufTy).Contents (Elt F)) : (⟨S50000, .i1⟩ : BufTy).Contents (Elt F) :=
  cmpi .slt (val_main_v111 (F := F) x6) (val_main_v112 (F := F))

def val_main_c_17 : (⟨S_, .i32⟩ : BufTy).Contents (Elt F) :=
  constantI S_ 32 64#32

def val_main_v114 : (⟨S50000, .i32⟩ : BufTy).Contents (Elt F) :=
  broadcastInDim S50000 ![] bcast_S_S50000 (val_main_c_17 (F := F))

def val_main_v115 (x6 : (⟨S50000, .i32⟩ : BufTy).Contents (Elt F)) : (⟨S50000, .i32⟩ : BufTy).Contents (Elt F) :=
  addi (val_main_v111 (F := F) x6) (val_main_v114 (F := F))

def val_main_v116 (x6 : (⟨S50000, .i32⟩ : BufTy).Contents (Elt F)) : (⟨S50000, .i32⟩ : BufTy).Contents (Elt F) :=
  select (val_main_v113 (F := F) x6) (val_main_v115 (F := F) x6) (val_main_v111 (F := F) x6)

def val_main_v117 (x6 : (⟨S50000, .i32⟩ : BufTy).Contents (Elt F)) : (⟨S50000x1, .i32⟩ : BufTy).Contents (Elt F) :=
  broadcastInDim S50000x1 ![0] bcast_S50000_S50000x1_0 (val_main_v116 (F := F) x6)

def val_main_c_18 : (⟨S_, .i32⟩ : BufTy).Contents (Elt F) :=
  constantI S_ 32 1#32

def val_main_v118 : (⟨S50000, .i32⟩ : BufTy).Contents (Elt F) :=
  broadcastInDim S50000 ![] bcast_S_S50000 (val_main_c_18 (F := F))

def val_main_v119 (x6 : (⟨S50000, .i32⟩ : BufTy).Contents (Elt F)) : (⟨S64, .i32⟩ : BufTy).Contents (Elt F) :=
  Host.scatter scatter_S64_S50000x1_S50000_n_0_0_1 IntOp.addi (val_main_v110 (F := F)) (val_main_v117 (F := F) x6) (val_main_v118 (F := F))

def val_main_c_19 : (⟨S_, .i32⟩ : BufTy).Contents (Elt F) :=
  constantI S_ 32 1#32

def val_main_call6_v0 : (⟨S_, .i32⟩ : BufTy).Contents (Elt F) :=
  id (val_main_c_19 (F := F))

def val_main_call6_v1 : (⟨S64, .i32⟩ : BufTy).Contents (Elt F) :=
  broadcastInDim S64 ![] bcast_S_S64 (val_main_call6_v0 (F := F))

def val_main_v120 (x6 : (⟨S50000, .i32⟩ : BufTy).Contents (Elt F)) : (⟨S64, .i32⟩ : BufTy).Contents (Elt F) :=
  maxsi (val_main_call6_v1 (F := F)) (val_main_v119 (F := F) x6)

def val_main_v121 (x6 : (⟨S50000, .i32⟩ : BufTy).Contents (Elt F)) : (⟨S64, .f32⟩ : BufTy).Contents (Elt F) :=
  sitofp .f32 (val_main_v120 (F := F) x6)

def val_main_v122 (x6 : (⟨S50000, .i32⟩ : BufTy).Contents (Elt F)) : (⟨S64x1, .f32⟩ : BufTy).Contents (Elt F) :=
  broadcastInDim S64x1 ![0] bcast_S64_S64x1_0 (val_main_v121 (F := F) x6)

abbrev idx_main_v122 (i : S64x1.Idx) : S64.Idx := fun a => match a with
  | ⟨0, _⟩ => ⟨(i 0).val, (i 0).isLt⟩

theorem val_main_v122_apply (x6 : (⟨S50000, .i32⟩ : BufTy).Contents (Elt F)) (i : S64x1.Idx) :
    val_main_v122 (F := F) x6 i = val_main_v121 (F := F) x6 (idx_main_v122 i) := by
  unfold val_main_v122
  generalize val_main_v121 (F := F) x6 = y
  exact broadcastInDim_apply _ bcast_S64_S64x1_0 y i (idx_main_v122 i) (fun a => match a with
    | ⟨0, _⟩ => by show (i 0).val = if (64 : Nat) = 1 then 0 else (i 0).val; rw [if_neg (by decide)])

def val_main_v123 (x6 : (⟨S50000, .i32⟩ : BufTy).Contents (Elt F)) : (⟨S64x128, .f32⟩ : BufTy).Contents (Elt F) :=
  broadcastInDim S64x128 ![0, 1] bcast_S64x1_S64x128_0_1 (val_main_v122 (F := F) x6)

abbrev idx_main_v123 (i : S64x128.Idx) : S64x1.Idx := fun a => match a with
  | ⟨0, _⟩ => ⟨(i 0).val, (i 0).isLt⟩
  | ⟨1, _⟩ => ⟨0, Nat.one_pos⟩

theorem val_main_v123_apply (x6 : (⟨S50000, .i32⟩ : BufTy).Contents (Elt F)) (i : S64x128.Idx) :
    val_main_v123 (F := F) x6 i = val_main_v122 (F := F) x6 (idx_main_v123 i) := by
  unfold val_main_v123
  generalize val_main_v122 (F := F) x6 = y
  exact broadcastInDim_apply _ bcast_S64x1_S64x128_0_1 y i (idx_main_v123 i) (fun a => match a with
    | ⟨0, _⟩ => by show (i 0).val = if (64 : Nat) = 1 then 0 else (i 0).val; rw [if_neg (by decide)]
    | ⟨1, _⟩ => by show 0 = if (1 : Nat) = 1 then 0 else (i 1).val; rw [if_pos rfl])

def val_main_v124 (x0 : (⟨S50000x128, .f32⟩ : BufTy).Contents (Elt F)) (x1 : (⟨S3x128x128, .f32⟩ : BufTy).Contents (Elt F)) (x2 : (⟨S3x128, .f32⟩ : BufTy).Contents (Elt F)) (x3 : (⟨S3x128x128, .f32⟩ : BufTy).Contents (Elt F)) (x4 : (⟨S3x128, .f32⟩ : BufTy).Contents (Elt F)) (x5 : (⟨S2x800000, .i32⟩ : BufTy).Contents (Elt F)) (x6 : (⟨S50000, .i32⟩ : BufTy).Contents (Elt F)) : (⟨S64x128, .f32⟩ : BufTy).Contents (Elt F) :=
  Host.divf (val_main_v109 (F := F) x0 x1 x2 x3 x4 x5 x6) (val_main_v123 (F := F) x6)

end Cert.ReferenceIdeal.Read

end
-- ==== Proof.RefRunHead.lean ====
import proofs.«416123_j75222057222468_1_alg».proof.Proof.RefOps
import proofs.«416123_j75222057222468_1_alg».proof.Proof.RefStages
import Idealize.ShloMosaic.Lib.Pipeline.Frame

noncomputable section

namespace Cert.ReferenceIdeal.RunHead

open Cert.ReferenceIdeal Cert.ReferenceIdeal.Gen Idealize.ShloMosaic Idealize.ShloMosaic.TcCoe Idealize.SL.Sem Idealize.ShloMosaic.StableHlo
open Cert.ReferenceIdeal.Value (ops)
open Cert.ReferenceIdeal.Read

variable {F : FTy → Type} [FloatOps F]

local macro "unwritten " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

abbrev opsHead : List (HloOp τ sig (Elt F)) :=
  [ unary main_arg5 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg5 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S50000 ![] bcast_S_S50000 : (⟨S_, .i32⟩ : BufTy).Contents (Elt F) → (⟨S50000, .i32⟩ : BufTy).Contents (Elt F)),
    nullary main_c_0 (constantI S_ 32 0#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S800000, .i32⟩) main_call0_v1) (broadcastInDim S800000 ![] bcast_S_S800000),
    TRef.binary (TRef.of (T := ⟨S800000, .i32⟩) main_call0_v1) (TRef.of (T := ⟨S800000, .i32⟩) main_v3) (TRef.of (T := ⟨S800000, .i32⟩) main_v5) maxsi,
    nullary main_c_1 (constantI S_ 32 0#32),
    unary main_c_1 main_v6 (broadcastInDim S800000 ![] bcast_S_S800000 : (⟨S_, .i32⟩ : BufTy).Contents (Elt F) → (⟨S800000, .i32⟩ : BufTy).Contents (Elt F)),
    binary main_v5 main_v6 main_v7 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v8 (broadcastInDim S800000 ![] bcast_S_S800000 : (⟨S_, .i32⟩ : BufTy).Contents (Elt F) → (⟨S800000, .i32⟩ : BufTy).Contents (Elt F)),
    binary main_v5 main_v8 main_v9 (addi : (⟨S800000, .i32⟩ : BufTy).Contents (Elt F) → (⟨S800000, .i32⟩ : BufTy).Contents (Elt F) → (⟨S800000, .i32⟩ : BufTy).Contents (Elt F)),
    ternary main_v7 main_v9 main_v5 main_v10 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v10 main_v11 (broadcastInDim S800000x1 ![0] bcast_S800000_S800000x1_0 : (⟨S800000, .i32⟩ : BufTy).Contents (Elt F) → (⟨S800000x1, .i32⟩ : BufTy).Contents (Elt F)),
    nullary main_c_3 (constantI S_ 32 1#32),
    unary main_c_3 main_v12 (broadcastInDim S800000 ![] bcast_S_S800000 : (⟨S_, .i32⟩ : BufTy).Contents (Elt F) → (⟨S800000, .i32⟩ : BufTy).Contents (Elt F)),
    ternary main_v4 main_v11 main_v12 main_v13 ((fun x i u => Host.scatter scatter_S50000_S800000x1_S800000_n_0_0_1 IntOp.addi x i u) : (⟨S50000, .i32⟩ : BufTy).Contents (Elt F) → (⟨S800000x1, .i32⟩ : BufTy).Contents (Elt F) → (⟨S800000, .i32⟩ : BufTy).Contents (Elt F) → (⟨S50000, .i32⟩ : BufTy).Contents (Elt F)),
    nullary main_c_4 (constantI S_ 32 1#32),
    TRef.unary (TRef.of (T := ⟨S_, .i32⟩) main_c_4) (TRef.of (T := ⟨S_, .i32⟩) main_call1_v0) id,
    TRef.unary (TRef.of (T := ⟨S_, .i32⟩) main_call1_v0) (TRef.of (T := ⟨S50000, .i32⟩) main_call1_v1) (broadcastInDim S50000 ![] bcast_S_S50000),
    TRef.binary (TRef.of (T := ⟨S50000, .i32⟩) main_call1_v1) (TRef.of (T := ⟨S50000, .i32⟩) main_v13) (TRef.of (T := ⟨S50000, .i32⟩) main_v14) maxsi,
    unary main_v14 main_v15 (sitofp .f32 : (⟨S50000, .i32⟩ : BufTy).Contents (Elt F) → (⟨S50000, .f32⟩ : BufTy).Contents (Elt F)),
    unary main_v15 main_v16 (broadcastInDim S50000x1 ![0] bcast_S50000_S50000x1_0 : (⟨S50000, .f32⟩ : BufTy).Contents (Elt F) → (⟨S50000x1, .f32⟩ : BufTy).Contents (Elt F)) ]

abbrev head0 : List (HloOp τ sig (Elt F)) :=
  [ unary main_arg5 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg5 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S50000 ![] bcast_S_S50000 : (⟨S_, .i32⟩ : BufTy).Contents (Elt F) → (⟨S50000, .i32⟩ : BufTy).Contents (Elt F)),
    nullary main_c_0 (constantI S_ 32 0#32) ]

abbrev head1 : List (HloOp τ sig (Elt F)) :=
  [ TRef.unary (TRef.of (T := ⟨S_, .i32⟩) main_c_0) (TRef.of (T := ⟨S_, .i32⟩) main_call0_v0) id,
    TRef.unary (TRef.of (T := ⟨S_, .i32⟩) main_call0_v0) (TRef.of (T := ⟨S800000, .i32⟩) main_call0_v1) (broadcastInDim S800000 ![] bcast_S_S800000),
    TRef.binary (TRef.of (T := ⟨S800000, .i32⟩) main_call0_v1) (TRef.of (T := ⟨S800000, .i32⟩) main_v3) (TRef.of (T := ⟨S800000, .i32⟩) main_v5) maxsi ]

abbrev head2 : List (HloOp τ sig (Elt F)) :=
  [ nullary main_c_1 (constantI S_ 32 0#32),
    unary main_c_1 main_v6 (broadcastInDim S800000 ![] bcast_S_S800000 : (⟨S_, .i32⟩ : BufTy).Contents (Elt F) → (⟨S800000, .i32⟩ : BufTy).Contents (Elt F)),
    binary main_v5 main_v6 main_v7 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v8 (broadcastInDim S800000 ![] bcast_S_S800000 : (⟨S_, .i32⟩ : BufTy).Contents (Elt F) → (⟨S800000, .i32⟩ : BufTy).Contents (Elt F)),
    binary main_v5 main_v8 main_v9 (addi : (⟨S800000, .i32⟩ : BufTy).Contents (Elt F) → (⟨S800000, .i32⟩ : BufTy).Contents (Elt F) → (⟨S800000, .i32⟩ : BufTy).Contents (Elt F)),
    ternary main_v7 main_v9 main_v5 main_v10 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v10 main_v11 (broadcastInDim S800000x1 ![0] bcast_S800000_S800000x1_0 : (⟨S800000, .i32⟩ : BufTy).Contents (Elt F) → (⟨S800000x1, .i32⟩ : BufTy).Contents (Elt F)),
    nullary main_c_3 (constantI S_ 32 1#32),
    unary main_c_3 main_v12 (broadcastInDim S800000 ![] bcast_S_S800000 : (⟨S_, .i32⟩ : BufTy).Contents (Elt F) → (⟨S800000, .i32⟩ : BufTy).Contents (Elt F)),
    ternary main_v4 main_v11 main_v12 main_v13 ((fun x i u => Host.scatter scatter_S50000_S800000x1_S800000_n_0_0_1 IntOp.addi x i u) : (⟨S50000, .i32⟩ : BufTy).Contents (Elt F) → (⟨S800000x1, .i32⟩ : BufTy).Contents (Elt F) → (⟨S800000, .i32⟩ : BufTy).Contents (Elt F) → (⟨S50000, .i32⟩ : BufTy).Contents (Elt F)),
    nullary main_c_4 (constantI S_ 32 1#32) ]

abbrev head3 : List (HloOp τ sig (Elt F)) :=
  [ TRef.unary (TRef.of (T := ⟨S_, .i32⟩) main_c_4) (TRef.of (T := ⟨S_, .i32⟩) main_call1_v0) id,
    TRef.unary (TRef.of (T := ⟨S_, .i32⟩) main_call1_v0) (TRef.of (T := ⟨S50000, .i32⟩) main_call1_v1) (broadcastInDim S50000 ![] bcast_S_S50000),
    TRef.binary (TRef.of (T := ⟨S50000, .i32⟩) main_call1_v1) (TRef.of (T := ⟨S50000, .i32⟩) main_v13) (TRef.of (T := ⟨S50000, .i32⟩) main_v14) maxsi ]

abbrev head4 : List (HloOp τ sig (Elt F)) :=
  [ unary main_v14 main_v15 (sitofp .f32 : (⟨S50000, .i32⟩ : BufTy).Contents (Elt F) → (⟨S50000, .f32⟩ : BufTy).Contents (Elt F)),
    unary main_v15 main_v16 (broadcastInDim S50000x1 ![0] bcast_S50000_S50000x1_0 : (⟨S50000, .f32⟩ : BufTy).Contents (Elt F) → (⟨S50000x1, .f32⟩ : BufTy).Contents (Elt F)) ]

theorem opsHead_eq : (opsHead : List (HloOp τ sig (Elt F))) = head0 ++ (head1 ++ (head2 ++ (head3 ++ head4))) := rfl

theorem ops_cut : (ops : List (HloOp τ sig (Elt F))) = opsHead ++ (ops : List (HloOp τ sig (Elt F))).drop 27 := rfl

section Stretches
variable (V : Valuation τ sig (Elt F))

theorem a0_v3 :
    after (head0 (F := F)) V (Proc.devRef .tc main_v3) = val_main_v3 (F := F) (V (Proc.devRef .tc main_arg5)) := by
  after_results
  simp only [cast_eq]
  rfl

theorem a0_v4 :
    after (head0 (F := F)) V (Proc.devRef .tc main_v4) = val_main_v4 (F := F) := by
  after_results
  rfl

theorem a0_c_0 :
    after (head0 (F := F)) V (Proc.devRef .tc main_c_0) = val_main_c_0 (F := F) := by
  after_results
  rfl

theorem a1_v5 (x5 : (⟨S2x800000, .i32⟩ : BufTy).Contents (Elt F)) (h0 : V (Proc.devRef .tc main_c_0) = val_main_c_0 (F := F))
    (h3 : V (Proc.devRef .tc main_v3) = val_main_v3 (F := F) x5) :
    after (head1 (F := F)) V (Proc.devRef .tc main_v5) = val_main_v5 (F := F) x5 := by
  after_results
  simp only [TRef.ofBuf, TRef.toBuf, cast_eq]
  rw [h0, h3]
  rfl

theorem a2_v13 (x5 : (⟨S2x800000, .i32⟩ : BufTy).Contents (Elt F)) (h4 : V (Proc.devRef .tc main_v4) = val_main_v4 (F := F))
    (h5 : V (Proc.devRef .tc main_v5) = val_main_v5 (F := F) x5) :
    after (head2 (F := F)) V (Proc.devRef .tc main_v13) = val_main_v13 (F := F) x5 := by
  after_results
  rw [h4, h5]
  rfl

theorem a2_c_4 :
    after (head2 (F := F)) V (Proc.devRef .tc main_c_4) = val_main_c_4 (F := F) := by
  after_results
  rfl

theorem a3_v14 (x5 : (⟨S2x800000, .i32⟩ : BufTy).Contents (Elt F)) (hc : V (Proc.devRef .tc main_c_4) = val_main_c_4 (F := F))
    (h13 : V (Proc.devRef .tc main_v13) = val_main_v13 (F := F) x5) :
    after (head3 (F := F)) V (Proc.devRef .tc main_v14) = val_main_v14 (F := F) x5 := by
  after_results
  simp only [TRef.ofBuf, TRef.toBuf, cast_eq]
  rw [hc, h13]
  rfl

theorem a4_v16 (x5 : (⟨S2x800000, .i32⟩ : BufTy).Contents (Elt F)) (h14 : V (Proc.devRef .tc main_v14) = val_main_v14 (F := F) x5) :
    after (head4 (F := F)) V (Proc.devRef .tc main_v16) = val_main_v16 (F := F) x5 := by
  after_results
  rw [h14]
  rfl

theorem a1_v4 : after (head1 (F := F)) V (Proc.devRef .tc main_v4) = V (Proc.devRef .tc main_v4) := by
  unwritten head1

theorem head_v16 :
    after (opsHead (F := F)) V (Proc.devRef .tc main_v16) = val_main_v16 (F := F) (V (Proc.devRef .tc main_arg5)) := by
  rw [opsHead_eq, StableHlo.after_append, StableHlo.after_append, StableHlo.after_append, StableHlo.after_append]
  exact a4_v16 _ _ (a3_v14 _ _ (a2_c_4 _) (a2_v13 _ _ ((a1_v4 _).trans (a0_v4 V)) (a1_v5 _ _ (a0_c_0 V) (a0_v3 V))))

theorem head_v1 :
    after (opsHead (F := F)) V (Proc.devRef .tc main_v1) = val_main_v1 (F := F) (V (Proc.devRef .tc main_arg5)) := by
  after_results
  simp only [cast_eq]
  rfl

theorem head_v3 :
    after (opsHead (F := F)) V (Proc.devRef .tc main_v3) = val_main_v3 (F := F) (V (Proc.devRef .tc main_arg5)) := by
  after_results
  simp only [cast_eq]
  rfl

theorem head_arg0 : after (opsHead (F := F)) V (Proc.devRef .tc main_arg0) = V (Proc.devRef .tc main_arg0) := by unwritten opsHead
theorem head_arg1 : after (opsHead (F := F)) V (Proc.devRef .tc main_arg1) = V (Proc.devRef .tc main_arg1) := by unwritten opsHead
theorem head_arg2 : after (opsHead (F := F)) V (Proc.devRef .tc main_arg2) = V (Proc.devRef .tc main_arg2) := by unwritten opsHead
theorem head_arg3 : after (opsHead (F := F)) V (Proc.devRef .tc main_arg3) = V (Proc.devRef .tc main_arg3) := by unwritten opsHead
theorem head_arg4 : after (opsHead (F := F)) V (Proc.devRef .tc main_arg4) = V (Proc.devRef .tc main_arg4) := by unwritten opsHead
theorem head_arg5 : after (opsHead (F := F)) V (Proc.devRef .tc main_arg5) = V (Proc.devRef .tc main_arg5) := by unwritten opsHead
theorem head_arg6 : after (opsHead (F := F)) V (Proc.devRef .tc main_arg6) = V (Proc.devRef .tc main_arg6) := by unwritten opsHead

end Stretches

def HeldHead (V : Valuation τ sig (Elt F)) (x0 : (⟨S50000x128, .f32⟩ : BufTy).Contents (Elt F))
    (x1 : (⟨S3x128x128, .f32⟩ : BufTy).Contents (Elt F)) (x2 : (⟨S3x128, .f32⟩ : BufTy).Contents (Elt F))
    (x3 : (⟨S3x128x128, .f32⟩ : BufTy).Contents (Elt F)) (x4 : (⟨S3x128, .f32⟩ : BufTy).Contents (Elt F))
    (x5 : (⟨S2x800000, .i32⟩ : BufTy).Contents (Elt F)) (x6 : (⟨S50000, .i32⟩ : BufTy).Contents (Elt F)) : Prop :=
  V (Proc.devRef .tc main_v1) = val_main_v1 (F := F) x5 ∧ V (Proc.devRef .tc main_v3) = val_main_v3 (F := F) x5
  ∧ V (Proc.devRef .tc main_v16) = val_main_v16 (F := F) x5
  ∧ V (Proc.devRef .tc main_arg0) = x0 ∧ V (Proc.devRef .tc main_arg1) = x1 ∧ V (Proc.devRef .tc main_arg2) = x2
  ∧ V (Proc.devRef .tc main_arg3) = x3 ∧ V (Proc.devRef .tc main_arg4) = x4 ∧ V (Proc.devRef .tc main_arg6) = x6

theorem head (V : Valuation τ sig (Elt F)) (x0 : (⟨S50000x128, .f32⟩ : BufTy).Contents (Elt F))
    (x1 : (⟨S3x128x128, .f32⟩ : BufTy).Contents (Elt F)) (x2 : (⟨S3x128, .f32⟩ : BufTy).Contents (Elt F))
    (x3 : (⟨S3x128x128, .f32⟩ : BufTy).Contents (Elt F)) (x4 : (⟨S3x128, .f32⟩ : BufTy).Contents (Elt F))
    (x5 : (⟨S2x800000, .i32⟩ : BufTy).Contents (Elt F)) (x6 : (⟨S50000, .i32⟩ : BufTy).Contents (Elt F))
    (h0 : V (Proc.devRef .tc main_arg0) = x0) (h1 : V (Proc.devRef .tc main_arg1) = x1)
    (h2 : V (Proc.devRef .tc main_arg2) = x2) (h3 : V (Proc.devRef .tc main_arg3) = x3)
    (h4 : V (Proc.devRef .tc main_arg4) = x4) (h5 : V (Proc.devRef .tc main_arg5) = x5)
    (h6 : V (Proc.devRef .tc main_arg6) = x6) :
    HeldHead (after (opsHead (F := F)) V) x0 x1 x2 x3 x4 x5 x6 := by
  unfold HeldHead
  exact ⟨by rw [head_v1 V, h5], by rw [head_v3 V, h5], by rw [head_v16 V, h5],
    (head_arg0 V).trans h0, (head_arg1 V).trans h1, (head_arg2 V).trans h2, (head_arg3 V).trans h3,
    (head_arg4 V).trans h4, (head_arg6 V).trans h6⟩

end Cert.ReferenceIdeal.RunHead

end
-- ==== Proof.RefRunLayers.lean ====
import proofs.«416123_j75222057222468_1_alg».proof.Proof.RefOps
import proofs.«416123_j75222057222468_1_alg».proof.Proof.RefStages
import proofs.«416123_j75222057222468_1_alg».proof.Proof.RefRunHead

set_option Elab.async false

noncomputable section

namespace Cert.ReferenceIdeal.RunLayers

open Cert.ReferenceIdeal Cert.ReferenceIdeal.Gen Idealize.ShloMosaic Idealize.ShloMosaic.TcCoe Idealize.SL.Sem Idealize.ShloMosaic.StableHlo
open Cert.ReferenceIdeal.Read
open Cert.ReferenceIdeal.RunHead (HeldHead)

variable {F : FTy → Type} [FloatOps F]

abbrev opsA : List (HloOp τ sig (Elt F)) := ((Value.ops (F := F)).drop 27).take 35

abbrev opsB : List (HloOp τ sig (Elt F)) := ((Value.ops (F := F)).drop 62).take 35

abbrev opsC : List (HloOp τ sig (Elt F)) := ((Value.ops (F := F)).drop 97).take 35

section Stretches

variable (V : Valuation τ sig (Elt F))
  (x0 : (⟨S50000x128, .f32⟩ : BufTy).Contents (Elt F)) (x1 : (⟨S3x128x128, .f32⟩ : BufTy).Contents (Elt F))
  (x2 : (⟨S3x128, .f32⟩ : BufTy).Contents (Elt F)) (x3 : (⟨S3x128x128, .f32⟩ : BufTy).Contents (Elt F))
  (x4 : (⟨S3x128, .f32⟩ : BufTy).Contents (Elt F)) (x5 : (⟨S2x800000, .i32⟩ : BufTy).Contents (Elt F))
  (x6 : (⟨S50000, .i32⟩ : BufTy).Contents (Elt F))

def HeldA : Prop :=
  V (Proc.devRef .tc main_v46) = val_main_v46 (F := F) x0 x1 x2 x3 x4 x5
  ∧ V (Proc.devRef .tc main_v1) = val_main_v1 (F := F) x5
  ∧ V (Proc.devRef .tc main_v3) = val_main_v3 (F := F) x5
  ∧ V (Proc.devRef .tc main_v16) = val_main_v16 (F := F) x5
  ∧ V (Proc.devRef .tc main_arg1) = x1 ∧ V (Proc.devRef .tc main_arg2) = x2 ∧ V (Proc.devRef .tc main_arg3) = x3
  ∧ V (Proc.devRef .tc main_arg4) = x4 ∧ V (Proc.devRef .tc main_arg6) = x6

def HeldB : Prop :=
  V (Proc.devRef .tc main_v76) = val_main_v76 (F := F) x0 x1 x2 x3 x4 x5
  ∧ V (Proc.devRef .tc main_v1) = val_main_v1 (F := F) x5
  ∧ V (Proc.devRef .tc main_v3) = val_main_v3 (F := F) x5
  ∧ V (Proc.devRef .tc main_v16) = val_main_v16 (F := F) x5
  ∧ V (Proc.devRef .tc main_arg1) = x1 ∧ V (Proc.devRef .tc main_arg2) = x2 ∧ V (Proc.devRef .tc main_arg3) = x3
  ∧ V (Proc.devRef .tc main_arg4) = x4 ∧ V (Proc.devRef .tc main_arg6) = x6

def HeldC : Prop :=
  V (Proc.devRef .tc main_v106) = val_main_v106 (F := F) x0 x1 x2 x3 x4 x5 ∧ V (Proc.devRef .tc main_arg6) = x6

set_option maxHeartbeats 4000000 in

theorem layerA (h : HeldHead V x0 x1 x2 x3 x4 x5 x6) : HeldA (after opsA V) x0 x1 x2 x3 x4 x5 x6 := by
  obtain ⟨hs, ht, hg, h0, h1, h2, h3, h4, h6⟩ := h
  unfold HeldA
  simp only [opsA, Value.ops, List.drop_succ_cons, List.drop_zero, List.take_succ_cons, List.take_zero]
  exact
  ⟨by
    after_results_simp
    simp only [TRef.ofBuf, TRef.toBuf, cast_eq]
    simp only [hs, ht, hg, h0, h1, h2, h3, h4]
    rfl,
   by after_results_simp; exact hs, by after_results_simp; exact ht, by after_results_simp; exact hg,
   by after_results_simp; exact h1, by after_results_simp; exact h2, by after_results_simp; exact h3, by after_results_simp; exact h4, by after_results_simp; exact h6⟩

set_option maxHeartbeats 4000000 in

theorem layerB (h : HeldA V x0 x1 x2 x3 x4 x5 x6) : HeldB (after opsB V) x0 x1 x2 x3 x4 x5 x6 := by
  obtain ⟨hx, hs, ht, hg, h1, h2, h3, h4, h6⟩ := h
  unfold HeldB
  simp only [opsB, Value.ops, List.drop_succ_cons, List.drop_zero, List.take_succ_cons, List.take_zero]
  exact
  ⟨by
    after_results_simp
    simp only [TRef.ofBuf, TRef.toBuf, cast_eq]
    simp only [hx, hs, ht, hg, h1, h2, h3, h4]
    rfl,
   by after_results_simp; exact hs, by after_results_simp; exact ht, by after_results_simp; exact hg,
   by after_results_simp; exact h1, by after_results_simp; exact h2, by after_results_simp; exact h3, by after_results_simp; exact h4, by after_results_simp; exact h6⟩

set_option maxHeartbeats 4000000 in

theorem layerC (h : HeldB V x0 x1 x2 x3 x4 x5 x6) : HeldC (after opsC V) x0 x1 x2 x3 x4 x5 x6 := by
  obtain ⟨hx, hs, ht, hg, h1, h2, h3, h4, h6⟩ := h
  unfold HeldC
  simp only [opsC, Value.ops, List.drop_succ_cons, List.drop_zero, List.take_succ_cons, List.take_zero]
  exact
  ⟨by
    after_results_simp
    simp only [TRef.ofBuf, TRef.toBuf, cast_eq]
    simp only [hx, hs, ht, hg, h1, h2, h3, h4]
    rfl,
   by after_results_simp; exact h6⟩

set_option maxHeartbeats 4000000 in

theorem layerA_args :
    after (opsA (F := F)) V (Proc.devRef .tc main_arg0) = V (Proc.devRef .tc main_arg0)
    ∧ after (opsA (F := F)) V (Proc.devRef .tc main_arg1) = V (Proc.devRef .tc main_arg1)
    ∧ after (opsA (F := F)) V (Proc.devRef .tc main_arg2) = V (Proc.devRef .tc main_arg2)
    ∧ after (opsA (F := F)) V (Proc.devRef .tc main_arg3) = V (Proc.devRef .tc main_arg3)
    ∧ after (opsA (F := F)) V (Proc.devRef .tc main_arg4) = V (Proc.devRef .tc main_arg4)
    ∧ after (opsA (F := F)) V (Proc.devRef .tc main_arg5) = V (Proc.devRef .tc main_arg5)
    ∧ after (opsA (F := F)) V (Proc.devRef .tc main_arg6) = V (Proc.devRef .tc main_arg6) :=
  by
  simp only [opsA, Value.ops, List.drop_succ_cons, List.drop_zero, List.take_succ_cons, List.take_zero]
  exact ⟨by after_results_simp, by after_results_simp, by after_results_simp, by after_results_simp,
   by after_results_simp, by after_results_simp, by after_results_simp⟩

set_option maxHeartbeats 4000000 in

theorem layerB_args :
    after (opsB (F := F)) V (Proc.devRef .tc main_arg0) = V (Proc.devRef .tc main_arg0)
    ∧ after (opsB (F := F)) V (Proc.devRef .tc main_arg1) = V (Proc.devRef .tc main_arg1)
    ∧ after (opsB (F := F)) V (Proc.devRef .tc main_arg2) = V (Proc.devRef .tc main_arg2)
    ∧ after (opsB (F := F)) V (Proc.devRef .tc main_arg3) = V (Proc.devRef .tc main_arg3)
    ∧ after (opsB (F := F)) V (Proc.devRef .tc main_arg4) = V (Proc.devRef .tc main_arg4)
    ∧ after (opsB (F := F)) V (Proc.devRef .tc main_arg5) = V (Proc.devRef .tc main_arg5)
    ∧ after (opsB (F := F)) V (Proc.devRef .tc main_arg6) = V (Proc.devRef .tc main_arg6) :=
  by
  simp only [opsB, Value.ops, List.drop_succ_cons, List.drop_zero, List.take_succ_cons, List.take_zero]
  exact ⟨by after_results_simp, by after_results_simp, by after_results_simp, by after_results_simp,
   by after_results_simp, by after_results_simp, by after_results_simp⟩

set_option maxHeartbeats 4000000 in

theorem layerC_args :
    after (opsC (F := F)) V (Proc.devRef .tc main_arg0) = V (Proc.devRef .tc main_arg0)
    ∧ after (opsC (F := F)) V (Proc.devRef .tc main_arg1) = V (Proc.devRef .tc main_arg1)
    ∧ after (opsC (F := F)) V (Proc.devRef .tc main_arg2) = V (Proc.devRef .tc main_arg2)
    ∧ after (opsC (F := F)) V (Proc.devRef .tc main_arg3) = V (Proc.devRef .tc main_arg3)
    ∧ after (opsC (F := F)) V (Proc.devRef .tc main_arg4) = V (Proc.devRef .tc main_arg4)
    ∧ after (opsC (F := F)) V (Proc.devRef .tc main_arg5) = V (Proc.devRef .tc main_arg5)
    ∧ after (opsC (F := F)) V (Proc.devRef .tc main_arg6) = V (Proc.devRef .tc main_arg6) :=
  by
  simp only [opsC, Value.ops, List.drop_succ_cons, List.drop_zero, List.take_succ_cons, List.take_zero]
  exact ⟨by after_results_simp, by after_results_simp, by after_results_simp, by after_results_simp,
   by after_results_simp, by after_results_simp, by after_results_simp⟩

end Stretches

end Cert.ReferenceIdeal.RunLayers

end
-- ==== Proof.RefRunTail.lean ====
import proofs.«416123_j75222057222468_1_alg».proof.Proof.RefOps
import proofs.«416123_j75222057222468_1_alg».proof.Proof.RefStages
import Idealize.ShloMosaic.Lib.Pipeline.Frame

noncomputable section

namespace Cert.ReferenceIdeal.RunTail

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

local macro "unwritten " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

abbrev opsTail : List (HloOp τ sig (Elt F)) :=
  [ nullary main_cst_13 (constant S_ .f32 0x00000000#32),
    unary main_cst_13 main_v107 (broadcastInDim S64x128 ![] bcast_S_S64x128 : (⟨S_, .f32⟩ : BufTy).Contents (Elt F) → (⟨S64x128, .f32⟩ : BufTy).Contents (Elt F)),
    unary main_arg6 main_v108 (broadcastInDim S50000x1 ![0] bcast_S50000_S50000x1_0 : (⟨S50000, .i32⟩ : BufTy).Contents (Elt F) → (⟨S50000x1, .i32⟩ : BufTy).Contents (Elt F)),
    ternary main_v107 main_v108 main_v106 main_v109 ((fun x i u => Host.scatterAdd scatter_S64x128_S50000x1_S50000x128_1_0_0_1 x i u) : (⟨S64x128, .f32⟩ : BufTy).Contents (Elt F) → (⟨S50000x1, .i32⟩ : BufTy).Contents (Elt F) → (⟨S50000x128, .f32⟩ : BufTy).Contents (Elt F) → (⟨S64x128, .f32⟩ : BufTy).Contents (Elt F)),
    nullary main_c_14 (constantI S_ 32 0#32),
    unary main_c_14 main_v110 (broadcastInDim S64 ![] bcast_S_S64 : (⟨S_, .i32⟩ : BufTy).Contents (Elt F) → (⟨S64, .i32⟩ : BufTy).Contents (Elt F)),
    nullary main_c_15 (constantI S_ 32 0#32),
    TRef.unary (TRef.of (T := ⟨S_, .i32⟩) main_c_15) (TRef.of (T := ⟨S_, .i32⟩) main_call5_v0) id,
    TRef.unary (TRef.of (T := ⟨S_, .i32⟩) main_call5_v0) (TRef.of (T := ⟨S50000, .i32⟩) main_call5_v1) (broadcastInDim S50000 ![] bcast_S_S50000),
    TRef.binary (TRef.of (T := ⟨S50000, .i32⟩) main_call5_v1) (TRef.of (T := ⟨S50000, .i32⟩) main_arg6) (TRef.of (T := ⟨S50000, .i32⟩) main_v111) maxsi,
    nullary main_c_16 (constantI S_ 32 0#32),
    unary main_c_16 main_v112 (broadcastInDim S50000 ![] bcast_S_S50000 : (⟨S_, .i32⟩ : BufTy).Contents (Elt F) → (⟨S50000, .i32⟩ : BufTy).Contents (Elt F)),
    binary main_v111 main_v112 main_v113 (cmpi .slt : (⟨S50000, .i32⟩ : BufTy).Contents (Elt F) → (⟨S50000, .i32⟩ : BufTy).Contents (Elt F) → (⟨S50000, .i1⟩ : BufTy).Contents (Elt F)),
    nullary main_c_17 (constantI S_ 32 64#32),
    unary main_c_17 main_v114 (broadcastInDim S50000 ![] bcast_S_S50000 : (⟨S_, .i32⟩ : BufTy).Contents (Elt F) → (⟨S50000, .i32⟩ : BufTy).Contents (Elt F)),
    binary main_v111 main_v114 main_v115 (addi : (⟨S50000, .i32⟩ : BufTy).Contents (Elt F) → (⟨S50000, .i32⟩ : BufTy).Contents (Elt F) → (⟨S50000, .i32⟩ : BufTy).Contents (Elt F)),
    ternary main_v113 main_v115 main_v111 main_v116 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v116 main_v117 (broadcastInDim S50000x1 ![0] bcast_S50000_S50000x1_0 : (⟨S50000, .i32⟩ : BufTy).Contents (Elt F) → (⟨S50000x1, .i32⟩ : BufTy).Contents (Elt F)),
    nullary main_c_18 (constantI S_ 32 1#32),
    unary main_c_18 main_v118 (broadcastInDim S50000 ![] bcast_S_S50000 : (⟨S_, .i32⟩ : BufTy).Contents (Elt F) → (⟨S50000, .i32⟩ : BufTy).Contents (Elt F)),
    ternary main_v110 main_v117 main_v118 main_v119 ((fun x i u => Host.scatter scatter_S64_S50000x1_S50000_n_0_0_1 IntOp.addi x i u) : (⟨S64, .i32⟩ : BufTy).Contents (Elt F) → (⟨S50000x1, .i32⟩ : BufTy).Contents (Elt F) → (⟨S50000, .i32⟩ : BufTy).Contents (Elt F) → (⟨S64, .i32⟩ : BufTy).Contents (Elt F)),
    nullary main_c_19 (constantI S_ 32 1#32),
    TRef.unary (TRef.of (T := ⟨S_, .i32⟩) main_c_19) (TRef.of (T := ⟨S_, .i32⟩) main_call6_v0) id,
    TRef.unary (TRef.of (T := ⟨S_, .i32⟩) main_call6_v0) (TRef.of (T := ⟨S64, .i32⟩) main_call6_v1) (broadcastInDim S64 ![] bcast_S_S64),
    TRef.binary (TRef.of (T := ⟨S64, .i32⟩) main_call6_v1) (TRef.of (T := ⟨S64, .i32⟩) main_v119) (TRef.of (T := ⟨S64, .i32⟩) main_v120) maxsi,
    unary main_v120 main_v121 (sitofp .f32 : (⟨S64, .i32⟩ : BufTy).Contents (Elt F) → (⟨S64, .f32⟩ : BufTy).Contents (Elt F)),
    unary main_v121 main_v122 (broadcastInDim S64x1 ![0] bcast_S64_S64x1_0 : (⟨S64, .f32⟩ : BufTy).Contents (Elt F) → (⟨S64x1, .f32⟩ : BufTy).Contents (Elt F)),
    unary main_v122 main_v123 (broadcastInDim S64x128 ![0, 1] bcast_S64x1_S64x128_0_1 : (⟨S64x1, .f32⟩ : BufTy).Contents (Elt F) → (⟨S64x128, .f32⟩ : BufTy).Contents (Elt F)),
    binary main_v109 main_v123 main_v124 (Host.divf : (⟨S64x128, .f32⟩ : BufTy).Contents (Elt F) → (⟨S64x128, .f32⟩ : BufTy).Contents (Elt F) → (⟨S64x128, .f32⟩ : BufTy).Contents (Elt F)) ]

abbrev tail0 : List (HloOp τ sig (Elt F)) :=
  [ nullary main_cst_13 (constant S_ .f32 0x00000000#32),
    unary main_cst_13 main_v107 (broadcastInDim S64x128 ![] bcast_S_S64x128 : (⟨S_, .f32⟩ : BufTy).Contents (Elt F) → (⟨S64x128, .f32⟩ : BufTy).Contents (Elt F)),
    unary main_arg6 main_v108 (broadcastInDim S50000x1 ![0] bcast_S50000_S50000x1_0 : (⟨S50000, .i32⟩ : BufTy).Contents (Elt F) → (⟨S50000x1, .i32⟩ : BufTy).Contents (Elt F)),
    ternary main_v107 main_v108 main_v106 main_v109 ((fun x i u => Host.scatterAdd scatter_S64x128_S50000x1_S50000x128_1_0_0_1 x i u) : (⟨S64x128, .f32⟩ : BufTy).Contents (Elt F) → (⟨S50000x1, .i32⟩ : BufTy).Contents (Elt F) → (⟨S50000x128, .f32⟩ : BufTy).Contents (Elt F) → (⟨S64x128, .f32⟩ : BufTy).Contents (Elt F)),
    nullary main_c_14 (constantI S_ 32 0#32),
    unary main_c_14 main_v110 (broadcastInDim S64 ![] bcast_S_S64 : (⟨S_, .i32⟩ : BufTy).Contents (Elt F) → (⟨S64, .i32⟩ : BufTy).Contents (Elt F)),
    nullary main_c_15 (constantI S_ 32 0#32) ]

abbrev tail1 : List (HloOp τ sig (Elt F)) :=
  [ TRef.unary (TRef.of (T := ⟨S_, .i32⟩) main_c_15) (TRef.of (T := ⟨S_, .i32⟩) main_call5_v0) id,
    TRef.unary (TRef.of (T := ⟨S_, .i32⟩) main_call5_v0) (TRef.of (T := ⟨S50000, .i32⟩) main_call5_v1) (broadcastInDim S50000 ![] bcast_S_S50000),
    TRef.binary (TRef.of (T := ⟨S50000, .i32⟩) main_call5_v1) (TRef.of (T := ⟨S50000, .i32⟩) main_arg6) (TRef.of (T := ⟨S50000, .i32⟩) main_v111) maxsi ]

abbrev tail2 : List (HloOp τ sig (Elt F)) :=
  [ nullary main_c_16 (constantI S_ 32 0#32),
    unary main_c_16 main_v112 (broadcastInDim S50000 ![] bcast_S_S50000 : (⟨S_, .i32⟩ : BufTy).Contents (Elt F) → (⟨S50000, .i32⟩ : BufTy).Contents (Elt F)),
    binary main_v111 main_v112 main_v113 (cmpi .slt : (⟨S50000, .i32⟩ : BufTy).Contents (Elt F) → (⟨S50000, .i32⟩ : BufTy).Contents (Elt F) → (⟨S50000, .i1⟩ : BufTy).Contents (Elt F)),
    nullary main_c_17 (constantI S_ 32 64#32),
    unary main_c_17 main_v114 (broadcastInDim S50000 ![] bcast_S_S50000 : (⟨S_, .i32⟩ : BufTy).Contents (Elt F) → (⟨S50000, .i32⟩ : BufTy).Contents (Elt F)),
    binary main_v111 main_v114 main_v115 (addi : (⟨S50000, .i32⟩ : BufTy).Contents (Elt F) → (⟨S50000, .i32⟩ : BufTy).Contents (Elt F) → (⟨S50000, .i32⟩ : BufTy).Contents (Elt F)),
    ternary main_v113 main_v115 main_v111 main_v116 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v116 main_v117 (broadcastInDim S50000x1 ![0] bcast_S50000_S50000x1_0 : (⟨S50000, .i32⟩ : BufTy).Contents (Elt F) → (⟨S50000x1, .i32⟩ : BufTy).Contents (Elt F)),
    nullary main_c_18 (constantI S_ 32 1#32),
    unary main_c_18 main_v118 (broadcastInDim S50000 ![] bcast_S_S50000 : (⟨S_, .i32⟩ : BufTy).Contents (Elt F) → (⟨S50000, .i32⟩ : BufTy).Contents (Elt F)),
    ternary main_v110 main_v117 main_v118 main_v119 ((fun x i u => Host.scatter scatter_S64_S50000x1_S50000_n_0_0_1 IntOp.addi x i u) : (⟨S64, .i32⟩ : BufTy).Contents (Elt F) → (⟨S50000x1, .i32⟩ : BufTy).Contents (Elt F) → (⟨S50000, .i32⟩ : BufTy).Contents (Elt F) → (⟨S64, .i32⟩ : BufTy).Contents (Elt F)),
    nullary main_c_19 (constantI S_ 32 1#32) ]

abbrev tail3 : List (HloOp τ sig (Elt F)) :=
  [ TRef.unary (TRef.of (T := ⟨S_, .i32⟩) main_c_19) (TRef.of (T := ⟨S_, .i32⟩) main_call6_v0) id,
    TRef.unary (TRef.of (T := ⟨S_, .i32⟩) main_call6_v0) (TRef.of (T := ⟨S64, .i32⟩) main_call6_v1) (broadcastInDim S64 ![] bcast_S_S64),
    TRef.binary (TRef.of (T := ⟨S64, .i32⟩) main_call6_v1) (TRef.of (T := ⟨S64, .i32⟩) main_v119) (TRef.of (T := ⟨S64, .i32⟩) main_v120) maxsi ]

abbrev tail4 : List (HloOp τ sig (Elt F)) :=
  [ unary main_v120 main_v121 (sitofp .f32 : (⟨S64, .i32⟩ : BufTy).Contents (Elt F) → (⟨S64, .f32⟩ : BufTy).Contents (Elt F)),
    unary main_v121 main_v122 (broadcastInDim S64x1 ![0] bcast_S64_S64x1_0 : (⟨S64, .f32⟩ : BufTy).Contents (Elt F) → (⟨S64x1, .f32⟩ : BufTy).Contents (Elt F)),
    unary main_v122 main_v123 (broadcastInDim S64x128 ![0, 1] bcast_S64x1_S64x128_0_1 : (⟨S64x1, .f32⟩ : BufTy).Contents (Elt F) → (⟨S64x128, .f32⟩ : BufTy).Contents (Elt F)),
    binary main_v109 main_v123 main_v124 (Host.divf : (⟨S64x128, .f32⟩ : BufTy).Contents (Elt F) → (⟨S64x128, .f32⟩ : BufTy).Contents (Elt F) → (⟨S64x128, .f32⟩ : BufTy).Contents (Elt F)) ]

theorem opsTail_eq : (opsTail : List (HloOp τ sig (Elt F))) = tail0 ++ (tail1 ++ (tail2 ++ (tail3 ++ tail4))) := rfl

section Stretches
variable (V : Valuation τ sig (Elt F))
  (x0 : (⟨S50000x128, .f32⟩ : BufTy).Contents (Elt F)) (x1 : (⟨S3x128x128, .f32⟩ : BufTy).Contents (Elt F))
  (x2 : (⟨S3x128, .f32⟩ : BufTy).Contents (Elt F)) (x3 : (⟨S3x128x128, .f32⟩ : BufTy).Contents (Elt F))
  (x4 : (⟨S3x128, .f32⟩ : BufTy).Contents (Elt F)) (x5 : (⟨S2x800000, .i32⟩ : BufTy).Contents (Elt F))
  (x6 : (⟨S50000, .i32⟩ : BufTy).Contents (Elt F))

theorem t0_v109 (h6 : V (Proc.devRef .tc main_arg6) = x6)
    (h106 : V (Proc.devRef .tc main_v106) = val_main_v106 (F := F) x0 x1 x2 x3 x4 x5) :
    after (tail0 (F := F)) V (Proc.devRef .tc main_v109) = val_main_v109 (F := F) x0 x1 x2 x3 x4 x5 x6 := by
  after_results
  rw [h6, h106]
  rfl

theorem t0_v110 :
    after (tail0 (F := F)) V (Proc.devRef .tc main_v110) = val_main_v110 (F := F) := by
  after_results
  rfl

theorem t0_c_15 :
    after (tail0 (F := F)) V (Proc.devRef .tc main_c_15) = val_main_c_15 (F := F) := by
  after_results
  rfl

theorem t1_v111 (hc : V (Proc.devRef .tc main_c_15) = val_main_c_15 (F := F))
    (h6 : V (Proc.devRef .tc main_arg6) = x6) :
    after (tail1 (F := F)) V (Proc.devRef .tc main_v111) = val_main_v111 (F := F) x6 := by
  after_results
  simp only [TRef.ofBuf, TRef.toBuf, cast_eq]
  rw [hc, h6]
  rfl

theorem t2_v119 (h110 : V (Proc.devRef .tc main_v110) = val_main_v110 (F := F))
    (h111 : V (Proc.devRef .tc main_v111) = val_main_v111 (F := F) x6) :
    after (tail2 (F := F)) V (Proc.devRef .tc main_v119) = val_main_v119 (F := F) x6 := by
  after_results
  rw [h110, h111]
  rfl

theorem t2_c_19 :
    after (tail2 (F := F)) V (Proc.devRef .tc main_c_19) = val_main_c_19 (F := F) := by
  after_results
  rfl

theorem t3_v120 (hc : V (Proc.devRef .tc main_c_19) = val_main_c_19 (F := F))
    (h119 : V (Proc.devRef .tc main_v119) = val_main_v119 (F := F) x6) :
    after (tail3 (F := F)) V (Proc.devRef .tc main_v120) = val_main_v120 (F := F) x6 := by
  after_results
  simp only [TRef.ofBuf, TRef.toBuf, cast_eq]
  rw [hc, h119]
  rfl

theorem t4_v124 (h120 : V (Proc.devRef .tc main_v120) = val_main_v120 (F := F) x6)
    (h109 : V (Proc.devRef .tc main_v109) = val_main_v109 (F := F) x0 x1 x2 x3 x4 x5 x6) :
    after (tail4 (F := F)) V (Proc.devRef .tc main_v124) = val_main_v124 (F := F) x0 x1 x2 x3 x4 x5 x6 := by
  after_results
  rw [h120, h109]
  rfl

theorem keep0_arg6 : after (tail0 (F := F)) V (Proc.devRef .tc main_arg6) = V (Proc.devRef .tc main_arg6) := by unwritten tail0
theorem keep1_v109 : after (tail1 (F := F)) V (Proc.devRef .tc main_v109) = V (Proc.devRef .tc main_v109) := by unwritten tail1
theorem keep1_v110 : after (tail1 (F := F)) V (Proc.devRef .tc main_v110) = V (Proc.devRef .tc main_v110) := by unwritten tail1
theorem keep2_v109 : after (tail2 (F := F)) V (Proc.devRef .tc main_v109) = V (Proc.devRef .tc main_v109) := by unwritten tail2
theorem keep3_v109 : after (tail3 (F := F)) V (Proc.devRef .tc main_v109) = V (Proc.devRef .tc main_v109) := by unwritten tail3

theorem tail_arg0 : after (opsTail (F := F)) V (Proc.devRef .tc main_arg0) = V (Proc.devRef .tc main_arg0) := by unwritten opsTail
theorem tail_arg1 : after (opsTail (F := F)) V (Proc.devRef .tc main_arg1) = V (Proc.devRef .tc main_arg1) := by unwritten opsTail
theorem tail_arg2 : after (opsTail (F := F)) V (Proc.devRef .tc main_arg2) = V (Proc.devRef .tc main_arg2) := by unwritten opsTail
theorem tail_arg3 : after (opsTail (F := F)) V (Proc.devRef .tc main_arg3) = V (Proc.devRef .tc main_arg3) := by unwritten opsTail
theorem tail_arg4 : after (opsTail (F := F)) V (Proc.devRef .tc main_arg4) = V (Proc.devRef .tc main_arg4) := by unwritten opsTail
theorem tail_arg5 : after (opsTail (F := F)) V (Proc.devRef .tc main_arg5) = V (Proc.devRef .tc main_arg5) := by unwritten opsTail
theorem tail_arg6 : after (opsTail (F := F)) V (Proc.devRef .tc main_arg6) = V (Proc.devRef .tc main_arg6) := by unwritten opsTail

theorem tail (h106 : V (Proc.devRef .tc main_v106) = val_main_v106 (F := F) x0 x1 x2 x3 x4 x5)
    (h6 : V (Proc.devRef .tc main_arg6) = x6) :
    after (opsTail (F := F)) V (Proc.devRef .tc main_v124) = val_main_v124 (F := F) x0 x1 x2 x3 x4 x5 x6 := by
  rw [opsTail_eq, StableHlo.after_append, StableHlo.after_append, StableHlo.after_append, StableHlo.after_append]
  have e109 := t0_v109 V x0 x1 x2 x3 x4 x5 x6 h6 h106
  have e111 := t1_v111 (after (tail0 (F := F)) V) x6 (t0_c_15 V) ((keep0_arg6 V).trans h6)
  have e119 := t2_v119 (after (tail1 (F := F)) (after (tail0 (F := F)) V)) x6 ((keep1_v110 _).trans (t0_v110 V)) e111
  have e120 := t3_v120 (after (tail2 (F := F)) (after (tail1 (F := F)) (after (tail0 (F := F)) V))) x6 (t2_c_19 _) e119
  exact t4_v124 _ x0 x1 x2 x3 x4 x5 x6 e120 ((keep3_v109 _).trans ((keep2_v109 _).trans ((keep1_v109 _).trans e109)))

end Stretches

end Cert.ReferenceIdeal.RunTail

end
-- ==== Proof.RefRunStaged.lean ====
import proofs.«416123_j75222057222468_1_alg».proof.Proof.RefOps
import proofs.«416123_j75222057222468_1_alg».proof.Proof.RefStages
import proofs.«416123_j75222057222468_1_alg».proof.Proof.RefRunHead
import proofs.«416123_j75222057222468_1_alg».proof.Proof.RefRunLayers
import proofs.«416123_j75222057222468_1_alg».proof.Proof.RefRunTail
import Idealize.ShloMosaic.Lib.Pipeline.Frame

set_option Elab.async false

noncomputable section

namespace Cert.ReferenceIdeal.RunStaged

open Cert.ReferenceIdeal Cert.ReferenceIdeal.Gen Idealize.ShloMosaic Idealize.ShloMosaic.TcCoe Idealize.SL.Sem Idealize.ShloMosaic.StableHlo
open Cert.ReferenceIdeal.Value (ops main_eq scopedRefs_eq scopedSems_eq ops_sub)
open Cert.ReferenceIdeal.Read
open Cert.ReferenceIdeal.RunHead (opsHead)
open Cert.ReferenceIdeal.RunLayers (opsA opsB opsC layerA layerB layerC layerA_args layerB_args layerC_args)
open Cert.ReferenceIdeal.RunTail (opsTail)

variable {F : FTy → Type} [FloatOps F]

set_option maxHeartbeats 4000000 in

theorem ops_cut : (ops : List (HloOp τ sig (Elt F))) = opsHead ++ (opsA ++ (opsB ++ (opsC ++ opsTail))) := by
  simp only [ops, opsHead, opsA, opsB, opsC, opsTail, List.drop_succ_cons, List.drop_zero, List.take_succ_cons, List.take_zero,
    List.cons_append, List.nil_append]

theorem after_main_v124 (m : (ℓ : Loc nD τ sig) → Buf (Elt F) ℓ) (c : Dev nD) :
    after (ops (F := F)) (launchContents m c) (Proc.devRef .tc main_v124)
      = val_main_v124 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have hH := RunHead.head (F := F) (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) rfl rfl rfl rfl rfl rfl rfl
  have hA := layerA _ _ _ _ _ _ _ _ hH
  have hB := layerB _ _ _ _ _ _ _ _ hA
  have hC := layerC _ _ _ _ _ _ _ _ hB
  rw [ops_cut, StableHlo.after_append, StableHlo.after_append, StableHlo.after_append, StableHlo.after_append]
  exact RunTail.tail _ _ _ _ _ _ _ _ hC.1 hC.2

theorem after_arg0 (m : (ℓ : Loc nD τ sig) → Buf (Elt F) ℓ) (c : Dev nD) :
    after (ops (F := F)) (launchContents m c) (Proc.devRef .tc main_arg0) = m ((c.tc : Thread nD τ).loc main_arg0) := by
  rw [ops_cut, StableHlo.after_append, StableHlo.after_append, StableHlo.after_append, StableHlo.after_append,
    RunTail.tail_arg0, (layerC_args _).1, (layerB_args _).1, (layerA_args _).1, RunHead.head_arg0]

theorem after_arg1 (m : (ℓ : Loc nD τ sig) → Buf (Elt F) ℓ) (c : Dev nD) :
    after (ops (F := F)) (launchContents m c) (Proc.devRef .tc main_arg1) = m ((c.tc : Thread nD τ).loc main_arg1) := by
  rw [ops_cut, StableHlo.after_append, StableHlo.after_append, StableHlo.after_append, StableHlo.after_append,
    RunTail.tail_arg1, (layerC_args _).2.1, (layerB_args _).2.1, (layerA_args _).2.1, RunHead.head_arg1]

theorem after_arg2 (m : (ℓ : Loc nD τ sig) → Buf (Elt F) ℓ) (c : Dev nD) :
    after (ops (F := F)) (launchContents m c) (Proc.devRef .tc main_arg2) = m ((c.tc : Thread nD τ).loc main_arg2) := by
  rw [ops_cut, StableHlo.after_append, StableHlo.after_append, StableHlo.after_append, StableHlo.after_append,
    RunTail.tail_arg2, (layerC_args _).2.2.1, (layerB_args _).2.2.1, (layerA_args _).2.2.1, RunHead.head_arg2]

theorem after_arg3 (m : (ℓ : Loc nD τ sig) → Buf (Elt F) ℓ) (c : Dev nD) :
    after (ops (F := F)) (launchContents m c) (Proc.devRef .tc main_arg3) = m ((c.tc : Thread nD τ).loc main_arg3) := by
  rw [ops_cut, StableHlo.after_append, StableHlo.after_append, StableHlo.after_append, StableHlo.after_append,
    RunTail.tail_arg3, (layerC_args _).2.2.2.1, (layerB_args _).2.2.2.1, (layerA_args _).2.2.2.1, RunHead.head_arg3]

theorem after_arg4 (m : (ℓ : Loc nD τ sig) → Buf (Elt F) ℓ) (c : Dev nD) :
    after (ops (F := F)) (launchContents m c) (Proc.devRef .tc main_arg4) = m ((c.tc : Thread nD τ).loc main_arg4) := by
  rw [ops_cut, StableHlo.after_append, StableHlo.after_append, StableHlo.after_append, StableHlo.after_append,
    RunTail.tail_arg4, (layerC_args _).2.2.2.2.1, (layerB_args _).2.2.2.2.1, (layerA_args _).2.2.2.2.1, RunHead.head_arg4]

theorem after_arg5 (m : (ℓ : Loc nD τ sig) → Buf (Elt F) ℓ) (c : Dev nD) :
    after (ops (F := F)) (launchContents m c) (Proc.devRef .tc main_arg5) = m ((c.tc : Thread nD τ).loc main_arg5) := by
  rw [ops_cut, StableHlo.after_append, StableHlo.after_append, StableHlo.after_append, StableHlo.after_append,
    RunTail.tail_arg5, (layerC_args _).2.2.2.2.2.1, (layerB_args _).2.2.2.2.2.1, (layerA_args _).2.2.2.2.2.1, RunHead.head_arg5]

theorem after_arg6 (m : (ℓ : Loc nD τ sig) → Buf (Elt F) ℓ) (c : Dev nD) :
    after (ops (F := F)) (launchContents m c) (Proc.devRef .tc main_arg6) = m ((c.tc : Thread nD τ).loc main_arg6) := by
  rw [ops_cut, StableHlo.after_append, StableHlo.after_append, StableHlo.after_append, StableHlo.after_append,
    RunTail.tail_arg6, (layerC_args _).2.2.2.2.2.2, (layerB_args _).2.2.2.2.2.2, (layerA_args _).2.2.2.2.2.2, RunHead.head_arg6]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v124) = val_main_v124 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v124).trans (after_main_v124 m c),
      (h c main_arg0).trans (after_arg0 m c), (h c main_arg1).trans (after_arg1 m c),
      (h c main_arg2).trans (after_arg2 m c), (h c main_arg3).trans (after_arg3 m c),
      (h c main_arg4).trans (after_arg4 m c), (h c main_arg5).trans (after_arg5 m c),
      (h c main_arg6).trans (after_arg6 m c)⟩)
    (run_seq scopedRefs_eq scopedSems_eq defs main (fun _ => ops) main_eq (fun _ => ops_sub) m ρ)

end Cert.ReferenceIdeal.RunStaged

end
-- ==== Proof.Spec.lean ====
import Idealize.ShloMosaic.PureOps.Ideal
import Idealize.ShloMosaic.Lib.ValueIdx

open scoped BigOperators

noncomputable section

namespace Cert.GnnSpec

open Idealize.ShloMosaic Idealize.ShloMosaic.ValueIdx

def hit (b : BitVec 32) (n : Nat) : EReal := if b = BitVec.ofNat 32 n then 1 else 0

theorem hit_of_eq {b : BitVec 32} {n : Nat} (h : b = BitVec.ofNat 32 n) : hit b n = 1 := if_pos h
theorem hit_of_ne {b : BitVec 32} {n : Nat} (h : b ≠ BitVec.ofNat 32 n) : hit b n = 0 := if_neg h

def gatherEntry (x : (⟨2, ![51200, 128]⟩ : Shape).Idx → EReal) (s : IVec ⟨1, ![800768]⟩ 32)
    (e : Fin 800768) (d : Fin 128) : EReal :=
  ∑ n : Fin 51200, hit (s (ix1 e)) n.val * x (ix2 n d)

def gatherK (x : (⟨2, ![51200, 128]⟩ : Shape).Idx → EReal) (s : IVec ⟨1, ![800768]⟩ 32) :
    (⟨2, ![800768, 128]⟩ : Shape).Idx → EReal :=
  fun i => gatherEntry x s (i 0) (i 1)

theorem gatherK_apply (x : (⟨2, ![51200, 128]⟩ : Shape).Idx → EReal) (s : IVec ⟨1, ![800768]⟩ 32)
    (e : Fin 800768) (d : Fin 128) : gatherK x s (ix2 e d) = gatherEntry x s e d := rfl

def scatterEntry (g : (⟨2, ![800768, 128]⟩ : Shape).Idx → EReal) (t : IVec ⟨1, ![800768]⟩ 32)
    (n : Fin 51200) (d : Fin 128) : EReal :=
  ∑ e : Fin 800768, hit (t (ix1 e)) n.val * g (ix2 e d)

def scatterK (g : (⟨2, ![800768, 128]⟩ : Shape).Idx → EReal) (t : IVec ⟨1, ![800768]⟩ 32) :
    (⟨2, ![51200, 128]⟩ : Shape).Idx → EReal :=
  fun i => scatterEntry g t (i 0) (i 1)

theorem scatterK_apply (g : (⟨2, ![800768, 128]⟩ : Shape).Idx → EReal) (t : IVec ⟨1, ![800768]⟩ 32)
    (n : Fin 51200) (d : Fin 128) : scatterK g t (ix2 n d) = scatterEntry g t n d := rfl

def linEntry (x agg : (⟨2, ![51200, 128]⟩ : Shape).Idx → EReal) (deg : (⟨2, ![51200, 1]⟩ : Shape).Idx → EReal)
    (ws : (⟨2, ![128, 128]⟩ : Shape).Idx → EReal) (bs : (⟨2, ![1, 128]⟩ : Shape).Idx → EReal)
    (wn : (⟨2, ![128, 128]⟩ : Shape).Idx → EReal) (bn : (⟨2, ![1, 128]⟩ : Shape).Idx → EReal)
    (n : Fin 51200) (d : Fin 128) : EReal :=
  max ((((∑ k : Fin 128, x (ix2 n k) * ws (ix2 k d)) + bs (ix2 (0 : Fin 1) d))
        + ∑ k : Fin 128, Ideal.div (agg (ix2 n k)) (deg (ix2 n (0 : Fin 1))) * wn (ix2 k d))
      + bn (ix2 (0 : Fin 1) d)) 0

def linK (x agg : (⟨2, ![51200, 128]⟩ : Shape).Idx → EReal) (deg : (⟨2, ![51200, 1]⟩ : Shape).Idx → EReal)
    (ws : (⟨2, ![128, 128]⟩ : Shape).Idx → EReal) (bs : (⟨2, ![1, 128]⟩ : Shape).Idx → EReal)
    (wn : (⟨2, ![128, 128]⟩ : Shape).Idx → EReal) (bn : (⟨2, ![1, 128]⟩ : Shape).Idx → EReal) :
    (⟨2, ![51200, 128]⟩ : Shape).Idx → EReal :=
  fun i => linEntry x agg deg ws bs wn bn (i 0) (i 1)

theorem linK_apply (x agg : (⟨2, ![51200, 128]⟩ : Shape).Idx → EReal) (deg : (⟨2, ![51200, 1]⟩ : Shape).Idx → EReal)
    (ws : (⟨2, ![128, 128]⟩ : Shape).Idx → EReal) (bs : (⟨2, ![1, 128]⟩ : Shape).Idx → EReal)
    (wn : (⟨2, ![128, 128]⟩ : Shape).Idx → EReal) (bn : (⟨2, ![1, 128]⟩ : Shape).Idx → EReal)
    (n : Fin 51200) (d : Fin 128) : linK x agg deg ws bs wn bn (ix2 n d) = linEntry x agg deg ws bs wn bn n d := rfl

def poolEntry (x : (⟨2, ![51200, 128]⟩ : Shape).Idx → EReal) (bv : IVec ⟨1, ![51200]⟩ 32)
    (g : Fin 128) (d : Fin 128) : EReal :=
  ∑ n : Fin 51200, hit (bv (ix1 n)) g.val * x (ix2 n d)

def poolK (x : (⟨2, ![51200, 128]⟩ : Shape).Idx → EReal) (bv : IVec ⟨1, ![51200]⟩ 32) :
    (⟨2, ![128, 128]⟩ : Shape).Idx → EReal :=
  fun i => poolEntry x bv (i 0) (i 1)

theorem poolK_apply (x : (⟨2, ![51200, 128]⟩ : Shape).Idx → EReal) (bv : IVec ⟨1, ![51200]⟩ 32)
    (g : Fin 128) (d : Fin 128) : poolK x bv (ix2 g d) = poolEntry x bv g d := rfl

def layerK (x : (⟨2, ![51200, 128]⟩ : Shape).Idx → EReal) (s t : IVec ⟨1, ![800768]⟩ 32)
    (deg : (⟨2, ![51200, 1]⟩ : Shape).Idx → EReal)
    (ws : (⟨2, ![128, 128]⟩ : Shape).Idx → EReal) (bs : (⟨2, ![1, 128]⟩ : Shape).Idx → EReal)
    (wn : (⟨2, ![128, 128]⟩ : Shape).Idx → EReal) (bn : (⟨2, ![1, 128]⟩ : Shape).Idx → EReal) :
    (⟨2, ![51200, 128]⟩ : Shape).Idx → EReal :=
  linK x (scatterK (gatherK x s) t) deg ws bs wn bn

def padRows (x : (⟨2, ![50000, 128]⟩ : Shape).Idx → EReal) : (⟨2, ![51200, 128]⟩ : Shape).Idx → EReal :=
  fun i => if h : (i 0).val < 50000 then x (ix2 (⟨(i 0).val, h⟩ : Fin 50000) (i 1)) else 0

def padEdges (v : IVec ⟨1, ![800000]⟩ 32) : IVec ⟨1, ![800768]⟩ 32 :=
  fun i => if h : (i 0).val < 800000 then v (ix1 (⟨(i 0).val, h⟩ : Fin 800000)) else 51200#32

def padGraph (v : IVec ⟨1, ![50000]⟩ 32) : IVec ⟨1, ![51200]⟩ 32 :=
  fun i => if h : (i 0).val < 50000 then v (ix1 (⟨(i 0).val, h⟩ : Fin 50000)) else 128#32

def padDeg (deg : (⟨1, ![50000]⟩ : Shape).Idx → EReal) : (⟨2, ![51200, 1]⟩ : Shape).Idx → EReal :=
  fun i => if h : (i 0).val < 50000 then deg (ix1 (⟨(i 0).val, h⟩ : Fin 50000)) else 1

def edgeRow (ei : IVec ⟨2, ![2, 800000]⟩ 32) (r : Fin 2) : IVec ⟨1, ![800000]⟩ 32 :=
  fun i => ei (ix2 r (i 0))

def slab (w : (⟨3, ![3, 128, 128]⟩ : Shape).Idx → EReal) (l : Fin 3) : (⟨2, ![128, 128]⟩ : Shape).Idx → EReal :=
  fun i => w (ix3 l (i 0) (i 1))

def biasRow (b : (⟨2, ![3, 128]⟩ : Shape).Idx → EReal) (l : Fin 3) : (⟨2, ![1, 128]⟩ : Shape).Idx → EReal :=
  fun i => b (ix2 l (i 1))

def towerK (x : (⟨2, ![50000, 128]⟩ : Shape).Idx → EReal)
    (w_self : (⟨3, ![3, 128, 128]⟩ : Shape).Idx → EReal) (b_self : (⟨2, ![3, 128]⟩ : Shape).Idx → EReal)
    (w_neigh : (⟨3, ![3, 128, 128]⟩ : Shape).Idx → EReal) (b_neigh : (⟨2, ![3, 128]⟩ : Shape).Idx → EReal)
    (ei : IVec ⟨2, ![2, 800000]⟩ 32) (deg : (⟨1, ![50000]⟩ : Shape).Idx → EReal) :
    (⟨2, ![51200, 128]⟩ : Shape).Idx → EReal :=
  let s := padEdges (edgeRow ei 0)
  let t := padEdges (edgeRow ei 1)
  let dp := padDeg deg
  let x1 := layerK (padRows x) s t dp (slab w_self 0) (biasRow b_self 0) (slab w_neigh 0) (biasRow b_neigh 0)
  let x2 := layerK x1 s t dp (slab w_self 1) (biasRow b_self 1) (slab w_neigh 1) (biasRow b_neigh 1)
  layerK x2 s t dp (slab w_self 2) (biasRow b_self 2) (slab w_neigh 2) (biasRow b_neigh 2)

def kernelValue (x : (⟨2, ![50000, 128]⟩ : Shape).Idx → EReal)
    (w_self : (⟨3, ![3, 128, 128]⟩ : Shape).Idx → EReal) (b_self : (⟨2, ![3, 128]⟩ : Shape).Idx → EReal)
    (w_neigh : (⟨3, ![3, 128, 128]⟩ : Shape).Idx → EReal) (b_neigh : (⟨2, ![3, 128]⟩ : Shape).Idx → EReal)
    (ei : IVec ⟨2, ![2, 800000]⟩ 32) (bv : IVec ⟨1, ![50000]⟩ 32)
    (deg : (⟨1, ![50000]⟩ : Shape).Idx → EReal) (cnt : (⟨1, ![64]⟩ : Shape).Idx → EReal) :
    (⟨2, ![64, 128]⟩ : Shape).Idx → EReal :=
  fun i => Ideal.div
    (poolEntry (towerK x w_self b_self w_neigh b_neigh ei deg) (padGraph bv)
      (⟨(i 0).val, Nat.lt_of_lt_of_le (i 0).isLt (by decide)⟩ : Fin 128) (i 1))
    (cnt (ix1 (i 0)))

def aggEntry (x : (⟨2, ![50000, 128]⟩ : Shape).Idx → EReal) (srcN : Fin 800000 → Fin 50000)
    (dst : IVec ⟨1, ![800000]⟩ 32) (n : Fin 50000) (k : Fin 128) : EReal :=
  0 + ∑ e : Fin 800000, if (dst (ix1 e)).toInt = (n.val : Int) then x (ix2 (srcN e) k) else 0

def refLayerEntry (x : (⟨2, ![50000, 128]⟩ : Shape).Idx → EReal) (srcN : Fin 800000 → Fin 50000)
    (dst : IVec ⟨1, ![800000]⟩ 32) (deg : (⟨1, ![50000]⟩ : Shape).Idx → EReal)
    (ws : (⟨2, ![128, 128]⟩ : Shape).Idx → EReal) (bs : (⟨2, ![1, 128]⟩ : Shape).Idx → EReal)
    (wn : (⟨2, ![128, 128]⟩ : Shape).Idx → EReal) (bn : (⟨2, ![1, 128]⟩ : Shape).Idx → EReal)
    (n : Fin 50000) (d : Fin 128) : EReal :=
  max ((((∑ k : Fin 128, x (ix2 n k) * ws (ix2 k d)) + bs (ix2 (0 : Fin 1) d))
        + ∑ k : Fin 128, Ideal.div (aggEntry x srcN dst n k) (deg (ix1 n)) * wn (ix2 k d))
      + bn (ix2 (0 : Fin 1) d)) 0

def refLayer (x : (⟨2, ![50000, 128]⟩ : Shape).Idx → EReal) (srcN : Fin 800000 → Fin 50000)
    (dst : IVec ⟨1, ![800000]⟩ 32) (deg : (⟨1, ![50000]⟩ : Shape).Idx → EReal)
    (ws : (⟨2, ![128, 128]⟩ : Shape).Idx → EReal) (bs : (⟨2, ![1, 128]⟩ : Shape).Idx → EReal)
    (wn : (⟨2, ![128, 128]⟩ : Shape).Idx → EReal) (bn : (⟨2, ![1, 128]⟩ : Shape).Idx → EReal) :
    (⟨2, ![50000, 128]⟩ : Shape).Idx → EReal :=
  fun i => refLayerEntry x srcN dst deg ws bs wn bn (i 0) (i 1)

def towerR (x : (⟨2, ![50000, 128]⟩ : Shape).Idx → EReal)
    (w_self : (⟨3, ![3, 128, 128]⟩ : Shape).Idx → EReal) (b_self : (⟨2, ![3, 128]⟩ : Shape).Idx → EReal)
    (w_neigh : (⟨3, ![3, 128, 128]⟩ : Shape).Idx → EReal) (b_neigh : (⟨2, ![3, 128]⟩ : Shape).Idx → EReal)
    (srcN : Fin 800000 → Fin 50000) (dst : IVec ⟨1, ![800000]⟩ 32) (deg : (⟨1, ![50000]⟩ : Shape).Idx → EReal) :
    (⟨2, ![50000, 128]⟩ : Shape).Idx → EReal :=
  let x1 := refLayer x srcN dst deg (slab w_self 0) (biasRow b_self 0) (slab w_neigh 0) (biasRow b_neigh 0)
  let x2 := refLayer x1 srcN dst deg (slab w_self 1) (biasRow b_self 1) (slab w_neigh 1) (biasRow b_neigh 1)
  refLayer x2 srcN dst deg (slab w_self 2) (biasRow b_self 2) (slab w_neigh 2) (biasRow b_neigh 2)

def refPoolEntry (x : (⟨2, ![50000, 128]⟩ : Shape).Idx → EReal) (bv : IVec ⟨1, ![50000]⟩ 32)
    (g : Fin 64) (d : Fin 128) : EReal :=
  0 + ∑ n : Fin 50000, if (bv (ix1 n)).toInt = (g.val : Int) then x (ix2 n d) else 0

def refValue (x : (⟨2, ![50000, 128]⟩ : Shape).Idx → EReal)
    (w_self : (⟨3, ![3, 128, 128]⟩ : Shape).Idx → EReal) (b_self : (⟨2, ![3, 128]⟩ : Shape).Idx → EReal)
    (w_neigh : (⟨3, ![3, 128, 128]⟩ : Shape).Idx → EReal) (b_neigh : (⟨2, ![3, 128]⟩ : Shape).Idx → EReal)
    (srcN : Fin 800000 → Fin 50000) (dst : IVec ⟨1, ![800000]⟩ 32) (bv : IVec ⟨1, ![50000]⟩ 32)
    (deg : (⟨1, ![50000]⟩ : Shape).Idx → EReal) (cnt : (⟨1, ![64]⟩ : Shape).Idx → EReal) :
    (⟨2, ![64, 128]⟩ : Shape).Idx → EReal :=
  fun i => Ideal.div (refPoolEntry (towerR x w_self b_self w_neigh b_neigh srcN dst deg) bv (i 0) (i 1)) (cnt (ix1 (i 0)))

end Cert.GnnSpec

end
-- ==== Proof.LibGatherRead.lean ====
import Idealize.ShloMosaic.PureOps.ShapeOps
import Idealize.ShloMosaic.Lib.ValueIdx

noncomputable section

namespace Cert.LibGatherRead

open Idealize.ShloMosaic Idealize.ShloMosaic.ValueIdx

variable {α : Type}

abbrev rowsDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowsDims N C R wf) x idx (ix2 r c)
      = x (ix2 (⟨min (idx (ix2 r (0 : Fin 1))).toInt.toNat (N - 1), by omega⟩ : Fin N) c) := by
  unfold Host.gather
  congr 1
  funext a
  refine Fin.ext ?_
  match a with
  | ⟨0, _⟩ =>

    show (rowsDims N C R wf).start (ix2 r c) idx 0 + (rowsDims N C R wf).batchCoord (ix2 r c) 0
        + (rowsDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r c) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>

    show (rowsDims N C R wf).start (ix2 r c) idx 1 + (rowsDims N C R wf).batchCoord (ix2 r c) 1
        + (rowsDims N C R wf).offCoord (ix2 r c) 1 = _
    rw [GatherDims.batchCoord_eq_zero _ _ _ List.not_mem_nil]
    unfold GatherDims.start
    rw [dif_neg (show (1 : Fin 2) ∉ (rowsDims N C R wf).startIndexMap from
      fun h => absurd (List.mem_singleton.mp h) (show ¬ ((1 : Fin 2) = 0) by decide))]
    simp only [Nat.add_zero, Nat.zero_add]
    rfl

abbrev colsDims (N C R : Nat)
    (wf : GatherDims.WF ⟨2, ![R, N]⟩ ⟨2, ![C, 1]⟩ ⟨2, ![R, C]⟩ [0] [1] [] [1] [] 1 ![R, 1]) :
    GatherDims ⟨2, ![R, N]⟩ ⟨2, ![C, 1]⟩ ⟨2, ![R, C]⟩ where
  offsetDims := [0]
  collapsedSliceDims := [1]
  operandBatchingDims := []
  startIndicesBatchingDims := []
  startIndexMap := [1]
  indexVectorDim := 1
  sliceSizes := ![R, 1]
  wf := wf

abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

end Cert.LibGatherRead

end
-- ==== Proof.LibScatterAddRead.lean ====
import Idealize.ShloMosaic.PureOps.Contract
import Idealize.ShloMosaic.PureOps.Ideal
import Idealize.ShloMosaic.Lib.ValueIdx

noncomputable section

open scoped BigOperators

namespace Cert.LibScatterAddRead

open Idealize.ShloMosaic Idealize.ShloMosaic.ValueIdx

theorem mem_sKept {s si u : Shape} (d : ScatterDims s si u) (a : Fin s.rank) :
    a ∈ d.sKept ↔ a ∉ d.insertedWindowDims := by
  simp [ScatterDims.sKept, Shape.kept, List.mem_filter, List.mem_finRange]

abbrev rowsDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Rows
variable {N C R w : Nat} (wf : ScatterDims.WF ⟨2, ![N, C]⟩ ⟨2, ![R, 1]⟩ ⟨2, ![R, C]⟩ [1] [0] [0] 1)
  (idx : IVec ⟨2, ![R, 1]⟩ w)

theorem rows_start0 (r : Fin R) (c : Fin C) :
    (rowsDims N C R wf).start (ix2 r c) idx 0 = (idx (ix2 r (0 : Fin 1))).toInt := by
  unfold ScatterDims.start
  rw [dif_pos (show (0 : Fin 2) ∈ (rowsDims N C R wf).scatterDimsToOperandDims from List.mem_singleton.mpr rfl)]
  have hsi : (rowsDims N C R wf).siIdx (ix2 r c) ⟨List.idxOf (0 : Fin 2) (rowsDims N C R wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

theorem rows_start1 (r : Fin R) (c : Fin C) : (rowsDims N C R wf).start (ix2 r c) idx 1 = 0 := by
  unfold ScatterDims.start
  rw [dif_neg (show (1 : Fin 2) ∉ (rowsDims N C R wf).scatterDimsToOperandDims from
    fun h => absurd (List.mem_singleton.mp h) (show ¬ ((1 : Fin 2) = 0) by decide))]

theorem rows_window0 (r : Fin R) (c : Fin C) : (rowsDims N C R wf).window (ix2 r c) 0 = 0 := by
  unfold ScatterDims.window
  rw [dif_neg (show (0 : Fin 2) ∉ (rowsDims N C R wf).sKept from
    fun h => (mem_sKept _ _).mp h (List.mem_singleton.mpr rfl))]

theorem rows_window1 (r : Fin R) (c : Fin C) : (rowsDims N C R wf).window (ix2 r c) 1 = c.val := by
  unfold ScatterDims.window
  rw [dif_pos (show (1 : Fin 2) ∈ (rowsDims N C R wf).sKept from
    (mem_sKept _ _).mpr fun h => absurd (List.mem_singleton.mp h) (show ¬ ((1 : Fin 2) = 0) by decide))]
  rfl

theorem rows_lands_iff (r : Fin R) (c : Fin C) (n : Fin N) (c' : Fin C) :
    (rowsDims N C R wf).resultIdx? (ix2 r c) idx = some (ix2 n c')
      ↔ (idx (ix2 r (0 : Fin 1))).toInt = (n.val : Int) ∧ c = c' := by
  unfold ScatterDims.resultIdx?
  constructor
  · intro h
    split at h
    · have hf := Option.some.inj h
      have h0 : ((rowsDims N C R wf).start (ix2 r c) idx 0 + ((rowsDims N C R wf).window (ix2 r c) 0 : Int)).toNat = n.val :=
        congrArg (fun f : (⟨2, ![N, C]⟩ : Shape).Idx => (f 0).val) hf
      have h1 : ((rowsDims N C R wf).start (ix2 r c) idx 1 + ((rowsDims N C R wf).window (ix2 r c) 1 : Int)).toNat = c'.val :=
        congrArg (fun f : (⟨2, ![N, C]⟩ : Shape).Idx => (f 1).val) hf
      rename_i hall
      have hb := (hall 0).1
      rw [rows_start0, rows_window0] at h0 hb
      rw [rows_start1, rows_window1] at h1
      refine ⟨by omega, Fin.ext (by omega)⟩
    · exact absurd h (by simp)
  · rintro ⟨hv, rfl⟩
    have hall : ∀ a : Fin 2, 0 ≤ (rowsDims N C R wf).start (ix2 r c) idx a + ((rowsDims N C R wf).window (ix2 r c) a : Int)
        ∧ (rowsDims N C R wf).start (ix2 r c) idx a + ((rowsDims N C R wf).window (ix2 r c) a : Int)
          < ((⟨2, ![N, C]⟩ : Shape).size a : Int) := by
      intro a
      match a with
      | ⟨0, _⟩ =>
        show 0 ≤ (rowsDims N C R wf).start (ix2 r c) idx 0 + ((rowsDims N C R wf).window (ix2 r c) 0 : Int)
          ∧ (rowsDims N C R wf).start (ix2 r c) idx 0 + ((rowsDims N C R wf).window (ix2 r c) 0 : Int) < (N : Int)
        rw [rows_start0, rows_window0, hv]
        have := n.isLt
        omega
      | ⟨1, _⟩ =>
        show 0 ≤ (rowsDims N C R wf).start (ix2 r c) idx 1 + ((rowsDims N C R wf).window (ix2 r c) 1 : Int)
          ∧ (rowsDims N C R wf).start (ix2 r c) idx 1 + ((rowsDims N C R wf).window (ix2 r c) 1 : Int) < (C : Int)
        rw [rows_start1, rows_window1]
        have := c.isLt
        omega
    rw [dif_pos hall]
    refine congrArg some (funext fun a => Fin.ext ?_)
    match a with
    | ⟨0, _⟩ =>
      show ((rowsDims N C R wf).start (ix2 r c) idx 0 + ((rowsDims N C R wf).window (ix2 r c) 0 : Int)).toNat = n.val
      rw [rows_start0, rows_window0, hv]
      omega
    | ⟨1, _⟩ =>
      show ((rowsDims N C R wf).start (ix2 r c) idx 1 + ((rowsDims N C R wf).window (ix2 r c) 1 : Int)).toNat = c.val
      rw [rows_start1, rows_window1]
      omega

theorem scatterAdd_rows_apply (x : (⟨2, ![N, C]⟩ : Shape).Idx → EReal) (upd : (⟨2, ![R, C]⟩ : Shape).Idx → EReal)
    (n : Fin N) (c : Fin C) :
    Ideal.hostScatterAdd (rowsDims N C R wf) x idx upd (ix2 n c)
      = x (ix2 n c) + ∑ r : Fin R, if (idx (ix2 r (0 : Fin 1))).toInt = (n.val : Int) then upd (ix2 r c) else 0 := by
  unfold Ideal.hostScatterAdd
  refine congrArg (x (ix2 n c) + ·) ?_
  rw [Finset.sum_filter, sum_idx2]
  refine Finset.sum_congr rfl fun r _ => ?_
  by_cases hv : (idx (ix2 r (0 : Fin 1))).toInt = (n.val : Int)
  · rw [if_pos hv]
    rw [Finset.sum_eq_single c]
    · rw [if_pos ((rows_lands_iff wf idx r c n c).mpr ⟨hv, rfl⟩)]
    · intro c' _ hne
      rw [if_neg (fun h => hne ((rows_lands_iff wf idx r c' n c).mp h).2)]
    · intro h; exact absurd (Finset.mem_univ c) h
  · rw [if_neg hv]
    refine Finset.sum_eq_zero fun c' _ => ?_
    rw [if_neg (fun h => hv ((rows_lands_iff wf idx r c' n c).mp h).1)]

end Rows

abbrev colsDims (N C R : Nat)
    (wf : ScatterDims.WF ⟨2, ![R, N]⟩ ⟨2, ![C, 1]⟩ ⟨2, ![R, C]⟩ [0] [1] [1] 1) :
    ScatterDims ⟨2, ![R, N]⟩ ⟨2, ![C, 1]⟩ ⟨2, ![R, C]⟩ where
  updateWindowDims := [0]
  insertedWindowDims := [1]
  scatterDimsToOperandDims := [1]
  indexVectorDim := 1
  wf := wf

section Cols
variable {N C R w : Nat} (wf : ScatterDims.WF ⟨2, ![R, N]⟩ ⟨2, ![C, 1]⟩ ⟨2, ![R, C]⟩ [0] [1] [1] 1)
  (idx : IVec ⟨2, ![C, 1]⟩ w)

end Cols

end Cert.LibScatterAddRead

end
-- ==== Proof.LibHostScatterAdd.lean ====
import Idealize.ShloMosaic.PureOps.Contract
import Idealize.ShloMosaic.PureOps.Ideal
import Idealize.ShloMosaic.Lib.ValueIdx
import proofs.«416123_j75222057222468_1_alg».proof.Proof.LibScatterAddRead

noncomputable section

open scoped BigOperators

namespace Cert.LibHostScatterAdd

open Idealize.ShloMosaic Idealize.ShloMosaic.ValueIdx

theorem hostScatterAdd_rows_apply {N C R w : Nat}
    (wf : ScatterDims.WF ⟨2, ![N, C]⟩ ⟨2, ![R, 1]⟩ ⟨2, ![R, C]⟩ [1] [0] [0] 1)
    (d : ScatterDims ⟨2, ![N, C]⟩ ⟨2, ![R, 1]⟩ ⟨2, ![R, C]⟩) (hd : d = Cert.LibScatterAddRead.rowsDims N C R wf)
    (x : FVec Ideal ⟨2, ![N, C]⟩ .f32) (idx : IVec ⟨2, ![R, 1]⟩ w) (upd : FVec Ideal ⟨2, ![R, C]⟩ .f32)
    (n : Fin N) (c : Fin C) :
    Host.scatterAdd (F := Ideal) d x idx upd (ix2 n c)
      = x (ix2 n c) + ∑ r : Fin R, if (idx (ix2 r (0 : Fin 1))).toInt = (n.val : Int) then upd (ix2 r c) else 0 := by
  subst hd
  unfold Host.scatterAdd
  rw [Ideal.hostScatterAdd_def]
  exact Cert.LibScatterAddRead.scatterAdd_rows_apply wf idx x upd n c

end Cert.LibHostScatterAdd

end
-- ==== Proof.RefValue.lean ====
import proofs.«416123_j75222057222468_1_alg».proof.Proof.RefStages
import proofs.«416123_j75222057222468_1_alg».proof.Proof.Gen.ReferenceIdeal
import proofs.«416123_j75222057222468_1_alg».proof.Proof.Spec
import proofs.«416123_j75222057222468_1_alg».proof.Proof.LibGatherRead
import proofs.«416123_j75222057222468_1_alg».proof.Proof.LibHostScatterAdd
import Idealize.ShloMosaic.Lib.Pipeline.Value
import Idealize.ShloMosaic.Lib.ValueIdx
import Idealize.ShloMosaic.Lib.DynamicIndex
import Idealize.ShloMosaic.Lib.StackMember
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

theorem clamp_row (n : Fin 50000) :
    min (BitVec.ofNat 32 n.val).toInt.toNat (50000 - 1) = n.val := by
  rw [toInt_ofNat_of_lt (by have := n.isLt; omega)]
  have := n.isLt
  simp only [Int.toNat_natCast]
  omega

theorem gather_src (X : FVec Ideal S50000x128 .f32) (SI : IVec S800000x1 32) (srcN : Fin 800000 → Fin 50000)
    (hSI : ∀ e : Fin 800000, SI (ix2 e (0 : Fin 1)) = BitVec.ofNat 32 (srcN e).val)
    (e : Fin 800000) (k : Fin 128) :
    Host.gather gather_S50000x128_S800000x1_S800000x128_1_0_n_n_0_1_1128 X SI (ix2 e k) = X (ix2 (srcN e) k) := by
  have hd : gather_S50000x128_S800000x1_S800000x128_1_0_n_n_0_1_1128
      = Cert.LibGatherRead.rowsDims 50000 128 800000 gather_S50000x128_S800000x1_S800000x128_1_0_n_n_0_1_1128_wf := rfl
  rw [hd, Cert.LibGatherRead.gather_rows_apply (by decide) _ X SI e k]
  refine congrArg (fun r => X (ix2 r k)) (Fin.ext ?_)
  show min (BitVec.toInt (SI (ix2 e (0 : Fin 1)))).toNat (50000 - 1) = (srcN e).val
  rw [hSI e]
  exact clamp_row (srcN e)

theorem scatter_dst (Z : FVec Ideal S50000x128 .f32) (DI : IVec S800000x1 32) (G : FVec Ideal S800000x128 .f32)
    (n : Fin 50000) (k : Fin 128) :
    Host.scatterAdd (F := Ideal) scatter_S50000x128_S800000x1_S800000x128_1_0_0_1 Z DI G (ix2 n k)
      = Z (ix2 n k) + ∑ e : Fin 800000, if (DI (ix2 e (0 : Fin 1))).toInt = (n.val : Int) then G (ix2 e k) else 0 :=
  Cert.LibHostScatterAdd.hostScatterAdd_rows_apply scatter_S50000x128_S800000x1_S800000x128_1_0_0_1_wf
    scatter_S50000x128_S800000x1_S800000x128_1_0_0_1 rfl Z DI G n k

theorem dot_apply (L : FVec Ideal S50000x128 .f32) (R : FVec Ideal S128x128 .f32) (n : Fin 50000) (d : Fin 128) :
    Host.dotGeneral (F := Ideal) dot_S50000x128_S128x128_S50000x128_1_0_0_1_n_n none L R (ix2 n d)
      = ∑ k : Fin 128, L (ix2 n k) * R (ix2 k d) :=
  StackMember.dotGeneral_plain_apply (m := 50000) (n := 128) none L R n d

theorem agg_apply (X Z : FVec Ideal S50000x128 .f32) (SI DI : IVec S800000x1 32) (DG : FVec Ideal S50000x128 .f32)
    (srcN : Fin 800000 → Fin 50000) (dst : IVec ⟨1, ![800000]⟩ 32) (deg : (⟨1, ![50000]⟩ : Shape).Idx → EReal)
    (hZ : ∀ i, Z i = 0)
    (hSI : ∀ e : Fin 800000, SI (ix2 e (0 : Fin 1)) = BitVec.ofNat 32 (srcN e).val)
    (hDI : ∀ e : Fin 800000, DI (ix2 e (0 : Fin 1)) = dst (ix1 e))
    (hDG : ∀ (n : Fin 50000) (k : Fin 128), DG (ix2 n k) = deg (ix1 n))
    (n : Fin 50000) (k : Fin 128) :
    Host.divf (F := Ideal) (Host.scatterAdd (F := Ideal) scatter_S50000x128_S800000x1_S800000x128_1_0_0_1 Z DI
        (Host.gather gather_S50000x128_S800000x1_S800000x128_1_0_n_n_0_1_1128 X SI)) DG (ix2 n k)
      = Ideal.div (GnnSpec.aggEntry X srcN dst n k) (deg (ix1 n)) := by
  show FloatOps.hostDivf (Host.scatterAdd (F := Ideal) scatter_S50000x128_S800000x1_S800000x128_1_0_0_1 Z DI
        (Host.gather gather_S50000x128_S800000x1_S800000x128_1_0_n_n_0_1_1128 X SI) (ix2 n k)) (DG (ix2 n k)) = _
  rw [scatter_dst, hZ, hDG, Ideal.hostDivf_def]
  unfold GnnSpec.aggEntry
  simp only [hDI, gather_src X SI srcN hSI]

def layerOp (X : FVec Ideal S50000x128 .f32) (WS : FVec Ideal S128x128 .f32) (BS : FVec Ideal S50000x128 .f32)
    (WN : FVec Ideal S128x128 .f32) (BN Z : FVec Ideal S50000x128 .f32) (SI DI : IVec S800000x1 32)
    (DG R0 : FVec Ideal S50000x128 .f32) : FVec Ideal S50000x128 .f32 :=
  maximumf
    (addf
      (addf
        (addf (Host.dotGeneral dot_S50000x128_S128x128_S50000x128_1_0_0_1_n_n none X WS) BS)
        (Host.dotGeneral dot_S50000x128_S128x128_S50000x128_1_0_0_1_n_n none
          (Host.divf (Host.scatterAdd scatter_S50000x128_S800000x1_S800000x128_1_0_0_1 Z DI
            (Host.gather gather_S50000x128_S800000x1_S800000x128_1_0_n_n_0_1_1128 X SI)) DG) WN))
      BN)
    R0

theorem layerOp_apply (X : FVec Ideal S50000x128 .f32) (WS : FVec Ideal S128x128 .f32) (BS : FVec Ideal S50000x128 .f32)
    (WN : FVec Ideal S128x128 .f32) (BN Z : FVec Ideal S50000x128 .f32) (SI DI : IVec S800000x1 32)
    (DG R0 : FVec Ideal S50000x128 .f32)
    (srcN : Fin 800000 → Fin 50000) (dst : IVec ⟨1, ![800000]⟩ 32) (deg : (⟨1, ![50000]⟩ : Shape).Idx → EReal)
    (ws : (⟨2, ![128, 128]⟩ : Shape).Idx → EReal) (bs : (⟨2, ![1, 128]⟩ : Shape).Idx → EReal)
    (wn : (⟨2, ![128, 128]⟩ : Shape).Idx → EReal) (bn : (⟨2, ![1, 128]⟩ : Shape).Idx → EReal)
    (hWS : ∀ k d : Fin 128, WS (ix2 k d) = ws (ix2 k d))
    (hBS : ∀ (n : Fin 50000) (d : Fin 128), BS (ix2 n d) = bs (ix2 (0 : Fin 1) d))
    (hWN : ∀ k d : Fin 128, WN (ix2 k d) = wn (ix2 k d))
    (hBN : ∀ (n : Fin 50000) (d : Fin 128), BN (ix2 n d) = bn (ix2 (0 : Fin 1) d))
    (hZ : ∀ i, Z i = 0)
    (hSI : ∀ e : Fin 800000, SI (ix2 e (0 : Fin 1)) = BitVec.ofNat 32 (srcN e).val)
    (hDI : ∀ e : Fin 800000, DI (ix2 e (0 : Fin 1)) = dst (ix1 e))
    (hDG : ∀ (n : Fin 50000) (k : Fin 128), DG (ix2 n k) = deg (ix1 n))
    (hR0 : ∀ i, R0 i = 0)
    (n : Fin 50000) (d : Fin 128) :
    layerOp X WS BS WN BN Z SI DI DG R0 (ix2 n d) = GnnSpec.refLayerEntry X srcN dst deg ws bs wn bn n d := by
  show FloatOps.maximumf
      (FloatOps.addf
        (FloatOps.addf
          (FloatOps.addf (Host.dotGeneral (F := Ideal) dot_S50000x128_S128x128_S50000x128_1_0_0_1_n_n none X WS (ix2 n d))
            (BS (ix2 n d)))
          (Host.dotGeneral (F := Ideal) dot_S50000x128_S128x128_S50000x128_1_0_0_1_n_n none
            (Host.divf (Host.scatterAdd scatter_S50000x128_S800000x1_S800000x128_1_0_0_1 Z DI
              (Host.gather gather_S50000x128_S800000x1_S800000x128_1_0_n_n_0_1_1128 X SI)) DG) WN (ix2 n d)))
        (BN (ix2 n d)))
      (R0 (ix2 n d)) = _
  rw [dot_apply, dot_apply, hBS, hBN, hR0]
  unfold GnnSpec.refLayerEntry
  simp only [Ideal.maximumf_def, Ideal.addf_def, hWS, hWN,
    agg_apply X Z SI DI DG srcN dst deg hZ hSI hDI hDG]

theorem layerOp_eq (X : FVec Ideal S50000x128 .f32) (WS : FVec Ideal S128x128 .f32) (BS : FVec Ideal S50000x128 .f32)
    (WN : FVec Ideal S128x128 .f32) (BN Z : FVec Ideal S50000x128 .f32) (SI DI : IVec S800000x1 32)
    (DG R0 : FVec Ideal S50000x128 .f32)
    (srcN : Fin 800000 → Fin 50000) (dst : IVec ⟨1, ![800000]⟩ 32) (deg : (⟨1, ![50000]⟩ : Shape).Idx → EReal)
    (ws : (⟨2, ![128, 128]⟩ : Shape).Idx → EReal) (bs : (⟨2, ![1, 128]⟩ : Shape).Idx → EReal)
    (wn : (⟨2, ![128, 128]⟩ : Shape).Idx → EReal) (bn : (⟨2, ![1, 128]⟩ : Shape).Idx → EReal)
    (hWS : ∀ k d : Fin 128, WS (ix2 k d) = ws (ix2 k d))
    (hBS : ∀ (n : Fin 50000) (d : Fin 128), BS (ix2 n d) = bs (ix2 (0 : Fin 1) d))
    (hWN : ∀ k d : Fin 128, WN (ix2 k d) = wn (ix2 k d))
    (hBN : ∀ (n : Fin 50000) (d : Fin 128), BN (ix2 n d) = bn (ix2 (0 : Fin 1) d))
    (hZ : ∀ i, Z i = 0)
    (hSI : ∀ e : Fin 800000, SI (ix2 e (0 : Fin 1)) = BitVec.ofNat 32 (srcN e).val)
    (hDI : ∀ e : Fin 800000, DI (ix2 e (0 : Fin 1)) = dst (ix1 e))
    (hDG : ∀ (n : Fin 50000) (k : Fin 128), DG (ix2 n k) = deg (ix1 n))
    (hR0 : ∀ i, R0 i = 0) :
    layerOp X WS BS WN BN Z SI DI DG R0 = GnnSpec.refLayer X srcN dst deg ws bs wn bn := by
  funext i
  obtain ⟨n, d, rfl⟩ : ∃ (n : Fin 50000) (d : Fin 128), i = ix2 n d := ⟨i 0, i 1, eq_ix2 i⟩
  exact layerOp_apply X WS BS WN BN Z SI DI DG R0 srcN dst deg ws bs wn bn hWS hBS hWN hBN hZ hSI hDI hDG hR0 n d

theorem slab_read (W : FVec Ideal S3x128x128 .f32) (l : Fin 3) (hs : S3x128x128.Slices ![l.val, 0, 0] S1x128x128)
    (k d : Fin 128) :
    shapeCast S128x128 (extractStridedSlice S1x128x128 ![l.val, 0, 0] W hs) shapeCasts_S1x128x128_S128x128 (ix2 k d)
      = W (ix3 l k d) := by
  rw [shapeCast_apply _ shapeCasts_S1x128x128_S128x128 (ix2 k d) (ix3 (0 : Fin 1) k d)
    (by rewrite [Shape.rowMajor_val_three, Shape.rowMajor_val_two]
        show (0 * 128 + k.val) * 128 + d.val = k.val * 128 + d.val
        omega)]
  exact extractStridedSlice_apply ![l.val, 0, 0] W hs (ix3 (0 : Fin 1) k d) (ix3 l k d) (fun a => match a with
    | ⟨0, _⟩ => by show l.val = l.val + 0; omega
    | ⟨1, _⟩ => by show k.val = 0 + k.val; omega
    | ⟨2, _⟩ => by show d.val = 0 + d.val; omega)

theorem bias_read (B : FVec Ideal S3x128 .f32) (l : Fin 3) (hs : S3x128.Slices ![l.val, 0] S1x128)
    (n : Fin 50000) (d : Fin 128) :
    broadcastInDim S50000x128 ![0, 1] bcast_S1x128_S50000x128_0_1
        (broadcastInDim S1x128 ![1] bcast_S128_S1x128_1
          (shapeCast S128 (extractStridedSlice S1x128 ![l.val, 0] B hs) shapeCasts_S1x128_S128)) (ix2 n d)
      = B (ix2 l d) := by
  rw [broadcastInDim_apply _ bcast_S1x128_S50000x128_0_1 _ (ix2 n d) (ix2 (0 : Fin 1) d) (fun a => match a with
      | ⟨0, _⟩ => by show 0 = if (1 : Nat) = 1 then 0 else n.val; rw [if_pos rfl]
      | ⟨1, _⟩ => by show d.val = if (128 : Nat) = 1 then 0 else d.val; rw [if_neg (by decide)]),
    broadcastInDim_apply _ bcast_S128_S1x128_1 _ (ix2 (0 : Fin 1) d) (ix1 d) (fun a => match a with
      | ⟨0, _⟩ => by show d.val = if (128 : Nat) = 1 then 0 else d.val; rw [if_neg (by decide)]),
    shapeCast_apply _ shapeCasts_S1x128_S128 (ix1 d) (ix2 (0 : Fin 1) d)
      (by rewrite [Shape.rowMajor_val_two, Shape.rowMajor_val_one]
          show 0 * 128 + d.val = d.val
          omega)]
  exact extractStridedSlice_apply ![l.val, 0] B hs (ix2 (0 : Fin 1) d) (ix2 l d) (fun a => match a with
    | ⟨0, _⟩ => by show l.val = l.val + 0; omega
    | ⟨1, _⟩ => by show d.val = 0 + d.val; omega)

theorem zeros_read (i : S50000x128.Idx) :
    broadcastInDim S50000x128 ![] bcast_S_S50000x128 (constant (F := Ideal) S_ .f32 0x00000000#32) i = 0 := by
  rw [broadcastInDim_apply _ bcast_S_S50000x128 _ i (fun a => a.elim0) (fun a => a.elim0), constant_apply,
    Ideal.ofBits_zero_f32]

theorem col_read (V : IVec S800000 32) (e : Fin 800000) :
    broadcastInDim S800000x1 ![0] bcast_S800000_S800000x1_0 V (ix2 e (0 : Fin 1)) = V (ix1 e) :=
  broadcastInDim_apply _ bcast_S800000_S800000x1_0 V (ix2 e (0 : Fin 1)) (ix1 e) (fun a => match a with
    | ⟨0, _⟩ => by show e.val = if (800000 : Nat) = 1 then 0 else e.val; rw [if_neg (by decide)])

theorem edge_read (E : IVec S2x800000 32) (r : Fin 2) (hs : S2x800000.Slices ![r.val, 0] S1x800000) (e : Fin 800000) :
    shapeCast S800000 (extractStridedSlice S1x800000 ![r.val, 0] E hs) shapeCasts_S1x800000_S800000 (ix1 e)
      = E (ix2 r e) := by
  rw [shapeCast_apply _ shapeCasts_S1x800000_S800000 (ix1 e) (ix2 (0 : Fin 1) e)
    (by rewrite [Shape.rowMajor_val_two, Shape.rowMajor_val_one]
        show 0 * 800000 + e.val = e.val
        omega)]
  exact extractStridedSlice_apply ![r.val, 0] E hs (ix2 (0 : Fin 1) e) (ix2 r e) (fun a => match a with
    | ⟨0, _⟩ => by show r.val = r.val + 0; omega
    | ⟨1, _⟩ => by show e.val = 0 + e.val; omega)

theorem src_keep (S C0 C5 : IVec S800000 32) (e : Fin 800000) (n : Fin 50000)
    (hC0 : C0 (ix1 e) = 0#32) (hS : S (ix1 e) = BitVec.ofNat 32 n.val) :
    select (cmpi .slt S C0) (addi S C5) S (ix1 e) = BitVec.ofNat 32 n.val := by
  show Scalar.select (IntOp.cmpi .slt (S (ix1 e)) (C0 (ix1 e))) (IntOp.addi (S (ix1 e)) (C5 (ix1 e))) (S (ix1 e)) = _
  have hne : ¬ IntOp.cmpi .slt (S (ix1 e)) (C0 (ix1 e)) = 1#1 := by
    rw [IntOp.cmpi_slt, hC0, hS, toInt_ofNat_of_lt (by have := n.isLt; omega), BitVec.toInt_zero]
    omega
  exact (if_neg hne).trans hS

theorem deg_read (D : FVec Ideal S50000 .f32) (n : Fin 50000) (k : Fin 128) :
    broadcastInDim S50000x128 ![0, 1] bcast_S50000x1_S50000x128_0_1
        (broadcastInDim S50000x1 ![0] bcast_S50000_S50000x1_0 D) (ix2 n k)
      = D (ix1 n) := by
  rw [broadcastInDim_apply _ bcast_S50000x1_S50000x128_0_1 _ (ix2 n k) (ix2 n (0 : Fin 1)) (fun a => match a with
      | ⟨0, _⟩ => by show n.val = if (50000 : Nat) = 1 then 0 else n.val; rw [if_neg (by decide)]
      | ⟨1, _⟩ => by show 0 = if (1 : Nat) = 1 then 0 else k.val; rw [if_pos rfl])]
  exact broadcastInDim_apply _ bcast_S50000_S50000x1_0 D (ix2 n (0 : Fin 1)) (ix1 n) (fun a => match a with
    | ⟨0, _⟩ => by show n.val = if (50000 : Nat) = 1 then 0 else n.val; rw [if_neg (by decide)])

def srcVec (E : IVec S2x800000 32) : IVec S800000 32 :=
  shapeCast S800000 (extractStridedSlice S1x800000 ![0, 0] E slices_S2x800000_S1x800000_0_0) shapeCasts_S1x800000_S800000

def dstVec (E : IVec S2x800000 32) : IVec S800000 32 :=
  shapeCast S800000 (extractStridedSlice S1x800000 ![1, 0] E slices_S2x800000_S1x800000_1_0) shapeCasts_S1x800000_S800000

theorem layer_eq (X : FVec Ideal S50000x128 .f32) (W1 : FVec Ideal S3x128x128 .f32) (B2 : FVec Ideal S3x128 .f32)
    (W3 : FVec Ideal S3x128x128 .f32) (B4 : FVec Ideal S3x128 .f32) (E : IVec S2x800000 32) (D : FVec Ideal S50000 .f32)
    (srcN : Fin 800000 → Fin 50000) (hs : ∀ e : Fin 800000, E (ix2 (0 : Fin 2) e) = BitVec.ofNat 32 (srcN e).val)
    (l : Fin 3) (hs3 : S3x128x128.Slices ![l.val, 0, 0] S1x128x128) (hs2 : S3x128.Slices ![l.val, 0] S1x128)
    (C0 C5 : IVec S800000 32) (hC0 : ∀ e : Fin 800000, C0 (ix1 e) = 0#32) :
    layerOp X
      (shapeCast S128x128 (extractStridedSlice S1x128x128 ![l.val, 0, 0] W1 hs3) shapeCasts_S1x128x128_S128x128)
      (broadcastInDim S50000x128 ![0, 1] bcast_S1x128_S50000x128_0_1
        (broadcastInDim S1x128 ![1] bcast_S128_S1x128_1
          (shapeCast S128 (extractStridedSlice S1x128 ![l.val, 0] B2 hs2) shapeCasts_S1x128_S128)))
      (shapeCast S128x128 (extractStridedSlice S1x128x128 ![l.val, 0, 0] W3 hs3) shapeCasts_S1x128x128_S128x128)
      (broadcastInDim S50000x128 ![0, 1] bcast_S1x128_S50000x128_0_1
        (broadcastInDim S1x128 ![1] bcast_S128_S1x128_1
          (shapeCast S128 (extractStridedSlice S1x128 ![l.val, 0] B4 hs2) shapeCasts_S1x128_S128)))
      (broadcastInDim S50000x128 ![] bcast_S_S50000x128 (constant (F := Ideal) S_ .f32 0x00000000#32))
      (broadcastInDim S800000x1 ![0] bcast_S800000_S800000x1_0
        (select (cmpi .slt (srcVec E) C0) (addi (srcVec E) C5) (srcVec E)))
      (broadcastInDim S800000x1 ![0] bcast_S800000_S800000x1_0 (dstVec E))
      (broadcastInDim S50000x128 ![0, 1] bcast_S50000x1_S50000x128_0_1
        (broadcastInDim S50000x1 ![0] bcast_S50000_S50000x1_0 D))
      (broadcastInDim S50000x128 ![] bcast_S_S50000x128 (constant (F := Ideal) S_ .f32 0x00000000#32))
    = GnnSpec.refLayer X srcN (GnnSpec.edgeRow E 1) D (GnnSpec.slab W1 l) (GnnSpec.biasRow B2 l)
        (GnnSpec.slab W3 l) (GnnSpec.biasRow B4 l) :=
  layerOp_eq _ _ _ _ _ _ _ _ _ _ srcN (GnnSpec.edgeRow E 1) D (GnnSpec.slab W1 l) (GnnSpec.biasRow B2 l)
    (GnnSpec.slab W3 l) (GnnSpec.biasRow B4 l)
    (fun k d => slab_read W1 l hs3 k d) (fun n d => bias_read B2 l hs2 n d)
    (fun k d => slab_read W3 l hs3 k d) (fun n d => bias_read B4 l hs2 n d)
    zeros_read
    (fun e => (col_read _ e).trans (src_keep (srcVec E) C0 C5 e (srcN e) (hC0 e)
      ((edge_read E 0 slices_S2x800000_S1x800000_0_0 e).trans (hs e))))
    (fun e => (col_read _ e).trans (edge_read E 1 slices_S2x800000_S1x800000_1_0 e))
    (fun n k => deg_read D n k)
    zeros_read

section Tower

variable (x0 : (⟨S50000x128, .f32⟩ : BufTy).Contents (Elt Ideal)) (x1 : (⟨S3x128x128, .f32⟩ : BufTy).Contents (Elt Ideal))
  (x2 : (⟨S3x128, .f32⟩ : BufTy).Contents (Elt Ideal)) (x3 : (⟨S3x128x128, .f32⟩ : BufTy).Contents (Elt Ideal))
  (x4 : (⟨S3x128, .f32⟩ : BufTy).Contents (Elt Ideal)) (x5 : (⟨S2x800000, .i32⟩ : BufTy).Contents (Elt Ideal))
  (srcN : Fin 800000 → Fin 50000)
  (hs : ∀ e : Fin 800000, x5 (ix2 (0 : Fin 2) e) = BitVec.ofNat 32 (srcN e).val)

include hs

theorem layer0_eq :
    Read.val_main_v46 (F := Ideal) x0 x1 x2 x3 x4 x5
      = GnnSpec.refLayer x0 srcN (GnnSpec.edgeRow x5 1) (Read.val_main_v15 (F := Ideal) x5)
          (GnnSpec.slab x1 0) (GnnSpec.biasRow x2 0) (GnnSpec.slab x3 0) (GnnSpec.biasRow x4 0) :=
  layer_eq x0 x1 x2 x3 x4 x5 (Read.val_main_v15 (F := Ideal) x5) srcN hs 0
    slices_S3x128x128_S1x128x128_0_0_0 slices_S3x128_S1x128_0_0
    (Read.val_main_v17 (F := Ideal)) (Read.val_main_v19 (F := Ideal)) (fun _ => rfl)

theorem layer1_eq :
    Read.val_main_v76 (F := Ideal) x0 x1 x2 x3 x4 x5
      = GnnSpec.refLayer (Read.val_main_v46 (F := Ideal) x0 x1 x2 x3 x4 x5) srcN (GnnSpec.edgeRow x5 1)
          (Read.val_main_v15 (F := Ideal) x5)
          (GnnSpec.slab x1 1) (GnnSpec.biasRow x2 1) (GnnSpec.slab x3 1) (GnnSpec.biasRow x4 1) :=
  layer_eq (Read.val_main_v46 (F := Ideal) x0 x1 x2 x3 x4 x5) x1 x2 x3 x4 x5 (Read.val_main_v15 (F := Ideal) x5) srcN hs 1
    slices_S3x128x128_S1x128x128_1_0_0 slices_S3x128_S1x128_1_0
    (Read.val_main_v47 (F := Ideal)) (Read.val_main_v49 (F := Ideal)) (fun _ => rfl)

theorem layer2_eq :
    Read.val_main_v106 (F := Ideal) x0 x1 x2 x3 x4 x5
      = GnnSpec.refLayer (Read.val_main_v76 (F := Ideal) x0 x1 x2 x3 x4 x5) srcN (GnnSpec.edgeRow x5 1)
          (Read.val_main_v15 (F := Ideal) x5)
          (GnnSpec.slab x1 2) (GnnSpec.biasRow x2 2) (GnnSpec.slab x3 2) (GnnSpec.biasRow x4 2) :=
  layer_eq (Read.val_main_v76 (F := Ideal) x0 x1 x2 x3 x4 x5) x1 x2 x3 x4 x5 (Read.val_main_v15 (F := Ideal) x5) srcN hs 2
    slices_S3x128x128_S1x128x128_2_0_0 slices_S3x128_S1x128_2_0
    (Read.val_main_v77 (F := Ideal)) (Read.val_main_v79 (F := Ideal)) (fun _ => rfl)

theorem tower_eq :
    Read.val_main_v106 (F := Ideal) x0 x1 x2 x3 x4 x5
      = GnnSpec.towerR x0 x1 x2 x3 x4 srcN (GnnSpec.edgeRow x5 1) (Read.val_main_v15 (F := Ideal) x5) := by
  rw [layer2_eq x0 x1 x2 x3 x4 x5 srcN hs, layer1_eq x0 x1 x2 x3 x4 x5 srcN hs, layer0_eq x0 x1 x2 x3 x4 x5 srcN hs]
  rfl

end Tower

end Cert.ReferenceIdeal.RefValue

end
-- ==== Proof.RefPool.lean ====
import proofs.«416123_j75222057222468_1_alg».proof.Proof.RefStages
import proofs.«416123_j75222057222468_1_alg».proof.Proof.Spec
import proofs.«416123_j75222057222468_1_alg».proof.Proof.LibHostScatterAdd
import proofs.«416123_j75222057222468_1_alg».proof.Proof.LibScatterAddRead
import Idealize.ShloMosaic.Lib.ValueIdx
import Idealize.ShloMosaic.PureOps.Ideal.Laws

noncomputable section

open scoped BigOperators

namespace Cert.ReferenceIdeal.RefPool

open Cert.ReferenceIdeal Cert.ReferenceIdeal.Gen Idealize.ShloMosaic Idealize.ShloMosaic.ValueIdx Idealize.SL.Sem Cert

theorem pool_core
    (wf : ScatterDims.WF ⟨2, ![64, 128]⟩ ⟨2, ![50000, 1]⟩ ⟨2, ![50000, 128]⟩ [1] [0] [0] 1)
    (d : ScatterDims ⟨2, ![64, 128]⟩ ⟨2, ![50000, 1]⟩ ⟨2, ![50000, 128]⟩)
    (hd : d = Cert.LibScatterAddRead.rowsDims 64 128 50000 wf)
    (base : FVec Ideal ⟨2, ![64, 128]⟩ .f32) (hbase : ∀ i, base i = 0)
    (idx : IVec ⟨2, ![50000, 1]⟩ 32) (bv : IVec ⟨1, ![50000]⟩ 32)
    (hidx : ∀ r : Fin 50000, idx (ix2 r (0 : Fin 1)) = bv (ix1 r))
    (x : FVec Ideal ⟨2, ![50000, 128]⟩ .f32)
    (cntB : FVec Ideal ⟨2, ![64, 128]⟩ .f32) (cnt : FVec Ideal ⟨1, ![64]⟩ .f32)
    (hcnt : ∀ i : (⟨2, ![64, 128]⟩ : Shape).Idx, cntB i = cnt (ix1 (i 0))) :
    Host.divf (Host.scatterAdd (F := Ideal) d base idx x) cntB
      = fun i : (⟨2, ![64, 128]⟩ : Shape).Idx => Ideal.div (GnnSpec.refPoolEntry x bv (i 0) (i 1)) (cnt (ix1 (i 0))) := by
  funext i

  have hsc := (congrArg (Host.scatterAdd (F := Ideal) d base idx x) (eq_ix2 i)).trans
    (Cert.LibHostScatterAdd.hostScatterAdd_rows_apply wf d hd base idx x (i 0) (i 1))
  show Ideal.div (Host.scatterAdd (F := Ideal) d base idx x i) (cntB i)
    = Ideal.div (GnnSpec.refPoolEntry x bv (i 0) (i 1)) (cnt (ix1 (i 0)))
  rw [hsc, hbase, hcnt]
  unfold GnnSpec.refPoolEntry
  simp only [hidx]

theorem pool_tail (x3' : (⟨2, ![50000, 128]⟩ : Shape).Idx → EReal) (x6 : (⟨S50000, .i32⟩ : BufTy).Contents (Elt Ideal)) :
    Host.divf (F := Ideal) (φ := .f32) (Host.scatterAdd (F := Ideal) (φ := .f32) scatter_S64x128_S50000x1_S50000x128_1_0_0_1 (Read.val_main_v107 (F := Ideal))
        (Read.val_main_v108 (F := Ideal) x6) x3') (Read.val_main_v123 (F := Ideal) x6)
      = fun i : (⟨2, ![64, 128]⟩ : Shape).Idx => Ideal.div (GnnSpec.refPoolEntry x3' x6 (i 0) (i 1)) (Read.val_main_v121 (F := Ideal) x6 (ix1 (i 0))) := by
  refine pool_core Facts₀.scatter_S64x128_S50000x1_S50000x128_1_0_0_1_wf _ rfl
    (Read.val_main_v107 (F := Ideal)) ?_ (Read.val_main_v108 (F := Ideal) x6) x6 ?_ x3'
    (Read.val_main_v123 (F := Ideal) x6) (Read.val_main_v121 (F := Ideal) x6) ?_
  ·
    intro i
    rw [Read.val_main_v107_apply, Read.val_main_cst_13_apply]
    exact Ideal.ofBits_zero_f32
  ·
    intro r
    rw [Read.val_main_v108_apply]
    exact congrArg x6 (funext fun a => match a with | ⟨0, _⟩ => rfl)
  ·
    intro i
    rw [Read.val_main_v123_apply, Read.val_main_v122_apply]
    exact congrArg (Read.val_main_v121 (F := Ideal) x6) (funext fun a => match a with | ⟨0, _⟩ => rfl)

theorem result_eq (x0 : (⟨S50000x128, .f32⟩ : BufTy).Contents (Elt Ideal)) (x1 : (⟨S3x128x128, .f32⟩ : BufTy).Contents (Elt Ideal))
    (x2 : (⟨S3x128, .f32⟩ : BufTy).Contents (Elt Ideal)) (x3 : (⟨S3x128x128, .f32⟩ : BufTy).Contents (Elt Ideal))
    (x4 : (⟨S3x128, .f32⟩ : BufTy).Contents (Elt Ideal)) (x5 : (⟨S2x800000, .i32⟩ : BufTy).Contents (Elt Ideal))
    (x6 : (⟨S50000, .i32⟩ : BufTy).Contents (Elt Ideal)) (srcN : Fin 800000 → Fin 50000)
    (htower : Read.val_main_v106 (F := Ideal) x0 x1 x2 x3 x4 x5
      = GnnSpec.towerR x0 x1 x2 x3 x4 srcN (GnnSpec.edgeRow x5 1) (Read.val_main_v15 (F := Ideal) x5)) :
    Read.val_main_v124 (F := Ideal) x0 x1 x2 x3 x4 x5 x6
      = GnnSpec.refValue x0 x1 x2 x3 x4 srcN (GnnSpec.edgeRow x5 1) x6 (Read.val_main_v15 (F := Ideal) x5)
          (Read.val_main_v121 (F := Ideal) x6) := by
  unfold Read.val_main_v124 Read.val_main_v109
  rw [htower]
  exact pool_tail _ x6

end Cert.ReferenceIdeal.RefPool

end
-- ==== Proof.LibBlockSum.lean ====
import Mathlib.Algebra.BigOperators.Fin
import Mathlib.Logic.Equiv.Fin.Basic

open scoped BigOperators

namespace Cert.LibBlockSum

variable {M : Type*} [AddCommMonoid M]

theorem block_lt_nat {A B t : ℕ} (ht : t < A) (q : Fin B) : B * t + q.val < A * B := by
  have hq := q.isLt
  calc B * t + q.val < B * t + B := by omega
    _ = B * (t + 1) := (Nat.mul_succ B t).symm
    _ ≤ B * A := Nat.mul_le_mul_left B ht
    _ = A * B := Nat.mul_comm B A

theorem block_lt {A B : ℕ} (p : Fin A) (q : Fin B) : B * p.val + q.val < A * B :=
  block_lt_nat p.isLt q

theorem sum_blocks (A B : ℕ) (f : Fin (A * B) → M) :
    ∑ n : Fin (A * B), f n = ∑ p : Fin A, ∑ q : Fin B, f ⟨B * p.val + q.val, block_lt p q⟩ := by
  rw [← Equiv.sum_comp finProdFinEquiv f, Fintype.sum_prod_type]
  refine Finset.sum_congr rfl (fun p _ => Finset.sum_congr rfl (fun q _ => ?_))
  exact congrArg f (Fin.ext (Nat.add_comm _ _))

theorem sum_blocks_rec (A B : ℕ) (f : Fin (A * B) → M) (S : ℕ → M) (h0 : S 0 = 0)
    (hstep : ∀ (t : ℕ) (ht : t < A), S (t + 1) = S t + ∑ q : Fin B, f ⟨B * t + q.val, block_lt_nat ht q⟩) :
    S A = ∑ n : Fin (A * B), f n := by
  have key : ∀ t : ℕ, t ≤ A →
      S t = ∑ n ∈ Finset.range (B * t), (fun n : ℕ => if h : n < A * B then f ⟨n, h⟩ else 0) n := by
    intro t
    induction t with
    | zero => intro _; simp [h0]
    | succ t ih =>
      intro ht
      rw [hstep t ht, ih (Nat.le_of_lt ht), Nat.mul_succ, Finset.sum_range_add]
      congr 1
      rw [← Fin.sum_univ_eq_sum_range (fun x : ℕ => if h : B * t + x < A * B then f ⟨B * t + x, h⟩ else 0) B]
      refine Finset.sum_congr rfl (fun q _ => ?_)
      rw [dif_pos (block_lt_nat ht q)]
  rw [key A (Nat.le_refl A), Nat.mul_comm B A,
    ← Fin.sum_univ_eq_sum_range (fun n : ℕ => if h : n < A * B then f ⟨n, h⟩ else 0) (A * B)]
  refine Finset.sum_congr rfl (fun n _ => ?_)
  rw [dif_pos n.isLt]

theorem sum_800768 (f : Fin 800768 → M) :
    ∑ n : Fin 800768, f n = ∑ p : Fin 391, ∑ q : Fin 2048, f ⟨2048 * p.val + q.val, by omega⟩ :=
  sum_blocks 391 2048 f

theorem sum_51200_rec (f : Fin 51200 → M) (S : ℕ → M) (h0 : S 0 = 0)
    (hstep : ∀ (t : ℕ) (ht : t < 25), S (t + 1) = S t + ∑ q : Fin 2048, f ⟨2048 * t + q.val, by omega⟩) :
    S 25 = ∑ n : Fin 51200, f n :=
  sum_blocks_rec 25 2048 f S h0 hstep

end Cert.LibBlockSum
-- ==== Proof.OneHotGather.lean ====
import proofs.«416123_j75222057222468_1_alg».proof.Proof.Gen.KernelIdeal.Skeleton
import proofs.«416123_j75222057222468_1_alg».proof.Proof.Spec
import proofs.«416123_j75222057222468_1_alg».proof.Proof.LibBlockSum
import Idealize.ShloMosaic.Lib.Pipeline.Value
import Idealize.ShloMosaic.PureOps.Ideal.Laws
import Idealize.ShloMosaic.Lib.StackMember

open scoped BigOperators

noncomputable section

namespace Cert.KernelIdeal.OneHotGather

open Idealize.ShloMosaic Idealize.ShloMosaic.ValueIdx
open Cert.KernelIdeal Cert.KernelIdeal.Gen

abbrev wholeBlock : Rect S2048x128 := Rect.unit ![0, 0] S2048x128.size inb_S2048x128_S2048x128_0_0

abbrev slabRect (k : Fin k0_t1_loop.trips) : Rect S51200x128 :=
  Rect.unit (k0_off1 k) S2048x128.size (k0_off1_inb k)

theorem zeroOffs : (![0, 0] : Fin 2 → Nat) = fun _ => 0 := by decide

theorem trips_eq : k0_t1_loop.trips = 25 := by decide

-- Both sides are the word of one number, so no wrap-around is involved.
theorem rowWord (k : Fin k0_t1_loop.trips) (q : Fin 2048) :
    IntOp.addi (Scalar.muli (Scf.iv 0#32 1#32 k) 2048#32) (BitVec.ofNat 32 q.val)
      = BitVec.ofNat 32 (2048 * k.val + q.val) := by
  unfold IntOp.addi Scalar.muli Scf.iv IntOp.muli
  rw [BitVec.zero_add, BitVec.mul_one, BitVec.ofNat_add, BitVec.ofNat_mul, BitVec.mul_comm]

theorem bitValue (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  rw [toInt_setWidth_bit]
  by_cases h : a = b <;> simp [IntOp.cmpi, h]

theorem spread_apply (s : Vec Ideal S2048 .i32) (r q : Fin 2048) :
    broadcastTo S2048x2048 (shapeCast S2048x1 s shapeCasts_S2048_S2048x1) broadcasts_S2048x1_S2048x2048 (ix2 r q)
      = s (ix1 r) := by
  refine (broadcastTo_apply _ _ (ix2 r q) (ix2 r (0 : Fin 1)) fun a => ?_).trans
    (shapeCast_apply _ _ (ix2 r (0 : Fin 1)) (ix1 r) ?_)
  · match a with
    | ⟨0, _⟩ => rfl
    | ⟨1, _⟩ => rfl
  · rw [Shape.rowMajor_val_one, Shape.rowMajor_val_two]
    show r.val = r.val * 1 + 0
    omega

theorem slab_apply (x : Vec Ideal S51200x128 .f32) (k : Fin k0_t1_loop.trips) (q : Fin 2048) (d : Fin 128)
    (h : 2048 * k.val + q.val < 51200) :
    View.ld x (slabRect k) (ix2 q d) = x (ix2 (⟨2048 * k.val + q.val, h⟩ : Fin 51200) d) := by
  show x ((slabRect k).idx (ix2 q d)) = _
  refine congrArg x (funext fun a => Fin.ext ?_)
  show k0_off1 k a + 1 * (ix2 q d a).val = _
  rw [k0_off1_eq k]
  match a with
  | ⟨0, _⟩ => show 2048 * k.val + 1 * q.val = 2048 * k.val + q.val; omega
  | ⟨1, _⟩ => show 0 + 1 * d.val = d.val; omega

theorem product_apply (W : FVec Ideal S2048x2048 .bf16) (Y : FVec Ideal S2048x128 .bf16) (r : Fin 2048) (d : Fin 128) :
    matmul dot_S2048x2048_S2048x128_S2048x128_1_0_0_1_n_n none W Y (constant (F := Ideal) S2048x128 .f32 0x00000000#32) (ix2 r d)
      = ∑ q : Fin 2048, W (ix2 r q) * Y (ix2 q d) := by
  show FloatOps.matmul _ none W Y (constant (F := Ideal) S2048x128 .f32 0x00000000#32) (ix2 r d) = _
  rw [Ideal.matmul_constant_zero_apply]
  exact (Ideal.dotGeneral_apply (DotDims.plain 2048 2048 128) none .single W Y (ix2 r d)).symm.trans
    (StackMember.dotGeneral_plain_apply none W Y r d)

theorem step_apply (s : Vec Ideal S2048 .i32) (k : Fin k0_t1_loop.trips) (y f : Vec Ideal S2048x128 .f32)
    (r : Fin 2048) (d : Fin 128) :
    k0_pay2 (F := Ideal) s k y f (ix2 r d)
      = f (ix2 r d) + ∑ q : Fin 2048, GnnSpec.hit (s (ix1 r)) (2048 * k.val + q.val) * y (ix2 q d) := by
  unfold k0_pay2
  dsimp only
  rw [addf_apply, product_apply, shapeCast_self]
  refine congrArg (f (ix2 r d) + ·) (Finset.sum_congr rfl fun q _ => ?_)
  rw [truncf_apply, sitofp_apply, extui_apply, truncf_apply, shapeCast_self, shapeCast_self]
  show FloatOps.sitofp (F := Ideal) .f32 ((IntOp.cmpi .eq (broadcastTo _ _ _ (ix2 r q))
    (IntOp.addi (broadcast _ _ (ix2 r q)) (iota _ _ _ _ _ (ix2 r q)))).setWidth 32) * _ = _
  rw [broadcast_apply, spread_apply, iota_single_apply, rowWord, bitValue]
  rfl

theorem zero_apply (r : Fin 2048) (d : Fin 128) : k0_pay1 (F := Ideal) (ix2 r d) = 0 :=
  Ideal.ofBits_zero_f32

theorem read_whole_store (arg3 : Memref sig .tc .vmem S2048x128 .f32) (f : BufTy.Contents (Elt Ideal) arg3.view.ty)
    (w : Vec Ideal S2048x128 .f32) :
    arg3.view.read (Elt Ideal) (arg3.view.writes (Elt Ideal) f [⟨wholeBlock, w⟩]) = w := by
  rw [View.read_writes_eq_canon arg3.view f [⟨wholeBlock, w⟩]
      (fun y => ⟨_, List.mem_singleton_self _, View.mem_set_unit_zero zeroOffs inb_S2048x128_S2048x128_0_0 y⟩)]
  exact View.canon_unit_zero zeroOffs inb_S2048x128_S2048x128_0_0 w

-- Zeros, then 25 whole-block stores of "what is there plus trip k's product": the 25 slabs of 2048 rows add up to all 51200.
theorem block_value (arg3 : Memref sig .tc .vmem S2048x128 .f32)
    (x : Vec Ideal S51200x128 .f32) (s : Vec Ideal S2048 .i32)
    (G : BufTy.Contents (Elt Ideal) arg3.view.ty) (hG : arg3.view.read (Elt Ideal) G = k0_pay1 (F := Ideal))
    (pb : ℕ → List (View.Piece (Elt Ideal) S2048x128 .f32)) (h0 : pb 0 = [])
    (hs : ∀ k : Fin k0_t1_loop.trips, pb (k.val + 1)
      = [⟨wholeBlock, k0_pay2 s k (View.ld x (slabRect k))
            (arg3.view.read (Elt Ideal) (arg3.view.writes (Elt Ideal) G (pb k.val)))⟩] ++ pb k.val)
    (r : Fin 2048) (d : Fin 128) :
    arg3.view.read (Elt Ideal) (arg3.view.writes (Elt Ideal) G (pb k0_t1_loop.trips)) (ix2 r d)
      = ∑ n : Fin 51200, GnnSpec.hit (s (ix1 r)) n.val * x (ix2 n d) := by
  rw [trips_eq]
  refine LibBlockSum.sum_51200_rec (fun n : Fin 51200 => GnnSpec.hit (s (ix1 r)) n.val * x (ix2 n d))
    (fun t => arg3.view.read (Elt Ideal) (arg3.view.writes (Elt Ideal) G (pb t)) (ix2 r d)) ?_ fun t ht => ?_
  · show arg3.view.read (Elt Ideal) (arg3.view.writes (Elt Ideal) G (pb 0)) (ix2 r d) = 0
    rw [h0, View.writes_nil, hG]
    exact zero_apply r d
  · have hk : t < k0_t1_loop.trips := trips_eq ▸ ht
    show arg3.view.read (Elt Ideal) (arg3.view.writes (Elt Ideal) G (pb (t + 1))) (ix2 r d) = _
    rw [hs ⟨t, hk⟩, View.writes_append, read_whole_store, step_apply]
    exact congrArg (_ + ·) (Finset.sum_congr rfl fun q _ => by
      rw [slab_apply x ⟨t, hk⟩ q d (by have := q.isLt; show 2048 * t + q.val < 51200; omega)])

theorem block_eq_gather (x : (⟨2, ![51200, 128]⟩ : Shape).Idx → EReal) (s : IVec ⟨1, ![800768]⟩ 32) (t : ℕ)
    (e0 : S51200x128.Idx → (⟨2, ![51200, 128]⟩ : Shape).Idx) (e1 : S2048.Idx → (⟨1, ![800768]⟩ : Shape).Idx)
    (e2 : S2048x128.Idx → (⟨2, ![800768, 128]⟩ : Shape).Idx) (i0 : Fin 2 → ℕ) (i1 : Fin 1 → ℕ) (i2 : Fin 2 → ℕ)
    (h : i0 0 = 0 ∧ i0 1 = 0 ∧ i1 0 = t ∧ i2 0 = t ∧ i2 1 = 0)
    (he0 : ∀ y a, (e0 y a).val = i0 a * S51200x128.size a + 1 * (y a).val)
    (he1 : ∀ y a, (e1 y a).val = i1 a * S2048.size a + 1 * (y a).val)
    (he2 : ∀ y a, (e2 y a).val = i2 a * S2048x128.size a + 1 * (y a).val)
    (rd : ((⟨2, ![800768, 128]⟩ : Shape).Idx → EReal) → Vec Ideal S2048x128 .f32) (hrd : ∀ G y, rd G y = G (e2 y))
    (O : Vec Ideal S2048x128 .f32)
    (hO : ∀ r d, O (ix2 r d) = ∑ n : Fin 51200, GnnSpec.hit (s (e1 (ix1 r))) n.val * x (e0 (ix2 n d))) :
    O = rd (GnnSpec.gatherK x s) := by
  obtain ⟨ha, hb, hw, ho, hl⟩ := h
  funext j
  rw [hrd]
  obtain ⟨r, d, rfl⟩ : ∃ (r : Fin 2048) (d : Fin 128), j = ix2 r d := ⟨j 0, j 1, eq_ix2 j⟩
  obtain ⟨e, d', hj⟩ : ∃ (e : Fin 800768) (d' : Fin 128), e2 (ix2 r d) = ix2 e d' := ⟨_, _, eq_ix2 _⟩
  have v0 : e.val = t * 2048 + 1 * r.val := by have := he2 (ix2 r d) 0; rw [hj, ho] at this; exact this
  have v1 : d'.val = 0 * 128 + 1 * d.val := by have := he2 (ix2 r d) 1; rw [hj, hl] at this; exact this
  have k1 : e1 (ix1 r) = ix1 e := funext fun a => Fin.ext (by
    match a with
    | ⟨0, _⟩ => show (e1 (ix1 r) 0).val = e.val; rw [he1, hw, v0]; rfl)
  rw [hO, hj, GnnSpec.gatherK_apply, k1]
  refine Finset.sum_congr rfl fun n _ => congrArg (_ * x ·) (funext fun a => Fin.ext ?_)
  match a with
  | ⟨0, _⟩ => show (e0 (ix2 n d) 0).val = n.val; rw [he0, ha]; show 0 * 51200 + 1 * n.val = n.val; omega
  | ⟨1, _⟩ => show (e0 (ix2 n d) 1).val = d'.val; rw [he0, hb, v1]; rfl

theorem row_in_block (i : (⟨2, ![800768, 128]⟩ : Shape).Idx) (i2 : Fin 2 → ℕ) (h : i2 0 = (i 0).val / 2048 ∧ i2 1 = 0) (a : Fin 2) :
    i2 a * S2048x128.size a ≤ (i a).val ∧ (i a).val < i2 a * S2048x128.size a + S2048x128.size a := by
  have hd : (i 1).val < 128 := (i 1).isLt
  match a with
  | ⟨0, _⟩ => show i2 0 * 2048 ≤ (i 0).val ∧ (i 0).val < i2 0 * 2048 + 2048; rw [h.1]; omega
  | ⟨1, _⟩ => show i2 1 * 128 ≤ (i 1).val ∧ (i 1).val < i2 1 * 128 + 128; rw [h.2]; omega

theorem idx_facts : ∀ t : Fin cfg0.N,
    win0_0.index t (0 : Fin 2) = 0 ∧ win0_0.index t (1 : Fin 2) = 0
    ∧ win0_1.index t (0 : Fin 1) = t.val
    ∧ win0_2.index t (0 : Fin 2) = t.val ∧ win0_2.index t (1 : Fin 2) = 0 :=
  (by decide +kernel : ∀ t : Fin grid0.N, _)

end Cert.KernelIdeal.OneHotGather

end
-- ==== Proof.Gather0.lean ====
import proofs.«416123_j75222057222468_1_alg».proof.Proof.Gen.KernelIdeal.Frame
import proofs.«416123_j75222057222468_1_alg».proof.Proof.OneHotGather

open scoped BigOperators

noncomputable section

namespace Cert.KernelIdeal.Gather0

open Idealize.ShloMosaic Idealize.ShloMosaic.TcCoe Idealize.ShloMosaic.ValueIdx Idealize.ShloMosaic.Tactic Idealize.SL.Sem
open Cert.KernelIdeal Cert.KernelIdeal.Gen Cert.KernelIdeal.OneHotGather

section Body
variable (c : Dev nD) (i : grid0.Coords)
  (arg1 : Memref sig .tc .vmem S51200x128 .f32) (harg1 : arg1.IsWhole)
  (arg2 : Memref sig .tc .vmem S2048 .i32) (harg2 : arg2.IsWhole)
  (arg3 : Memref sig .tc .vmem S2048x128 .f32) (harg3 : arg3.IsWhole)
  (x : Vec Ideal S51200x128 .f32) (s : Vec Ideal S2048 .i32)

theorem out_eq (r : Fin 2048) (d : Fin 128) :
    out0_A_2 (F := Ideal) c i arg1 harg1 arg2 harg2 arg3 harg3 x s (ix2 r d)
      = ∑ n : Fin 51200, GnnSpec.hit (s (ix1 r)) n.val * x (ix2 n d) := by
  unfold out0_A_2
  rw [View.read_writes_of_cover VO0_2 VO0_2.junk arg3.view arg3.view.junk _
      (cover0_A_2 c i arg1 harg1 arg2 harg2 arg3 harg3 x s)]
  unfold kernelRun0_A
  dsimp only
  sl_unfold_words
  simp only [View.readAt_eq_ld, harg2.read_unread, View.writes_append,
    View.ld_unit_zero (S := S2048) (by decide : (![0] : Fin 1 → Nat) = fun _ => 0)]
  refine block_value arg3 x s _ (read_whole_store arg3 _ _)
    (pb_k0_t1 (F := Ideal) Variants.none c none i arg1 harg1 arg2 harg2 arg3 harg3 s (harg1.unread x) _) rfl (fun k => ?_) r d
  rw [pb_k0_t1_succ]
  unfold tripL_k0_t1 trip_k0_t1
  dsimp only
  simp only [View.readAt_eq_ld, View.ld_unit_zero (S := S2048x128) zeroOffs, harg1.read_unread]

end Body

variable (V : (c : Dev nD) → (b : Ref sig .tc) → Buf (Elt Ideal) ((c : Thread nD τ).loc b))

theorem cover (i : (⟨2, ![800768, 128]⟩ : Shape).Idx) :
    ∃ t : Fin cfg0.N, (cfg0.win 2).flush t = true ∧ i ∈ ((cfg0.win 2).blk t).view.set := by
  have hi : (i 0).val < 800768 := (i 0).isLt
  have ht : (i 0).val / 2048 < cfg0.N := by rw [show cfg0.N = 391 from N_0]; omega
  refine ⟨⟨(i 0).val / 2048, ht⟩, flush0_2 _, ?_⟩
  show i ∈ ((View.whole (Pipeline.arrRef spec0 2)).slice (win0_2.rect ⟨(i 0).val / 2048, ht⟩)).set
  rw [View.set_slice_whole, Rect.mem_set_unit]
  exact row_in_block i _ (idx_facts ⟨(i 0).val / 2048, ht⟩).2.2.2

theorem flushed_eq (c : Dev nD) (t : Fin cfg0.N) :
    (dat0 (F := Ideal) V c).flushed 2 t
      = ((cfg0.win 2).blk t).view.read (Elt Ideal) (GnnSpec.gatherK (V c (Pipeline.arrRef spec0 0)) (V c (Pipeline.arrRef spec0 1))) := by
  show (cfg0.win 2).cut (grid0.coords t) ((dat0 V c).after 2 t) = _
  rw [after0_2]
  exact block_eq_gather _ _ t.val ((cfg0.win 0).blk t).view.emb ((cfg0.win 1).blk t).view.emb ((cfg0.win 2).blk t).view.emb
    _ _ _ (idx_facts t) (fun _ _ => rfl) (fun _ _ => rfl) (fun _ _ => rfl)
    (((cfg0.win 2).blk t).view.read (Elt Ideal)) (fun _ _ => rfl) _
    (out_eq c (grid0.coords t) (ms0_0 t) (hs0_0 t) (ms0_1 t) (hs0_1 t) (ms0_2 t) (hs0_2 t) (iblk0 V c 0 t) (iblk0 V c 1 t))

theorem arr (c : Dev nD) : (dat0 (F := Ideal) V c).arrAt 2 cfg0.N = GnnSpec.gatherK (V c (Pipeline.arrRef spec0 0)) (V c (Pipeline.arrRef spec0 1)) :=
  (dat0 (F := Ideal) V c).arrAt_eq_of_cover 2 _ (fun t _ => flushed_eq V c t) cover

end Cert.KernelIdeal.Gather0

end
-- ==== Proof.OneHotScatter.lean ====
import proofs.«416123_j75222057222468_1_alg».proof.Proof.Gen.KernelIdeal.Skeleton
import proofs.«416123_j75222057222468_1_alg».proof.Proof.Spec
import proofs.«416123_j75222057222468_1_alg».proof.Proof.LibBlockSum
import Idealize.ShloMosaic.Lib.Pipeline.Value
import Idealize.ShloMosaic.Lib.ValueLayout
import Idealize.ShloMosaic.Lib.StackMember
import Idealize.ShloMosaic.PureOps.Ideal.Laws

open scoped BigOperators

noncomputable section

namespace Cert.KernelIdeal.OneHotScatter

open Idealize.ShloMosaic Idealize.ShloMosaic.TcCoe Idealize.ShloMosaic.ValueIdx

abbrev Piece := View.Piece (Elt Ideal) S51200x128 .f32

abbrev tripRect (k : Fin k1_t1_loop.trips) : Rect S51200x128 :=
  Rect.unit (s := S51200x128) (k1_off1 k) S2048x128.size (Gen.k1_off1_inb k)

theorem trips_eq : k1_t1_loop.trips = 25 := by decide

theorem mem_tripRect (k : Fin k1_t1_loop.trips) (n : Fin 51200) (d : Fin 128) :
    (ix2 n d : S51200x128.Idx) ∈ (tripRect k).set ↔ 2048 * k.val ≤ n.val ∧ n.val < 2048 * k.val + 2048 := by
  rw [Rect.mem_set_unit, Gen.k1_off1_eq, Fin.forall_fin_two]
  exact ⟨fun h => h.1, fun h => ⟨h, Nat.zero_le _, by have := d.isLt; show d.val < 0 + 128; omega⟩⟩

theorem tripRect_emb (k : Fin k1_t1_loop.trips) (r : Fin 2048) (d : Fin 128) (n : Fin 51200)
    (hn : n.val = 2048 * k.val + r.val) : (tripRect k).emb (ix2 r d) = (ix2 n d : S51200x128.Idx) := by
  refine Shape.idx_ext₂ ?_ ?_ <;> rw [Rect.emb_apply]
  · show k1_off1 k 0 + 1 * r.val = n.val
    rw [Gen.k1_off1_eq, hn, Nat.one_mul]; rfl
  · show k1_off1 k 1 + 1 * d.val = d.val
    rw [Gen.k1_off1_eq, Nat.one_mul]; exact Nat.zero_add _

theorem rowWord (k r : ℕ) :
    Scalar.muli (Scf.iv 0#32 1#32 k) 2048#32 + BitVec.ofNat 32 r = BitVec.ofNat 32 (2048 * k + r) := by
  show (0#32 + BitVec.ofNat 32 k * 1#32) * 2048#32 + BitVec.ofNat 32 r = BitVec.ofNat 32 (2048 * k + r)
  rw [BitVec.zero_add, BitVec.mul_one, BitVec.ofNat_add, BitVec.ofNat_mul, BitVec.mul_comm]

theorem oneHot_entry (a b : BitVec 32) :
    (FloatOps.sitofp (F := Ideal) .f32 ((IntOp.cmpi .eq a b).setWidth 32) : EReal) = if b = a then 1 else 0 := by
  show ((((IntOp.cmpi .eq a b).setWidth 32).toInt : ℝ) : EReal) = if b = a then 1 else 0
  by_cases h : a = b
  · subst h
    have e : (IntOp.cmpi .eq a a).setWidth 32 = 1#32 := by simp [IntOp.cmpi]
    rw [e, if_pos rfl, show (1#32).toInt = 1 from by decide]
    norm_num
  · have e : (IntOp.cmpi .eq a b).setWidth 32 = 0#32 := by simp [IntOp.cmpi, beq_eq_false_iff_ne.mpr h]
    rw [e, if_neg (Ne.symm h), show (0#32).toInt = 0 from by decide]
    norm_num

theorem oneHot_apply (v3 : Vec Ideal S2048 .i32) (b : BitVec 32) (r q : Fin 2048)
    (hi : S2048x2048.Iotas .tc 32 [0]) (hs : S2048.ShapeCasts S2048) (hc : S2048.ShapeCasts S1x2048)
    (hb : S1x2048.Broadcasts S2048x2048) (hw : 1 < 32) (ht : FTy.bf16.bits < FTy.f32.bits) :
    (truncf .bf16 (sitofp (F := Ideal) .f32 (extui 32 (cmpi .eq (addi (broadcast S2048x2048 b)
        (iota .tc S2048x2048 32 [0] hi)) (broadcastTo S2048x2048 (shapeCast S1x2048 (shapeCast S2048 v3 hs) hc) hb)) hw))
        ht : FVec Ideal S2048x2048 .bf16) (ix2 r q)
      = if v3 (ix1 q) = b + BitVec.ofNat 32 r.val then 1 else 0 := by
  have eA : (addi (broadcast S2048x2048 b) (iota .tc S2048x2048 32 [0] hi)) (ix2 r q) = b + BitVec.ofNat 32 r.val := by
    show b + iota .tc S2048x2048 32 [0] hi (ix2 r q) = _
    rw [iota_single_apply]
  have eB : (broadcastTo S2048x2048 (shapeCast S1x2048 (shapeCast S2048 v3 hs) hc) hb) (ix2 r q) = v3 (ix1 q) := by
    rw [broadcastTo_1b_ab_apply, shapeCast_a_1a_apply, shapeCast_self]
  show FloatOps.sitofp (F := Ideal) .f32 ((IntOp.cmpi .eq
      ((addi (broadcast S2048x2048 b) (iota .tc S2048x2048 32 [0] hi)) (ix2 r q))
      ((broadcastTo S2048x2048 (shapeCast S1x2048 (shapeCast S2048 v3 hs) hc) hb) (ix2 r q))).setWidth 32) = _
  rw [eA, eB]
  exact oneHot_entry _ _

theorem matmul_rd (A : FVec Ideal S2048x2048 .bf16) (B : FVec Ideal S2048x128 .bf16) (r : Fin 2048) (d : Fin 128) :
    matmul dot_S2048x2048_S2048x128_S2048x128_1_0_0_1_n_n none A B (constant (F := Ideal) S2048x128 .f32 0x00000000#32) (ix2 r d)
      = ∑ q : Fin 2048, A (ix2 r q) * B (ix2 q d) := by
  show FloatOps.matmul _ none A B (constant (F := Ideal) S2048x128 .f32 0x00000000#32) (ix2 r d) = _
  rw [Ideal.matmul_constant_zero_apply]
  exact (Ideal.dotGeneral_apply (DotDims.plain 2048 2048 128) none .single A B (ix2 r d)).symm.trans
    (StackMember.dotGeneral_plain_apply none A B r d)

theorem pay_apply (v3 : Vec Ideal S2048 .i32) (v5 : Vec Ideal S2048x128 .f32) (k : Fin k1_t1_loop.trips)
    (w : Vec Ideal S2048x128 .f32) (r : Fin 2048) (d : Fin 128) :
    Gen.k1_pay2 (F := Ideal) v3 v5 k w (ix2 r d)
      = w (ix2 r d) + ∑ q : Fin 2048, GnnSpec.hit (v3 (ix1 q)) (2048 * k.val + r.val) * v5 (ix2 q d) := by
  unfold Gen.k1_pay2
  dsimp only
  refine (addf_apply _ _ _).trans (congrArg₂ (· + ·) (congrFun (shapeCast_self w _) _) ?_)
  refine (matmul_rd _ _ r d).trans (Finset.sum_congr rfl fun q _ => congrArg₂ (· * ·) ?_ (congrFun (shapeCast_self v5 _) _))
  refine (oneHot_apply v3 _ r q _ _ _ _ _ _).trans ?_
  unfold GnnSpec.hit
  rw [rowWord]

section Trips

variable (arg3 : Memref sig .tc .vmem S51200x128 .f32) (v3 : Vec Ideal S2048 .i32) (v5 : Vec Ideal S2048x128 .f32)
  (G : BufTy.Contents (Elt Ideal) arg3.view.ty)
  (tripL : Fin k1_t1_loop.trips → BufTy.Contents (Elt Ideal) arg3.view.ty → List Piece)
  (htrip : ∀ k f, tripL k f = [⟨tripRect k, Gen.k1_pay2 v3 v5 k (View.readAt (Elt Ideal) arg3.view (tripRect k).toLoadRect f)⟩])
  (pb : ℕ → List Piece) (h0 : pb 0 = [])
  (hs : ∀ k : Fin k1_t1_loop.trips, pb (k.val + 1) = tripL k (arg3.view.writes (Elt Ideal) G (pb k.val)) ++ pb k.val)
include htrip h0 hs

/-- The trips write disjoint row blocks, so each row gains its messages exactly once. -/
theorem read_after_trips : ∀ (k : ℕ) (_ : k ≤ k1_t1_loop.trips) (n : Fin 51200) (d : Fin 128),
    arg3.view.read (Elt Ideal) (arg3.view.writes (Elt Ideal) G (pb k)) (ix2 n d)
      = if n.val < 2048 * k then
          arg3.view.read (Elt Ideal) G (ix2 n d) + ∑ q : Fin 2048, GnnSpec.hit (v3 (ix1 q)) n.val * v5 (ix2 q d)
        else arg3.view.read (Elt Ideal) G (ix2 n d)
  | 0, _, n, d => by rw [h0, View.writes_nil, if_neg (by omega)]
  | k + 1, hk, n, d => by
    have ih := read_after_trips k (Nat.le_of_lt hk) n d
    rw [hs ⟨k, hk⟩, htrip, View.writes_append]
    by_cases hin : 2048 * k ≤ n.val ∧ n.val < 2048 * k + 2048
    · obtain ⟨r, hr⟩ : ∃ r : Fin 2048, n.val = 2048 * k + r.val :=
        ⟨⟨n.val - 2048 * k, by omega⟩, by show n.val = 2048 * k + (n.val - 2048 * k); omega⟩
      have hy := tripRect_emb ⟨k, hk⟩ r d n hr
      have hrd := View.read_writes_cons_emb arg3.view (arg3.view.writes (Elt Ideal) G (pb k)) (tripRect ⟨k, hk⟩)
        (Gen.k1_pay2 (F := Ideal) v3 v5 ⟨k, hk⟩ (View.readAt (Elt Ideal) arg3.view (tripRect ⟨k, hk⟩).toLoadRect
          (arg3.view.writes (Elt Ideal) G (pb k)))) [] (ix2 r d)
      rw [hy] at hrd
      rw [hrd, pay_apply, if_pos (by omega), ← hr]
      exact congrArg (· + _) ((congrArg (arg3.view.read (Elt Ideal) (arg3.view.writes (Elt Ideal) G (pb k))) hy).trans
        (ih.trans (if_neg (by omega))))
    · refine (View.read_writes_apply_of_forall_not_mem _ _ _ _ fun p hp hm => hin ?_).trans
        (ih.trans (if_congr (by omega) rfl rfl))
      obtain rfl := List.mem_singleton.mp hp
      exact (mem_tripRect ⟨k, hk⟩ n d).mp hm

end Trips

theorem zeroOffOne : (![0] : Fin 1 → ℕ) = fun _ => 0 := by
  funext a; match a with | ⟨0, _⟩ => rfl
theorem zeroOffTwo : (![0, 0] : Fin 2 → ℕ) = fun _ => 0 := by
  funext a; match a with | ⟨0, _⟩ => rfl | ⟨1, _⟩ => rfl

abbrev zeroPiece : Piece :=
  ⟨Rect.unit ![0, 0] S51200x128.size Gen.inb_S51200x128_S51200x128_0_0, Gen.k1_pay1 (F := Ideal)⟩

theorem read_zeroFill (arg3 : Memref sig .tc .vmem S51200x128 .f32) (f : BufTy.Contents (Elt Ideal) arg3.view.ty)
    (y : S51200x128.Idx) : arg3.view.read (Elt Ideal) (arg3.view.writes (Elt Ideal) f [zeroPiece]) y = 0 := by
  obtain ⟨x, rfl⟩ : ∃ x, zeroPiece.1.emb x = y :=
    zeroPiece.1.exists_idx_of_mem (View.mem_set_unit_zero zeroOffTwo Gen.inb_S51200x128_S51200x128_0_0 y)
  exact (View.read_writes_cons_emb arg3.view f zeroPiece.1 zeroPiece.2 [] x).trans Ideal.ofBits_zero_f32

theorem read_run (arg3 : Memref sig .tc .vmem S51200x128 .f32) (v3 : Vec Ideal S2048 .i32) (v5 : Vec Ideal S2048x128 .f32)
    (f0 : BufTy.Contents (Elt Ideal) arg3.view.ty) (L0 : List Piece)
    (tripL : Fin k1_t1_loop.trips → BufTy.Contents (Elt Ideal) arg3.view.ty → List Piece)
    (htrip : ∀ k f, tripL k f = [⟨tripRect k, Gen.k1_pay2 v3 v5 k (View.readAt (Elt Ideal) arg3.view (tripRect k).toLoadRect f)⟩])
    (pb : ℕ → List Piece) (h0 : pb 0 = [])
    (hs : ∀ k : Fin k1_t1_loop.trips, pb (k.val + 1)
      = tripL k (arg3.view.writes (Elt Ideal) (arg3.view.writes (Elt Ideal) f0 L0) (pb k.val)) ++ pb k.val)
    (VO : View sig .tc .vmem S51200x128 .f32) (L : List Piece) (hcov : ∀ y, ∃ p ∈ L, y ∈ p.1.set)
    (hL : L = pb k1_t1_loop.trips ++ L0) (n : Fin 51200) (d : Fin 128) :
    VO.read (Elt Ideal) (VO.writes (Elt Ideal) VO.junk L) (ix2 n d)
      = arg3.view.read (Elt Ideal) (arg3.view.writes (Elt Ideal) f0 L0) (ix2 n d)
        + ∑ q : Fin 2048, GnnSpec.hit (v3 (ix1 q)) n.val * v5 (ix2 q d) := by
  rw [View.read_writes_of_cover VO VO.junk arg3.view f0 L hcov, hL, View.writes_append,
    read_after_trips arg3 v3 v5 _ tripL htrip pb h0 hs _ (Nat.le_refl _) n d,
    if_pos (by rw [trips_eq]; have := n.isLt; omega)]

theorem rows_idx {i0 i1 t : ℕ} (h0 : i0 = t) (h1 : i1 = 0) (q : Fin 2048) (d : Fin 128) (x : S800768x128.Idx)
    (hx0 : (x 0).val = i0 * 2048 + 1 * q.val) (hx1 : (x 1).val = i1 * 128 + 1 * d.val) (h : 2048 * t + q.val < 800768) :
    x = ix2 ⟨2048 * t + q.val, h⟩ d :=
  funext fun a => Fin.ext (by
    match a with
    | ⟨0, _⟩ => show (x 0).val = 2048 * t + q.val; omega
    | ⟨1, _⟩ => show (x 1).val = d.val; omega)

theorem words_idx {i0 t : ℕ} (h0 : i0 = t) (q : Fin 2048) (x : S800768.Idx)
    (hx0 : (x 0).val = i0 * 2048 + 1 * q.val) (h : 2048 * t + q.val < 800768) : x = ix1 ⟨2048 * t + q.val, h⟩ :=
  funext fun a => Fin.ext (by
    match a with
    | ⟨0, _⟩ => show (x 0).val = 2048 * t + q.val; omega)

section Fold

variable {N : ℕ} (hN : N = 391) (out : (t : ℕ) → t < N → Vec Ideal S51200x128 .f32)
  (rows : Vec Ideal S800768x128 .f32) (words : Vec Ideal S800768 .i32)
  (rb : Fin N → Vec Ideal S2048x128 .f32) (wb : Fin N → Vec Ideal S2048 .i32)
  (hrb : ∀ (t : ℕ) (ht : t < N) (q : Fin 2048) (d : Fin 128) (h : 2048 * t + q.val < 800768),
    rb ⟨t, ht⟩ (ix2 q d) = rows (ix2 ⟨2048 * t + q.val, h⟩ d))
  (hwb : ∀ (t : ℕ) (ht : t < N) (q : Fin 2048) (h : 2048 * t + q.val < 800768),
    wb ⟨t, ht⟩ (ix1 q) = words (ix1 ⟨2048 * t + q.val, h⟩))
  (h0 : ∀ (h : 0 < N) (n : Fin 51200) (d : Fin 128), out 0 h (ix2 n d)
    = 0 + ∑ q : Fin 2048, GnnSpec.hit (wb ⟨0, h⟩ (ix1 q)) n.val * rb ⟨0, h⟩ (ix2 q d))
  (hs : ∀ (t : ℕ) (h : t + 1 < N) (n : Fin 51200) (d : Fin 128), out (t + 1) h (ix2 n d)
    = out t (Nat.lt_of_succ_lt h) (ix2 n d) + ∑ q : Fin 2048, GnnSpec.hit (wb ⟨t + 1, h⟩ (ix1 q)) n.val * rb ⟨t + 1, h⟩ (ix2 q d))
include h0 hs

theorem out_eq (n : Fin 51200) (d : Fin 128) : ∀ (t : ℕ) (h : t < N), out t h (ix2 n d)
    = ∑ p : Fin (t + 1), ∑ q : Fin 2048, GnnSpec.hit (wb ⟨p.val, Nat.lt_of_lt_of_le p.isLt h⟩ (ix1 q)) n.val
        * rb ⟨p.val, Nat.lt_of_lt_of_le p.isLt h⟩ (ix2 q d)
  | 0, h => by rw [h0 h, zero_add, Fin.sum_univ_one]; rfl
  | t + 1, h => by rw [Fin.sum_univ_castSucc, hs t h, out_eq n d t (Nat.lt_of_succ_lt h)]; rfl

include hN hrb hwb

/-- The double sum over blocks and offsets is the sum over the 800768 edges. -/
theorem scatter_of_steps : ∀ (t : ℕ) (h : t < N), t = 390 → out t h = GnnSpec.scatterK rows words := by
  subst hN
  rintro _ h rfl
  funext i
  obtain ⟨n, d, rfl⟩ : ∃ n d, i = ix2 n d := ⟨i 0, i 1, eq_ix2 i⟩
  rw [out_eq out rb wb h0 hs n d 390 h, GnnSpec.scatterK_apply]
  unfold GnnSpec.scatterEntry
  rw [LibBlockSum.sum_800768]
  exact Finset.sum_congr rfl fun p _ => Finset.sum_congr rfl fun q _ => by
    rw [hwb p.val _ q (by omega), hrb p.val _ q d (by omega)]

end Fold

end Cert.KernelIdeal.OneHotScatter
-- ==== Proof.Scatter1.lean ====
import proofs.«416123_j75222057222468_1_alg».proof.Proof.Gen.KernelIdeal.Frame
import proofs.«416123_j75222057222468_1_alg».proof.Proof.OneHotScatter

open scoped BigOperators

noncomputable section

namespace Cert.KernelIdeal.Scatter1

open Idealize.ShloMosaic Idealize.ShloMosaic.TcCoe Idealize.ShloMosaic.Tactic Idealize.ShloMosaic.ValueIdx
open Idealize.ShloMosaic.Pipeline (Dat)
open Cert.KernelIdeal.Gen OneHotScatter

section Body

variable (c : Dev nD) (i : grid1.Coords) (arg1 : Memref sig .tc .vmem S2048x128 .f32) (harg1 : arg1.IsWhole)
  (arg2 : Memref sig .tc .vmem S2048 .i32) (harg2 : arg2.IsWhole) (arg3 : Memref sig .tc .vmem S51200x128 .f32)
  (harg3 : arg3.IsWhole) (x0 : Vec Ideal S2048x128 .f32) (x1 : Vec Ideal S2048 .i32)

theorem tripL_eq (k : Fin k1_t1_loop.trips) (f : BufTy.Contents (Elt Ideal) arg3.view.ty) :
    Gen.tripL_k1_t1 (F := Ideal) Variants.none c none i arg1 harg1 arg2 harg2 arg3 harg3 x1 x0 k f
      = [⟨tripRect k, Gen.k1_pay2 x1 x0 k (View.readAt (Elt Ideal) arg3.view (tripRect k).toLoadRect f)⟩] := by
  unfold Gen.tripL_k1_t1 Gen.trip_k1_t1
  rfl

theorem outB_eq (hc0 : ¬Gen.cond1_0 i) (xo2 : Vec Ideal S51200x128 .f32) (n : Fin 51200) (d : Fin 128) :
    Gen.out1_B_2 (F := Ideal) c i arg1 harg1 arg2 harg2 arg3 harg3 hc0 x0 x1 xo2 (ix2 n d)
      = xo2 (ix2 n d) + ∑ q : Fin 2048, GnnSpec.hit (x1 (ix1 q)) n.val * x0 (ix2 q d) := by
  have hL : (Gen.kernelRun1_B (F := Ideal) c i arg1 harg1 arg2 harg2 arg3 harg3 hc0 x0 x1 xo2).1
      = Gen.pb_k1_t1 (F := Ideal) Variants.none c none i arg1 harg1 arg2 harg2 arg3 harg3 x1 x0 (harg3.unread xo2)
          k1_t1_loop.trips := by
    unfold Gen.kernelRun1_B
    dsimp only
    sl_unfold_words
    simp only [View.readAt_eq_ld, harg1.read_unread, harg2.read_unread, View.ld_unit_zero (S := S2048) zeroOffOne,
      View.ld_unit_zero (S := S2048x128) zeroOffTwo]
    try rfl
  unfold Gen.out1_B_2
  rw [read_run arg3 x1 x0 (harg3.unread xo2) [] _ (tripL_eq c i arg1 harg1 arg2 harg2 arg3 harg3 x0 x1) _ rfl
    (Gen.pb_k1_t1_succ (F := Ideal) Variants.none c none i arg1 harg1 arg2 harg2 arg3 harg3 x1 x0 _) Gen.VO1_2 _
    (Gen.cover1_B_2 (F := Ideal) c i arg1 harg1 arg2 harg2 arg3 harg3 hc0 x0 x1 xo2) (hL.trans (List.append_nil _).symm) n d,
    View.writes_nil, harg3.read_unread]

theorem outA_eq (hc0 : Gen.cond1_0 i) (n : Fin 51200) (d : Fin 128) :
    Gen.out1_A_2 (F := Ideal) c i arg1 harg1 arg2 harg2 arg3 harg3 hc0 x0 x1 (ix2 n d)
      = 0 + ∑ q : Fin 2048, GnnSpec.hit (x1 (ix1 q)) n.val * x0 (ix2 q d) := by
  have hL : (Gen.kernelRun1_A (F := Ideal) c i arg1 harg1 arg2 harg2 arg3 harg3 hc0 x0 x1).1
      = Gen.pb_k1_t1 (F := Ideal) Variants.none c none i arg1 harg1 arg2 harg2 arg3 harg3 x1 x0
          (arg3.view.writes (Elt Ideal) arg3.view.junk [zeroPiece]) k1_t1_loop.trips ++ [zeroPiece] := by
    unfold Gen.kernelRun1_A
    dsimp only
    sl_unfold_words
    simp only [View.readAt_eq_ld, harg1.read_unread, harg2.read_unread, View.ld_unit_zero (S := S2048) zeroOffOne,
      View.ld_unit_zero (S := S2048x128) zeroOffTwo]
    try rfl
  unfold Gen.out1_A_2
  rw [read_run arg3 x1 x0 arg3.view.junk [zeroPiece] _ (tripL_eq c i arg1 harg1 arg2 harg2 arg3 harg3 x0 x1) _ rfl
    (Gen.pb_k1_t1_succ (F := Ideal) Variants.none c none i arg1 harg1 arg2 harg2 arg3 harg3 x1 x0 _) Gen.VO1_2 _
    (Gen.cover1_A_2 (F := Ideal) c i arg1 harg1 arg2 harg2 arg3 harg3 hc0 x0 x1) hL n d, read_zeroFill]

end Body

variable (V : (c : Dev nD) → (b : Ref sig .tc) → Buf (Elt Ideal) ((c : Thread nD τ).loc b))

theorem rowsIndex : ∀ t : Fin cfg1.N, win1_0.index t (0 : Fin 2) = t.val ∧ win1_0.index t (1 : Fin 2) = 0 :=
  (by decide +kernel : ∀ t : Fin grid1.N, _)
theorem wordsIndex : ∀ t : Fin cfg1.N, win1_1.index t (0 : Fin 1) = t.val :=
  (by decide +kernel : ∀ t : Fin grid1.N, _)

/-- The block starts as the first point's sum and gains one point's sum at a time. -/
theorem outsAt_last (c : Dev nD) : ∀ (t : ℕ) (h : t < cfg1.N), t = 390 →
    outsAt1 V c t h = GnnSpec.scatterK (V c (Pipeline.arrRef spec1 0)) (V c (Pipeline.arrRef spec1 1)) :=
  scatter_of_steps N_1 (outsAt1 V c) _ _ (fun t => iblk1 V c 0 t) (fun t => iblk1 V c 1 t)
    (fun t ht q d h => congrArg (V c (Pipeline.arrRef spec1 0))
      (rows_idx (rowsIndex ⟨t, ht⟩).1 (rowsIndex ⟨t, ht⟩).2 q d (((cfg1.win 0).blk ⟨t, ht⟩).view.emb (ix2 q d)) rfl rfl h))
    (fun t ht q h => congrArg (V c (Pipeline.arrRef spec1 1))
      (words_idx (wordsIndex ⟨t, ht⟩) q (((cfg1.win 1).blk ⟨t, ht⟩).view.emb (ix1 q)) rfl h))
    (fun h n d => by
      rw [outsAt1_A V c ⟨0, h⟩ (Nat.zero_mod _)]
      exact outA_eq c _ _ (hs1_0 ⟨0, h⟩) _ (hs1_1 ⟨0, h⟩) _ (hs1_2 ⟨0, h⟩) _ _ _ n d)
    (fun t h n d => by
      have hN := N_1
      have hB : ¬(⟨t + 1, h⟩ : Fin cfg1.N).val % 391 = 0 := by dsimp only; omega
      rw [outsAt1_B V c ⟨t + 1, h⟩ hB]
      exact outB_eq c _ _ (hs1_0 ⟨t + 1, h⟩) _ (hs1_1 ⟨t + 1, h⟩) _ (hs1_2 ⟨t + 1, h⟩) _ _ _ _ n d)

theorem outOffsets (t : Fin cfg1.N) : (fun a => win1_2.index t a * (Pipeline.arrRef spec1 2).ty.shape.size a) = fun _ => 0 :=
  funext ((by decide +kernel : ∀ t : Fin grid1.N, ∀ a : Fin 2, win1_2.index t a * S51200x128.size a = 0) t)

theorem flushed_eq (c : Dev nD) (t : Fin cfg1.N) (hf : (cfg1.win 2).flush t = true) :
    (dat1 V c).flushed 2 t = ((cfg1.win 2).blk t).view.read (Elt Ideal)
      (GnnSpec.scatterK (V c (Pipeline.arrRef spec1 0)) (V c (Pipeline.arrRef spec1 1))) := by
  have hN : cfg1.N = 391 := N_1
  have hlast : t.val = 390 := by have := (flush1_2 t).mp hf; have := t.isLt; omega
  show (cfg1.win 2).cut (grid1.coords t) ((dat1 V c).after 2 t) = _
  rw [after1_2, outsAt_last V c t.val t.isLt hlast]
  exact (Memref.read_access_unit_zero (Elt Ideal) (Pipeline.arrRef spec1 2) (outOffsets t)
    (fun a => by rw [congrFun (outOffsets t) a]; simp) _).symm

theorem arr (c : Dev nD) : (Gen.dat1 (F := Ideal) V c).arrAt 2 cfg1.N
    = GnnSpec.scatterK (V c (Pipeline.arrRef spec1 0)) (V c (Pipeline.arrRef spec1 1)) :=
  have hN : (390 : ℕ) < cfg1.N := lt_of_lt_of_eq (by decide) N_1.symm
  (dat1 V c).arrAt_eq_of_cover 2 _ (flushed_eq V c) fun i =>
    ⟨⟨390, hN⟩, (flush1_2 ⟨390, hN⟩).mpr rfl, by
      show i ∈ ((View.whole (Pipeline.arrRef spec1 2)).slice (win1_2.rect ⟨390, hN⟩)).set
      rw [View.set_slice_whole]
      exact View.mem_set_unit_zero (outOffsets ⟨390, hN⟩) _ i⟩

end Cert.KernelIdeal.Scatter1
-- ==== Proof.LinStep.lean ====
import proofs.«416123_j75222057222468_1_alg».proof.Proof.Gen.KernelIdeal.Frame
import proofs.«416123_j75222057222468_1_alg».proof.Proof.Spec
import Idealize.ShloMosaic.Lib.Pipeline.Value
import Idealize.ShloMosaic.Lib.ValueLayout
import Idealize.ShloMosaic.Lib.StackMember
import Idealize.ShloMosaic.PureOps.Ideal.Laws

noncomputable section

open scoped BigOperators

namespace Cert.KernelIdeal.LinStep

open Cert.KernelIdeal Cert.KernelIdeal.Gen Idealize.ShloMosaic Idealize.ShloMosaic.TcCoe
open Idealize.ShloMosaic.ValueIdx

theorem hz : (![0, 0] : Fin 2 → Nat) = fun _ => 0 := funext fun a => by fin_cases a <;> rfl

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem matmul_at {φ₁ φ₂ : FTy} (A : FVec Ideal S2048x128 φ₁) (B : FVec Ideal S128x128 φ₂) (p : Fin 2048) (q : Fin 128) :
    matmul dot_S2048x128_S128x128_S2048x128_1_0_0_1_n_n none A B (constant (F := Ideal) S2048x128 .f32 0x00000000#32) (ix2 p q)
      = ∑ k : Fin 128, A (ix2 p k) * B (ix2 k q) := by
  show FloatOps.matmul _ none A B (constant (F := Ideal) S2048x128 .f32 0x00000000#32) (ix2 p q) = _
  rw [Ideal.matmul_constant_zero_apply]
  exact (Ideal.dotGeneral_apply (DotDims.plain 2048 128 128) none .single A B (ix2 p q)).symm.trans
    (StackMember.dotGeneral_plain_apply none A B p q)

theorem pay_apply (x agg : Vec Ideal S2048x128 .f32) (deg : Vec Ideal S2048x1 .f32)
    (ws wn : Vec Ideal S128x128 .f32) (bs bn : Vec Ideal S1x128 .f32) (p : Fin 2048) (q : Fin 128) :
    k2_pay1 (F := Ideal) x agg deg ws wn bs bn (ix2 p q)
      = max ((((∑ k : Fin 128, x (ix2 p k) * ws (ix2 k q)) + bs (ix2 (0 : Fin 1) q))
            + ∑ k : Fin 128, Ideal.div (agg (ix2 p k)) (deg (ix2 p (0 : Fin 1))) * wn (ix2 k q))
          + bn (ix2 (0 : Fin 1) q)) 0 := by
  unfold k2_pay1
  simp only [shapeCast_self, maximumf_apply, addf_apply, broadcast_apply, matmul_at,
    broadcastTo_1b_ab_apply, truncf_apply, divf_apply, broadcastTo_a1_ab_apply]
  show max _ (Ideal.ofBits .f32 0x00000000#32) = _
  rw [Ideal.ofBits_zero_f32]

/-- Stated for any function equal to region 2's payload, so that each region passes its own. -/
theorem point_eq (pay : Vec Ideal S2048x128 .f32 → Vec Ideal S2048x128 .f32 → Vec Ideal S2048x1 .f32 → Vec Ideal S128x128 .f32 →
      Vec Ideal S128x128 .f32 → Vec Ideal S1x128 .f32 → Vec Ideal S1x128 .f32 → FVec Ideal S2048x128 .f32)
    (hpay : pay = k2_pay1 (F := Ideal)) (X A : S51200x128.Idx → EReal) (D : S51200x1.Idx → EReal)
    (x agg : Vec Ideal S2048x128 .f32) (deg : Vec Ideal S2048x1 .f32)
    (ws wn : Vec Ideal S128x128 .f32) (bs bn : Vec Ideal S1x128 .f32)
    (p : Fin 2048) (r : Fin 51200) (q : Fin 128)
    (hx : ∀ k : Fin 128, x (ix2 p k) = X (ix2 r k))
    (hagg : ∀ k : Fin 128, agg (ix2 p k) = A (ix2 r k))
    (hdeg : deg (ix2 p (0 : Fin 1)) = D (ix2 r (0 : Fin 1))) :
    pay x agg deg ws wn bs bn (ix2 p q) = GnnSpec.linK X A D ws bs wn bn (ix2 r q) := by
  subst hpay
  rw [pay_apply, GnnSpec.linK_apply]
  unfold GnnSpec.linEntry
  simp only [hx, hagg, hdeg]

end Cert.KernelIdeal.LinStep

end
-- ==== Proof.Lin2.lean ====
import proofs.«416123_j75222057222468_1_alg».proof.Proof.LinStep

noncomputable section

namespace Cert.KernelIdeal.Lin2

open Cert.KernelIdeal Cert.KernelIdeal.Gen Idealize.ShloMosaic Idealize.ShloMosaic.TcCoe Idealize.SL.Sem
open Idealize.ShloMosaic.ValueIdx LinStep
open Idealize.ShloMosaic.Pipeline (Dat)

variable (V : (c : Dev nD) → (b : Ref sig .tc) → Buf (Elt Ideal) ((c : Thread nD τ).loc b))

theorem idx0 : ∀ t : Fin cfg2.N, win2_0.index t (0 : Fin 2) = t.val ∧ win2_0.index t (1 : Fin 2) = 0 :=
  (by decide +kernel : ∀ t : Fin grid2.N, _)
theorem idx1 : ∀ t : Fin cfg2.N, win2_1.index t (0 : Fin 2) = t.val ∧ win2_1.index t (1 : Fin 2) = 0 :=
  (by decide +kernel : ∀ t : Fin grid2.N, _)
theorem idx2 : ∀ t : Fin cfg2.N, win2_2.index t (0 : Fin 2) = t.val ∧ win2_2.index t (1 : Fin 2) = 0 :=
  (by decide +kernel : ∀ t : Fin grid2.N, _)
theorem idx7 : ∀ t : Fin cfg2.N, win2_7.index t (0 : Fin 2) = t.val ∧ win2_7.index t (1 : Fin 2) = 0 :=
  (by decide +kernel : ∀ t : Fin grid2.N, _)
theorem idx3 : ∀ t : Fin cfg2.N, win2_3.index t (0 : Fin 2) = 0 ∧ win2_3.index t (1 : Fin 2) = 0 :=
  (by decide +kernel : ∀ t : Fin grid2.N, _)
theorem idx4 : ∀ t : Fin cfg2.N, win2_4.index t (0 : Fin 2) = 0 ∧ win2_4.index t (1 : Fin 2) = 0 :=
  (by decide +kernel : ∀ t : Fin grid2.N, _)
theorem idx5 : ∀ t : Fin cfg2.N, win2_5.index t (0 : Fin 2) = 0 ∧ win2_5.index t (1 : Fin 2) = 0 :=
  (by decide +kernel : ∀ t : Fin grid2.N, _)
theorem idx6 : ∀ t : Fin cfg2.N, win2_6.index t (0 : Fin 2) = 0 ∧ win2_6.index t (1 : Fin 2) = 0 :=
  (by decide +kernel : ∀ t : Fin grid2.N, _)

theorem row0 (c : Dev nD) (t : Fin cfg2.N) (p : Fin 2048) (k : Fin 128) (r : Fin 51200)
    (hr : r.val = 2048 * t.val + p.val) :
    (iblk2 V c 0 t : Vec Ideal S2048x128 .f32) (ix2 p k) = (V c (Pipeline.arrRef spec2 0) : S51200x128.Idx → EReal) (ix2 r k) :=
  show V c (Pipeline.arrRef spec2 0) (((cfg2.win 0).blk t).view.emb (ix2 p k)) = _ from congrArg _ (Shape.idx_ext₂
    (by show win2_0.index t (0 : Fin 2) * 2048 + 1 * p.val = r.val; rw [(idx0 t).1, hr]; omega)
    (by show win2_0.index t (1 : Fin 2) * 128 + 1 * k.val = k.val; rw [(idx0 t).2]; omega))

theorem row1 (c : Dev nD) (t : Fin cfg2.N) (p : Fin 2048) (k : Fin 128) (r : Fin 51200)
    (hr : r.val = 2048 * t.val + p.val) :
    (iblk2 V c 1 t : Vec Ideal S2048x128 .f32) (ix2 p k) = (V c (Pipeline.arrRef spec2 1) : S51200x128.Idx → EReal) (ix2 r k) :=
  show V c (Pipeline.arrRef spec2 1) (((cfg2.win 1).blk t).view.emb (ix2 p k)) = _ from congrArg _ (Shape.idx_ext₂
    (by show win2_1.index t (0 : Fin 2) * 2048 + 1 * p.val = r.val; rw [(idx1 t).1, hr]; omega)
    (by show win2_1.index t (1 : Fin 2) * 128 + 1 * k.val = k.val; rw [(idx1 t).2]; omega))

theorem row2 (c : Dev nD) (t : Fin cfg2.N) (p : Fin 2048) (k : Fin 1) (r : Fin 51200)
    (hr : r.val = 2048 * t.val + p.val) :
    (iblk2 V c 2 t : Vec Ideal S2048x1 .f32) (ix2 p k) = (V c (Pipeline.arrRef spec2 2) : S51200x1.Idx → EReal) (ix2 r k) :=
  show V c (Pipeline.arrRef spec2 2) (((cfg2.win 2).blk t).view.emb (ix2 p k)) = _ from congrArg _ (Shape.idx_ext₂
    (by show win2_2.index t (0 : Fin 2) * 2048 + 1 * p.val = r.val; rw [(idx2 t).1, hr]; omega)
    (by show win2_2.index t (1 : Fin 2) * 1 + 1 * k.val = k.val; rw [(idx2 t).2]; omega))

theorem whole3 (c : Dev nD) (t : Fin cfg2.N) :
    (iblk2 V c 3 t : Vec Ideal S128x128 .f32) = V c (Pipeline.arrRef spec2 3) := funext fun y =>
  show V c (Pipeline.arrRef spec2 3) (((cfg2.win 3).blk t).view.emb y) = _ from congrArg _ (Shape.idx_ext₂
    (by show win2_3.index t (0 : Fin 2) * 128 + 1 * (y 0).val = (y 0).val; rw [(idx3 t).1]; omega)
    (by show win2_3.index t (1 : Fin 2) * 128 + 1 * (y 1).val = (y 1).val; rw [(idx3 t).2]; omega))

theorem whole4 (c : Dev nD) (t : Fin cfg2.N) :
    (iblk2 V c 4 t : Vec Ideal S1x128 .f32) = V c (Pipeline.arrRef spec2 4) := funext fun y =>
  show V c (Pipeline.arrRef spec2 4) (((cfg2.win 4).blk t).view.emb y) = _ from congrArg _ (Shape.idx_ext₂
    (by show win2_4.index t (0 : Fin 2) * 1 + 1 * (y 0).val = (y 0).val; rw [(idx4 t).1]; omega)
    (by show win2_4.index t (1 : Fin 2) * 128 + 1 * (y 1).val = (y 1).val; rw [(idx4 t).2]; omega))

theorem whole5 (c : Dev nD) (t : Fin cfg2.N) :
    (iblk2 V c 5 t : Vec Ideal S128x128 .f32) = V c (Pipeline.arrRef spec2 5) := funext fun y =>
  show V c (Pipeline.arrRef spec2 5) (((cfg2.win 5).blk t).view.emb y) = _ from congrArg _ (Shape.idx_ext₂
    (by show win2_5.index t (0 : Fin 2) * 128 + 1 * (y 0).val = (y 0).val; rw [(idx5 t).1]; omega)
    (by show win2_5.index t (1 : Fin 2) * 128 + 1 * (y 1).val = (y 1).val; rw [(idx5 t).2]; omega))

theorem whole6 (c : Dev nD) (t : Fin cfg2.N) :
    (iblk2 V c 6 t : Vec Ideal S1x128 .f32) = V c (Pipeline.arrRef spec2 6) := funext fun y =>
  show V c (Pipeline.arrRef spec2 6) (((cfg2.win 6).blk t).view.emb y) = _ from congrArg _ (Shape.idx_ext₂
    (by show win2_6.index t (0 : Fin 2) * 1 + 1 * (y 0).val = (y 0).val; rw [(idx6 t).1]; omega)
    (by show win2_6.index t (1 : Fin 2) * 128 + 1 * (y 1).val = (y 1).val; rw [(idx6 t).2]; omega))

abbrev G (c : Dev nD) : S51200x128.Idx → EReal :=
  GnnSpec.linK (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))
    (V c (Pipeline.arrRef spec2 6))

theorem flushed_eq (c : Dev nD) (t : Fin cfg2.N) :
    (dat2 (F := Ideal) V c).flushed 7 t = ((cfg2.win 7).blk t).view.read (Elt Ideal) (G V c) := by
  show (cfg2.win 7).cut (grid2.coords t) ((dat2 (F := Ideal) V c).after 7 t) = _
  rw [after2_7]
  unfold out2_7
  rw [View.canon_unit_zero hz]
  simp only [View.ld_unit_zero (S := S2048x128) hz, View.ld_unit_zero (S := S2048x1) hz,
    View.ld_unit_zero (S := S128x128) hz, View.ld_unit_zero (S := S1x128) hz]
  funext j
  obtain ⟨p, q, rfl⟩ : ∃ (p : Fin 2048) (q : Fin 128), j = ix2 p q := ⟨j 0, j 1, eq_ix2 j⟩
  have hp := p.isLt
  have ht : t.val < 25 := Nat.lt_of_lt_of_eq t.isLt N_2
  show k2_pay1 (F := Ideal) (iblk2 V c 0 t) (iblk2 V c 1 t) (iblk2 V c 2 t) (iblk2 V c 3 t) (iblk2 V c 5 t)
      (iblk2 V c 4 t) (iblk2 V c 6 t) (ix2 p q) = G V c (((cfg2.win 7).blk t).view.emb (ix2 p q))
  rw [whole3 V c t, whole4 V c t, whole5 V c t, whole6 V c t, show ((cfg2.win 7).blk t).view.emb (ix2 p q)
      = (ix2 (⟨2048 * t.val + p.val, by omega⟩ : Fin 51200) q : S51200x128.Idx) from Shape.idx_ext₂
      (by show win2_7.index t (0 : Fin 2) * 2048 + 1 * p.val = 2048 * t.val + p.val; rw [(idx7 t).1]; omega)
      (by show win2_7.index t (1 : Fin 2) * 128 + 1 * q.val = q.val; rw [(idx7 t).2]; omega)]
  exact point_eq k2_pay1 rfl _ _ _ _ _ _ _ _ _ _ p _ q (fun k => row0 V c t p k _ rfl) (fun k => row1 V c t p k _ rfl)
    (row2 V c t p 0 _ rfl)

/-- Row n lies in the block of point n / 2048. -/
theorem cover (i : S51200x128.Idx) :
    ∃ t : Fin cfg2.N, (cfg2.win 7).flush t = true ∧ i ∈ ((cfg2.win 7).blk t).view.set := by
  have hi0 : (i 0).val < 51200 := (i 0).isLt
  have hi1 : (i 1).val < 128 := (i 1).isLt
  have ht : (i 0).val / 2048 < cfg2.N := by rw [show cfg2.N = 25 from N_2]; omega
  have o0 : win2_7.index ⟨(i 0).val / 2048, ht⟩ (0 : Fin 2) = (i 0).val / 2048 := (idx7 _).1
  refine ⟨⟨(i 0).val / 2048, ht⟩, flush2_7 _, ?_⟩
  show i ∈ ((View.whole (Pipeline.arrRef spec2 7)).slice (win2_7.rect ⟨(i 0).val / 2048, ht⟩)).set
  rw [View.set_slice_whole, Rect.mem_set_unit]
  intro a
  match a with
  | ⟨0, _⟩ =>
    show win2_7.index ⟨(i 0).val / 2048, ht⟩ (0 : Fin 2) * 2048 ≤ (i 0).val
      ∧ (i 0).val < win2_7.index ⟨(i 0).val / 2048, ht⟩ (0 : Fin 2) * 2048 + 2048
    rw [o0]; omega
  | ⟨1, _⟩ =>
    show win2_7.index ⟨(i 0).val / 2048, ht⟩ (1 : Fin 2) * 128 ≤ (i 1).val
      ∧ (i 1).val < win2_7.index ⟨(i 0).val / 2048, ht⟩ (1 : Fin 2) * 128 + 128
    rw [(idx7 _).2]; omega

theorem arr (c : Dev nD) :
    (Gen.dat2 (F := Ideal) V c).arrAt 7 cfg2.N
      = GnnSpec.linK (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5))
          (V c (Pipeline.arrRef spec2 6)) :=
  (Gen.dat2 (F := Ideal) V c).arrAt_eq_of_cover 7 (G V c) (fun t _ => flushed_eq V c t) cover

end Cert.KernelIdeal.Lin2

end
-- ==== Proof.Gather3.lean ====
import proofs.«416123_j75222057222468_1_alg».proof.Proof.Gen.KernelIdeal.Frame
import proofs.«416123_j75222057222468_1_alg».proof.Proof.OneHotGather

open scoped BigOperators

noncomputable section

namespace Cert.KernelIdeal.Gather3

open Idealize.ShloMosaic Idealize.ShloMosaic.TcCoe Idealize.ShloMosaic.ValueIdx Idealize.ShloMosaic.Tactic Idealize.SL.Sem
open Cert.KernelIdeal Cert.KernelIdeal.Gen Cert.KernelIdeal.OneHotGather

section Body
variable (c : Dev nD) (i : grid3.Coords)
  (arg1 : Memref sig .tc .vmem S51200x128 .f32) (harg1 : arg1.IsWhole)
  (arg2 : Memref sig .tc .vmem S2048 .i32) (harg2 : arg2.IsWhole)
  (arg3 : Memref sig .tc .vmem S2048x128 .f32) (harg3 : arg3.IsWhole)
  (x : Vec Ideal S51200x128 .f32) (s : Vec Ideal S2048 .i32)

theorem out_eq (r : Fin 2048) (d : Fin 128) :
    out3_A_2 (F := Ideal) c i arg1 harg1 arg2 harg2 arg3 harg3 x s (ix2 r d)
      = ∑ n : Fin 51200, GnnSpec.hit (s (ix1 r)) n.val * x (ix2 n d) := by
  unfold out3_A_2
  rw [View.read_writes_of_cover VO3_2 VO3_2.junk arg3.view arg3.view.junk _
      (cover3_A_2 c i arg1 harg1 arg2 harg2 arg3 harg3 x s)]
  unfold kernelRun3_A
  dsimp only
  sl_unfold_words
  simp only [View.readAt_eq_ld, harg2.read_unread, View.writes_append,
    View.ld_unit_zero (S := S2048) (by decide : (![0] : Fin 1 → Nat) = fun _ => 0)]
  refine block_value arg3 x s _ (read_whole_store arg3 _ _)
    (pb_k3_t1 (F := Ideal) Variants.none c none i arg1 harg1 arg2 harg2 arg3 harg3 s (harg1.unread x) _) rfl (fun k => ?_) r d
  rw [pb_k3_t1_succ]
  unfold tripL_k3_t1 trip_k3_t1
  dsimp only
  simp only [View.readAt_eq_ld, View.ld_unit_zero (S := S2048x128) zeroOffs, harg1.read_unread]
  rfl

end Body

variable (V : (c : Dev nD) → (b : Ref sig .tc) → Buf (Elt Ideal) ((c : Thread nD τ).loc b))

theorem cover (i : (⟨2, ![800768, 128]⟩ : Shape).Idx) :
    ∃ t : Fin cfg3.N, (cfg3.win 2).flush t = true ∧ i ∈ ((cfg3.win 2).blk t).view.set := by
  have hi : (i 0).val < 800768 := (i 0).isLt
  have ht : (i 0).val / 2048 < cfg3.N := by rw [show cfg3.N = 391 from N_3]; omega
  refine ⟨⟨(i 0).val / 2048, ht⟩, flush3_2 _, ?_⟩
  show i ∈ ((View.whole (Pipeline.arrRef spec3 2)).slice (win3_2.rect ⟨(i 0).val / 2048, ht⟩)).set
  rw [View.set_slice_whole, Rect.mem_set_unit]
  exact row_in_block i _ (idx_facts ⟨(i 0).val / 2048, ht⟩).2.2.2

theorem flushed_eq (c : Dev nD) (t : Fin cfg3.N) :
    (dat3 (F := Ideal) V c).flushed 2 t
      = ((cfg3.win 2).blk t).view.read (Elt Ideal) (GnnSpec.gatherK (V c (Pipeline.arrRef spec3 0)) (V c (Pipeline.arrRef spec3 1))) := by
  show (cfg3.win 2).cut (grid3.coords t) ((dat3 V c).after 2 t) = _
  rw [after3_2]
  exact block_eq_gather _ _ t.val ((cfg3.win 0).blk t).view.emb ((cfg3.win 1).blk t).view.emb ((cfg3.win 2).blk t).view.emb
    _ _ _ (idx_facts t) (fun _ _ => rfl) (fun _ _ => rfl) (fun _ _ => rfl)
    (((cfg3.win 2).blk t).view.read (Elt Ideal)) (fun _ _ => rfl) _
    (out_eq c (grid3.coords t) (ms3_0 t) (hs3_0 t) (ms3_1 t) (hs3_1 t) (ms3_2 t) (hs3_2 t) (iblk3 V c 0 t) (iblk3 V c 1 t))

theorem arr (c : Dev nD) : (dat3 (F := Ideal) V c).arrAt 2 cfg3.N = GnnSpec.gatherK (V c (Pipeline.arrRef spec3 0)) (V c (Pipeline.arrRef spec3 1)) :=
  (dat3 (F := Ideal) V c).arrAt_eq_of_cover 2 _ (fun t _ => flushed_eq V c t) cover

end Cert.KernelIdeal.Gather3

end
-- ==== Proof.Scatter4.lean ====
import proofs.«416123_j75222057222468_1_alg».proof.Proof.Gen.KernelIdeal.Frame
import proofs.«416123_j75222057222468_1_alg».proof.Proof.OneHotScatter

open scoped BigOperators

noncomputable section

namespace Cert.KernelIdeal.Scatter4

open Idealize.ShloMosaic Idealize.ShloMosaic.TcCoe Idealize.ShloMosaic.Tactic Idealize.ShloMosaic.ValueIdx
open Idealize.ShloMosaic.Pipeline (Dat)
open Cert.KernelIdeal.Gen OneHotScatter

section Body

variable (c : Dev nD) (i : grid4.Coords) (arg1 : Memref sig .tc .vmem S2048x128 .f32) (harg1 : arg1.IsWhole)
  (arg2 : Memref sig .tc .vmem S2048 .i32) (harg2 : arg2.IsWhole) (arg3 : Memref sig .tc .vmem S51200x128 .f32)
  (harg3 : arg3.IsWhole) (x0 : Vec Ideal S2048x128 .f32) (x1 : Vec Ideal S2048 .i32)

theorem tripL_eq (k : Fin k4_t1_loop.trips) (f : BufTy.Contents (Elt Ideal) arg3.view.ty) :
    Gen.tripL_k4_t1 (F := Ideal) Variants.none c none i arg1 harg1 arg2 harg2 arg3 harg3 x1 x0 k f
      = [⟨tripRect k, Gen.k4_pay2 x1 x0 k (View.readAt (Elt Ideal) arg3.view (tripRect k).toLoadRect f)⟩] := by
  unfold Gen.tripL_k4_t1 Gen.trip_k4_t1
  rfl

theorem outB_eq (hc0 : ¬Gen.cond4_0 i) (xo2 : Vec Ideal S51200x128 .f32) (n : Fin 51200) (d : Fin 128) :
    Gen.out4_B_2 (F := Ideal) c i arg1 harg1 arg2 harg2 arg3 harg3 hc0 x0 x1 xo2 (ix2 n d)
      = xo2 (ix2 n d) + ∑ q : Fin 2048, GnnSpec.hit (x1 (ix1 q)) n.val * x0 (ix2 q d) := by
  have hL : (Gen.kernelRun4_B (F := Ideal) c i arg1 harg1 arg2 harg2 arg3 harg3 hc0 x0 x1 xo2).1
      = Gen.pb_k4_t1 (F := Ideal) Variants.none c none i arg1 harg1 arg2 harg2 arg3 harg3 x1 x0 (harg3.unread xo2)
          k4_t1_loop.trips := by
    unfold Gen.kernelRun4_B
    dsimp only
    sl_unfold_words
    simp only [View.readAt_eq_ld, harg1.read_unread, harg2.read_unread, View.ld_unit_zero (S := S2048) zeroOffOne,
      View.ld_unit_zero (S := S2048x128) zeroOffTwo]
    try rfl
  unfold Gen.out4_B_2
  rw [read_run arg3 x1 x0 (harg3.unread xo2) [] _ (tripL_eq c i arg1 harg1 arg2 harg2 arg3 harg3 x0 x1) _ rfl
    (Gen.pb_k4_t1_succ (F := Ideal) Variants.none c none i arg1 harg1 arg2 harg2 arg3 harg3 x1 x0 _) Gen.VO4_2 _
    (Gen.cover4_B_2 (F := Ideal) c i arg1 harg1 arg2 harg2 arg3 harg3 hc0 x0 x1 xo2) (hL.trans (List.append_nil _).symm) n d,
    View.writes_nil, harg3.read_unread]

theorem outA_eq (hc0 : Gen.cond4_0 i) (n : Fin 51200) (d : Fin 128) :
    Gen.out4_A_2 (F := Ideal) c i arg1 harg1 arg2 harg2 arg3 harg3 hc0 x0 x1 (ix2 n d)
      = 0 + ∑ q : Fin 2048, GnnSpec.hit (x1 (ix1 q)) n.val * x0 (ix2 q d) := by
  have hL : (Gen.kernelRun4_A (F := Ideal) c i arg1 harg1 arg2 harg2 arg3 harg3 hc0 x0 x1).1
      = Gen.pb_k4_t1 (F := Ideal) Variants.none c none i arg1 harg1 arg2 harg2 arg3 harg3 x1 x0
          (arg3.view.writes (Elt Ideal) arg3.view.junk [zeroPiece]) k4_t1_loop.trips ++ [zeroPiece] := by
    unfold Gen.kernelRun4_A
    dsimp only
    sl_unfold_words
    simp only [View.readAt_eq_ld, harg1.read_unread, harg2.read_unread, View.ld_unit_zero (S := S2048) zeroOffOne,
      View.ld_unit_zero (S := S2048x128) zeroOffTwo]
    try rfl
  unfold Gen.out4_A_2
  rw [read_run arg3 x1 x0 arg3.view.junk [zeroPiece] _ (tripL_eq c i arg1 harg1 arg2 harg2 arg3 harg3 x0 x1) _ rfl
    (Gen.pb_k4_t1_succ (F := Ideal) Variants.none c none i arg1 harg1 arg2 harg2 arg3 harg3 x1 x0 _) Gen.VO4_2 _
    (Gen.cover4_A_2 (F := Ideal) c i arg1 harg1 arg2 harg2 arg3 harg3 hc0 x0 x1) hL n d, read_zeroFill]

end Body

variable (V : (c : Dev nD) → (b : Ref sig .tc) → Buf (Elt Ideal) ((c : Thread nD τ).loc b))

theorem rowsIndex : ∀ t : Fin cfg4.N, win4_0.index t (0 : Fin 2) = t.val ∧ win4_0.index t (1 : Fin 2) = 0 :=
  (by decide +kernel : ∀ t : Fin grid4.N, _)
theorem wordsIndex : ∀ t : Fin cfg4.N, win4_1.index t (0 : Fin 1) = t.val :=
  (by decide +kernel : ∀ t : Fin grid4.N, _)

/-- The block starts as the first point's sum and gains one point's sum at a time. -/
theorem outsAt_last (c : Dev nD) : ∀ (t : ℕ) (h : t < cfg4.N), t = 390 →
    outsAt4 V c t h = GnnSpec.scatterK (V c (Pipeline.arrRef spec4 0)) (V c (Pipeline.arrRef spec4 1)) :=
  scatter_of_steps N_4 (outsAt4 V c) _ _ (fun t => iblk4 V c 0 t) (fun t => iblk4 V c 1 t)
    (fun t ht q d h => congrArg (V c (Pipeline.arrRef spec4 0))
      (rows_idx (rowsIndex ⟨t, ht⟩).1 (rowsIndex ⟨t, ht⟩).2 q d (((cfg4.win 0).blk ⟨t, ht⟩).view.emb (ix2 q d)) rfl rfl h))
    (fun t ht q h => congrArg (V c (Pipeline.arrRef spec4 1))
      (words_idx (wordsIndex ⟨t, ht⟩) q (((cfg4.win 1).blk ⟨t, ht⟩).view.emb (ix1 q)) rfl h))
    (fun h n d => by
      rw [outsAt4_A V c ⟨0, h⟩ (Nat.zero_mod _)]
      exact outA_eq c _ _ (hs4_0 ⟨0, h⟩) _ (hs4_1 ⟨0, h⟩) _ (hs4_2 ⟨0, h⟩) _ _ _ n d)
    (fun t h n d => by
      have hN := N_4
      have hB : ¬(⟨t + 1, h⟩ : Fin cfg4.N).val % 391 = 0 := by dsimp only; omega
      rw [outsAt4_B V c ⟨t + 1, h⟩ hB]
      exact outB_eq c _ _ (hs4_0 ⟨t + 1, h⟩) _ (hs4_1 ⟨t + 1, h⟩) _ (hs4_2 ⟨t + 1, h⟩) _ _ _ _ n d)

theorem outOffsets (t : Fin cfg4.N) : (fun a => win4_2.index t a * (Pipeline.arrRef spec4 2).ty.shape.size a) = fun _ => 0 :=
  funext ((by decide +kernel : ∀ t : Fin grid4.N, ∀ a : Fin 2, win4_2.index t a * S51200x128.size a = 0) t)

theorem flushed_eq (c : Dev nD) (t : Fin cfg4.N) (hf : (cfg4.win 2).flush t = true) :
    (dat4 V c).flushed 2 t = ((cfg4.win 2).blk t).view.read (Elt Ideal)
      (GnnSpec.scatterK (V c (Pipeline.arrRef spec4 0)) (V c (Pipeline.arrRef spec4 1))) := by
  have hN : cfg4.N = 391 := N_4
  have hlast : t.val = 390 := by have := (flush4_2 t).mp hf; have := t.isLt; omega
  show (cfg4.win 2).cut (grid4.coords t) ((dat4 V c).after 2 t) = _
  rw [after4_2, outsAt_last V c t.val t.isLt hlast]
  exact (Memref.read_access_unit_zero (Elt Ideal) (Pipeline.arrRef spec4 2) (outOffsets t)
    (fun a => by rw [congrFun (outOffsets t) a]; simp) _).symm

theorem arr (c : Dev nD) : (Gen.dat4 (F := Ideal) V c).arrAt 2 cfg4.N
    = GnnSpec.scatterK (V c (Pipeline.arrRef spec4 0)) (V c (Pipeline.arrRef spec4 1)) :=
  have hN : (390 : ℕ) < cfg4.N := lt_of_lt_of_eq (by decide) N_4.symm
  (dat4 V c).arrAt_eq_of_cover 2 _ (flushed_eq V c) fun i =>
    ⟨⟨390, hN⟩, (flush4_2 ⟨390, hN⟩).mpr rfl, by
      show i ∈ ((View.whole (Pipeline.arrRef spec4 2)).slice (win4_2.rect ⟨390, hN⟩)).set
      rw [View.set_slice_whole]
      exact View.mem_set_unit_zero (outOffsets ⟨390, hN⟩) _ i⟩

end Cert.KernelIdeal.Scatter4
-- ==== Proof.Lin5.lean ====
import proofs.«416123_j75222057222468_1_alg».proof.Proof.LinStep

noncomputable section

namespace Cert.KernelIdeal.Lin5

open Cert.KernelIdeal Cert.KernelIdeal.Gen Idealize.ShloMosaic Idealize.ShloMosaic.TcCoe Idealize.SL.Sem
open Idealize.ShloMosaic.ValueIdx LinStep
open Idealize.ShloMosaic.Pipeline (Dat)

variable (V : (c : Dev nD) → (b : Ref sig .tc) → Buf (Elt Ideal) ((c : Thread nD τ).loc b))

theorem idx0 : ∀ t : Fin cfg5.N, win5_0.index t (0 : Fin 2) = t.val ∧ win5_0.index t (1 : Fin 2) = 0 :=
  (by decide +kernel : ∀ t : Fin grid5.N, _)
theorem idx1 : ∀ t : Fin cfg5.N, win5_1.index t (0 : Fin 2) = t.val ∧ win5_1.index t (1 : Fin 2) = 0 :=
  (by decide +kernel : ∀ t : Fin grid5.N, _)
theorem idx2 : ∀ t : Fin cfg5.N, win5_2.index t (0 : Fin 2) = t.val ∧ win5_2.index t (1 : Fin 2) = 0 :=
  (by decide +kernel : ∀ t : Fin grid5.N, _)
theorem idx7 : ∀ t : Fin cfg5.N, win5_7.index t (0 : Fin 2) = t.val ∧ win5_7.index t (1 : Fin 2) = 0 :=
  (by decide +kernel : ∀ t : Fin grid5.N, _)
theorem idx3 : ∀ t : Fin cfg5.N, win5_3.index t (0 : Fin 2) = 0 ∧ win5_3.index t (1 : Fin 2) = 0 :=
  (by decide +kernel : ∀ t : Fin grid5.N, _)
theorem idx4 : ∀ t : Fin cfg5.N, win5_4.index t (0 : Fin 2) = 0 ∧ win5_4.index t (1 : Fin 2) = 0 :=
  (by decide +kernel : ∀ t : Fin grid5.N, _)
theorem idx5 : ∀ t : Fin cfg5.N, win5_5.index t (0 : Fin 2) = 0 ∧ win5_5.index t (1 : Fin 2) = 0 :=
  (by decide +kernel : ∀ t : Fin grid5.N, _)
theorem idx6 : ∀ t : Fin cfg5.N, win5_6.index t (0 : Fin 2) = 0 ∧ win5_6.index t (1 : Fin 2) = 0 :=
  (by decide +kernel : ∀ t : Fin grid5.N, _)

theorem row0 (c : Dev nD) (t : Fin cfg5.N) (p : Fin 2048) (k : Fin 128) (r : Fin 51200)
    (hr : r.val = 2048 * t.val + p.val) :
    (iblk5 V c 0 t : Vec Ideal S2048x128 .f32) (ix2 p k) = (V c (Pipeline.arrRef spec5 0) : S51200x128.Idx → EReal) (ix2 r k) :=
  show V c (Pipeline.arrRef spec5 0) (((cfg5.win 0).blk t).view.emb (ix2 p k)) = _ from congrArg _ (Shape.idx_ext₂
    (by show win5_0.index t (0 : Fin 2) * 2048 + 1 * p.val = r.val; rw [(idx0 t).1, hr]; omega)
    (by show win5_0.index t (1 : Fin 2) * 128 + 1 * k.val = k.val; rw [(idx0 t).2]; omega))

theorem row1 (c : Dev nD) (t : Fin cfg5.N) (p : Fin 2048) (k : Fin 128) (r : Fin 51200)
    (hr : r.val = 2048 * t.val + p.val) :
    (iblk5 V c 1 t : Vec Ideal S2048x128 .f32) (ix2 p k) = (V c (Pipeline.arrRef spec5 1) : S51200x128.Idx → EReal) (ix2 r k) :=
  show V c (Pipeline.arrRef spec5 1) (((cfg5.win 1).blk t).view.emb (ix2 p k)) = _ from congrArg _ (Shape.idx_ext₂
    (by show win5_1.index t (0 : Fin 2) * 2048 + 1 * p.val = r.val; rw [(idx1 t).1, hr]; omega)
    (by show win5_1.index t (1 : Fin 2) * 128 + 1 * k.val = k.val; rw [(idx1 t).2]; omega))

theorem row2 (c : Dev nD) (t : Fin cfg5.N) (p : Fin 2048) (k : Fin 1) (r : Fin 51200)
    (hr : r.val = 2048 * t.val + p.val) :
    (iblk5 V c 2 t : Vec Ideal S2048x1 .f32) (ix2 p k) = (V c (Pipeline.arrRef spec5 2) : S51200x1.Idx → EReal) (ix2 r k) :=
  show V c (Pipeline.arrRef spec5 2) (((cfg5.win 2).blk t).view.emb (ix2 p k)) = _ from congrArg _ (Shape.idx_ext₂
    (by show win5_2.index t (0 : Fin 2) * 2048 + 1 * p.val = r.val; rw [(idx2 t).1, hr]; omega)
    (by show win5_2.index t (1 : Fin 2) * 1 + 1 * k.val = k.val; rw [(idx2 t).2]; omega))

theorem whole3 (c : Dev nD) (t : Fin cfg5.N) :
    (iblk5 V c 3 t : Vec Ideal S128x128 .f32) = V c (Pipeline.arrRef spec5 3) := funext fun y =>
  show V c (Pipeline.arrRef spec5 3) (((cfg5.win 3).blk t).view.emb y) = _ from congrArg _ (Shape.idx_ext₂
    (by show win5_3.index t (0 : Fin 2) * 128 + 1 * (y 0).val = (y 0).val; rw [(idx3 t).1]; omega)
    (by show win5_3.index t (1 : Fin 2) * 128 + 1 * (y 1).val = (y 1).val; rw [(idx3 t).2]; omega))

theorem whole4 (c : Dev nD) (t : Fin cfg5.N) :
    (iblk5 V c 4 t : Vec Ideal S1x128 .f32) = V c (Pipeline.arrRef spec5 4) := funext fun y =>
  show V c (Pipeline.arrRef spec5 4) (((cfg5.win 4).blk t).view.emb y) = _ from congrArg _ (Shape.idx_ext₂
    (by show win5_4.index t (0 : Fin 2) * 1 + 1 * (y 0).val = (y 0).val; rw [(idx4 t).1]; omega)
    (by show win5_4.index t (1 : Fin 2) * 128 + 1 * (y 1).val = (y 1).val; rw [(idx4 t).2]; omega))

theorem whole5 (c : Dev nD) (t : Fin cfg5.N) :
    (iblk5 V c 5 t : Vec Ideal S128x128 .f32) = V c (Pipeline.arrRef spec5 5) := funext fun y =>
  show V c (Pipeline.arrRef spec5 5) (((cfg5.win 5).blk t).view.emb y) = _ from congrArg _ (Shape.idx_ext₂
    (by show win5_5.index t (0 : Fin 2) * 128 + 1 * (y 0).val = (y 0).val; rw [(idx5 t).1]; omega)
    (by show win5_5.index t (1 : Fin 2) * 128 + 1 * (y 1).val = (y 1).val; rw [(idx5 t).2]; omega))

theorem whole6 (c : Dev nD) (t : Fin cfg5.N) :
    (iblk5 V c 6 t : Vec Ideal S1x128 .f32) = V c (Pipeline.arrRef spec5 6) := funext fun y =>
  show V c (Pipeline.arrRef spec5 6) (((cfg5.win 6).blk t).view.emb y) = _ from congrArg _ (Shape.idx_ext₂
    (by show win5_6.index t (0 : Fin 2) * 1 + 1 * (y 0).val = (y 0).val; rw [(idx6 t).1]; omega)
    (by show win5_6.index t (1 : Fin 2) * 128 + 1 * (y 1).val = (y 1).val; rw [(idx6 t).2]; omega))

abbrev G (c : Dev nD) : S51200x128.Idx → EReal :=
  GnnSpec.linK (V c (Pipeline.arrRef spec5 0)) (V c (Pipeline.arrRef spec5 1)) (V c (Pipeline.arrRef spec5 2))
    (V c (Pipeline.arrRef spec5 3)) (V c (Pipeline.arrRef spec5 4)) (V c (Pipeline.arrRef spec5 5))
    (V c (Pipeline.arrRef spec5 6))

theorem flushed_eq (c : Dev nD) (t : Fin cfg5.N) :
    (dat5 (F := Ideal) V c).flushed 7 t = ((cfg5.win 7).blk t).view.read (Elt Ideal) (G V c) := by
  show (cfg5.win 7).cut (grid5.coords t) ((dat5 (F := Ideal) V c).after 7 t) = _
  rw [after5_7]
  unfold out5_7
  rw [View.canon_unit_zero hz]
  simp only [View.ld_unit_zero (S := S2048x128) hz, View.ld_unit_zero (S := S2048x1) hz,
    View.ld_unit_zero (S := S128x128) hz, View.ld_unit_zero (S := S1x128) hz]
  funext j
  obtain ⟨p, q, rfl⟩ : ∃ (p : Fin 2048) (q : Fin 128), j = ix2 p q := ⟨j 0, j 1, eq_ix2 j⟩
  have hp := p.isLt
  have ht : t.val < 25 := Nat.lt_of_lt_of_eq t.isLt N_5
  show k5_pay1 (F := Ideal) (iblk5 V c 0 t) (iblk5 V c 1 t) (iblk5 V c 2 t) (iblk5 V c 3 t) (iblk5 V c 5 t)
      (iblk5 V c 4 t) (iblk5 V c 6 t) (ix2 p q) = G V c (((cfg5.win 7).blk t).view.emb (ix2 p q))
  rw [whole3 V c t, whole4 V c t, whole5 V c t, whole6 V c t, show ((cfg5.win 7).blk t).view.emb (ix2 p q)
      = (ix2 (⟨2048 * t.val + p.val, by omega⟩ : Fin 51200) q : S51200x128.Idx) from Shape.idx_ext₂
      (by show win5_7.index t (0 : Fin 2) * 2048 + 1 * p.val = 2048 * t.val + p.val; rw [(idx7 t).1]; omega)
      (by show win5_7.index t (1 : Fin 2) * 128 + 1 * q.val = q.val; rw [(idx7 t).2]; omega)]
  exact point_eq k5_pay1 rfl _ _ _ _ _ _ _ _ _ _ p _ q (fun k => row0 V c t p k _ rfl) (fun k => row1 V c t p k _ rfl)
    (row2 V c t p 0 _ rfl)

/-- Row n lies in the block of point n / 2048. -/
theorem cover (i : S51200x128.Idx) :
    ∃ t : Fin cfg5.N, (cfg5.win 7).flush t = true ∧ i ∈ ((cfg5.win 7).blk t).view.set := by
  have hi0 : (i 0).val < 51200 := (i 0).isLt
  have hi1 : (i 1).val < 128 := (i 1).isLt
  have ht : (i 0).val / 2048 < cfg5.N := by rw [show cfg5.N = 25 from N_5]; omega
  have o0 : win5_7.index ⟨(i 0).val / 2048, ht⟩ (0 : Fin 2) = (i 0).val / 2048 := (idx7 _).1
  refine ⟨⟨(i 0).val / 2048, ht⟩, flush5_7 _, ?_⟩
  show i ∈ ((View.whole (Pipeline.arrRef spec5 7)).slice (win5_7.rect ⟨(i 0).val / 2048, ht⟩)).set
  rw [View.set_slice_whole, Rect.mem_set_unit]
  intro a
  match a with
  | ⟨0, _⟩ =>
    show win5_7.index ⟨(i 0).val / 2048, ht⟩ (0 : Fin 2) * 2048 ≤ (i 0).val
      ∧ (i 0).val < win5_7.index ⟨(i 0).val / 2048, ht⟩ (0 : Fin 2) * 2048 + 2048
    rw [o0]; omega
  | ⟨1, _⟩ =>
    show win5_7.index ⟨(i 0).val / 2048, ht⟩ (1 : Fin 2) * 128 ≤ (i 1).val
      ∧ (i 1).val < win5_7.index ⟨(i 0).val / 2048, ht⟩ (1 : Fin 2) * 128 + 128
    rw [(idx7 _).2]; omega

theorem arr (c : Dev nD) :
    (Gen.dat5 (F := Ideal) V c).arrAt 7 cfg5.N
      = GnnSpec.linK (V c (Pipeline.arrRef spec5 0)) (V c (Pipeline.arrRef spec5 1)) (V c (Pipeline.arrRef spec5 2))
          (V c (Pipeline.arrRef spec5 3)) (V c (Pipeline.arrRef spec5 4)) (V c (Pipeline.arrRef spec5 5))
          (V c (Pipeline.arrRef spec5 6)) :=
  (Gen.dat5 (F := Ideal) V c).arrAt_eq_of_cover 7 (G V c) (fun t _ => flushed_eq V c t) cover

end Cert.KernelIdeal.Lin5

end
-- ==== Proof.Gather6.lean ====
import proofs.«416123_j75222057222468_1_alg».proof.Proof.Gen.KernelIdeal.Frame
import proofs.«416123_j75222057222468_1_alg».proof.Proof.OneHotGather

open scoped BigOperators

noncomputable section

namespace Cert.KernelIdeal.Gather6

open Idealize.ShloMosaic Idealize.ShloMosaic.TcCoe Idealize.ShloMosaic.ValueIdx Idealize.ShloMosaic.Tactic Idealize.SL.Sem
open Cert.KernelIdeal Cert.KernelIdeal.Gen Cert.KernelIdeal.OneHotGather

section Body
variable (c : Dev nD) (i : grid6.Coords)
  (arg1 : Memref sig .tc .vmem S51200x128 .f32) (harg1 : arg1.IsWhole)
  (arg2 : Memref sig .tc .vmem S2048 .i32) (harg2 : arg2.IsWhole)
  (arg3 : Memref sig .tc .vmem S2048x128 .f32) (harg3 : arg3.IsWhole)
  (x : Vec Ideal S51200x128 .f32) (s : Vec Ideal S2048 .i32)

theorem out_eq (r : Fin 2048) (d : Fin 128) :
    out6_A_2 (F := Ideal) c i arg1 harg1 arg2 harg2 arg3 harg3 x s (ix2 r d)
      = ∑ n : Fin 51200, GnnSpec.hit (s (ix1 r)) n.val * x (ix2 n d) := by
  unfold out6_A_2
  rw [View.read_writes_of_cover VO6_2 VO6_2.junk arg3.view arg3.view.junk _
      (cover6_A_2 c i arg1 harg1 arg2 harg2 arg3 harg3 x s)]
  unfold kernelRun6_A
  dsimp only
  sl_unfold_words
  simp only [View.readAt_eq_ld, harg2.read_unread, View.writes_append,
    View.ld_unit_zero (S := S2048) (by decide : (![0] : Fin 1 → Nat) = fun _ => 0)]
  refine block_value arg3 x s _ (read_whole_store arg3 _ _)
    (pb_k6_t1 (F := Ideal) Variants.none c none i arg1 harg1 arg2 harg2 arg3 harg3 s (harg1.unread x) _) rfl (fun k => ?_) r d
  rw [pb_k6_t1_succ]
  unfold tripL_k6_t1 trip_k6_t1
  dsimp only
  simp only [View.readAt_eq_ld, View.ld_unit_zero (S := S2048x128) zeroOffs, harg1.read_unread]
  rfl

end Body

variable (V : (c : Dev nD) → (b : Ref sig .tc) → Buf (Elt Ideal) ((c : Thread nD τ).loc b))

theorem cover (i : (⟨2, ![800768, 128]⟩ : Shape).Idx) :
    ∃ t : Fin cfg6.N, (cfg6.win 2).flush t = true ∧ i ∈ ((cfg6.win 2).blk t).view.set := by
  have hi : (i 0).val < 800768 := (i 0).isLt
  have ht : (i 0).val / 2048 < cfg6.N := by rw [show cfg6.N = 391 from N_6]; omega
  refine ⟨⟨(i 0).val / 2048, ht⟩, flush6_2 _, ?_⟩
  show i ∈ ((View.whole (Pipeline.arrRef spec6 2)).slice (win6_2.rect ⟨(i 0).val / 2048, ht⟩)).set
  rw [View.set_slice_whole, Rect.mem_set_unit]
  exact row_in_block i _ (idx_facts ⟨(i 0).val / 2048, ht⟩).2.2.2

theorem flushed_eq (c : Dev nD) (t : Fin cfg6.N) :
    (dat6 (F := Ideal) V c).flushed 2 t
      = ((cfg6.win 2).blk t).view.read (Elt Ideal) (GnnSpec.gatherK (V c (Pipeline.arrRef spec6 0)) (V c (Pipeline.arrRef spec6 1))) := by
  show (cfg6.win 2).cut (grid6.coords t) ((dat6 V c).after 2 t) = _
  rw [after6_2]
  exact block_eq_gather _ _ t.val ((cfg6.win 0).blk t).view.emb ((cfg6.win 1).blk t).view.emb ((cfg6.win 2).blk t).view.emb
    _ _ _ (idx_facts t) (fun _ _ => rfl) (fun _ _ => rfl) (fun _ _ => rfl)
    (((cfg6.win 2).blk t).view.read (Elt Ideal)) (fun _ _ => rfl) _
    (out_eq c (grid6.coords t) (ms6_0 t) (hs6_0 t) (ms6_1 t) (hs6_1 t) (ms6_2 t) (hs6_2 t) (iblk6 V c 0 t) (iblk6 V c 1 t))

theorem arr (c : Dev nD) : (dat6 (F := Ideal) V c).arrAt 2 cfg6.N = GnnSpec.gatherK (V c (Pipeline.arrRef spec6 0)) (V c (Pipeline.arrRef spec6 1)) :=
  (dat6 (F := Ideal) V c).arrAt_eq_of_cover 2 _ (fun t _ => flushed_eq V c t) cover

end Cert.KernelIdeal.Gather6

end
-- ==== Proof.Scatter7.lean ====
import proofs.«416123_j75222057222468_1_alg».proof.Proof.Gen.KernelIdeal.Frame
import proofs.«416123_j75222057222468_1_alg».proof.Proof.OneHotScatter

open scoped BigOperators

noncomputable section

namespace Cert.KernelIdeal.Scatter7

open Idealize.ShloMosaic Idealize.ShloMosaic.TcCoe Idealize.ShloMosaic.Tactic Idealize.ShloMosaic.ValueIdx
open Idealize.ShloMosaic.Pipeline (Dat)
open Cert.KernelIdeal.Gen OneHotScatter

section Body

variable (c : Dev nD) (i : grid7.Coords) (arg1 : Memref sig .tc .vmem S2048x128 .f32) (harg1 : arg1.IsWhole)
  (arg2 : Memref sig .tc .vmem S2048 .i32) (harg2 : arg2.IsWhole) (arg3 : Memref sig .tc .vmem S51200x128 .f32)
  (harg3 : arg3.IsWhole) (x0 : Vec Ideal S2048x128 .f32) (x1 : Vec Ideal S2048 .i32)

theorem tripL_eq (k : Fin k7_t1_loop.trips) (f : BufTy.Contents (Elt Ideal) arg3.view.ty) :
    Gen.tripL_k7_t1 (F := Ideal) Variants.none c none i arg1 harg1 arg2 harg2 arg3 harg3 x1 x0 k f
      = [⟨tripRect k, Gen.k7_pay2 x1 x0 k (View.readAt (Elt Ideal) arg3.view (tripRect k).toLoadRect f)⟩] := by
  unfold Gen.tripL_k7_t1 Gen.trip_k7_t1
  rfl

theorem outB_eq (hc0 : ¬Gen.cond7_0 i) (xo2 : Vec Ideal S51200x128 .f32) (n : Fin 51200) (d : Fin 128) :
    Gen.out7_B_2 (F := Ideal) c i arg1 harg1 arg2 harg2 arg3 harg3 hc0 x0 x1 xo2 (ix2 n d)
      = xo2 (ix2 n d) + ∑ q : Fin 2048, GnnSpec.hit (x1 (ix1 q)) n.val * x0 (ix2 q d) := by
  have hL : (Gen.kernelRun7_B (F := Ideal) c i arg1 harg1 arg2 harg2 arg3 harg3 hc0 x0 x1 xo2).1
      = Gen.pb_k7_t1 (F := Ideal) Variants.none c none i arg1 harg1 arg2 harg2 arg3 harg3 x1 x0 (harg3.unread xo2)
          k7_t1_loop.trips := by
    unfold Gen.kernelRun7_B
    dsimp only
    sl_unfold_words
    simp only [View.readAt_eq_ld, harg1.read_unread, harg2.read_unread, View.ld_unit_zero (S := S2048) zeroOffOne,
      View.ld_unit_zero (S := S2048x128) zeroOffTwo]
    try rfl
  unfold Gen.out7_B_2
  rw [read_run arg3 x1 x0 (harg3.unread xo2) [] _ (tripL_eq c i arg1 harg1 arg2 harg2 arg3 harg3 x0 x1) _ rfl
    (Gen.pb_k7_t1_succ (F := Ideal) Variants.none c none i arg1 harg1 arg2 harg2 arg3 harg3 x1 x0 _) Gen.VO7_2 _
    (Gen.cover7_B_2 (F := Ideal) c i arg1 harg1 arg2 harg2 arg3 harg3 hc0 x0 x1 xo2) (hL.trans (List.append_nil _).symm) n d,
    View.writes_nil, harg3.read_unread]

theorem outA_eq (hc0 : Gen.cond7_0 i) (n : Fin 51200) (d : Fin 128) :
    Gen.out7_A_2 (F := Ideal) c i arg1 harg1 arg2 harg2 arg3 harg3 hc0 x0 x1 (ix2 n d)
      = 0 + ∑ q : Fin 2048, GnnSpec.hit (x1 (ix1 q)) n.val * x0 (ix2 q d) := by
  have hL : (Gen.kernelRun7_A (F := Ideal) c i arg1 harg1 arg2 harg2 arg3 harg3 hc0 x0 x1).1
      = Gen.pb_k7_t1 (F := Ideal) Variants.none c none i arg1 harg1 arg2 harg2 arg3 harg3 x1 x0
          (arg3.view.writes (Elt Ideal) arg3.view.junk [zeroPiece]) k7_t1_loop.trips ++ [zeroPiece] := by
    unfold Gen.kernelRun7_A
    dsimp only
    sl_unfold_words
    simp only [View.readAt_eq_ld, harg1.read_unread, harg2.read_unread, View.ld_unit_zero (S := S2048) zeroOffOne,
      View.ld_unit_zero (S := S2048x128) zeroOffTwo]
    try rfl
  unfold Gen.out7_A_2
  rw [read_run arg3 x1 x0 arg3.view.junk [zeroPiece] _ (tripL_eq c i arg1 harg1 arg2 harg2 arg3 harg3 x0 x1) _ rfl
    (Gen.pb_k7_t1_succ (F := Ideal) Variants.none c none i arg1 harg1 arg2 harg2 arg3 harg3 x1 x0 _) Gen.VO7_2 _
    (Gen.cover7_A_2 (F := Ideal) c i arg1 harg1 arg2 harg2 arg3 harg3 hc0 x0 x1) hL n d, read_zeroFill]

end Body

variable (V : (c : Dev nD) → (b : Ref sig .tc) → Buf (Elt Ideal) ((c : Thread nD τ).loc b))

theorem rowsIndex : ∀ t : Fin cfg7.N, win7_0.index t (0 : Fin 2) = t.val ∧ win7_0.index t (1 : Fin 2) = 0 :=
  (by decide +kernel : ∀ t : Fin grid7.N, _)
theorem wordsIndex : ∀ t : Fin cfg7.N, win7_1.index t (0 : Fin 1) = t.val :=
  (by decide +kernel : ∀ t : Fin grid7.N, _)

/-- The block starts as the first point's sum and gains one point's sum at a time. -/
theorem outsAt_last (c : Dev nD) : ∀ (t : ℕ) (h : t < cfg7.N), t = 390 →
    outsAt7 V c t h = GnnSpec.scatterK (V c (Pipeline.arrRef spec7 0)) (V c (Pipeline.arrRef spec7 1)) :=
  scatter_of_steps N_7 (outsAt7 V c) _ _ (fun t => iblk7 V c 0 t) (fun t => iblk7 V c 1 t)
    (fun t ht q d h => congrArg (V c (Pipeline.arrRef spec7 0))
      (rows_idx (rowsIndex ⟨t, ht⟩).1 (rowsIndex ⟨t, ht⟩).2 q d (((cfg7.win 0).blk ⟨t, ht⟩).view.emb (ix2 q d)) rfl rfl h))
    (fun t ht q h => congrArg (V c (Pipeline.arrRef spec7 1))
      (words_idx (wordsIndex ⟨t, ht⟩) q (((cfg7.win 1).blk ⟨t, ht⟩).view.emb (ix1 q)) rfl h))
    (fun h n d => by
      rw [outsAt7_A V c ⟨0, h⟩ (Nat.zero_mod _)]
      exact outA_eq c _ _ (hs7_0 ⟨0, h⟩) _ (hs7_1 ⟨0, h⟩) _ (hs7_2 ⟨0, h⟩) _ _ _ n d)
    (fun t h n d => by
      have hN := N_7
      have hB : ¬(⟨t + 1, h⟩ : Fin cfg7.N).val % 391 = 0 := by dsimp only; omega
      rw [outsAt7_B V c ⟨t + 1, h⟩ hB]
      exact outB_eq c _ _ (hs7_0 ⟨t + 1, h⟩) _ (hs7_1 ⟨t + 1, h⟩) _ (hs7_2 ⟨t + 1, h⟩) _ _ _ _ n d)

theorem outOffsets (t : Fin cfg7.N) : (fun a => win7_2.index t a * (Pipeline.arrRef spec7 2).ty.shape.size a) = fun _ => 0 :=
  funext ((by decide +kernel : ∀ t : Fin grid7.N, ∀ a : Fin 2, win7_2.index t a * S51200x128.size a = 0) t)

theorem flushed_eq (c : Dev nD) (t : Fin cfg7.N) (hf : (cfg7.win 2).flush t = true) :
    (dat7 V c).flushed 2 t = ((cfg7.win 2).blk t).view.read (Elt Ideal)
      (GnnSpec.scatterK (V c (Pipeline.arrRef spec7 0)) (V c (Pipeline.arrRef spec7 1))) := by
  have hN : cfg7.N = 391 := N_7
  have hlast : t.val = 390 := by have := (flush7_2 t).mp hf; have := t.isLt; omega
  show (cfg7.win 2).cut (grid7.coords t) ((dat7 V c).after 2 t) = _
  rw [after7_2, outsAt_last V c t.val t.isLt hlast]
  exact (Memref.read_access_unit_zero (Elt Ideal) (Pipeline.arrRef spec7 2) (outOffsets t)
    (fun a => by rw [congrFun (outOffsets t) a]; simp) _).symm

theorem arr (c : Dev nD) : (Gen.dat7 (F := Ideal) V c).arrAt 2 cfg7.N
    = GnnSpec.scatterK (V c (Pipeline.arrRef spec7 0)) (V c (Pipeline.arrRef spec7 1)) :=
  have hN : (390 : ℕ) < cfg7.N := lt_of_lt_of_eq (by decide) N_7.symm
  (dat7 V c).arrAt_eq_of_cover 2 _ (flushed_eq V c) fun i =>
    ⟨⟨390, hN⟩, (flush7_2 ⟨390, hN⟩).mpr rfl, by
      show i ∈ ((View.whole (Pipeline.arrRef spec7 2)).slice (win7_2.rect ⟨390, hN⟩)).set
      rw [View.set_slice_whole]
      exact View.mem_set_unit_zero (outOffsets ⟨390, hN⟩) _ i⟩

end Cert.KernelIdeal.Scatter7
-- ==== Proof.Lin8.lean ====
import proofs.«416123_j75222057222468_1_alg».proof.Proof.LinStep

noncomputable section

namespace Cert.KernelIdeal.Lin8

open Cert.KernelIdeal Cert.KernelIdeal.Gen Idealize.ShloMosaic Idealize.ShloMosaic.TcCoe Idealize.SL.Sem
open Idealize.ShloMosaic.ValueIdx LinStep
open Idealize.ShloMosaic.Pipeline (Dat)

variable (V : (c : Dev nD) → (b : Ref sig .tc) → Buf (Elt Ideal) ((c : Thread nD τ).loc b))

theorem idx0 : ∀ t : Fin cfg8.N, win8_0.index t (0 : Fin 2) = t.val ∧ win8_0.index t (1 : Fin 2) = 0 :=
  (by decide +kernel : ∀ t : Fin grid8.N, _)
theorem idx1 : ∀ t : Fin cfg8.N, win8_1.index t (0 : Fin 2) = t.val ∧ win8_1.index t (1 : Fin 2) = 0 :=
  (by decide +kernel : ∀ t : Fin grid8.N, _)
theorem idx2 : ∀ t : Fin cfg8.N, win8_2.index t (0 : Fin 2) = t.val ∧ win8_2.index t (1 : Fin 2) = 0 :=
  (by decide +kernel : ∀ t : Fin grid8.N, _)
theorem idx7 : ∀ t : Fin cfg8.N, win8_7.index t (0 : Fin 2) = t.val ∧ win8_7.index t (1 : Fin 2) = 0 :=
  (by decide +kernel : ∀ t : Fin grid8.N, _)
theorem idx3 : ∀ t : Fin cfg8.N, win8_3.index t (0 : Fin 2) = 0 ∧ win8_3.index t (1 : Fin 2) = 0 :=
  (by decide +kernel : ∀ t : Fin grid8.N, _)
theorem idx4 : ∀ t : Fin cfg8.N, win8_4.index t (0 : Fin 2) = 0 ∧ win8_4.index t (1 : Fin 2) = 0 :=
  (by decide +kernel : ∀ t : Fin grid8.N, _)
theorem idx5 : ∀ t : Fin cfg8.N, win8_5.index t (0 : Fin 2) = 0 ∧ win8_5.index t (1 : Fin 2) = 0 :=
  (by decide +kernel : ∀ t : Fin grid8.N, _)
theorem idx6 : ∀ t : Fin cfg8.N, win8_6.index t (0 : Fin 2) = 0 ∧ win8_6.index t (1 : Fin 2) = 0 :=
  (by decide +kernel : ∀ t : Fin grid8.N, _)

theorem row0 (c : Dev nD) (t : Fin cfg8.N) (p : Fin 2048) (k : Fin 128) (r : Fin 51200)
    (hr : r.val = 2048 * t.val + p.val) :
    (iblk8 V c 0 t : Vec Ideal S2048x128 .f32) (ix2 p k) = (V c (Pipeline.arrRef spec8 0) : S51200x128.Idx → EReal) (ix2 r k) :=
  show V c (Pipeline.arrRef spec8 0) (((cfg8.win 0).blk t).view.emb (ix2 p k)) = _ from congrArg _ (Shape.idx_ext₂
    (by show win8_0.index t (0 : Fin 2) * 2048 + 1 * p.val = r.val; rw [(idx0 t).1, hr]; omega)
    (by show win8_0.index t (1 : Fin 2) * 128 + 1 * k.val = k.val; rw [(idx0 t).2]; omega))

theorem row1 (c : Dev nD) (t : Fin cfg8.N) (p : Fin 2048) (k : Fin 128) (r : Fin 51200)
    (hr : r.val = 2048 * t.val + p.val) :
    (iblk8 V c 1 t : Vec Ideal S2048x128 .f32) (ix2 p k) = (V c (Pipeline.arrRef spec8 1) : S51200x128.Idx → EReal) (ix2 r k) :=
  show V c (Pipeline.arrRef spec8 1) (((cfg8.win 1).blk t).view.emb (ix2 p k)) = _ from congrArg _ (Shape.idx_ext₂
    (by show win8_1.index t (0 : Fin 2) * 2048 + 1 * p.val = r.val; rw [(idx1 t).1, hr]; omega)
    (by show win8_1.index t (1 : Fin 2) * 128 + 1 * k.val = k.val; rw [(idx1 t).2]; omega))

theorem row2 (c : Dev nD) (t : Fin cfg8.N) (p : Fin 2048) (k : Fin 1) (r : Fin 51200)
    (hr : r.val = 2048 * t.val + p.val) :
    (iblk8 V c 2 t : Vec Ideal S2048x1 .f32) (ix2 p k) = (V c (Pipeline.arrRef spec8 2) : S51200x1.Idx → EReal) (ix2 r k) :=
  show V c (Pipeline.arrRef spec8 2) (((cfg8.win 2).blk t).view.emb (ix2 p k)) = _ from congrArg _ (Shape.idx_ext₂
    (by show win8_2.index t (0 : Fin 2) * 2048 + 1 * p.val = r.val; rw [(idx2 t).1, hr]; omega)
    (by show win8_2.index t (1 : Fin 2) * 1 + 1 * k.val = k.val; rw [(idx2 t).2]; omega))

theorem whole3 (c : Dev nD) (t : Fin cfg8.N) :
    (iblk8 V c 3 t : Vec Ideal S128x128 .f32) = V c (Pipeline.arrRef spec8 3) := funext fun y =>
  show V c (Pipeline.arrRef spec8 3) (((cfg8.win 3).blk t).view.emb y) = _ from congrArg _ (Shape.idx_ext₂
    (by show win8_3.index t (0 : Fin 2) * 128 + 1 * (y 0).val = (y 0).val; rw [(idx3 t).1]; omega)
    (by show win8_3.index t (1 : Fin 2) * 128 + 1 * (y 1).val = (y 1).val; rw [(idx3 t).2]; omega))

theorem whole4 (c : Dev nD) (t : Fin cfg8.N) :
    (iblk8 V c 4 t : Vec Ideal S1x128 .f32) = V c (Pipeline.arrRef spec8 4) := funext fun y =>
  show V c (Pipeline.arrRef spec8 4) (((cfg8.win 4).blk t).view.emb y) = _ from congrArg _ (Shape.idx_ext₂
    (by show win8_4.index t (0 : Fin 2) * 1 + 1 * (y 0).val = (y 0).val; rw [(idx4 t).1]; omega)
    (by show win8_4.index t (1 : Fin 2) * 128 + 1 * (y 1).val = (y 1).val; rw [(idx4 t).2]; omega))

theorem whole5 (c : Dev nD) (t : Fin cfg8.N) :
    (iblk8 V c 5 t : Vec Ideal S128x128 .f32) = V c (Pipeline.arrRef spec8 5) := funext fun y =>
  show V c (Pipeline.arrRef spec8 5) (((cfg8.win 5).blk t).view.emb y) = _ from congrArg _ (Shape.idx_ext₂
    (by show win8_5.index t (0 : Fin 2) * 128 + 1 * (y 0).val = (y 0).val; rw [(idx5 t).1]; omega)
    (by show win8_5.index t (1 : Fin 2) * 128 + 1 * (y 1).val = (y 1).val; rw [(idx5 t).2]; omega))

theorem whole6 (c : Dev nD) (t : Fin cfg8.N) :
    (iblk8 V c 6 t : Vec Ideal S1x128 .f32) = V c (Pipeline.arrRef spec8 6) := funext fun y =>
  show V c (Pipeline.arrRef spec8 6) (((cfg8.win 6).blk t).view.emb y) = _ from congrArg _ (Shape.idx_ext₂
    (by show win8_6.index t (0 : Fin 2) * 1 + 1 * (y 0).val = (y 0).val; rw [(idx6 t).1]; omega)
    (by show win8_6.index t (1 : Fin 2) * 128 + 1 * (y 1).val = (y 1).val; rw [(idx6 t).2]; omega))

abbrev G (c : Dev nD) : S51200x128.Idx → EReal :=
  GnnSpec.linK (V c (Pipeline.arrRef spec8 0)) (V c (Pipeline.arrRef spec8 1)) (V c (Pipeline.arrRef spec8 2))
    (V c (Pipeline.arrRef spec8 3)) (V c (Pipeline.arrRef spec8 4)) (V c (Pipeline.arrRef spec8 5))
    (V c (Pipeline.arrRef spec8 6))

theorem flushed_eq (c : Dev nD) (t : Fin cfg8.N) :
    (dat8 (F := Ideal) V c).flushed 7 t = ((cfg8.win 7).blk t).view.read (Elt Ideal) (G V c) := by
  show (cfg8.win 7).cut (grid8.coords t) ((dat8 (F := Ideal) V c).after 7 t) = _
  rw [after8_7]
  unfold out8_7
  rw [View.canon_unit_zero hz]
  simp only [View.ld_unit_zero (S := S2048x128) hz, View.ld_unit_zero (S := S2048x1) hz,
    View.ld_unit_zero (S := S128x128) hz, View.ld_unit_zero (S := S1x128) hz]
  funext j
  obtain ⟨p, q, rfl⟩ : ∃ (p : Fin 2048) (q : Fin 128), j = ix2 p q := ⟨j 0, j 1, eq_ix2 j⟩
  have hp := p.isLt
  have ht : t.val < 25 := Nat.lt_of_lt_of_eq t.isLt N_8
  show k8_pay1 (F := Ideal) (iblk8 V c 0 t) (iblk8 V c 1 t) (iblk8 V c 2 t) (iblk8 V c 3 t) (iblk8 V c 5 t)
      (iblk8 V c 4 t) (iblk8 V c 6 t) (ix2 p q) = G V c (((cfg8.win 7).blk t).view.emb (ix2 p q))
  rw [whole3 V c t, whole4 V c t, whole5 V c t, whole6 V c t, show ((cfg8.win 7).blk t).view.emb (ix2 p q)
      = (ix2 (⟨2048 * t.val + p.val, by omega⟩ : Fin 51200) q : S51200x128.Idx) from Shape.idx_ext₂
      (by show win8_7.index t (0 : Fin 2) * 2048 + 1 * p.val = 2048 * t.val + p.val; rw [(idx7 t).1]; omega)
      (by show win8_7.index t (1 : Fin 2) * 128 + 1 * q.val = q.val; rw [(idx7 t).2]; omega)]
  exact point_eq k8_pay1 rfl _ _ _ _ _ _ _ _ _ _ p _ q (fun k => row0 V c t p k _ rfl) (fun k => row1 V c t p k _ rfl)
    (row2 V c t p 0 _ rfl)

/-- Row n lies in the block of point n / 2048. -/
theorem cover (i : S51200x128.Idx) :
    ∃ t : Fin cfg8.N, (cfg8.win 7).flush t = true ∧ i ∈ ((cfg8.win 7).blk t).view.set := by
  have hi0 : (i 0).val < 51200 := (i 0).isLt
  have hi1 : (i 1).val < 128 := (i 1).isLt
  have ht : (i 0).val / 2048 < cfg8.N := by rw [show cfg8.N = 25 from N_8]; omega
  have o0 : win8_7.index ⟨(i 0).val / 2048, ht⟩ (0 : Fin 2) = (i 0).val / 2048 := (idx7 _).1
  refine ⟨⟨(i 0).val / 2048, ht⟩, flush8_7 _, ?_⟩
  show i ∈ ((View.whole (Pipeline.arrRef spec8 7)).slice (win8_7.rect ⟨(i 0).val / 2048, ht⟩)).set
  rw [View.set_slice_whole, Rect.mem_set_unit]
  intro a
  match a with
  | ⟨0, _⟩ =>
    show win8_7.index ⟨(i 0).val / 2048, ht⟩ (0 : Fin 2) * 2048 ≤ (i 0).val
      ∧ (i 0).val < win8_7.index ⟨(i 0).val / 2048, ht⟩ (0 : Fin 2) * 2048 + 2048
    rw [o0]; omega
  | ⟨1, _⟩ =>
    show win8_7.index ⟨(i 0).val / 2048, ht⟩ (1 : Fin 2) * 128 ≤ (i 1).val
      ∧ (i 1).val < win8_7.index ⟨(i 0).val / 2048, ht⟩ (1 : Fin 2) * 128 + 128
    rw [(idx7 _).2]; omega

theorem arr (c : Dev nD) :
    (Gen.dat8 (F := Ideal) V c).arrAt 7 cfg8.N
      = GnnSpec.linK (V c (Pipeline.arrRef spec8 0)) (V c (Pipeline.arrRef spec8 1)) (V c (Pipeline.arrRef spec8 2))
          (V c (Pipeline.arrRef spec8 3)) (V c (Pipeline.arrRef spec8 4)) (V c (Pipeline.arrRef spec8 5))
          (V c (Pipeline.arrRef spec8 6)) :=
  (Gen.dat8 (F := Ideal) V c).arrAt_eq_of_cover 7 (G V c) (fun t _ => flushed_eq V c t) cover

end Cert.KernelIdeal.Lin8

end
-- ==== Proof.Pool9.lean ====
import proofs.«416123_j75222057222468_1_alg».proof.Proof.Gen.KernelIdeal.Frame
import proofs.«416123_j75222057222468_1_alg».proof.Proof.Spec
import Idealize.ShloMosaic.Lib.Pipeline.Value
import Idealize.ShloMosaic.Lib.StableHlo.Predicate
import Idealize.ShloMosaic.Lib.Tactic
import Idealize.ShloMosaic.PureOps.Ideal.Laws
import Idealize.ShloMosaic.Lib.ValueIdx
import Idealize.ShloMosaic.Lib.StackMember
import Mathlib.Data.Fintype.BigOperators
import Mathlib.Algebra.BigOperators.Group.Finset.Basic

noncomputable section

open Idealize.ShloMosaic Idealize.ShloMosaic.TcCoe Idealize.SL.Sem
open Idealize.ShloMosaic.Pipeline (Dat)
open Idealize.ShloMosaic.ValueIdx
open scoped BigOperators

namespace Cert.KernelIdeal.Pool9

open Cert.KernelIdeal Cert.KernelIdeal.Gen

section AnyValues

variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

theorem out_B (c : Dev nD) (i : grid9.Coords) (a1 : Memref sig .tc .vmem S2048x128 .f32) (h1 : a1.IsWhole)
    (a2 : Memref sig .tc .vmem S2048 .i32) (h2 : a2.IsWhole) (a3 : Memref sig .tc .vmem S128x128 .f32) (h3 : a3.IsWhole)
    (hc : ¬cond9_0 i) (x0 : Vec F S2048x128 .f32) (x1 : Vec F S2048 .i32) (xo : Vec F S128x128 .f32) :
    out9_B_2 c i a1 h1 a2 h2 a3 h3 hc x0 x1 xo = k9_pay2 x1 x0 xo := by
  unfold out9_B_2
  rw [View.read_writes_eq_canon _ _ _ (cover9_B_2 c i a1 h1 a2 h2 a3 h3 hc x0 x1 xo)]
  unfold kernelRun9_B
  dsimp only
  sl_unfold_words
  rw [View.canon_unit_zero hz]
  simp only [View.readAt_eq_ld, h1.read_unread, h2.read_unread, h3.read_unread, View.ld_unit_zero (S := S2048x128) hz,
    View.ld_unit_zero (S := S2048) hz1, View.ld_unit_zero (S := S128x128) hz]

theorem out_A (c : Dev nD) (i : grid9.Coords) (a1 : Memref sig .tc .vmem S2048x128 .f32) (h1 : a1.IsWhole)
    (a2 : Memref sig .tc .vmem S2048 .i32) (h2 : a2.IsWhole) (a3 : Memref sig .tc .vmem S128x128 .f32) (h3 : a3.IsWhole)
    (hc : cond9_0 i) (x0 : Vec F S2048x128 .f32) (x1 : Vec F S2048 .i32) :
    out9_A_2 c i a1 h1 a2 h2 a3 h3 hc x0 x1 = k9_pay2 x1 x0 (k9_pay1 (F := F)) := by
  unfold out9_A_2
  rw [View.read_writes_eq_canon _ _ _ (cover9_A_2 c i a1 h1 a2 h2 a3 h3 hc x0 x1)]
  unfold kernelRun9_A
  dsimp only
  sl_unfold_words
  rw [View.canon_cons_unit_zero (S := S128x128) hz, View.readCov_unit_zero (S := S128x128) _ hz]
  simp only [View.readAt_eq_ld, h1.read_unread, h2.read_unread, View.ld_unit_zero (S := S2048x128) hz,
    View.ld_unit_zero (S := S2048) hz1]

end AnyValues

theorem onehot_apply (bv : IVec S2048 32) (hi : S128x2048.Iotas .tc 32 [0]) (e1 : S2048.ShapeCasts S2048)
    (e2 : S2048.ShapeCasts S1x2048) (e3 : S1x2048.Broadcasts S128x2048) (e4 : 1 < 32) (g : Fin 128) (q : Fin 2048) :
    (sitofp .f32 (extui 32 (cmpi .eq (iota .tc S128x2048 32 [0] hi)
        (broadcastTo S128x2048 (shapeCast S1x2048 (shapeCast S2048 bv e1) e2) e3)) e4) : FVec Ideal S128x2048 .f32) (ix2 g q)
      = GnnSpec.hit (bv (ix1 q)) g.val := by
  have ei : iota .tc S128x2048 32 [0] hi (ix2 g q) = BitVec.ofNat 32 g.val :=
    iota_single_apply .tc S128x2048 32 0 hi (ix2 g q)
  have eb : broadcastTo S128x2048 (shapeCast S1x2048 (shapeCast S2048 bv e1) e2) e3 (ix2 g q) = bv (ix1 q) := by
    refine (broadcastTo_apply _ e3 (ix2 g q) (ix2 (0 : Fin 1) q) ?_).trans ?_
    · intro a
      match a with
      | ⟨0, _⟩ => rfl
      | ⟨1, _⟩ => rfl
    refine (shapeCast_apply _ e2 (ix2 (0 : Fin 1) q) (ix1 q) ?_).trans ?_
    · rw [Shape.rowMajor_val_one, Shape.rowMajor_val_two]
      show q.val = 0 * 2048 + q.val
      omega
    exact congrFun (shapeCast_self bv e1) (ix1 q)
  show (FloatOps.sitofp .f32 ((IntOp.cmpi .eq (iota .tc S128x2048 32 [0] hi (ix2 g q))
    (broadcastTo S128x2048 (shapeCast S1x2048 (shapeCast S2048 bv e1) e2) e3 (ix2 g q))).setWidth 32) : Ideal .f32) = _
  rw [ei, eb]
  by_cases h : bv (ix1 q) = BitVec.ofNat 32 g.val
  · rw [GnnSpec.hit_of_eq h, StableHlo.Predicate.cmpi_eq_iff.mpr h.symm]
    show (((((1#1 : BitVec 1).setWidth 32).toInt : ℤ) : ℝ) : EReal) = 1
    rw [show ((1#1 : BitVec 1).setWidth 32).toInt = 1 from by decide]
    norm_num
  · have h0 : IntOp.cmpi .eq (BitVec.ofNat 32 g.val) (bv (ix1 q)) = 0#1 := by
      have hne : ¬ IntOp.cmpi .eq (BitVec.ofNat 32 g.val) (bv (ix1 q)) = 1#1 :=
        fun e => h (StableHlo.Predicate.cmpi_eq_iff.mp e).symm
      revert hne
      generalize IntOp.cmpi .eq (BitVec.ofNat 32 g.val) (bv (ix1 q)) = w
      revert w
      decide
    rw [GnnSpec.hit_of_ne h, h0]
    show (((((0#1 : BitVec 1).setWidth 32).toInt : ℤ) : ℝ) : EReal) = 0
    rw [show ((0#1 : BitVec 1).setWidth 32).toInt = 0 from by decide]
    norm_num

abbrev D9 : DotDims S128x2048 S2048x128 S128x128 := dot_S128x2048_S2048x128_S128x128_1_0_0_1_n_n

theorem matmul_apply (L : FVec Ideal S128x2048 .bf16) (R : FVec Ideal S2048x128 .bf16) (g d : Fin 128) :
    matmul D9 none L R (constant S128x128 .f32 0x00000000#32) (ix2 g d) = ∑ q : Fin 2048, L (ix2 g q) * R (ix2 q d) := by
  show FloatOps.matmul _ none L R (constant (F := Ideal) S128x128 .f32 0x00000000#32) (ix2 g d) = _
  rw [Ideal.matmul_constant_zero_apply]
  exact (Ideal.dotGeneral_apply (DotDims.plain 128 2048 128) none .single L R (ix2 g d)).symm.trans
    (StackMember.dotGeneral_plain_apply none L R g d)

theorem pay2_apply (bv : Vec Ideal S2048 .i32) (x : Vec Ideal S2048x128 .f32) (acc : Vec Ideal S128x128 .f32) (g d : Fin 128) :
    k9_pay2 (F := Ideal) bv x acc (ix2 g d) = acc (ix2 g d) + ∑ q : Fin 2048, GnnSpec.hit (bv (ix1 q)) g.val * x (ix2 q d) := by
  unfold k9_pay2
  refine congrArg₂ (fun a b : EReal => a + b) (congrFun (shapeCast_self acc _) (ix2 g d)) ?_
  refine (matmul_apply _ _ g d).trans ?_
  refine Finset.sum_congr rfl fun q _ => ?_
  refine congrArg₂ (fun a b : EReal => a * b) (onehot_apply bv _ _ _ _ _ g q) ?_
  exact congrFun (shapeCast_self x _) (ix2 q d)

theorem pay1_apply (j : S128x128.Idx) : k9_pay1 (F := Ideal) j = 0 := Ideal.ofBits_zero_f32

section Arrays

variable (V : (c : Dev nD) → (b : Ref sig .tc) → Buf (Elt Ideal) ((c : Thread nD τ).loc b))

abbrev xarr (c : Dev nD) : Vec Ideal S51200x128 .f32 := V c (Pipeline.arrRef spec9 0)
abbrev barr (c : Dev nD) : Vec Ideal S51200 .i32 := V c (Pipeline.arrRef spec9 1)
abbrev xblk (c : Dev nD) (t : Fin cfg9.N) : Vec Ideal S2048x128 .f32 := iblk9 V c 0 t
abbrev bblk (c : Dev nD) (t : Fin cfg9.N) : Vec Ideal S2048 .i32 := iblk9 V c 1 t

theorem idx_x : ∀ t : Fin cfg9.N, win9_0.index t (0 : Fin 2) = t.val ∧ win9_0.index t (1 : Fin 2) = 0 :=
  (by decide +kernel : ∀ t : Fin grid9.N, win9_0.index t (0 : Fin 2) = t.val ∧ win9_0.index t (1 : Fin 2) = 0)
theorem idx_b : ∀ t : Fin cfg9.N, win9_1.index t (0 : Fin 1) = t.val :=
  (by decide +kernel : ∀ t : Fin grid9.N, win9_1.index t (0 : Fin 1) = t.val)

theorem xblk_apply (c : Dev nD) (t : Fin cfg9.N) (q : Fin 2048) (d : Fin 128) (h : 2048 * t.val + q.val < 51200) :
    xblk V c t (ix2 q d) = xarr V c (ix2 (⟨2048 * t.val + q.val, h⟩ : Fin 51200) d) := by
  unfold xblk xarr iblk9
  rw [View.read_apply]
  have e : (((cfg9.win 0).blk t).view.emb (ix2 q d) : S51200x128.Idx) = ix2 (⟨2048 * t.val + q.val, h⟩ : Fin 51200) d := by
    funext a
    apply Fin.ext
    match a with
    | ⟨0, _⟩ => show win9_0.index t 0 * 2048 + 1 * q.val = 2048 * t.val + q.val; rw [(idx_x t).1]; omega
    | ⟨1, _⟩ => show win9_0.index t 1 * 128 + 1 * d.val = d.val; rw [(idx_x t).2]; omega
  exact congrArg (V c (Pipeline.arrRef spec9 0)) e

theorem bblk_apply (c : Dev nD) (t : Fin cfg9.N) (q : Fin 2048) (h : 2048 * t.val + q.val < 51200) :
    bblk V c t (ix1 q) = barr V c (ix1 (⟨2048 * t.val + q.val, h⟩ : Fin 51200)) := by
  unfold bblk barr iblk9
  rw [View.read_apply]
  have e : (((cfg9.win 1).blk t).view.emb (ix1 q) : S51200.Idx) = ix1 (⟨2048 * t.val + q.val, h⟩ : Fin 51200) := by
    funext a
    apply Fin.ext
    match a with
    | ⟨0, _⟩ => show win9_1.index t 0 * 2048 + 1 * q.val = 2048 * t.val + q.val; rw [idx_b t]; omega
  exact congrArg (V c (Pipeline.arrRef spec9 1)) e

def term (x : Vec Ideal S51200x128 .f32) (bv : Vec Ideal S51200 .i32) (g d : Fin 128) (n : ℕ) : EReal :=
  if h : n < 51200 then GnnSpec.hit (bv (ix1 (⟨n, h⟩ : Fin 51200))) g.val * x (ix2 (⟨n, h⟩ : Fin 51200) d) else 0

theorem blockSum_eq (c : Dev nD) (t : Fin cfg9.N) (g d : Fin 128) :
    ∑ q : Fin 2048, GnnSpec.hit (bblk V c t (ix1 q)) g.val * xblk V c t (ix2 q d)
      = ∑ i ∈ Finset.range 2048, term (xarr V c) (barr V c) g d (2048 * t.val + i) := by
  have hN : t.val < 25 := lt_of_lt_of_eq t.isLt (show cfg9.N = 25 from N_9)
  rw [← Fin.sum_univ_eq_sum_range (fun i => term (xarr V c) (barr V c) g d (2048 * t.val + i)) 2048]
  refine Finset.sum_congr rfl fun q _ => ?_
  have hq : 2048 * t.val + q.val < 51200 := by have := q.isLt; omega
  unfold term
  rw [dif_pos hq, xblk_apply V c t q d hq, bblk_apply V c t q hq]

theorem point_A (c : Dev nD) (t : Fin cfg9.N) (h0 : t.val % 25 = 0) (g d : Fin 128) :
    outsAt9 V c t.val t.isLt (ix2 g d)
      = 0 + ∑ q : Fin 2048, GnnSpec.hit (bblk V c t (ix1 q)) g.val * xblk V c t (ix2 q d) := by
  rw [outsAt9_A V c t h0]
  refine (congrFun (out_A (F := Ideal) c (grid9.coords t) (ms9_0 t) (hs9_0 t) (ms9_1 t) (hs9_1 t) (ms9_2 t) (hs9_2 t)
    ((hcond9_0 t).mpr h0) (xblk V c t) (bblk V c t)) (ix2 g d)).trans ?_
  refine (pay2_apply (bblk V c t) (xblk V c t) (k9_pay1 (F := Ideal)) g d).trans ?_
  rw [pay1_apply]

theorem point_B (c : Dev nD) (t : Fin cfg9.N) (h0 : ¬t.val % 25 = 0) (g d : Fin 128) :
    outsAt9 V c t.val t.isLt (ix2 g d)
      = outsAt9 V c (t.val - 1) (Nat.lt_of_le_of_lt (Nat.sub_le _ _) t.isLt) (ix2 g d)
        + ∑ q : Fin 2048, GnnSpec.hit (bblk V c t (ix1 q)) g.val * xblk V c t (ix2 q d) := by
  rw [outsAt9_B V c t h0]
  refine (congrFun (out_B (F := Ideal) c (grid9.coords t) (ms9_0 t) (hs9_0 t) (ms9_1 t) (hs9_1 t) (ms9_2 t) (hs9_2 t)
    (fun h => h0 ((hcond9_0 t).mp h)) (xblk V c t) (bblk V c t)
    (outsAt9 V c (t.val - 1) (Nat.lt_of_le_of_lt (Nat.sub_le _ _) t.isLt))) (ix2 g d)).trans ?_
  exact pay2_apply (bblk V c t) (xblk V c t) (outsAt9 V c (t.val - 1) (Nat.lt_of_le_of_lt (Nat.sub_le _ _) t.isLt)) g d

theorem outsAt_apply (c : Dev nD) : ∀ (n : ℕ) (h : n < cfg9.N) (g d : Fin 128),
    outsAt9 V c n h (ix2 g d) = ∑ i ∈ Finset.range (2048 * (n + 1)), term (xarr V c) (barr V c) g d i
  | 0, h, g, d => by
    rw [point_A V c ⟨0, h⟩ rfl g d, zero_add, blockSum_eq V c ⟨0, h⟩ g d]
    refine Finset.sum_congr rfl fun i _ => ?_
    show term _ _ g d (2048 * 0 + i) = _
    rw [Nat.mul_zero, Nat.zero_add]
  | n + 1, h, g, d => by
    have hN : n + 1 < 25 := lt_of_lt_of_eq h (show cfg9.N = 25 from N_9)
    have hB : ¬(⟨n + 1, h⟩ : Fin cfg9.N).val % 25 = 0 := by dsimp only; omega
    rw [point_B V c ⟨n + 1, h⟩ hB g d, blockSum_eq V c ⟨n + 1, h⟩ g d]
    show outsAt9 V c n _ (ix2 g d) + _ = _
    rw [outsAt_apply c n _ g d, show 2048 * (n + 1 + 1) = 2048 * (n + 1) + 2048 from by omega, Finset.sum_range_add]

abbrev tLast : Fin cfg9.N := ⟨24, by rw [show cfg9.N = 25 from N_9]; decide⟩

theorem outsAt_last (c : Dev nD) :
    outsAt9 V c tLast.val tLast.isLt = GnnSpec.poolK (xarr V c) (barr V c) := by
  funext j
  obtain ⟨g, d, rfl⟩ : ∃ (g d : Fin 128), j = ix2 g d := ⟨j 0, j 1, eq_ix2 j⟩
  rw [outsAt_apply V c 24 tLast.isLt g d, GnnSpec.poolK_apply]
  unfold GnnSpec.poolEntry
  rw [show 2048 * (24 + 1) = 51200 from rfl, ← Fin.sum_univ_eq_sum_range (fun n => term (xarr V c) (barr V c) g d n) 51200]
  refine Finset.sum_congr rfl fun n _ => ?_
  unfold term
  rw [dif_pos n.isLt]

theorem flushed_eq (c : Dev nD) (t : Fin cfg9.N) (hf : (cfg9.win 2).flush t = true) :
    (dat9 V c).flushed 2 t = ((cfg9.win 2).blk t).view.read (Elt Ideal) (GnnSpec.poolK (xarr V c) (barr V c)) := by
  have hN : t.val < 25 := lt_of_lt_of_eq t.isLt (show cfg9.N = 25 from N_9)
  have h24 : t.val = 24 := by have := (flush9_2 t).mp hf; omega
  obtain rfl : t = tLast := Fin.ext h24
  show (cfg9.win 2).cut (grid9.coords tLast) ((dat9 V c).after 2 tLast) = _
  rw [after9_2, outsAt_last]
  have hz' : (fun a => win9_2.index tLast a * main_v84.ty.shape.size a) = fun _ => 0 :=
    funext fun a => by fin_cases a <;> decide
  exact (Memref.read_access_unit_zero (Elt Ideal) main_v84 hz' (fun a => by rw [congrFun hz' a]; simp)
    (GnnSpec.poolK (xarr V c) (barr V c))).symm

theorem arr (c : Dev nD) :
    (Gen.dat9 (F := Ideal) V c).arrAt 2 cfg9.N
      = GnnSpec.poolK (V c (Pipeline.arrRef spec9 0)) (V c (Pipeline.arrRef spec9 1)) :=
  (dat9 V c).arrAt_eq_of_cover 2 (GnnSpec.poolK (xarr V c) (barr V c)) (flushed_eq V c) fun i =>
    ⟨tLast, (flush9_2 tLast).mpr rfl, by
      show i ∈ ((View.whole main_v84).slice (win9_2.rect tLast)).set
      rw [View.set_slice_whole, Rect.mem_set_unit]
      intro a
      have h0 : (i 0 : Nat) < 128 := (i 0).isLt
      have h1 : (i 1 : Nat) < 128 := (i 1).isLt
      match a with
      | ⟨0, _⟩ =>
        show win9_2.index tLast 0 * win9_2.size 0 ≤ (i 0 : Nat)
          ∧ (i 0 : Nat) < win9_2.index tLast 0 * win9_2.size 0 + win9_2.xsize (grid9.coords tLast) 0
        rw [show win9_2.index tLast 0 * win9_2.size 0 = 0 from by decide +kernel,
          show win9_2.xsize (grid9.coords tLast) 0 = 128 from by decide +kernel]
        omega
      | ⟨1, _⟩ =>
        show win9_2.index tLast 1 * win9_2.size 1 ≤ (i 1 : Nat)
          ∧ (i 1 : Nat) < win9_2.index tLast 1 * win9_2.size 1 + win9_2.xsize (grid9.coords tLast) 1
        rw [show win9_2.index tLast 1 * win9_2.size 1 = 0 from by decide +kernel,
          show win9_2.xsize (grid9.coords tLast) 1 = 128 from by decide +kernel]
        omega⟩

end Arrays

end Cert.KernelIdeal.Pool9

end
-- ==== Proof.KernelSlices.lean ====
import proofs.«416123_j75222057222468_1_alg».proof.Proof.Gen.KernelIdeal.Frame
import proofs.«416123_j75222057222468_1_alg».proof.Proof.Spec
import Idealize.ShloMosaic.Lib.Pipeline.Value
import Idealize.ShloMosaic.Lib.ValueIdx

noncomputable section

namespace Cert.KernelIdeal.Slices

open Idealize.ShloMosaic Idealize.ShloMosaic.TcCoe Idealize.ShloMosaic.ValueIdx

theorem slab_read (w : S3x128x128.Idx → EReal) (l : Fin 3) (off : Fin 3 → Nat)
    (h0 : off 0 = l.val) (h1 : off 1 = 0) (h2 : off 2 = 0)
    (hs : S3x128x128.Slices off S1x128x128) (hc : S1x128x128.ShapeCasts S128x128) :
    shapeCast S128x128 (extractStridedSlice S1x128x128 off w hs) hc = GnnSpec.slab w l := by
  funext i
  refine (shapeCast_apply _ hc i (ix3 (0 : Fin 1) (i 0) (i 1)) ?_).trans ?_
  · rw [Shape.rowMajor_val_three, Shape.rowMajor_val_two]
    show (((0 : Fin 1).val * 128 + (i 0).val) * 128 + (i 1).val) = (i 0).val * 128 + (i 1).val
    simp
  · refine (extractStridedSlice_apply off w hs _ (ix3 l (i 0) (i 1)) fun a => ?_).trans rfl
    match a with
    | ⟨0, _⟩ => show l.val = off 0 + (0 : Fin 1).val; rw [h0]; rfl
    | ⟨1, _⟩ => show (i 0).val = off 1 + (i 0).val; rw [h1]; omega
    | ⟨2, _⟩ => show (i 1).val = off 2 + (i 1).val; rw [h2]; omega

theorem biasRow_read (b : S3x128.Idx → EReal) (l : Fin 3) (off : Fin 2 → Nat)
    (h0 : off 0 = l.val) (h1 : off 1 = 0)
    (hs : S3x128.Slices off S1x128) (hc : S1x128.ShapeCasts S128) (hc' : S128.ShapeCasts S1x128) :
    shapeCast S1x128 (shapeCast S128 (extractStridedSlice S1x128 off b hs) hc) hc' = GnnSpec.biasRow b l := by
  funext i
  have hi0 : (i 0).val = 0 := by have := idx2_lt0 i; omega
  refine (shapeCast_apply _ hc' i (ix1 (i 1)) ?_).trans ?_
  · rw [Shape.rowMajor_val_one, Shape.rowMajor_val_two]
    show (i 1).val = (i 0).val * 128 + (i 1).val
    rw [hi0]; omega
  refine (shapeCast_apply _ hc (ix1 (i 1)) (ix2 (0 : Fin 1) (i 1)) ?_).trans ?_
  · rw [Shape.rowMajor_val_one, Shape.rowMajor_val_two]
    show (0 : Fin 1).val * 128 + (i 1).val = (i 1).val
    simp
  · refine (extractStridedSlice_apply off b hs _ (ix2 l (i 1)) fun a => ?_).trans rfl
    match a with
    | ⟨0, _⟩ => show l.val = off 0 + (0 : Fin 1).val; rw [h0]; rfl
    | ⟨1, _⟩ => show (i 1).val = off 1 + (i 1).val; rw [h1]; omega

variable (m : (ℓ : Loc nD τ sig) → Buf (Elt Ideal) ℓ) (ρ : Dev nD → PrngReg)

abbrev WeightArg (a : Ref sig .tc) : Prop := a = main_arg1 ∨ a = main_arg2 ∨ a = main_arg3 ∨ a = main_arg4

local macro "off_arrays " h:ident : tactic => `(tactic| (rcases $h:ident with e | e | e | e <;> subst e <;> decide))

local macro "carry_host " h:ident : tactic => `(tactic|
  (rcases $h:ident with e | e | e | e <;> subst e <;>
   (refine StableHlo.after_of_forall_not_mem _ _ (List.forall_iff_forall_mem.mp ?_)
    simp only [Gen.hostOps0, Gen.hostOps0_1, Gen.hostOps0_2, Gen.hostOps0_3, Gen.hostOps0_4, Gen.hostOps0_5, Gen.hostOps0_6,
      Gen.hostOps0_7, Gen.hostOps0_8, Gen.hostOps2, Gen.hostOps5, Gen.hostOps8,
      List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- No region's array and no host operation up to the first linear step is one of the four weight arguments. -/
theorem W11_arg (c : Dev nD) {a : Ref sig .tc} (ha : WeightArg a) :
    Gen.W11 m ρ c (Proc.devRef .tc a) = m ((c : Thread nD τ).loc a) :=
  calc Gen.W11 m ρ c (Proc.devRef .tc a)
    _ = Gen.W10 m ρ c (Proc.devRef .tc a) := Gen.W11_of_ne m ρ c a (by off_arrays ha)
    _ = Gen.W9 m ρ c (Proc.devRef .tc a) := Gen.W10_of_ne m ρ c a (by off_arrays ha)
    _ = Gen.W8 m ρ c (Proc.devRef .tc a) := by carry_host ha
    _ = Gen.W7 m ρ c (Proc.devRef .tc a) := by carry_host ha
    _ = Gen.W6 m ρ c (Proc.devRef .tc a) := by carry_host ha
    _ = Gen.W5 m ρ c (Proc.devRef .tc a) := by carry_host ha
    _ = Gen.W4 m ρ c (Proc.devRef .tc a) := by carry_host ha
    _ = Gen.W3 m ρ c (Proc.devRef .tc a) := by carry_host ha
    _ = Gen.W2 m ρ c (Proc.devRef .tc a) := by carry_host ha
    _ = Gen.W1 m ρ c (Proc.devRef .tc a) := by carry_host ha
    _ = Gen.W0 m ρ c (Proc.devRef .tc a) := by carry_host ha
    _ = m ((c : Thread nD τ).loc a) := rfl

theorem W15_arg (c : Dev nD) {a : Ref sig .tc} (ha : WeightArg a) :
    Gen.W15 m ρ c (Proc.devRef .tc a) = m ((c : Thread nD τ).loc a) :=
  calc Gen.W15 m ρ c (Proc.devRef .tc a)
    _ = Gen.W14 m ρ c (Proc.devRef .tc a) := Gen.W15_of_ne m ρ c a (by off_arrays ha)
    _ = Gen.W13 m ρ c (Proc.devRef .tc a) := Gen.W14_of_ne m ρ c a (by off_arrays ha)
    _ = Gen.W12 m ρ c (Proc.devRef .tc a) := Gen.W13_of_ne m ρ c a (by off_arrays ha)
    _ = Gen.W11 m ρ c (Proc.devRef .tc a) := by carry_host ha
    _ = m ((c : Thread nD τ).loc a) := W11_arg m ρ c ha

theorem W19_arg (c : Dev nD) {a : Ref sig .tc} (ha : WeightArg a) :
    Gen.W19 m ρ c (Proc.devRef .tc a) = m ((c : Thread nD τ).loc a) :=
  calc Gen.W19 m ρ c (Proc.devRef .tc a)
    _ = Gen.W18 m ρ c (Proc.devRef .tc a) := Gen.W19_of_ne m ρ c a (by off_arrays ha)
    _ = Gen.W17 m ρ c (Proc.devRef .tc a) := Gen.W18_of_ne m ρ c a (by off_arrays ha)
    _ = Gen.W16 m ρ c (Proc.devRef .tc a) := Gen.W17_of_ne m ρ c a (by off_arrays ha)
    _ = Gen.W15 m ρ c (Proc.devRef .tc a) := by carry_host ha
    _ = m ((c : Thread nD τ).loc a) := W15_arg m ρ c ha

theorem W12_v48 (c : Dev nD) :
    Gen.W12 (F := Ideal) m ρ c (Proc.devRef .tc main_v48) = GnnSpec.slab (m ((c : Thread nD τ).loc main_arg1)) 0 := by
  show StableHlo.after Gen.hostOps2 _ (Proc.devRef .tc main_v48) = _
  after_results
  rw [W11_arg m ρ c (Or.inl rfl)]
  exact slab_read _ 0 ![0, 0, 0] rfl rfl rfl _ _

theorem W12_v51 (c : Dev nD) :
    Gen.W12 (F := Ideal) m ρ c (Proc.devRef .tc main_v51) = GnnSpec.biasRow (m ((c : Thread nD τ).loc main_arg2)) 0 := by
  show StableHlo.after Gen.hostOps2 _ (Proc.devRef .tc main_v51) = _
  after_results
  rw [W11_arg m ρ c (Or.inr (Or.inl rfl))]
  exact biasRow_read _ 0 ![0, 0] rfl rfl _ _ _

theorem W12_v53 (c : Dev nD) :
    Gen.W12 (F := Ideal) m ρ c (Proc.devRef .tc main_v53) = GnnSpec.slab (m ((c : Thread nD τ).loc main_arg3)) 0 := by
  show StableHlo.after Gen.hostOps2 _ (Proc.devRef .tc main_v53) = _
  after_results
  rw [W11_arg m ρ c (Or.inr (Or.inr (Or.inl rfl)))]
  exact slab_read _ 0 ![0, 0, 0] rfl rfl rfl _ _

theorem W12_v56 (c : Dev nD) :
    Gen.W12 (F := Ideal) m ρ c (Proc.devRef .tc main_v56) = GnnSpec.biasRow (m ((c : Thread nD τ).loc main_arg4)) 0 := by
  show StableHlo.after Gen.hostOps2 _ (Proc.devRef .tc main_v56) = _
  after_results
  rw [W11_arg m ρ c (Or.inr (Or.inr (Or.inr rfl)))]
  exact biasRow_read _ 0 ![0, 0] rfl rfl _ _ _

theorem W16_v61 (c : Dev nD) :
    Gen.W16 (F := Ideal) m ρ c (Proc.devRef .tc main_v61) = GnnSpec.slab (m ((c : Thread nD τ).loc main_arg1)) 1 := by
  show StableHlo.after Gen.hostOps5 _ (Proc.devRef .tc main_v61) = _
  after_results
  rw [W15_arg m ρ c (Or.inl rfl)]
  exact slab_read _ 1 ![1, 0, 0] rfl rfl rfl _ _

theorem W16_v64 (c : Dev nD) :
    Gen.W16 (F := Ideal) m ρ c (Proc.devRef .tc main_v64) = GnnSpec.biasRow (m ((c : Thread nD τ).loc main_arg2)) 1 := by
  show StableHlo.after Gen.hostOps5 _ (Proc.devRef .tc main_v64) = _
  after_results
  rw [W15_arg m ρ c (Or.inr (Or.inl rfl))]
  exact biasRow_read _ 1 ![1, 0] rfl rfl _ _ _

theorem W16_v66 (c : Dev nD) :
    Gen.W16 (F := Ideal) m ρ c (Proc.devRef .tc main_v66) = GnnSpec.slab (m ((c : Thread nD τ).loc main_arg3)) 1 := by
  show StableHlo.after Gen.hostOps5 _ (Proc.devRef .tc main_v66) = _
  after_results
  rw [W15_arg m ρ c (Or.inr (Or.inr (Or.inl rfl)))]
  exact slab_read _ 1 ![1, 0, 0] rfl rfl rfl _ _

theorem W16_v69 (c : Dev nD) :
    Gen.W16 (F := Ideal) m ρ c (Proc.devRef .tc main_v69) = GnnSpec.biasRow (m ((c : Thread nD τ).loc main_arg4)) 1 := by
  show StableHlo.after Gen.hostOps5 _ (Proc.devRef .tc main_v69) = _
  after_results
  rw [W15_arg m ρ c (Or.inr (Or.inr (Or.inr rfl)))]
  exact biasRow_read _ 1 ![1, 0] rfl rfl _ _ _

theorem W20_v74 (c : Dev nD) :
    Gen.W20 (F := Ideal) m ρ c (Proc.devRef .tc main_v74) = GnnSpec.slab (m ((c : Thread nD τ).loc main_arg1)) 2 := by
  show StableHlo.after Gen.hostOps8 _ (Proc.devRef .tc main_v74) = _
  after_results
  rw [W19_arg m ρ c (Or.inl rfl)]
  exact slab_read _ 2 ![2, 0, 0] rfl rfl rfl _ _

theorem W20_v77 (c : Dev nD) :
    Gen.W20 (F := Ideal) m ρ c (Proc.devRef .tc main_v77) = GnnSpec.biasRow (m ((c : Thread nD τ).loc main_arg2)) 2 := by
  show StableHlo.after Gen.hostOps8 _ (Proc.devRef .tc main_v77) = _
  after_results
  rw [W19_arg m ρ c (Or.inr (Or.inl rfl))]
  exact biasRow_read _ 2 ![2, 0] rfl rfl _ _ _

theorem W20_v79 (c : Dev nD) :
    Gen.W20 (F := Ideal) m ρ c (Proc.devRef .tc main_v79) = GnnSpec.slab (m ((c : Thread nD τ).loc main_arg3)) 2 := by
  show StableHlo.after Gen.hostOps8 _ (Proc.devRef .tc main_v79) = _
  after_results
  rw [W19_arg m ρ c (Or.inr (Or.inr (Or.inl rfl)))]
  exact slab_read _ 2 ![2, 0, 0] rfl rfl rfl _ _

theorem W20_v82 (c : Dev nD) :
    Gen.W20 (F := Ideal) m ρ c (Proc.devRef .tc main_v82) = GnnSpec.biasRow (m ((c : Thread nD τ).loc main_arg4)) 2 := by
  show StableHlo.after Gen.hostOps8 _ (Proc.devRef .tc main_v82) = _
  after_results
  rw [W19_arg m ρ c (Or.inr (Or.inr (Or.inr rfl)))]
  exact biasRow_read _ 2 ![2, 0] rfl rfl _ _ _

end Cert.KernelIdeal.Slices

end
-- ==== Proof.KernelChain.lean ====
import proofs.«416123_j75222057222468_1_alg».proof.Proof.Gen.KernelIdeal.Frame
import proofs.«416123_j75222057222468_1_alg».proof.Proof.Spec
import proofs.«416123_j75222057222468_1_alg».proof.Proof.Gather0
import proofs.«416123_j75222057222468_1_alg».proof.Proof.Scatter1
import proofs.«416123_j75222057222468_1_alg».proof.Proof.Lin2
import proofs.«416123_j75222057222468_1_alg».proof.Proof.Gather3
import proofs.«416123_j75222057222468_1_alg».proof.Proof.Scatter4
import proofs.«416123_j75222057222468_1_alg».proof.Proof.Lin5
import proofs.«416123_j75222057222468_1_alg».proof.Proof.Gather6
import proofs.«416123_j75222057222468_1_alg».proof.Proof.Scatter7
import proofs.«416123_j75222057222468_1_alg».proof.Proof.Lin8
import proofs.«416123_j75222057222468_1_alg».proof.Proof.Pool9
import proofs.«416123_j75222057222468_1_alg».proof.Proof.KernelSlices
import Idealize.ShloMosaic.Lib.StableHlo.Run
import Idealize.ShloMosaic.Lib.Pipeline.Value
import Idealize.ShloMosaic.Lib.ValueIdx
import Idealize.ShloMosaic.Lib.IdealHost

set_option maxRecDepth 16384

noncomputable section

namespace Cert.KernelIdeal.Chain

open Idealize.ShloMosaic Idealize.ShloMosaic.TcCoe Idealize.ShloMosaic.ValueIdx
open Idealize.SL.Sem

variable (m : (ℓ : Loc nD τ sig) → Buf (Elt Ideal) ℓ) (ρ : Dev nD → PrngReg)

abbrev Entry : Type := (c : Dev nD) → (b : Ref sig .tc) → Buf (Elt Ideal) ((c : Thread nD τ).loc b)

set_option maxHeartbeats 4000000 in

structure RegionFacts : Prop where
  g0 : ∀ (V : Entry) (c : Dev nD), (Gen.dat0 (F := Ideal) V c).arrAt 2 cfg0.N
    = GnnSpec.gatherK (V c (Pipeline.arrRef spec0 0)) (V c (Pipeline.arrRef spec0 1))
  s1 : ∀ (V : Entry) (c : Dev nD), (Gen.dat1 (F := Ideal) V c).arrAt 2 cfg1.N
    = GnnSpec.scatterK (V c (Pipeline.arrRef spec1 0)) (V c (Pipeline.arrRef spec1 1))
  l2 : ∀ (V : Entry) (c : Dev nD), (Gen.dat2 (F := Ideal) V c).arrAt 7 cfg2.N
    = GnnSpec.linK (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) (V c (Pipeline.arrRef spec2 6))
  g3 : ∀ (V : Entry) (c : Dev nD), (Gen.dat3 (F := Ideal) V c).arrAt 2 cfg3.N
    = GnnSpec.gatherK (V c (Pipeline.arrRef spec3 0)) (V c (Pipeline.arrRef spec3 1))
  s4 : ∀ (V : Entry) (c : Dev nD), (Gen.dat4 (F := Ideal) V c).arrAt 2 cfg4.N
    = GnnSpec.scatterK (V c (Pipeline.arrRef spec4 0)) (V c (Pipeline.arrRef spec4 1))
  l5 : ∀ (V : Entry) (c : Dev nD), (Gen.dat5 (F := Ideal) V c).arrAt 7 cfg5.N
    = GnnSpec.linK (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5)) (V c (Pipeline.arrRef spec5 6))
  g6 : ∀ (V : Entry) (c : Dev nD), (Gen.dat6 (F := Ideal) V c).arrAt 2 cfg6.N
    = GnnSpec.gatherK (V c (Pipeline.arrRef spec6 0)) (V c (Pipeline.arrRef spec6 1))
  s7 : ∀ (V : Entry) (c : Dev nD), (Gen.dat7 (F := Ideal) V c).arrAt 2 cfg7.N
    = GnnSpec.scatterK (V c (Pipeline.arrRef spec7 0)) (V c (Pipeline.arrRef spec7 1))
  l8 : ∀ (V : Entry) (c : Dev nD), (Gen.dat8 (F := Ideal) V c).arrAt 7 cfg8.N
    = GnnSpec.linK (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5)) (V c (Pipeline.arrRef spec8 6))
  p9 : ∀ (V : Entry) (c : Dev nD), (Gen.dat9 (F := Ideal) V c).arrAt 2 cfg9.N
    = GnnSpec.poolK (V c (Pipeline.arrRef spec9 0)) (V c (Pipeline.arrRef spec9 1))

structure SliceFacts : Prop where
  ws0 : ∀ c : Dev nD, Gen.W12 (F := Ideal) m ρ c (Proc.devRef .tc main_v48) = GnnSpec.slab (m ((c : Thread nD τ).loc main_arg1)) 0
  bs0 : ∀ c : Dev nD, Gen.W12 (F := Ideal) m ρ c (Proc.devRef .tc main_v51) = GnnSpec.biasRow (m ((c : Thread nD τ).loc main_arg2)) 0
  wn0 : ∀ c : Dev nD, Gen.W12 (F := Ideal) m ρ c (Proc.devRef .tc main_v53) = GnnSpec.slab (m ((c : Thread nD τ).loc main_arg3)) 0
  bn0 : ∀ c : Dev nD, Gen.W12 (F := Ideal) m ρ c (Proc.devRef .tc main_v56) = GnnSpec.biasRow (m ((c : Thread nD τ).loc main_arg4)) 0
  ws1 : ∀ c : Dev nD, Gen.W16 (F := Ideal) m ρ c (Proc.devRef .tc main_v61) = GnnSpec.slab (m ((c : Thread nD τ).loc main_arg1)) 1
  bs1 : ∀ c : Dev nD, Gen.W16 (F := Ideal) m ρ c (Proc.devRef .tc main_v64) = GnnSpec.biasRow (m ((c : Thread nD τ).loc main_arg2)) 1
  wn1 : ∀ c : Dev nD, Gen.W16 (F := Ideal) m ρ c (Proc.devRef .tc main_v66) = GnnSpec.slab (m ((c : Thread nD τ).loc main_arg3)) 1
  bn1 : ∀ c : Dev nD, Gen.W16 (F := Ideal) m ρ c (Proc.devRef .tc main_v69) = GnnSpec.biasRow (m ((c : Thread nD τ).loc main_arg4)) 1
  ws2 : ∀ c : Dev nD, Gen.W20 (F := Ideal) m ρ c (Proc.devRef .tc main_v74) = GnnSpec.slab (m ((c : Thread nD τ).loc main_arg1)) 2
  bs2 : ∀ c : Dev nD, Gen.W20 (F := Ideal) m ρ c (Proc.devRef .tc main_v77) = GnnSpec.biasRow (m ((c : Thread nD τ).loc main_arg2)) 2
  wn2 : ∀ c : Dev nD, Gen.W20 (F := Ideal) m ρ c (Proc.devRef .tc main_v79) = GnnSpec.slab (m ((c : Thread nD τ).loc main_arg3)) 2
  bn2 : ∀ c : Dev nD, Gen.W20 (F := Ideal) m ρ c (Proc.devRef .tc main_v82) = GnnSpec.biasRow (m ((c : Thread nD τ).loc main_arg4)) 2

abbrev xp (c : Dev nD) : (⟨2, ![51200, 128]⟩ : Shape).Idx → EReal := Gen.W9 (F := Ideal) m ρ c (Proc.devRef .tc main_v30)

abbrev sp (c : Dev nD) : IVec ⟨1, ![800768]⟩ 32 := Gen.W9 (F := Ideal) m ρ c (Proc.devRef .tc main_v41)

abbrev tp (c : Dev nD) : IVec ⟨1, ![800768]⟩ 32 := Gen.W9 (F := Ideal) m ρ c (Proc.devRef .tc main_v44)

abbrev dp (c : Dev nD) : (⟨2, ![51200, 1]⟩ : Shape).Idx → EReal := Gen.W9 (F := Ideal) m ρ c (Proc.devRef .tc main_v35)

abbrev bp (c : Dev nD) : IVec ⟨1, ![51200]⟩ 32 := Gen.W9 (F := Ideal) m ρ c (Proc.devRef .tc main_v38)

abbrev cnt (c : Dev nD) : (⟨1, ![64]⟩ : Shape).Idx → EReal := Gen.W9 (F := Ideal) m ρ c (Proc.devRef .tc main_v27)

abbrev X1 (c : Dev nD) : (⟨2, ![51200, 128]⟩ : Shape).Idx → EReal :=
  GnnSpec.layerK (xp m ρ c) (sp m ρ c) (tp m ρ c) (dp m ρ c)
    (GnnSpec.slab (m ((c : Thread nD τ).loc main_arg1)) 0) (GnnSpec.biasRow (m ((c : Thread nD τ).loc main_arg2)) 0)
    (GnnSpec.slab (m ((c : Thread nD τ).loc main_arg3)) 0) (GnnSpec.biasRow (m ((c : Thread nD τ).loc main_arg4)) 0)
abbrev X2 (c : Dev nD) : (⟨2, ![51200, 128]⟩ : Shape).Idx → EReal :=
  GnnSpec.layerK (X1 m ρ c) (sp m ρ c) (tp m ρ c) (dp m ρ c)
    (GnnSpec.slab (m ((c : Thread nD τ).loc main_arg1)) 1) (GnnSpec.biasRow (m ((c : Thread nD τ).loc main_arg2)) 1)
    (GnnSpec.slab (m ((c : Thread nD τ).loc main_arg3)) 1) (GnnSpec.biasRow (m ((c : Thread nD τ).loc main_arg4)) 1)
abbrev X3 (c : Dev nD) : (⟨2, ![51200, 128]⟩ : Shape).Idx → EReal :=
  GnnSpec.layerK (X2 m ρ c) (sp m ρ c) (tp m ρ c) (dp m ρ c)
    (GnnSpec.slab (m ((c : Thread nD τ).loc main_arg1)) 2) (GnnSpec.biasRow (m ((c : Thread nD τ).loc main_arg2)) 2)
    (GnnSpec.slab (m ((c : Thread nD τ).loc main_arg3)) 2) (GnnSpec.biasRow (m ((c : Thread nD τ).loc main_arg4)) 2)

local macro "carry_host " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

theorem in0 (c : Dev nD) (w : Fin cfg0.W) (hin : (cfg0.win w).isOut = false) :
    Gen.W10 (F := Ideal) m ρ c (Proc.devRef .tc (Pipeline.arrRef spec0 w)) = Gen.W9 m ρ c (Proc.devRef .tc (Pipeline.arrRef spec0 w)) :=
  (Gen.W10_arr m ρ c w).trans (((Gen.dat0 (Gen.V9 m ρ) c).arrAt_in w hin cfg0.N).trans (Gen.A_eq0 (Gen.V9 m ρ) c w))
theorem in1 (c : Dev nD) (w : Fin cfg1.W) (hin : (cfg1.win w).isOut = false) :
    Gen.W11 (F := Ideal) m ρ c (Proc.devRef .tc (Pipeline.arrRef spec1 w)) = Gen.W10 m ρ c (Proc.devRef .tc (Pipeline.arrRef spec1 w)) :=
  (Gen.W11_arr m ρ c w).trans (((Gen.dat1 (Gen.V10 m ρ) c).arrAt_in w hin cfg1.N).trans (Gen.A_eq1 (Gen.V10 m ρ) c w))
theorem in2 (c : Dev nD) (w : Fin cfg2.W) (hin : (cfg2.win w).isOut = false) :
    Gen.W13 (F := Ideal) m ρ c (Proc.devRef .tc (Pipeline.arrRef spec2 w)) = Gen.W12 m ρ c (Proc.devRef .tc (Pipeline.arrRef spec2 w)) :=
  (Gen.W13_arr m ρ c w).trans (((Gen.dat2 (Gen.V12 m ρ) c).arrAt_in w hin cfg2.N).trans (Gen.A_eq2 (Gen.V12 m ρ) c w))
theorem in3 (c : Dev nD) (w : Fin cfg3.W) (hin : (cfg3.win w).isOut = false) :
    Gen.W14 (F := Ideal) m ρ c (Proc.devRef .tc (Pipeline.arrRef spec3 w)) = Gen.W13 m ρ c (Proc.devRef .tc (Pipeline.arrRef spec3 w)) :=
  (Gen.W14_arr m ρ c w).trans (((Gen.dat3 (Gen.V13 m ρ) c).arrAt_in w hin cfg3.N).trans (Gen.A_eq3 (Gen.V13 m ρ) c w))
theorem in4 (c : Dev nD) (w : Fin cfg4.W) (hin : (cfg4.win w).isOut = false) :
    Gen.W15 (F := Ideal) m ρ c (Proc.devRef .tc (Pipeline.arrRef spec4 w)) = Gen.W14 m ρ c (Proc.devRef .tc (Pipeline.arrRef spec4 w)) :=
  (Gen.W15_arr m ρ c w).trans (((Gen.dat4 (Gen.V14 m ρ) c).arrAt_in w hin cfg4.N).trans (Gen.A_eq4 (Gen.V14 m ρ) c w))
theorem in5 (c : Dev nD) (w : Fin cfg5.W) (hin : (cfg5.win w).isOut = false) :
    Gen.W17 (F := Ideal) m ρ c (Proc.devRef .tc (Pipeline.arrRef spec5 w)) = Gen.W16 m ρ c (Proc.devRef .tc (Pipeline.arrRef spec5 w)) :=
  (Gen.W17_arr m ρ c w).trans (((Gen.dat5 (Gen.V16 m ρ) c).arrAt_in w hin cfg5.N).trans (Gen.A_eq5 (Gen.V16 m ρ) c w))
theorem in6 (c : Dev nD) (w : Fin cfg6.W) (hin : (cfg6.win w).isOut = false) :
    Gen.W18 (F := Ideal) m ρ c (Proc.devRef .tc (Pipeline.arrRef spec6 w)) = Gen.W17 m ρ c (Proc.devRef .tc (Pipeline.arrRef spec6 w)) :=
  (Gen.W18_arr m ρ c w).trans (((Gen.dat6 (Gen.V17 m ρ) c).arrAt_in w hin cfg6.N).trans (Gen.A_eq6 (Gen.V17 m ρ) c w))

theorem xp_at12 (c : Dev nD) : Gen.W12 (F := Ideal) m ρ c (Proc.devRef .tc main_v30) = xp m ρ c :=
  calc Gen.W12 (F := Ideal) m ρ c (Proc.devRef .tc main_v30)
    _ = Gen.W11 m ρ c (Proc.devRef .tc main_v30) := by carry_host Gen.hostOps2
    _ = Gen.W10 m ρ c (Proc.devRef .tc main_v30) := Gen.W11_of_ne m ρ c main_v30 (by decide)
    _ = Gen.W9 m ρ c (Proc.devRef .tc main_v30) := in0 m ρ c 0 rfl

theorem sp_at13 (c : Dev nD) : Gen.W13 (F := Ideal) m ρ c (Proc.devRef .tc main_v41) = sp m ρ c :=
  calc Gen.W13 (F := Ideal) m ρ c (Proc.devRef .tc main_v41)
    _ = Gen.W12 m ρ c (Proc.devRef .tc main_v41) := Gen.W13_of_ne m ρ c main_v41 (by decide)
    _ = Gen.W11 m ρ c (Proc.devRef .tc main_v41) := by carry_host Gen.hostOps2
    _ = Gen.W10 m ρ c (Proc.devRef .tc main_v41) := Gen.W11_of_ne m ρ c main_v41 (by decide)
    _ = Gen.W9 m ρ c (Proc.devRef .tc main_v41) := in0 m ρ c 1 rfl

theorem sp_at17 (c : Dev nD) : Gen.W17 (F := Ideal) m ρ c (Proc.devRef .tc main_v41) = sp m ρ c :=
  calc Gen.W17 (F := Ideal) m ρ c (Proc.devRef .tc main_v41)
    _ = Gen.W16 m ρ c (Proc.devRef .tc main_v41) := Gen.W17_of_ne m ρ c main_v41 (by decide)
    _ = Gen.W15 m ρ c (Proc.devRef .tc main_v41) := by carry_host Gen.hostOps5
    _ = Gen.W14 m ρ c (Proc.devRef .tc main_v41) := Gen.W15_of_ne m ρ c main_v41 (by decide)
    _ = Gen.W13 m ρ c (Proc.devRef .tc main_v41) := in3 m ρ c 1 rfl
    _ = sp m ρ c := sp_at13 m ρ c

theorem tp_at10 (c : Dev nD) : Gen.W10 (F := Ideal) m ρ c (Proc.devRef .tc main_v44) = tp m ρ c :=
  Gen.W10_of_ne m ρ c main_v44 (by decide)

theorem tp_at14 (c : Dev nD) : Gen.W14 (F := Ideal) m ρ c (Proc.devRef .tc main_v44) = tp m ρ c :=
  calc Gen.W14 (F := Ideal) m ρ c (Proc.devRef .tc main_v44)
    _ = Gen.W13 m ρ c (Proc.devRef .tc main_v44) := Gen.W14_of_ne m ρ c main_v44 (by decide)
    _ = Gen.W12 m ρ c (Proc.devRef .tc main_v44) := Gen.W13_of_ne m ρ c main_v44 (by decide)
    _ = Gen.W11 m ρ c (Proc.devRef .tc main_v44) := by carry_host Gen.hostOps2
    _ = Gen.W10 m ρ c (Proc.devRef .tc main_v44) := in1 m ρ c 1 rfl
    _ = tp m ρ c := tp_at10 m ρ c

theorem tp_at18 (c : Dev nD) : Gen.W18 (F := Ideal) m ρ c (Proc.devRef .tc main_v44) = tp m ρ c :=
  calc Gen.W18 (F := Ideal) m ρ c (Proc.devRef .tc main_v44)
    _ = Gen.W17 m ρ c (Proc.devRef .tc main_v44) := Gen.W18_of_ne m ρ c main_v44 (by decide)
    _ = Gen.W16 m ρ c (Proc.devRef .tc main_v44) := Gen.W17_of_ne m ρ c main_v44 (by decide)
    _ = Gen.W15 m ρ c (Proc.devRef .tc main_v44) := by carry_host Gen.hostOps5
    _ = Gen.W14 m ρ c (Proc.devRef .tc main_v44) := in4 m ρ c 1 rfl
    _ = tp m ρ c := tp_at14 m ρ c

theorem dp_at12 (c : Dev nD) : Gen.W12 (F := Ideal) m ρ c (Proc.devRef .tc main_v35) = dp m ρ c :=
  calc Gen.W12 (F := Ideal) m ρ c (Proc.devRef .tc main_v35)
    _ = Gen.W11 m ρ c (Proc.devRef .tc main_v35) := by carry_host Gen.hostOps2
    _ = Gen.W10 m ρ c (Proc.devRef .tc main_v35) := Gen.W11_of_ne m ρ c main_v35 (by decide)
    _ = Gen.W9 m ρ c (Proc.devRef .tc main_v35) := Gen.W10_of_ne m ρ c main_v35 (by decide)

theorem dp_at16 (c : Dev nD) : Gen.W16 (F := Ideal) m ρ c (Proc.devRef .tc main_v35) = dp m ρ c :=
  calc Gen.W16 (F := Ideal) m ρ c (Proc.devRef .tc main_v35)
    _ = Gen.W15 m ρ c (Proc.devRef .tc main_v35) := by carry_host Gen.hostOps5
    _ = Gen.W14 m ρ c (Proc.devRef .tc main_v35) := Gen.W15_of_ne m ρ c main_v35 (by decide)
    _ = Gen.W13 m ρ c (Proc.devRef .tc main_v35) := Gen.W14_of_ne m ρ c main_v35 (by decide)
    _ = Gen.W12 m ρ c (Proc.devRef .tc main_v35) := in2 m ρ c 2 rfl
    _ = dp m ρ c := dp_at12 m ρ c

theorem dp_at20 (c : Dev nD) : Gen.W20 (F := Ideal) m ρ c (Proc.devRef .tc main_v35) = dp m ρ c :=
  calc Gen.W20 (F := Ideal) m ρ c (Proc.devRef .tc main_v35)
    _ = Gen.W19 m ρ c (Proc.devRef .tc main_v35) := by carry_host Gen.hostOps8
    _ = Gen.W18 m ρ c (Proc.devRef .tc main_v35) := Gen.W19_of_ne m ρ c main_v35 (by decide)
    _ = Gen.W17 m ρ c (Proc.devRef .tc main_v35) := Gen.W18_of_ne m ρ c main_v35 (by decide)
    _ = Gen.W16 m ρ c (Proc.devRef .tc main_v35) := in5 m ρ c 2 rfl
    _ = dp m ρ c := dp_at16 m ρ c

theorem bp_at21 (c : Dev nD) : Gen.W21 (F := Ideal) m ρ c (Proc.devRef .tc main_v38) = bp m ρ c :=
  calc Gen.W21 (F := Ideal) m ρ c (Proc.devRef .tc main_v38)
    _ = Gen.W20 m ρ c (Proc.devRef .tc main_v38) := Gen.W21_of_ne m ρ c main_v38 (by decide)
    _ = Gen.W19 m ρ c (Proc.devRef .tc main_v38) := by carry_host Gen.hostOps8
    _ = Gen.W18 m ρ c (Proc.devRef .tc main_v38) := Gen.W19_of_ne m ρ c main_v38 (by decide)
    _ = Gen.W17 m ρ c (Proc.devRef .tc main_v38) := Gen.W18_of_ne m ρ c main_v38 (by decide)
    _ = Gen.W16 m ρ c (Proc.devRef .tc main_v38) := Gen.W17_of_ne m ρ c main_v38 (by decide)
    _ = Gen.W15 m ρ c (Proc.devRef .tc main_v38) := by carry_host Gen.hostOps5
    _ = Gen.W14 m ρ c (Proc.devRef .tc main_v38) := Gen.W15_of_ne m ρ c main_v38 (by decide)
    _ = Gen.W13 m ρ c (Proc.devRef .tc main_v38) := Gen.W14_of_ne m ρ c main_v38 (by decide)
    _ = Gen.W12 m ρ c (Proc.devRef .tc main_v38) := Gen.W13_of_ne m ρ c main_v38 (by decide)
    _ = Gen.W11 m ρ c (Proc.devRef .tc main_v38) := by carry_host Gen.hostOps2
    _ = Gen.W10 m ρ c (Proc.devRef .tc main_v38) := Gen.W11_of_ne m ρ c main_v38 (by decide)
    _ = Gen.W9 m ρ c (Proc.devRef .tc main_v38) := Gen.W10_of_ne m ρ c main_v38 (by decide)

theorem cnt_at22 (c : Dev nD) : Gen.W22 (F := Ideal) m ρ c (Proc.devRef .tc main_v27) = cnt m ρ c :=
  calc Gen.W22 (F := Ideal) m ρ c (Proc.devRef .tc main_v27)
    _ = Gen.W21 m ρ c (Proc.devRef .tc main_v27) := Gen.W22_of_ne m ρ c main_v27 (by decide)
    _ = Gen.W20 m ρ c (Proc.devRef .tc main_v27) := Gen.W21_of_ne m ρ c main_v27 (by decide)
    _ = Gen.W19 m ρ c (Proc.devRef .tc main_v27) := by carry_host Gen.hostOps8
    _ = Gen.W18 m ρ c (Proc.devRef .tc main_v27) := Gen.W19_of_ne m ρ c main_v27 (by decide)
    _ = Gen.W17 m ρ c (Proc.devRef .tc main_v27) := Gen.W18_of_ne m ρ c main_v27 (by decide)
    _ = Gen.W16 m ρ c (Proc.devRef .tc main_v27) := Gen.W17_of_ne m ρ c main_v27 (by decide)
    _ = Gen.W15 m ρ c (Proc.devRef .tc main_v27) := by carry_host Gen.hostOps5
    _ = Gen.W14 m ρ c (Proc.devRef .tc main_v27) := Gen.W15_of_ne m ρ c main_v27 (by decide)
    _ = Gen.W13 m ρ c (Proc.devRef .tc main_v27) := Gen.W14_of_ne m ρ c main_v27 (by decide)
    _ = Gen.W12 m ρ c (Proc.devRef .tc main_v27) := Gen.W13_of_ne m ρ c main_v27 (by decide)
    _ = Gen.W11 m ρ c (Proc.devRef .tc main_v27) := by carry_host Gen.hostOps2
    _ = Gen.W10 m ρ c (Proc.devRef .tc main_v27) := Gen.W11_of_ne m ρ c main_v27 (by decide)
    _ = Gen.W9 m ρ c (Proc.devRef .tc main_v27) := Gen.W10_of_ne m ρ c main_v27 (by decide)

theorem v45_at10 (H : RegionFacts) (c : Dev nD) :
    Gen.W10 (F := Ideal) m ρ c (Proc.devRef .tc main_v45) = GnnSpec.gatherK (xp m ρ c) (sp m ρ c) :=
  (Gen.W10_arr m ρ c 2).trans (H.g0 (Gen.V9 m ρ) c)

theorem v46_at11 (H : RegionFacts) (c : Dev nD) :
    Gen.W11 (F := Ideal) m ρ c (Proc.devRef .tc main_v46)
      = GnnSpec.scatterK (GnnSpec.gatherK (xp m ρ c) (sp m ρ c)) (tp m ρ c) :=
  (Gen.W11_arr m ρ c 2).trans ((H.s1 (Gen.V10 m ρ) c).trans
    (congrArg₂ GnnSpec.scatterK (v45_at10 m ρ H c) (tp_at10 m ρ c)))

theorem v46_at12 (H : RegionFacts) (c : Dev nD) :
    Gen.W12 (F := Ideal) m ρ c (Proc.devRef .tc main_v46)
      = GnnSpec.scatterK (GnnSpec.gatherK (xp m ρ c) (sp m ρ c)) (tp m ρ c) :=
  calc Gen.W12 (F := Ideal) m ρ c (Proc.devRef .tc main_v46)
    _ = Gen.W11 m ρ c (Proc.devRef .tc main_v46) := by carry_host Gen.hostOps2
    _ = _ := v46_at11 m ρ H c

theorem v57_at13 (H : RegionFacts) (S : SliceFacts m ρ) (c : Dev nD) : Gen.W13 (F := Ideal) m ρ c (Proc.devRef .tc main_v57) = X1 m ρ c := by
  refine (Gen.W13_arr m ρ c 7).trans ((H.l2 (Gen.V12 m ρ) c).trans ?_)
  show GnnSpec.linK (Gen.W12 (F := Ideal) m ρ c (Proc.devRef .tc main_v30)) (Gen.W12 (F := Ideal) m ρ c (Proc.devRef .tc main_v46))
      (Gen.W12 (F := Ideal) m ρ c (Proc.devRef .tc main_v35)) (Gen.W12 (F := Ideal) m ρ c (Proc.devRef .tc main_v48))
      (Gen.W12 (F := Ideal) m ρ c (Proc.devRef .tc main_v51)) (Gen.W12 (F := Ideal) m ρ c (Proc.devRef .tc main_v53))
      (Gen.W12 (F := Ideal) m ρ c (Proc.devRef .tc main_v56)) = _
  rw [xp_at12 m ρ c, v46_at12 m ρ H c, dp_at12 m ρ c, S.ws0 c, S.bs0 c, S.wn0 c, S.bn0 c]
  rfl

theorem v57_at16 (H : RegionFacts) (S : SliceFacts m ρ) (c : Dev nD) : Gen.W16 (F := Ideal) m ρ c (Proc.devRef .tc main_v57) = X1 m ρ c :=
  calc Gen.W16 (F := Ideal) m ρ c (Proc.devRef .tc main_v57)
    _ = Gen.W15 m ρ c (Proc.devRef .tc main_v57) := by carry_host Gen.hostOps5
    _ = Gen.W14 m ρ c (Proc.devRef .tc main_v57) := Gen.W15_of_ne m ρ c main_v57 (by decide)
    _ = Gen.W13 m ρ c (Proc.devRef .tc main_v57) := in3 m ρ c 0 rfl
    _ = X1 m ρ c := v57_at13 m ρ H S c

theorem v58_at14 (H : RegionFacts) (S : SliceFacts m ρ) (c : Dev nD) :
    Gen.W14 (F := Ideal) m ρ c (Proc.devRef .tc main_v58) = GnnSpec.gatherK (X1 m ρ c) (sp m ρ c) :=
  (Gen.W14_arr m ρ c 2).trans ((H.g3 (Gen.V13 m ρ) c).trans
    (congrArg₂ GnnSpec.gatherK (v57_at13 m ρ H S c) (sp_at13 m ρ c)))

theorem v59_at15 (H : RegionFacts) (S : SliceFacts m ρ) (c : Dev nD) :
    Gen.W15 (F := Ideal) m ρ c (Proc.devRef .tc main_v59)
      = GnnSpec.scatterK (GnnSpec.gatherK (X1 m ρ c) (sp m ρ c)) (tp m ρ c) :=
  (Gen.W15_arr m ρ c 2).trans ((H.s4 (Gen.V14 m ρ) c).trans
    (congrArg₂ GnnSpec.scatterK (v58_at14 m ρ H S c) (tp_at14 m ρ c)))

theorem v59_at16 (H : RegionFacts) (S : SliceFacts m ρ) (c : Dev nD) :
    Gen.W16 (F := Ideal) m ρ c (Proc.devRef .tc main_v59)
      = GnnSpec.scatterK (GnnSpec.gatherK (X1 m ρ c) (sp m ρ c)) (tp m ρ c) :=
  calc Gen.W16 (F := Ideal) m ρ c (Proc.devRef .tc main_v59)
    _ = Gen.W15 m ρ c (Proc.devRef .tc main_v59) := by carry_host Gen.hostOps5
    _ = _ := v59_at15 m ρ H S c

theorem v70_at17 (H : RegionFacts) (S : SliceFacts m ρ) (c : Dev nD) : Gen.W17 (F := Ideal) m ρ c (Proc.devRef .tc main_v70) = X2 m ρ c := by
  refine (Gen.W17_arr m ρ c 7).trans ((H.l5 (Gen.V16 m ρ) c).trans ?_)
  show GnnSpec.linK (Gen.W16 (F := Ideal) m ρ c (Proc.devRef .tc main_v57)) (Gen.W16 (F := Ideal) m ρ c (Proc.devRef .tc main_v59))
      (Gen.W16 (F := Ideal) m ρ c (Proc.devRef .tc main_v35)) (Gen.W16 (F := Ideal) m ρ c (Proc.devRef .tc main_v61))
      (Gen.W16 (F := Ideal) m ρ c (Proc.devRef .tc main_v64)) (Gen.W16 (F := Ideal) m ρ c (Proc.devRef .tc main_v66))
      (Gen.W16 (F := Ideal) m ρ c (Proc.devRef .tc main_v69)) = _
  rw [v57_at16 m ρ H S c, v59_at16 m ρ H S c, dp_at16 m ρ c, S.ws1 c, S.bs1 c, S.wn1 c, S.bn1 c]
  rfl

theorem v70_at20 (H : RegionFacts) (S : SliceFacts m ρ) (c : Dev nD) : Gen.W20 (F := Ideal) m ρ c (Proc.devRef .tc main_v70) = X2 m ρ c :=
  calc Gen.W20 (F := Ideal) m ρ c (Proc.devRef .tc main_v70)
    _ = Gen.W19 m ρ c (Proc.devRef .tc main_v70) := by carry_host Gen.hostOps8
    _ = Gen.W18 m ρ c (Proc.devRef .tc main_v70) := Gen.W19_of_ne m ρ c main_v70 (by decide)
    _ = Gen.W17 m ρ c (Proc.devRef .tc main_v70) := in6 m ρ c 0 rfl
    _ = X2 m ρ c := v70_at17 m ρ H S c

theorem v71_at18 (H : RegionFacts) (S : SliceFacts m ρ) (c : Dev nD) :
    Gen.W18 (F := Ideal) m ρ c (Proc.devRef .tc main_v71) = GnnSpec.gatherK (X2 m ρ c) (sp m ρ c) :=
  (Gen.W18_arr m ρ c 2).trans ((H.g6 (Gen.V17 m ρ) c).trans
    (congrArg₂ GnnSpec.gatherK (v70_at17 m ρ H S c) (sp_at17 m ρ c)))

theorem v72_at19 (H : RegionFacts) (S : SliceFacts m ρ) (c : Dev nD) :
    Gen.W19 (F := Ideal) m ρ c (Proc.devRef .tc main_v72)
      = GnnSpec.scatterK (GnnSpec.gatherK (X2 m ρ c) (sp m ρ c)) (tp m ρ c) :=
  (Gen.W19_arr m ρ c 2).trans ((H.s7 (Gen.V18 m ρ) c).trans
    (congrArg₂ GnnSpec.scatterK (v71_at18 m ρ H S c) (tp_at18 m ρ c)))

theorem v72_at20 (H : RegionFacts) (S : SliceFacts m ρ) (c : Dev nD) :
    Gen.W20 (F := Ideal) m ρ c (Proc.devRef .tc main_v72)
      = GnnSpec.scatterK (GnnSpec.gatherK (X2 m ρ c) (sp m ρ c)) (tp m ρ c) :=
  calc Gen.W20 (F := Ideal) m ρ c (Proc.devRef .tc main_v72)
    _ = Gen.W19 m ρ c (Proc.devRef .tc main_v72) := by carry_host Gen.hostOps8
    _ = _ := v72_at19 m ρ H S c

theorem v83_at21 (H : RegionFacts) (S : SliceFacts m ρ) (c : Dev nD) : Gen.W21 (F := Ideal) m ρ c (Proc.devRef .tc main_v83) = X3 m ρ c := by
  refine (Gen.W21_arr m ρ c 7).trans ((H.l8 (Gen.V20 m ρ) c).trans ?_)
  show GnnSpec.linK (Gen.W20 (F := Ideal) m ρ c (Proc.devRef .tc main_v70)) (Gen.W20 (F := Ideal) m ρ c (Proc.devRef .tc main_v72))
      (Gen.W20 (F := Ideal) m ρ c (Proc.devRef .tc main_v35)) (Gen.W20 (F := Ideal) m ρ c (Proc.devRef .tc main_v74))
      (Gen.W20 (F := Ideal) m ρ c (Proc.devRef .tc main_v77)) (Gen.W20 (F := Ideal) m ρ c (Proc.devRef .tc main_v79))
      (Gen.W20 (F := Ideal) m ρ c (Proc.devRef .tc main_v82)) = _
  rw [v70_at20 m ρ H S c, v72_at20 m ρ H S c, dp_at20 m ρ c, S.ws2 c, S.bs2 c, S.wn2 c, S.bn2 c]
  rfl

theorem v84_at22 (H : RegionFacts) (S : SliceFacts m ρ) (c : Dev nD) :
    Gen.W22 (F := Ideal) m ρ c (Proc.devRef .tc main_v84) = GnnSpec.poolK (X3 m ρ c) (bp m ρ c) :=
  (Gen.W22_arr m ρ c 2).trans ((H.p9 (Gen.V21 m ρ) c).trans
    (congrArg₂ GnnSpec.poolK (v83_at21 m ρ H S c) (bp_at21 m ρ c)))

theorem result_of (H : RegionFacts) (S : SliceFacts m ρ) (c : Dev nD) :
    Gen.W23 (F := Ideal) m ρ c (Proc.devRef .tc main_v88) = fun i =>
      Ideal.div
        (GnnSpec.poolEntry (X3 m ρ c) (bp m ρ c)
          (⟨(i 0).val, Nat.lt_of_lt_of_le (i 0).isLt (by decide)⟩ : Fin 128) (i 1))
        (cnt m ρ c (ix1 (i 0))) := by
  show StableHlo.after Gen.hostOps10 (Gen.W22 (F := Ideal) m ρ c) (Proc.devRef .tc main_v88) = _
  after_results
  funext i
  refine (hostDivf_apply _ _ i).trans (congrArg₂ Ideal.div ?_ ?_)
  · refine (extractStridedSlice_apply _ _ _ i
      (ix2 (⟨(i 0).val, Nat.lt_of_lt_of_le (i 0).isLt (by decide)⟩ : Fin 128) (i 1)) (fun a => ?_)).trans ?_
    · match a with
      | ⟨0, _⟩ => exact (Nat.zero_add _).symm
      | ⟨1, _⟩ => exact (Nat.zero_add _).symm
    · exact congrFun (v84_at22 m ρ H S c) _
  · refine (broadcastInDim_apply _ _ _ i (ix2 (i 0) (0 : Fin 1)) (fun a => ?_)).trans ?_
    · match a with
      | ⟨0, _⟩ => exact (if_neg (show ¬ (64 : Nat) = 1 by decide)).symm
      | ⟨1, _⟩ => exact (if_pos rfl).symm
    · refine (broadcastInDim_apply _ _ _ (ix2 (i 0) (0 : Fin 1)) (ix1 (i 0)) (fun a => ?_)).trans ?_
      · match a with
        | ⟨0, _⟩ => exact (if_neg (show ¬ (64 : Nat) = 1 by decide)).symm
      · exact congrFun (cnt_at22 m ρ c) _

theorem regionFacts : RegionFacts :=
  ⟨Gather0.arr, Scatter1.arr, Lin2.arr, Gather3.arr, Scatter4.arr, Lin5.arr, Gather6.arr, Scatter7.arr, Lin8.arr, Pool9.arr⟩

theorem sliceFacts : SliceFacts m ρ :=
  ⟨Slices.W12_v48 m ρ, Slices.W12_v51 m ρ, Slices.W12_v53 m ρ, Slices.W12_v56 m ρ,
   Slices.W16_v61 m ρ, Slices.W16_v64 m ρ, Slices.W16_v66 m ρ, Slices.W16_v69 m ρ,
   Slices.W20_v74 m ρ, Slices.W20_v77 m ρ, Slices.W20_v79 m ρ, Slices.W20_v82 m ρ⟩

theorem result (c : Dev nD) :
    Gen.W23 (F := Ideal) m ρ c (Proc.devRef .tc main_v88)
      = fun i : (⟨2, ![64, 128]⟩ : Shape).Idx => Ideal.div
          (GnnSpec.poolEntry
      (GnnSpec.layerK (GnnSpec.layerK (GnnSpec.layerK (Gen.W9 (F := Ideal) m ρ c (Proc.devRef .tc main_v30)) (Gen.W9 (F := Ideal) m ρ c (Proc.devRef .tc main_v41)) (Gen.W9 (F := Ideal) m ρ c (Proc.devRef .tc main_v44)) (Gen.W9 (F := Ideal) m ρ c (Proc.devRef .tc main_v35))
        (GnnSpec.slab (m ((c : Thread nD τ).loc main_arg1)) 0) (GnnSpec.biasRow (m ((c : Thread nD τ).loc main_arg2)) 0)
        (GnnSpec.slab (m ((c : Thread nD τ).loc main_arg3)) 0) (GnnSpec.biasRow (m ((c : Thread nD τ).loc main_arg4)) 0)) (Gen.W9 (F := Ideal) m ρ c (Proc.devRef .tc main_v41)) (Gen.W9 (F := Ideal) m ρ c (Proc.devRef .tc main_v44)) (Gen.W9 (F := Ideal) m ρ c (Proc.devRef .tc main_v35))
        (GnnSpec.slab (m ((c : Thread nD τ).loc main_arg1)) 1) (GnnSpec.biasRow (m ((c : Thread nD τ).loc main_arg2)) 1)
        (GnnSpec.slab (m ((c : Thread nD τ).loc main_arg3)) 1) (GnnSpec.biasRow (m ((c : Thread nD τ).loc main_arg4)) 1)) (Gen.W9 (F := Ideal) m ρ c (Proc.devRef .tc main_v41)) (Gen.W9 (F := Ideal) m ρ c (Proc.devRef .tc main_v44)) (Gen.W9 (F := Ideal) m ρ c (Proc.devRef .tc main_v35))
        (GnnSpec.slab (m ((c : Thread nD τ).loc main_arg1)) 2) (GnnSpec.biasRow (m ((c : Thread nD τ).loc main_arg2)) 2)
        (GnnSpec.slab (m ((c : Thread nD τ).loc main_arg3)) 2) (GnnSpec.biasRow (m ((c : Thread nD τ).loc main_arg4)) 2))
            (Gen.W9 (F := Ideal) m ρ c (Proc.devRef .tc main_v38))
            (⟨(i 0).val, Nat.lt_of_lt_of_le (i 0).isLt (by decide)⟩ : Fin 128) (i 1))
          ((Gen.W9 (F := Ideal) m ρ c (Proc.devRef .tc main_v27)) (ix1 (i 0))) :=
  result_of m ρ regionFacts (sliceFacts m ρ) c

end Cert.KernelIdeal.Chain

end
-- ==== Proof.LibScatterSet.lean ====
import Idealize.ShloMosaic.PureOps.ShapeOps
import Idealize.ShloMosaic.Lib.ValueIdx

noncomputable section

namespace Cert.LibScatterSet

open Idealize.ShloMosaic Idealize.ShloMosaic.ValueIdx

def writeStep {α : Type} {s si u : Shape} {w : Nat} (d : ScatterDims s si u) (idx : IVec si w) (upd : u.Idx → α)
    (r : s.Idx → α) (n : Fin u.numel) : s.Idx → α :=
  match d.resultIdx? (u.rowMajor.symm n) idx with
  | some i => fun i' => if i' = i then upd (u.rowMajor.symm n) else r i'
  | none => r

theorem scatter_eq_foldl {α : Type} {s si u : Shape} {w : Nat} (d : ScatterDims s si u) (x : s.Idx → α)
    (idx : IVec si w) (upd : u.Idx → α) :
    Host.scatter d (fun _ v => v) x idx upd = (List.finRange u.numel).foldl (writeStep d idx upd) x := rfl

theorem writeStep_of_ne {α : Type} {s si u : Shape} {w : Nat} (d : ScatterDims s si u) (idx : IVec si w) (upd : u.Idx → α)
    (r : s.Idx → α) (n : Fin u.numel) (i : s.Idx) (h : d.resultIdx? (u.rowMajor.symm n) idx ≠ some i) :
    writeStep d idx upd r n i = r i := by
  unfold writeStep
  generalize d.resultIdx? (u.rowMajor.symm n) idx = o at h
  cases o with
  | none => rfl
  | some i₁ =>
    show (if i = i₁ then upd (u.rowMajor.symm n) else r i) = r i
    rw [if_neg fun hi => h (by rw [hi])]

theorem writeStep_of_eq {α : Type} {s si u : Shape} {w : Nat} (d : ScatterDims s si u) (idx : IVec si w) (upd : u.Idx → α)
    (r : s.Idx → α) (n : Fin u.numel) (i : s.Idx) (h : d.resultIdx? (u.rowMajor.symm n) idx = some i) :
    writeStep d idx upd r n i = upd (u.rowMajor.symm n) := by
  unfold writeStep
  rw [h]
  show (if i = i then upd (u.rowMajor.symm n) else r i) = upd (u.rowMajor.symm n)
  rw [if_pos rfl]

theorem foldl_writeStep_of_none {α : Type} {s si u : Shape} {w : Nat} (d : ScatterDims s si u) (idx : IVec si w)
    (upd : u.Idx → α) (i : s.Idx) (ns : List (Fin u.numel))
    (hnone : ∀ n ∈ ns, d.resultIdx? (u.rowMajor.symm n) idx ≠ some i) (x : s.Idx → α) :
    ns.foldl (writeStep d idx upd) x i = x i := by
  induction ns generalizing x with
  | nil => rfl
  | cons n t ih =>
    rw [List.foldl_cons, ih (fun m hm => hnone m (List.mem_cons_of_mem n hm)),
      writeStep_of_ne d idx upd x n i (hnone n List.mem_cons_self)]

theorem foldl_writeStep_of_unique {α : Type} {s si u : Shape} {w : Nat} (d : ScatterDims s si u) (idx : IVec si w)
    (upd : u.Idx → α) (i : s.Idx) (n₀ : Fin u.numel) (h₀ : d.resultIdx? (u.rowMajor.symm n₀) idx = some i)
    (ns : List (Fin u.numel)) (hmem : n₀ ∈ ns)
    (huniq : ∀ n ∈ ns, d.resultIdx? (u.rowMajor.symm n) idx = some i → n = n₀) (x : s.Idx → α) :
    ns.foldl (writeStep d idx upd) x i = upd (u.rowMajor.symm n₀) := by
  induction ns generalizing x with
  | nil => exact absurd hmem List.not_mem_nil
  | cons n t ih =>
    rw [List.foldl_cons]
    by_cases ht : n₀ ∈ t
    · exact ih ht (fun m hm => huniq m (List.mem_cons_of_mem n hm)) _
    · have hn : n₀ = n := by
        rcases List.mem_cons.1 hmem with h | h
        · exact h
        · exact absurd h ht
      subst hn
      rw [foldl_writeStep_of_none d idx upd i t (fun m hm hl => ht (huniq m (List.mem_cons_of_mem n₀ hm) hl ▸ hm)),
        writeStep_of_eq d idx upd x n₀ i h₀]

theorem scatter_set_of_unique {α : Type} {s si u : Shape} {w : Nat} (d : ScatterDims s si u) (x : s.Idx → α)
    (idx : IVec si w) (upd : u.Idx → α) (i : s.Idx) (j₀ : u.Idx) (h₀ : d.resultIdx? j₀ idx = some i)
    (huniq : ∀ j, d.resultIdx? j idx = some i → j = j₀) :
    Host.scatter d (fun _ v => v) x idx upd i = upd j₀ := by
  rw [scatter_eq_foldl,
    foldl_writeStep_of_unique d idx upd i (u.rowMajor j₀) (by rw [Equiv.symm_apply_apply]; exact h₀)
      (List.finRange u.numel) (List.mem_finRange _)
      (fun n _ hn => by rw [← huniq _ hn, Equiv.apply_symm_apply]) x,
    Equiv.symm_apply_apply]

theorem scatter_set_of_none {α : Type} {s si u : Shape} {w : Nat} (d : ScatterDims s si u) (x : s.Idx → α)
    (idx : IVec si w) (upd : u.Idx → α) (i : s.Idx) (hnone : ∀ j, d.resultIdx? j idx ≠ some i) :
    Host.scatter d (fun _ v => v) x idx upd i = x i := by
  rw [scatter_eq_foldl, foldl_writeStep_of_none d idx upd i (List.finRange u.numel) (fun n _ => hnone _) x]

theorem resultIdx?_eq_some_iff {s si u : Shape} {w : Nat} (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    by_cases hall : ∀ a, 0 ≤ d.start j idx a + (d.window j a : Int) ∧ d.start j idx a + (d.window j a : Int) < (s.size a : Int)
    · rw [dif_pos hall] at h
      have ha : (d.start j idx a + (d.window j a : Int)).toNat = (i a).val :=
        congrArg (fun f : s.Idx => (f a).val) (Option.some.inj h)
      have := (hall a).1
      omega
    · rw [dif_neg hall] at h
      exact absurd h (by simp)
  · intro h
    have hall : ∀ a, 0 ≤ d.start j idx a + (d.window j a : Int) ∧ d.start j idx a + (d.window j a : Int) < (s.size a : Int) := by
      intro a
      have := (i a).isLt
      rw [h a]
      omega
    rw [dif_pos hall]
    refine congrArg some (funext fun a => Fin.ext ?_)
    show (d.start j idx a + (d.window j a : Int)).toNat = (i a).val
    rw [h a]
    omega

section
variable {B N L C : Nat} (wf : ScatterDims.WF ⟨3, ![B, N, C]⟩ ⟨3, ![B, L, 2]⟩ ⟨3, ![B, L, C]⟩ [2] [0, 1] [0, 1] 2)
  {α : Type} (x : (⟨3, ![B, N, C]⟩ : Shape).Idx → α) (idx : IVec ⟨3, ![B, L, 2]⟩ 32)
  (upd : (⟨3, ![B, L, C]⟩ : Shape).Idx → α)

end

end Cert.LibScatterSet

end
-- ==== Proof.LibScatterPad.lean ====
import Idealize.ShloMosaic.PureOps.ShapeOps
import Idealize.ShloMosaic.Lib.ValueIdx
import proofs.«416123_j75222057222468_1_alg».proof.Proof.LibScatterSet

noncomputable section

namespace Cert.LibScatterPad

open Idealize.ShloMosaic Idealize.ShloMosaic.ValueIdx Cert.LibScatterSet

abbrev rowsDims (N M C : Nat)
    (wf : ScatterDims.WF ⟨2, ![N, C]⟩ ⟨1, ![1]⟩ ⟨2, ![M, C]⟩ [0, 1] [] [0] 0) :
    ScatterDims ⟨2, ![N, C]⟩ ⟨1, ![1]⟩ ⟨2, ![M, C]⟩ :=
  { updateWindowDims := [0, 1], insertedWindowDims := [], scatterDimsToOperandDims := [0], indexVectorDim := 0, wf := wf }

section rows
variable {N M C : Nat} (wf : ScatterDims.WF ⟨2, ![N, C]⟩ ⟨1, ![1]⟩ ⟨2, ![M, C]⟩ [0, 1] [] [0] 0)
  {α : Type} (x : (⟨2, ![N, C]⟩ : Shape).Idx → α) (idx : IVec ⟨1, ![1]⟩ 32)
  (upd : (⟨2, ![M, C]⟩ : Shape).Idx → α)

theorem rows_start0 (j : (⟨2, ![M, C]⟩ : Shape).Idx) :
    (rowsDims N M C wf).start j idx 0 = (idx (ix1 (0 : Fin 1))).toInt := by
  unfold ScatterDims.start
  have hmem : (0 : Fin 2) ∈ (rowsDims N M C wf).scatterDimsToOperandDims := List.mem_cons_self
  rw [dif_pos hmem]
  have hsi : (rowsDims N M C wf).siIdx j
      ⟨List.idxOf (0 : Fin 2) (rowsDims N M C wf).scatterDimsToOperandDims, List.idxOf_lt_length_iff.2 hmem⟩
        = ix1 (0 : Fin 1) := by
    funext a; refine Fin.ext ?_
    match a with
    | ⟨0, _⟩ => rfl
  rw [hsi]

theorem rows_start1 (j : (⟨2, ![M, C]⟩ : Shape).Idx) : (rowsDims N M C wf).start j idx 1 = 0 := by
  unfold ScatterDims.start
  have hmem : (1 : Fin 2) ∉ (rowsDims N M C wf).scatterDimsToOperandDims :=
    show (1 : Fin 2) ∉ ([0] : List (Fin 2)) from by decide
  rw [dif_neg hmem]

theorem rows_window0 (j : (⟨2, ![M, C]⟩ : Shape).Idx) : (rowsDims N M C wf).window j 0 = (j 0).val := by
  unfold ScatterDims.window
  have hmem : (0 : Fin 2) ∈ (rowsDims N M C wf).sKept := show (0 : Fin 2) ∈ ([0, 1] : List (Fin 2)) from by decide
  rw [dif_pos hmem]
  rfl

theorem rows_window1 (j : (⟨2, ![M, C]⟩ : Shape).Idx) : (rowsDims N M C wf).window j 1 = (j 1).val := by
  unfold ScatterDims.window
  have hmem : (1 : Fin 2) ∈ (rowsDims N M C wf).sKept := show (1 : Fin 2) ∈ ([0, 1] : List (Fin 2)) from by decide
  rw [dif_pos hmem]
  rfl

theorem rows_lands_iff (j : (⟨2, ![M, C]⟩ : Shape).Idx) (i : (⟨2, ![N, C]⟩ : Shape).Idx) :
    (rowsDims N M C wf).resultIdx? j idx = some i
      ↔ (idx (ix1 (0 : Fin 1))).toInt + ((j 0).val : Int) = ((i 0).val : Int) ∧ (j 1).val = (i 1).val := by
  rw [resultIdx?_eq_some_iff]
  constructor
  · intro h
    have h0 : (rowsDims N M C wf).start j idx 0 + (((rowsDims N M C wf).window j 0 : Nat) : Int) = ((i 0).val : Int) := h 0
    have h1 : (rowsDims N M C wf).start j idx 1 + (((rowsDims N M C wf).window j 1 : Nat) : Int) = ((i 1).val : Int) := h 1
    rw [rows_start0, rows_window0] at h0
    rw [rows_start1, rows_window1] at h1
    exact ⟨h0, by omega⟩
  · rintro ⟨h0, h1⟩ a
    match a with
    | ⟨0, _⟩ =>
      show (rowsDims N M C wf).start j idx 0 + (((rowsDims N M C wf).window j 0 : Nat) : Int) = ((i 0).val : Int)
      rw [rows_start0, rows_window0]; exact h0
    | ⟨1, _⟩ =>
      show (rowsDims N M C wf).start j idx 1 + (((rowsDims N M C wf).window j 1 : Nat) : Int) = ((i 1).val : Int)
      rw [rows_start1, rows_window1]; omega

theorem rows_read (h0 : (idx (ix1 (0 : Fin 1))).toInt = 0) (i : (⟨2, ![N, C]⟩ : Shape).Idx) :
    Host.scatter (rowsDims N M C wf) (fun _ v => v) x idx upd i
      = if h : (i 0).val < M then upd (ix2 (⟨(i 0).val, h⟩ : Fin M) (i 1)) else x i := by
  by_cases h : (i 0).val < M
  · rw [dif_pos h]
    refine scatter_set_of_unique (rowsDims N M C wf) x idx upd i (ix2 (⟨(i 0).val, h⟩ : Fin M) (i 1))
      ((rows_lands_iff wf idx _ i).2 ⟨by rw [h0]; exact Int.zero_add _, rfl⟩) fun j hj => ?_
    obtain ⟨e0, e1⟩ := (rows_lands_iff wf idx j i).1 hj
    rw [h0] at e0
    rw [eq_ix2 j]
    have a0 : j 0 = (⟨(i 0).val, h⟩ : Fin M) := Fin.ext (by show (j 0).val = (i 0).val; omega)
    have a1 : j 1 = i 1 := Fin.ext e1
    rw [a0, a1]
    rfl
  · rw [dif_neg h]
    refine scatter_set_of_none (rowsDims N M C wf) x idx upd i fun j hj => ?_
    obtain ⟨e0, _⟩ := (rows_lands_iff wf idx j i).1 hj
    rw [h0] at e0
    have := idx2_lt0 j
    omega

theorem rows_read_zero (h0 : idx (ix1 (0 : Fin 1)) = 0#32) (i : (⟨2, ![N, C]⟩ : Shape).Idx) :
    Host.scatter (rowsDims N M C wf) (fun _ v => v) x idx upd i
      = if h : (i 0).val < M then upd (ix2 (⟨(i 0).val, h⟩ : Fin M) (i 1)) else x i :=
  rows_read wf x idx upd (by rw [h0]; decide) i

end rows

abbrev vecDims (N M : Nat)
    (wf : ScatterDims.WF ⟨1, ![N]⟩ ⟨1, ![1]⟩ ⟨1, ![M]⟩ [0] [] [0] 0) :
    ScatterDims ⟨1, ![N]⟩ ⟨1, ![1]⟩ ⟨1, ![M]⟩ :=
  { updateWindowDims := [0], insertedWindowDims := [], scatterDimsToOperandDims := [0], indexVectorDim := 0, wf := wf }

section vec
variable {N M : Nat} (wf : ScatterDims.WF ⟨1, ![N]⟩ ⟨1, ![1]⟩ ⟨1, ![M]⟩ [0] [] [0] 0)
  {α : Type} (x : (⟨1, ![N]⟩ : Shape).Idx → α) (idx : IVec ⟨1, ![1]⟩ 32)
  (upd : (⟨1, ![M]⟩ : Shape).Idx → α)

theorem vec_start0 (j : (⟨1, ![M]⟩ : Shape).Idx) :
    (vecDims N M wf).start j idx 0 = (idx (ix1 (0 : Fin 1))).toInt := by
  unfold ScatterDims.start
  have hmem : (0 : Fin 1) ∈ (vecDims N M wf).scatterDimsToOperandDims := List.mem_cons_self
  rw [dif_pos hmem]
  have hsi : (vecDims N M wf).siIdx j
      ⟨List.idxOf (0 : Fin 1) (vecDims N M wf).scatterDimsToOperandDims, List.idxOf_lt_length_iff.2 hmem⟩
        = ix1 (0 : Fin 1) := by
    funext a; refine Fin.ext ?_
    match a with
    | ⟨0, _⟩ => rfl
  rw [hsi]

theorem vec_window0 (j : (⟨1, ![M]⟩ : Shape).Idx) : (vecDims N M wf).window j 0 = (j 0).val := by
  unfold ScatterDims.window
  have hmem : (0 : Fin 1) ∈ (vecDims N M wf).sKept := show (0 : Fin 1) ∈ ([0] : List (Fin 1)) from by decide
  rw [dif_pos hmem]
  rfl

theorem vec_lands_iff (j : (⟨1, ![M]⟩ : Shape).Idx) (i : (⟨1, ![N]⟩ : Shape).Idx) :
    (vecDims N M wf).resultIdx? j idx = some i
      ↔ (idx (ix1 (0 : Fin 1))).toInt + ((j 0).val : Int) = ((i 0).val : Int) := by
  rw [resultIdx?_eq_some_iff]
  constructor
  · intro h
    have h0 : (vecDims N M wf).start j idx 0 + (((vecDims N M wf).window j 0 : Nat) : Int) = ((i 0).val : Int) := h 0
    rw [vec_start0, vec_window0] at h0
    exact h0
  · intro h0 a
    match a with
    | ⟨0, _⟩ =>
      show (vecDims N M wf).start j idx 0 + (((vecDims N M wf).window j 0 : Nat) : Int) = ((i 0).val : Int)
      rw [vec_start0, vec_window0]; exact h0

theorem vec_read (h0 : (idx (ix1 (0 : Fin 1))).toInt = 0) (i : (⟨1, ![N]⟩ : Shape).Idx) :
    Host.scatter (vecDims N M wf) (fun _ v => v) x idx upd i
      = if h : (i 0).val < M then upd (ix1 (⟨(i 0).val, h⟩ : Fin M)) else x i := by
  by_cases h : (i 0).val < M
  · rw [dif_pos h]
    refine scatter_set_of_unique (vecDims N M wf) x idx upd i (ix1 (⟨(i 0).val, h⟩ : Fin M))
      ((vec_lands_iff wf idx _ i).2 (by rw [h0]; exact Int.zero_add _)) fun j hj => ?_
    have e0 := (vec_lands_iff wf idx j i).1 hj
    rw [h0] at e0
    rw [eq_ix1 j]
    have a0 : j 0 = (⟨(i 0).val, h⟩ : Fin M) := Fin.ext (by show (j 0).val = (i 0).val; omega)
    rw [a0]
    rfl
  · rw [dif_neg h]
    refine scatter_set_of_none (vecDims N M wf) x idx upd i fun j hj => ?_
    have e0 := (vec_lands_iff wf idx j i).1 hj
    rw [h0] at e0
    have : (j 0).val < M := (j 0).isLt
    omega

theorem vec_read_zero (h0 : idx (ix1 (0 : Fin 1)) = 0#32) (i : (⟨1, ![N]⟩ : Shape).Idx) :
    Host.scatter (vecDims N M wf) (fun _ v => v) x idx upd i
      = if h : (i 0).val < M then upd (ix1 (⟨(i 0).val, h⟩ : Fin M)) else x i :=
  vec_read wf x idx upd (by rw [h0]; decide) i

end vec

abbrev colDims (N M : Nat)
    (wf : ScatterDims.WF ⟨2, ![N, 1]⟩ ⟨1, ![2]⟩ ⟨1, ![M]⟩ [0] [1] [0, 1] 0) :
    ScatterDims ⟨2, ![N, 1]⟩ ⟨1, ![2]⟩ ⟨1, ![M]⟩ :=
  { updateWindowDims := [0], insertedWindowDims := [1], scatterDimsToOperandDims := [0, 1], indexVectorDim := 0, wf := wf }

section col
variable {N M : Nat} (wf : ScatterDims.WF ⟨2, ![N, 1]⟩ ⟨1, ![2]⟩ ⟨1, ![M]⟩ [0] [1] [0, 1] 0)
  {α : Type} (x : (⟨2, ![N, 1]⟩ : Shape).Idx → α) (idx : IVec ⟨1, ![2]⟩ 32)
  (upd : (⟨1, ![M]⟩ : Shape).Idx → α)

theorem col_start0 (j : (⟨1, ![M]⟩ : Shape).Idx) :
    (colDims N M wf).start j idx 0 = (idx (ix1 (0 : Fin 2))).toInt := by
  unfold ScatterDims.start
  have hmem : (0 : Fin 2) ∈ (colDims N M wf).scatterDimsToOperandDims := List.mem_cons_self
  rw [dif_pos hmem]
  have hsi : (colDims N M wf).siIdx j
      ⟨List.idxOf (0 : Fin 2) (colDims N M wf).scatterDimsToOperandDims, List.idxOf_lt_length_iff.2 hmem⟩
        = ix1 (0 : Fin 2) := by
    funext a; refine Fin.ext ?_
    match a with
    | ⟨0, _⟩ => rfl
  rw [hsi]

theorem col_start1 (j : (⟨1, ![M]⟩ : Shape).Idx) :
    (colDims N M wf).start j idx 1 = (idx (ix1 (1 : Fin 2))).toInt := by
  unfold ScatterDims.start
  have hmem : (1 : Fin 2) ∈ (colDims N M wf).scatterDimsToOperandDims := List.mem_cons_of_mem _ List.mem_cons_self
  rw [dif_pos hmem]
  have hsi : (colDims N M wf).siIdx j
      ⟨List.idxOf (1 : Fin 2) (colDims N M wf).scatterDimsToOperandDims, List.idxOf_lt_length_iff.2 hmem⟩
        = ix1 (1 : Fin 2) := by
    funext a; refine Fin.ext ?_
    match a with
    | ⟨0, _⟩ => rfl
  rw [hsi]

theorem col_window0 (j : (⟨1, ![M]⟩ : Shape).Idx) : (colDims N M wf).window j 0 = (j 0).val := by
  unfold ScatterDims.window
  have hmem : (0 : Fin 2) ∈ (colDims N M wf).sKept := show (0 : Fin 2) ∈ ([0] : List (Fin 2)) from by decide
  rw [dif_pos hmem]
  rfl

theorem col_window1 (j : (⟨1, ![M]⟩ : Shape).Idx) : (colDims N M wf).window j 1 = 0 := by
  unfold ScatterDims.window
  have hmem : (1 : Fin 2) ∉ (colDims N M wf).sKept := show (1 : Fin 2) ∉ ([0] : List (Fin 2)) from by decide
  rw [dif_neg hmem]

theorem col_lands_iff (j : (⟨1, ![M]⟩ : Shape).Idx) (i : (⟨2, ![N, 1]⟩ : Shape).Idx) :
    (colDims N M wf).resultIdx? j idx = some i
      ↔ (idx (ix1 (0 : Fin 2))).toInt + ((j 0).val : Int) = ((i 0).val : Int)
        ∧ (idx (ix1 (1 : Fin 2))).toInt = ((i 1).val : Int) := by
  rw [resultIdx?_eq_some_iff]
  constructor
  · intro h
    have h0 : (colDims N M wf).start j idx 0 + (((colDims N M wf).window j 0 : Nat) : Int) = ((i 0).val : Int) := h 0
    have h1 : (colDims N M wf).start j idx 1 + (((colDims N M wf).window j 1 : Nat) : Int) = ((i 1).val : Int) := h 1
    rw [col_start0, col_window0] at h0
    rw [col_start1, col_window1] at h1
    exact ⟨h0, by omega⟩
  · rintro ⟨h0, h1⟩ a
    match a with
    | ⟨0, _⟩ =>
      show (colDims N M wf).start j idx 0 + (((colDims N M wf).window j 0 : Nat) : Int) = ((i 0).val : Int)
      rw [col_start0, col_window0]; exact h0
    | ⟨1, _⟩ =>
      show (colDims N M wf).start j idx 1 + (((colDims N M wf).window j 1 : Nat) : Int) = ((i 1).val : Int)
      rw [col_start1, col_window1]; omega

theorem col_read (h0 : (idx (ix1 (0 : Fin 2))).toInt = 0) (h1 : (idx (ix1 (1 : Fin 2))).toInt = 0)
    (i : (⟨2, ![N, 1]⟩ : Shape).Idx) :
    Host.scatter (colDims N M wf) (fun _ v => v) x idx upd i
      = if h : (i 0).val < M then upd (ix1 (⟨(i 0).val, h⟩ : Fin M)) else x i := by
  have hi1 : (i 1).val = 0 := by have := idx2_lt1 i; omega
  by_cases h : (i 0).val < M
  · rw [dif_pos h]
    refine scatter_set_of_unique (colDims N M wf) x idx upd i (ix1 (⟨(i 0).val, h⟩ : Fin M))
      ((col_lands_iff wf idx _ i).2 ⟨by rw [h0]; exact Int.zero_add _, by rw [h1, hi1]; rfl⟩) fun j hj => ?_
    obtain ⟨e0, _⟩ := (col_lands_iff wf idx j i).1 hj
    rw [h0] at e0
    rw [eq_ix1 j]
    have a0 : j 0 = (⟨(i 0).val, h⟩ : Fin M) := Fin.ext (by show (j 0).val = (i 0).val; omega)
    rw [a0]
    rfl
  · rw [dif_neg h]
    refine scatter_set_of_none (colDims N M wf) x idx upd i fun j hj => ?_
    obtain ⟨e0, _⟩ := (col_lands_iff wf idx j i).1 hj
    rw [h0] at e0
    have : (j 0).val < M := (j 0).isLt
    omega

theorem col_read_zero (h0 : idx (ix1 (0 : Fin 2)) = 0#32) (h1 : idx (ix1 (1 : Fin 2)) = 0#32)
    (i : (⟨2, ![N, 1]⟩ : Shape).Idx) :
    Host.scatter (colDims N M wf) (fun _ v => v) x idx upd i
      = if h : (i 0).val < M then upd (ix1 (⟨(i 0).val, h⟩ : Fin M)) else x i :=
  col_read wf x idx upd (by rw [h0]; decide) (by rw [h1]; decide) i

end col

theorem concatenate_const {α : Type} {t : Shape} (a : Fin t.rank) (xs : List ((s : Shape) × (s.Idx → α)))
    (h : Shape.Concatenates (xs.map (·.1)) t a) (c : α) (hall : ∀ p ∈ xs, ∀ i, p.2 i = c) (j : t.Idx) :
    concatenate t a xs h j = c := by
  unfold concatenate
  exact hall _ (List.getElem_mem _) _

end Cert.LibScatterPad

end
-- ==== Proof.KernelPrelude.lean ====
import proofs.«416123_j75222057222468_1_alg».proof.Proof.Gen.KernelIdeal.Frame
import proofs.«416123_j75222057222468_1_alg».proof.Proof.Spec
import proofs.«416123_j75222057222468_1_alg».proof.Proof.LibScatterSet
import proofs.«416123_j75222057222468_1_alg».proof.Proof.LibScatterPad
import Idealize.ShloMosaic.Lib.ValueLayout
import Idealize.ShloMosaic.PureOps.Ideal.Laws

set_option maxRecDepth 16384

noncomputable section

namespace Cert.KernelIdeal.Prelude

open Idealize.ShloMosaic Idealize.ShloMosaic.TcCoe Idealize.ShloMosaic.ValueIdx Cert.LibScatterPad

local macro "keeps " ops:ident r:ident : tactic => `(tactic|
  exact StableHlo.after_of_forall_not_mem (b := Proc.devRef .tc $r) _ _ (List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

theorem after8_v30 (V : Valuation τ sig (Elt Ideal)) :
    StableHlo.after (Gen.hostOps0_8 (F := Ideal)) V (Proc.devRef .tc main_v30)
      = GnnSpec.padRows (V (Proc.devRef .tc main_arg0)) := by
  after_results
  funext i
  refine (rows_read_zero (N := 51200) (M := 50000) (C := 128) _ _ _ _ ?_ i).trans ?_
  · rfl
  · unfold GnnSpec.padRows
    by_cases h : (i 0).val < 50000
    · rw [dif_pos h, dif_pos h]
    · rw [dif_neg h, dif_neg h]
      exact Ideal.ofBits_zero_f32

theorem after8_v41 (V : Valuation τ sig (Elt Ideal)) :
    StableHlo.after (Gen.hostOps0_8 (F := Ideal)) V (Proc.devRef .tc main_v41)
      = GnnSpec.padEdges (V (Proc.devRef .tc main_v1)) := by
  after_results
  funext i
  refine (vec_read_zero (N := 800768) (M := 800000) _ _ _ _ ?_ i).trans ?_
  · rfl
  · unfold GnnSpec.padEdges
    by_cases h : (i 0).val < 800000
    · rw [dif_pos h, dif_pos h]
    · rw [dif_neg h, dif_neg h]
      rfl

theorem after8_v44 (V : Valuation τ sig (Elt Ideal)) :
    StableHlo.after (Gen.hostOps0_8 (F := Ideal)) V (Proc.devRef .tc main_v44)
      = GnnSpec.padEdges (V (Proc.devRef .tc main_v3)) := by
  after_results
  funext i
  refine (vec_read_zero (N := 800768) (M := 800000) _ _ _ _ ?_ i).trans ?_
  · rfl
  · unfold GnnSpec.padEdges
    by_cases h : (i 0).val < 800000
    · rw [dif_pos h, dif_pos h]
    · rw [dif_neg h, dif_neg h]
      rfl

theorem after0_v1 (V : Valuation τ sig (Elt Ideal)) :
    StableHlo.after (Gen.hostOps0 (F := Ideal)) V (Proc.devRef .tc main_v1)
      = GnnSpec.edgeRow (V (Proc.devRef .tc main_arg5)) 0 := by
  after_results
  funext i
  rw [eq_ix1 i]
  exact (shapeCast_1a_a_apply _ _ (i 0)).trans (slice2_axis0_apply 0 _ _ (0 : Fin 1) (i 0) (0 : Fin 2) rfl)

theorem after0_v3 (V : Valuation τ sig (Elt Ideal)) :
    StableHlo.after (Gen.hostOps0 (F := Ideal)) V (Proc.devRef .tc main_v3)
      = GnnSpec.edgeRow (V (Proc.devRef .tc main_arg5)) 1 := by
  after_results
  funext i
  rw [eq_ix1 i]
  exact (shapeCast_1a_a_apply _ _ (i 0)).trans (slice2_axis0_apply 1 _ _ (0 : Fin 1) (i 0) (1 : Fin 2) rfl)

variable (m : (ℓ : Loc nD τ sig) → Buf (Elt Ideal) ℓ) (ρ : Dev nD → PrngReg)

theorem W8_arg0 (c : Dev nD) :
    Gen.W8 (F := Ideal) m ρ c (Proc.devRef .tc main_arg0) = m ((c : Thread nD τ).loc main_arg0) :=
  calc Gen.W8 (F := Ideal) m ρ c (Proc.devRef .tc main_arg0)
    _ = Gen.W7 m ρ c (Proc.devRef .tc main_arg0) := by keeps Gen.hostOps0_7 main_arg0
    _ = Gen.W6 m ρ c (Proc.devRef .tc main_arg0) := by keeps Gen.hostOps0_6 main_arg0
    _ = Gen.W5 m ρ c (Proc.devRef .tc main_arg0) := by keeps Gen.hostOps0_5 main_arg0
    _ = Gen.W4 m ρ c (Proc.devRef .tc main_arg0) := by keeps Gen.hostOps0_4 main_arg0
    _ = Gen.W3 m ρ c (Proc.devRef .tc main_arg0) := by keeps Gen.hostOps0_3 main_arg0
    _ = Gen.W2 m ρ c (Proc.devRef .tc main_arg0) := by keeps Gen.hostOps0_2 main_arg0
    _ = Gen.W1 m ρ c (Proc.devRef .tc main_arg0) := by keeps Gen.hostOps0_1 main_arg0
    _ = Gen.W0 m ρ c (Proc.devRef .tc main_arg0) := by keeps Gen.hostOps0 main_arg0
    _ = m ((c : Thread nD τ).loc main_arg0) := rfl

theorem W8_v1 (c : Dev nD) :
    Gen.W8 (F := Ideal) m ρ c (Proc.devRef .tc main_v1) = GnnSpec.edgeRow (m ((c : Thread nD τ).loc main_arg5)) 0 :=
  calc Gen.W8 (F := Ideal) m ρ c (Proc.devRef .tc main_v1)
    _ = Gen.W7 m ρ c (Proc.devRef .tc main_v1) := by keeps Gen.hostOps0_7 main_v1
    _ = Gen.W6 m ρ c (Proc.devRef .tc main_v1) := by keeps Gen.hostOps0_6 main_v1
    _ = Gen.W5 m ρ c (Proc.devRef .tc main_v1) := by keeps Gen.hostOps0_5 main_v1
    _ = Gen.W4 m ρ c (Proc.devRef .tc main_v1) := by keeps Gen.hostOps0_4 main_v1
    _ = Gen.W3 m ρ c (Proc.devRef .tc main_v1) := by keeps Gen.hostOps0_3 main_v1
    _ = Gen.W2 m ρ c (Proc.devRef .tc main_v1) := by keeps Gen.hostOps0_2 main_v1
    _ = Gen.W1 m ρ c (Proc.devRef .tc main_v1) := by keeps Gen.hostOps0_1 main_v1
    _ = GnnSpec.edgeRow (m ((c : Thread nD τ).loc main_arg5)) 0 := after0_v1 (Gen.W0 m ρ c)

theorem W8_v3 (c : Dev nD) :
    Gen.W8 (F := Ideal) m ρ c (Proc.devRef .tc main_v3) = GnnSpec.edgeRow (m ((c : Thread nD τ).loc main_arg5)) 1 :=
  calc Gen.W8 (F := Ideal) m ρ c (Proc.devRef .tc main_v3)
    _ = Gen.W7 m ρ c (Proc.devRef .tc main_v3) := by keeps Gen.hostOps0_7 main_v3
    _ = Gen.W6 m ρ c (Proc.devRef .tc main_v3) := by keeps Gen.hostOps0_6 main_v3
    _ = Gen.W5 m ρ c (Proc.devRef .tc main_v3) := by keeps Gen.hostOps0_5 main_v3
    _ = Gen.W4 m ρ c (Proc.devRef .tc main_v3) := by keeps Gen.hostOps0_4 main_v3
    _ = Gen.W3 m ρ c (Proc.devRef .tc main_v3) := by keeps Gen.hostOps0_3 main_v3
    _ = Gen.W2 m ρ c (Proc.devRef .tc main_v3) := by keeps Gen.hostOps0_2 main_v3
    _ = Gen.W1 m ρ c (Proc.devRef .tc main_v3) := by keeps Gen.hostOps0_1 main_v3
    _ = GnnSpec.edgeRow (m ((c : Thread nD τ).loc main_arg5)) 1 := after0_v3 (Gen.W0 m ρ c)

theorem v30_eq (c : Dev nD) :
    Gen.W9 (F := Ideal) m ρ c (Proc.devRef .tc main_v30) = GnnSpec.padRows (m ((c : Thread nD τ).loc main_arg0)) :=
  (after8_v30 (Gen.W8 m ρ c)).trans (congrArg GnnSpec.padRows (W8_arg0 m ρ c))

theorem v41_eq (c : Dev nD) :
    Gen.W9 (F := Ideal) m ρ c (Proc.devRef .tc main_v41)
      = GnnSpec.padEdges (GnnSpec.edgeRow (m ((c : Thread nD τ).loc main_arg5)) 0) :=
  (after8_v41 (Gen.W8 m ρ c)).trans (congrArg GnnSpec.padEdges (W8_v1 m ρ c))

theorem v44_eq (c : Dev nD) :
    Gen.W9 (F := Ideal) m ρ c (Proc.devRef .tc main_v44)
      = GnnSpec.padEdges (GnnSpec.edgeRow (m ((c : Thread nD τ).loc main_arg5)) 1) :=
  (after8_v44 (Gen.W8 m ρ c)).trans (congrArg GnnSpec.padEdges (W8_v3 m ρ c))

end Cert.KernelIdeal.Prelude

end
-- ==== Proof.KernelPrelude2.lean ====
import proofs.«416123_j75222057222468_1_alg».proof.Proof.Gen.KernelIdeal.Frame
import proofs.«416123_j75222057222468_1_alg».proof.Proof.Spec
import proofs.«416123_j75222057222468_1_alg».proof.Proof.LibScatterSet
import proofs.«416123_j75222057222468_1_alg».proof.Proof.LibScatterPad
import Idealize.ShloMosaic.Lib.IdealHost
import Idealize.ShloMosaic.Lib.ValueIdx

noncomputable section

namespace Cert.KernelIdeal.Prelude2

open Idealize.ShloMosaic Idealize.ShloMosaic.TcCoe Idealize.ShloMosaic.ValueIdx Cert.LibScatterPad

theorem padGraph_read (x : IVec S51200 32) (idx : IVec S1 32) (upd : IVec S50000 32)
    (hx : ∀ i, x i = 128#32) (hidx : idx (ix1 (0 : Fin 1)) = 0#32) :
    Host.scatter scatter_S51200_S1_S50000_0_n_0_0 (fun _ b => b) x idx upd = GnnSpec.padGraph upd := by
  funext i
  refine (vec_read_zero scatter_S51200_S1_S50000_0_n_0_0.wf x idx upd hidx i).trans ?_
  unfold GnnSpec.padGraph
  rw [hx i]

theorem padDeg_read (x : S51200x1.Idx → EReal) (idx : IVec S2 32) (upd : S50000.Idx → EReal)
    (hx : ∀ i, x i = 1) (hidx : ∀ j, idx j = 0#32) :
    Host.scatter scatter_S51200x1_S2_S50000_0_1_01_0 (fun _ b => b) x idx upd = GnnSpec.padDeg upd := by
  funext i
  refine (col_read_zero scatter_S51200x1_S2_S50000_0_1_01_0.wf x idx upd (hidx _) (hidx _) i).trans ?_
  unfold GnnSpec.padDeg
  rw [hx i]

variable (m : (ℓ : Loc nD τ sig) → Buf (Elt Ideal) ℓ) (ρ : Dev nD → PrngReg)

local macro "carry_host" : tactic => `(tactic|
  (refine StableHlo.after_of_forall_not_mem _ _ (List.forall_iff_forall_mem.mp ?_)
   simp only [Gen.hostOps0, Gen.hostOps0_1, Gen.hostOps0_2, Gen.hostOps0_3, Gen.hostOps0_4, Gen.hostOps0_5, Gen.hostOps0_6,
     Gen.hostOps0_7, Gen.hostOps0_8,
     List.flatten_cons, List.flatten_nil, List.append_nil, List.cons_append, List.nil_append, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

theorem W8_arg6 (c : Dev nD) : Gen.W8 m ρ c (Proc.devRef .tc main_arg6) = m ((c : Thread nD τ).loc main_arg6) :=
  calc Gen.W8 m ρ c (Proc.devRef .tc main_arg6)
    _ = Gen.W7 m ρ c (Proc.devRef .tc main_arg6) := by carry_host
    _ = Gen.W6 m ρ c (Proc.devRef .tc main_arg6) := by carry_host
    _ = Gen.W5 m ρ c (Proc.devRef .tc main_arg6) := by carry_host
    _ = Gen.W4 m ρ c (Proc.devRef .tc main_arg6) := by carry_host
    _ = Gen.W3 m ρ c (Proc.devRef .tc main_arg6) := by carry_host
    _ = Gen.W2 m ρ c (Proc.devRef .tc main_arg6) := by carry_host
    _ = Gen.W1 m ρ c (Proc.devRef .tc main_arg6) := by carry_host
    _ = Gen.W0 m ρ c (Proc.devRef .tc main_arg6) := by carry_host
    _ = m ((c : Thread nD τ).loc main_arg6) := rfl

theorem W9_v15 (c : Dev nD) : Gen.W9 m ρ c (Proc.devRef .tc main_v15) = Gen.W8 m ρ c (Proc.devRef .tc main_v15) := by
  carry_host

theorem W9_v38 (c : Dev nD) :
    Gen.W9 (F := Ideal) m ρ c (Proc.devRef .tc main_v38) = GnnSpec.padGraph (m ((c : Thread nD τ).loc main_arg6)) := by
  rw [← W8_arg6 m ρ c]
  show StableHlo.after Gen.hostOps0_8 (Gen.W8 m ρ c) (Proc.devRef .tc main_v38) = _
  generalize Gen.W8 m ρ c = V8
  after_results_simp
  exact padGraph_read _ _ _ (fun _ => rfl) rfl

theorem W9_v35 (c : Dev nD) :
    Gen.W9 (F := Ideal) m ρ c (Proc.devRef .tc main_v35) = GnnSpec.padDeg (Gen.W9 (F := Ideal) m ρ c (Proc.devRef .tc main_v15)) := by
  rw [W9_v15 m ρ c]
  show StableHlo.after Gen.hostOps0_8 (Gen.W8 m ρ c) (Proc.devRef .tc main_v35) = _
  generalize Gen.W8 m ρ c = V8
  after_results_simp
  refine padDeg_read _ _ _ (fun _ => ?_) (fun j => ?_)
  · show Ideal.ofBits .f32 0x3F800000#32 = 1
    exact Ideal.ofBits_one_f32
  · refine concatenate_const _ _ _ (0#32) (fun p hp k => ?_) j
    simp only [List.mem_cons, List.not_mem_nil, or_false] at hp
    rcases hp with rfl | rfl
    · after_results_simp
      rfl
    · after_results_simp
      rfl

end Cert.KernelIdeal.Prelude2

end
-- ==== Proof.Bridge.lean ====
import proofs.«416123_j75222057222468_1_alg».proof.Proof.Spec
import Mathlib.Algebra.BigOperators.Fin
import Mathlib.Data.EReal.Basic

open scoped BigOperators

noncomputable section

namespace Cert.GnnSpec

open Idealize.ShloMosaic Idealize.ShloMosaic.ValueIdx

theorem ofNat32_inj {a b : Nat} (ha : a < 4294967296) (hb : b < 4294967296)
    (h : BitVec.ofNat 32 a = BitVec.ofNat 32 b) : a = b := by
  have h' := congrArg BitVec.toNat h
  simp only [BitVec.toNat_ofNat] at h'
  omega

theorem toInt_ofNat32 {n : Nat} (hn : n < 2147483648) : (BitVec.ofNat 32 n).toInt = (n : Int) := by
  have hN : (BitVec.ofNat 32 n).toNat = n := by
    rw [BitVec.toNat_ofNat]
    exact Nat.mod_eq_of_lt (by omega)
  rw [BitVec.toInt_eq_toNat_of_lt (by rw [hN]; omega), hN]

theorem hit_ofNat {m n : Nat} (hm : m < 4294967296) (hn : n < 4294967296) :
    hit (BitVec.ofNat 32 m) n = if m = n then 1 else 0 := by
  unfold hit
  by_cases h : m = n
  · rw [if_pos h, if_pos (by rw [h])]
  · rw [if_neg h, if_neg (fun h' => h (ofNat32_inj hm hn h'))]

theorem hit_toInt (b : BitVec 32) {n : Nat} (hn : n < 2147483648) :
    hit b n = if b.toInt = (n : Int) then 1 else 0 := by
  unfold hit
  by_cases h : b = BitVec.ofNat 32 n
  · rw [if_pos h, if_pos (by rw [h]; exact toInt_ofNat32 hn)]
  · rw [if_neg h, if_neg (fun h' => h (BitVec.eq_of_toInt_eq (h'.trans (toInt_ofNat32 hn).symm)))]

theorem sum_pad {M : Type*} [AddCommMonoid M] {a c : Nat} (hac : a ≤ c) (f : Fin c → M)
    (hz : ∀ i : Fin c, a ≤ i.val → f i = 0) :
    ∑ i, f i = ∑ i : Fin a, f ⟨i.val, Nat.lt_of_lt_of_le i.isLt hac⟩ := by
  obtain ⟨b, rfl⟩ := Nat.exists_eq_add_of_le hac
  rw [Fin.sum_univ_add]
  have hzero : ∑ i : Fin b, f (Fin.natAdd a i) = 0 :=
    Finset.sum_eq_zero (fun i _ => hz _ (by simp [Fin.natAdd]))
  rw [hzero, add_zero]
  rfl

theorem padEdges_lt (v : IVec ⟨1, ![800000]⟩ 32) (e : Fin 800768) (h : e.val < 800000) :
    padEdges v (ix1 e) = v (ix1 (⟨e.val, h⟩ : Fin 800000)) := by
  show (if h' : e.val < 800000 then v (ix1 (⟨e.val, h'⟩ : Fin 800000)) else 51200#32) = _
  rw [dif_pos h]

theorem padEdges_ge (v : IVec ⟨1, ![800000]⟩ 32) (e : Fin 800768) (h : 800000 ≤ e.val) :
    padEdges v (ix1 e) = BitVec.ofNat 32 51200 := by
  show (if h' : e.val < 800000 then v (ix1 (⟨e.val, h'⟩ : Fin 800000)) else 51200#32) = _
  rw [dif_neg (by omega)]

theorem padGraph_lt (v : IVec ⟨1, ![50000]⟩ 32) (n : Fin 51200) (h : n.val < 50000) :
    padGraph v (ix1 n) = v (ix1 (⟨n.val, h⟩ : Fin 50000)) := by
  show (if h' : n.val < 50000 then v (ix1 (⟨n.val, h'⟩ : Fin 50000)) else 128#32) = _
  rw [dif_pos h]

theorem padGraph_ge (v : IVec ⟨1, ![50000]⟩ 32) (n : Fin 51200) (h : 50000 ≤ n.val) :
    padGraph v (ix1 n) = BitVec.ofNat 32 128 := by
  show (if h' : n.val < 50000 then v (ix1 (⟨n.val, h'⟩ : Fin 50000)) else 128#32) = _
  rw [dif_neg (by omega)]

theorem padDeg_lt (deg : (⟨1, ![50000]⟩ : Shape).Idx → EReal) (n : Fin 51200) (h : n.val < 50000) :
    padDeg deg (ix2 n (0 : Fin 1)) = deg (ix1 (⟨n.val, h⟩ : Fin 50000)) := by
  show (if h' : n.val < 50000 then deg (ix1 (⟨n.val, h'⟩ : Fin 50000)) else 1) = _
  rw [dif_pos h]

def Agree (xp : (⟨2, ![51200, 128]⟩ : Shape).Idx → EReal) (x : (⟨2, ![50000, 128]⟩ : Shape).Idx → EReal) : Prop :=
  ∀ (n : Fin 51200) (h : n.val < 50000) (d : Fin 128), xp (ix2 n d) = x (ix2 (⟨n.val, h⟩ : Fin 50000) d)

theorem padRows_agree (x : (⟨2, ![50000, 128]⟩ : Shape).Idx → EReal) : Agree (padRows x) x := by
  intro n h d
  show (if h' : n.val < 50000 then x (ix2 (⟨n.val, h'⟩ : Fin 50000) d) else 0) = _
  rw [dif_pos h]

theorem gatherEntry_lt (xp : (⟨2, ![51200, 128]⟩ : Shape).Idx → EReal) (s : IVec ⟨1, ![800000]⟩ 32)
    (e : Fin 800768) (h : e.val < 800000) (m : Fin 50000)
    (hs : s (ix1 (⟨e.val, h⟩ : Fin 800000)) = BitVec.ofNat 32 m.val) (d : Fin 128) :
    gatherEntry xp (padEdges s) e d = xp (ix2 (⟨m.val, by omega⟩ : Fin 51200) d) := by
  unfold gatherEntry
  rw [padEdges_lt s e h, hs]
  rw [Finset.sum_eq_single (⟨m.val, by omega⟩ : Fin 51200)]
  · rw [hit_of_eq rfl, one_mul]
  · intro n _ hn
    rw [hit_ofNat (by omega) (by omega), if_neg, zero_mul]
    intro hmn
    exact hn (Fin.ext hmn.symm)
  · intro hmem
    exact absurd (Finset.mem_univ _) hmem

theorem scatterEntry_eq (xp : (⟨2, ![51200, 128]⟩ : Shape).Idx → EReal)
    (x : (⟨2, ![50000, 128]⟩ : Shape).Idx → EReal) (hx : Agree xp x)
    (s t : IVec ⟨1, ![800000]⟩ 32) (srcN : Fin 800000 → Fin 50000)
    (hs : ∀ e : Fin 800000, s (ix1 e) = BitVec.ofNat 32 (srcN e).val)
    (n : Fin 51200) (h : n.val < 50000) (k : Fin 128) :
    scatterEntry (gatherK xp (padEdges s)) (padEdges t) n k = aggEntry x srcN t (⟨n.val, h⟩ : Fin 50000) k := by
  unfold scatterEntry aggEntry
  rw [zero_add]
  rw [sum_pad (a := 800000) (by omega)]
  · refine Finset.sum_congr rfl (fun e _ => ?_)
    rw [padEdges_lt t _ e.isLt, gatherK_apply, gatherEntry_lt xp s _ e.isLt (srcN e) (hs e) k,
      hit_toInt _ (by omega), hx _ (srcN e).isLt k]
    by_cases hc : (t (ix1 e)).toInt = (n.val : Int)
    · rw [if_pos hc, if_pos hc, one_mul]
    · rw [if_neg hc, if_neg hc, zero_mul]
  · intro e he
    rw [padEdges_ge t e he, hit_ofNat (by omega) (by omega), if_neg (by omega), zero_mul]

theorem layerK_agree (xp : (⟨2, ![51200, 128]⟩ : Shape).Idx → EReal)
    (x : (⟨2, ![50000, 128]⟩ : Shape).Idx → EReal) (hx : Agree xp x)
    (s t : IVec ⟨1, ![800000]⟩ 32) (srcN : Fin 800000 → Fin 50000)
    (hs : ∀ e : Fin 800000, s (ix1 e) = BitVec.ofNat 32 (srcN e).val)
    (deg : (⟨1, ![50000]⟩ : Shape).Idx → EReal)
    (ws : (⟨2, ![128, 128]⟩ : Shape).Idx → EReal) (bs : (⟨2, ![1, 128]⟩ : Shape).Idx → EReal)
    (wn : (⟨2, ![128, 128]⟩ : Shape).Idx → EReal) (bn : (⟨2, ![1, 128]⟩ : Shape).Idx → EReal) :
    Agree (layerK xp (padEdges s) (padEdges t) (padDeg deg) ws bs wn bn) (refLayer x srcN t deg ws bs wn bn) := by
  intro n h d
  show linEntry xp (scatterK (gatherK xp (padEdges s)) (padEdges t)) (padDeg deg) ws bs wn bn n d
    = refLayerEntry x srcN t deg ws bs wn bn (⟨n.val, h⟩ : Fin 50000) d
  unfold linEntry refLayerEntry
  rw [padDeg_lt deg n h]
  have h1 : ∀ k : Fin 128, xp (ix2 n k) = x (ix2 (⟨n.val, h⟩ : Fin 50000) k) := fun k => hx n h k
  have h2 : ∀ k : Fin 128, scatterK (gatherK xp (padEdges s)) (padEdges t) (ix2 n k)
      = aggEntry x srcN t (⟨n.val, h⟩ : Fin 50000) k :=
    fun k => scatterEntry_eq xp x hx s t srcN hs n h k
  simp only [h1, h2]

theorem poolEntry_eq (xp : (⟨2, ![51200, 128]⟩ : Shape).Idx → EReal)
    (x : (⟨2, ![50000, 128]⟩ : Shape).Idx → EReal) (hx : Agree xp x)
    (bv : IVec ⟨1, ![50000]⟩ 32) (g : Fin 64) (d : Fin 128) :
    poolEntry xp (padGraph bv) (⟨g.val, by omega⟩ : Fin 128) d = refPoolEntry x bv g d := by
  unfold poolEntry refPoolEntry
  rw [zero_add]
  rw [sum_pad (a := 50000) (by omega)]
  · refine Finset.sum_congr rfl (fun n _ => ?_)
    rw [padGraph_lt bv _ n.isLt, hit_toInt _ (by show g.val < 2147483648; omega), hx _ n.isLt d]
    by_cases hc : (bv (ix1 n)).toInt = (g.val : Int)
    · rw [if_pos hc, if_pos hc, one_mul]
    · rw [if_neg hc, if_neg hc, zero_mul]
  · intro n hn
    rw [padGraph_ge bv n hn, hit_ofNat (by omega) (by show g.val < 4294967296; omega),
      if_neg (by show ¬ (128 = g.val); omega), zero_mul]

theorem towerK_agree (x : (⟨2, ![50000, 128]⟩ : Shape).Idx → EReal)
    (w_self : (⟨3, ![3, 128, 128]⟩ : Shape).Idx → EReal) (b_self : (⟨2, ![3, 128]⟩ : Shape).Idx → EReal)
    (w_neigh : (⟨3, ![3, 128, 128]⟩ : Shape).Idx → EReal) (b_neigh : (⟨2, ![3, 128]⟩ : Shape).Idx → EReal)
    (ei : IVec ⟨2, ![2, 800000]⟩ 32) (deg : (⟨1, ![50000]⟩ : Shape).Idx → EReal)
    (srcN : Fin 800000 → Fin 50000)
    (hs : ∀ e : Fin 800000, edgeRow ei 0 (ix1 e) = BitVec.ofNat 32 (srcN e).val) :
    Agree (towerK x w_self b_self w_neigh b_neigh ei deg)
      (towerR x w_self b_self w_neigh b_neigh srcN (edgeRow ei 1) deg) := by
  unfold towerK towerR
  exact layerK_agree _ _ (layerK_agree _ _ (layerK_agree _ _ (padRows_agree x) _ _ srcN hs _ _ _ _ _)
    _ _ srcN hs _ _ _ _ _) _ _ srcN hs _ _ _ _ _

theorem bridge (x : (⟨2, ![50000, 128]⟩ : Shape).Idx → EReal)
    (w_self : (⟨3, ![3, 128, 128]⟩ : Shape).Idx → EReal) (b_self : (⟨2, ![3, 128]⟩ : Shape).Idx → EReal)
    (w_neigh : (⟨3, ![3, 128, 128]⟩ : Shape).Idx → EReal) (b_neigh : (⟨2, ![3, 128]⟩ : Shape).Idx → EReal)
    (ei : IVec ⟨2, ![2, 800000]⟩ 32) (bv : IVec ⟨1, ![50000]⟩ 32)
    (deg : (⟨1, ![50000]⟩ : Shape).Idx → EReal) (cnt : (⟨1, ![64]⟩ : Shape).Idx → EReal)
    (srcN : Fin 800000 → Fin 50000)
    (hs : ∀ e : Fin 800000, edgeRow ei 0 (ix1 e) = BitVec.ofNat 32 (srcN e).val) :
    kernelValue x w_self b_self w_neigh b_neigh ei bv deg cnt
      = refValue x w_self b_self w_neigh b_neigh srcN (edgeRow ei 1) bv deg cnt := by
  funext i
  unfold kernelValue refValue
  show Ideal.div _ _ = Ideal.div _ _
  rw [poolEntry_eq _ _ (towerK_agree x w_self b_self w_neigh b_neigh ei deg srcN hs) bv (i 0) (i 1)]

end Cert.GnnSpec

end
-- ==== Proof.KernelValue.lean ====
import proofs.«416123_j75222057222468_1_alg».proof.Proof.Gen.KernelIdeal.Frame
import proofs.«416123_j75222057222468_1_alg».proof.Proof.Spec
import proofs.«416123_j75222057222468_1_alg».proof.Proof.Bridge

noncomputable section

namespace Cert.KernelIdeal.KernelValue

open Cert.KernelIdeal Cert.KernelIdeal.Gen Idealize.ShloMosaic Idealize.ShloMosaic.TcCoe Idealize.ShloMosaic.ValueIdx

variable (m : (ℓ : Loc nD τ sig) → Buf (Elt Ideal) ℓ) (ρ : Dev nD → PrngReg) (c : Dev nD)

theorem value_of
    (hchain : Gen.W23 (F := Ideal) m ρ c (Proc.devRef .tc main_v88)
      = fun i : (⟨2, ![64, 128]⟩ : Shape).Idx => Ideal.div
          (GnnSpec.poolEntry
      (GnnSpec.layerK (GnnSpec.layerK (GnnSpec.layerK (Gen.W9 (F := Ideal) m ρ c (Proc.devRef .tc main_v30)) (Gen.W9 (F := Ideal) m ρ c (Proc.devRef .tc main_v41)) (Gen.W9 (F := Ideal) m ρ c (Proc.devRef .tc main_v44)) (Gen.W9 (F := Ideal) m ρ c (Proc.devRef .tc main_v35))
        (GnnSpec.slab (m ((c : Thread nD τ).loc main_arg1)) 0) (GnnSpec.biasRow (m ((c : Thread nD τ).loc main_arg2)) 0)
        (GnnSpec.slab (m ((c : Thread nD τ).loc main_arg3)) 0) (GnnSpec.biasRow (m ((c : Thread nD τ).loc main_arg4)) 0)) (Gen.W9 (F := Ideal) m ρ c (Proc.devRef .tc main_v41)) (Gen.W9 (F := Ideal) m ρ c (Proc.devRef .tc main_v44)) (Gen.W9 (F := Ideal) m ρ c (Proc.devRef .tc main_v35))
        (GnnSpec.slab (m ((c : Thread nD τ).loc main_arg1)) 1) (GnnSpec.biasRow (m ((c : Thread nD τ).loc main_arg2)) 1)
        (GnnSpec.slab (m ((c : Thread nD τ).loc main_arg3)) 1) (GnnSpec.biasRow (m ((c : Thread nD τ).loc main_arg4)) 1)) (Gen.W9 (F := Ideal) m ρ c (Proc.devRef .tc main_v41)) (Gen.W9 (F := Ideal) m ρ c (Proc.devRef .tc main_v44)) (Gen.W9 (F := Ideal) m ρ c (Proc.devRef .tc main_v35))
        (GnnSpec.slab (m ((c : Thread nD τ).loc main_arg1)) 2) (GnnSpec.biasRow (m ((c : Thread nD τ).loc main_arg2)) 2)
        (GnnSpec.slab (m ((c : Thread nD τ).loc main_arg3)) 2) (GnnSpec.biasRow (m ((c : Thread nD τ).loc main_arg4)) 2))
            (Gen.W9 (F := Ideal) m ρ c (Proc.devRef .tc main_v38))
            (⟨(i 0).val, Nat.lt_of_lt_of_le (i 0).isLt (by decide)⟩ : Fin 128) (i 1))
          ((Gen.W9 (F := Ideal) m ρ c (Proc.devRef .tc main_v27)) (ix1 (i 0))))
    (h30 : (Gen.W9 (F := Ideal) m ρ c (Proc.devRef .tc main_v30)) = GnnSpec.padRows (m ((c : Thread nD τ).loc main_arg0)))
    (h41 : (Gen.W9 (F := Ideal) m ρ c (Proc.devRef .tc main_v41)) = GnnSpec.padEdges (GnnSpec.edgeRow (m ((c : Thread nD τ).loc main_arg5)) 0))
    (h44 : (Gen.W9 (F := Ideal) m ρ c (Proc.devRef .tc main_v44)) = GnnSpec.padEdges (GnnSpec.edgeRow (m ((c : Thread nD τ).loc main_arg5)) 1))
    (h38 : (Gen.W9 (F := Ideal) m ρ c (Proc.devRef .tc main_v38)) = GnnSpec.padGraph (m ((c : Thread nD τ).loc main_arg6)))
    (h35 : (Gen.W9 (F := Ideal) m ρ c (Proc.devRef .tc main_v35)) = GnnSpec.padDeg (Gen.W9 (F := Ideal) m ρ c (Proc.devRef .tc main_v15)))
    (srcN : Fin 800000 → Fin 50000)
    (hs : ∀ e : Fin 800000, GnnSpec.edgeRow (m ((c : Thread nD τ).loc main_arg5)) 0 (ix1 e) = BitVec.ofNat 32 (srcN e).val) :
    Gen.W23 (F := Ideal) m ρ c (Proc.devRef .tc main_v88)
      = GnnSpec.refValue (m ((c : Thread nD τ).loc main_arg0)) (m ((c : Thread nD τ).loc main_arg1)) (m ((c : Thread nD τ).loc main_arg2)) (m ((c : Thread nD τ).loc main_arg3)) (m ((c : Thread nD τ).loc main_arg4))
        srcN (GnnSpec.edgeRow (m ((c : Thread nD τ).loc main_arg5)) 1) (m ((c : Thread nD τ).loc main_arg6))
        (Gen.W9 (F := Ideal) m ρ c (Proc.devRef .tc main_v15)) (Gen.W9 (F := Ideal) m ρ c (Proc.devRef .tc main_v27)) := by
  rw [hchain, h30, h41, h44, h38, h35]
  exact GnnSpec.bridge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (Gen.W9 (F := Ideal) m ρ c (Proc.devRef .tc main_v15)) (Gen.W9 (F := Ideal) m ρ c (Proc.devRef .tc main_v27)) srcN hs

end Cert.KernelIdeal.KernelValue

end
-- ==== Proof.DegCnt.lean ====
import proofs.«416123_j75222057222468_1_alg».proof.Proof.Gen.KernelIdeal.Frame
import proofs.«416123_j75222057222468_1_alg».proof.Proof.RefStages
import Idealize.ShloMosaic.PureOps.Ideal

noncomputable section

namespace Cert.DegCnt

open Cert.KernelIdeal Cert.KernelIdeal.Gen Idealize.ShloMosaic Idealize.ShloMosaic.TcCoe Idealize.SL.Sem Idealize.ShloMosaic.StableHlo
open Cert.ReferenceIdeal.Read

local macro "unwritten " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

section Stretches
variable (V : Valuation τ sig (Elt Ideal))

theorem s0_v3 :
    StableHlo.after (hostOps0 (F := Ideal)) V (Proc.devRef .tc main_v3) = val_main_v3 (F := Ideal) (V (Proc.devRef .tc main_arg5)) := by
  after_results
  simp only [cast_eq]
  rfl

theorem s0_v4 :
    StableHlo.after (hostOps0 (F := Ideal)) V (Proc.devRef .tc main_v4) = val_main_v4 (F := Ideal) := by
  after_results
  rfl

theorem s0_c_0 :
    StableHlo.after (hostOps0 (F := Ideal)) V (Proc.devRef .tc main_c_0) = val_main_c_0 (F := Ideal) := by
  after_results
  rfl

theorem s1_v5 (x5) (h0 : V (Proc.devRef .tc main_c_0) = val_main_c_0 (F := Ideal))
    (h3 : V (Proc.devRef .tc main_v3) = val_main_v3 (F := Ideal) x5) :
    StableHlo.after (hostOps0_1 (F := Ideal)) V (Proc.devRef .tc main_v5) = val_main_v5 (F := Ideal) x5 := by
  after_results
  simp only [TRef.ofBuf, TRef.toBuf, cast_eq]
  rw [h0, h3]
  rfl

theorem s2_v13 (x5) (h4 : V (Proc.devRef .tc main_v4) = val_main_v4 (F := Ideal))
    (h5 : V (Proc.devRef .tc main_v5) = val_main_v5 (F := Ideal) x5) :
    StableHlo.after (hostOps0_2 (F := Ideal)) V (Proc.devRef .tc main_v13) = val_main_v13 (F := Ideal) x5 := by
  after_results
  rw [h4, h5]
  rfl

theorem s2_c_4 :
    StableHlo.after (hostOps0_2 (F := Ideal)) V (Proc.devRef .tc main_c_4) = val_main_c_4 (F := Ideal) := by
  after_results
  rfl

theorem s3_v14 (x5) (hc : V (Proc.devRef .tc main_c_4) = val_main_c_4 (F := Ideal))
    (h13 : V (Proc.devRef .tc main_v13) = val_main_v13 (F := Ideal) x5) :
    StableHlo.after (hostOps0_3 (F := Ideal)) V (Proc.devRef .tc main_v14) = val_main_v14 (F := Ideal) x5 := by
  after_results
  simp only [TRef.ofBuf, TRef.toBuf, cast_eq]
  rw [hc, h13]
  rfl

theorem s4_v15 (x5) (h14 : V (Proc.devRef .tc main_v14) = val_main_v14 (F := Ideal) x5) :
    StableHlo.after (hostOps0_4 (F := Ideal)) V (Proc.devRef .tc main_v15) = val_main_v15 (F := Ideal) x5 := by
  after_results
  rw [h14]
  rfl

theorem s4_v16 :
    StableHlo.after (hostOps0_4 (F := Ideal)) V (Proc.devRef .tc main_v16) = val_main_v110 (F := Ideal) := by
  after_results
  rfl

theorem s4_c_6 :
    StableHlo.after (hostOps0_4 (F := Ideal)) V (Proc.devRef .tc main_c_6) = val_main_c_15 (F := Ideal) := by
  after_results
  rfl

theorem s5_v17 (x6) (hc : V (Proc.devRef .tc main_c_6) = val_main_c_15 (F := Ideal))
    (h6 : V (Proc.devRef .tc main_arg6) = x6) :
    StableHlo.after (hostOps0_5 (F := Ideal)) V (Proc.devRef .tc main_v17) = val_main_v111 (F := Ideal) x6 := by
  after_results
  simp only [TRef.ofBuf, TRef.toBuf, cast_eq]
  rw [hc, h6]
  rfl

theorem s6_v25 (x6) (h16 : V (Proc.devRef .tc main_v16) = val_main_v110 (F := Ideal))
    (h17 : V (Proc.devRef .tc main_v17) = val_main_v111 (F := Ideal) x6) :
    StableHlo.after (hostOps0_6 (F := Ideal)) V (Proc.devRef .tc main_v25) = val_main_v119 (F := Ideal) x6 := by
  after_results
  rw [h16, h17]
  rfl

theorem s6_c_10 :
    StableHlo.after (hostOps0_6 (F := Ideal)) V (Proc.devRef .tc main_c_10) = val_main_c_19 (F := Ideal) := by
  after_results
  rfl

theorem s7_v26 (x6) (hc : V (Proc.devRef .tc main_c_10) = val_main_c_19 (F := Ideal))
    (h25 : V (Proc.devRef .tc main_v25) = val_main_v119 (F := Ideal) x6) :
    StableHlo.after (hostOps0_7 (F := Ideal)) V (Proc.devRef .tc main_v26) = val_main_v120 (F := Ideal) x6 := by
  after_results
  simp only [TRef.ofBuf, TRef.toBuf, cast_eq]
  rw [hc, h25]
  rfl

theorem s8_v27 (x6) (h26 : V (Proc.devRef .tc main_v26) = val_main_v120 (F := Ideal) x6) :
    StableHlo.after (hostOps0_8 (F := Ideal)) V (Proc.devRef .tc main_v27) = val_main_v121 (F := Ideal) x6 := by
  after_results
  rw [h26]
  rfl

end Stretches

section Run
variable (m : (ℓ : Loc nD τ sig) → Buf (Elt Ideal) ℓ) (ρ : Dev nD → PrngReg) (c : Dev nD)

theorem W1_v3 : W1 (F := Ideal) m ρ c (Proc.devRef .tc main_v3) = val_main_v3 (F := Ideal) (m ((c.tc : Thread nD τ).loc main_arg5)) :=
  s0_v3 (W0 m ρ c)

theorem W1_v4 : W1 (F := Ideal) m ρ c (Proc.devRef .tc main_v4) = val_main_v4 (F := Ideal) :=
  s0_v4 (W0 m ρ c)

theorem W1_c_0 : W1 (F := Ideal) m ρ c (Proc.devRef .tc main_c_0) = val_main_c_0 (F := Ideal) :=
  s0_c_0 (W0 m ρ c)

theorem W2_v5 : W2 (F := Ideal) m ρ c (Proc.devRef .tc main_v5) = val_main_v5 (F := Ideal) (m ((c.tc : Thread nD τ).loc main_arg5)) :=
  s1_v5 (W1 m ρ c) _ (W1_c_0 m ρ c) (W1_v3 m ρ c)

theorem W2_v4 : W2 (F := Ideal) m ρ c (Proc.devRef .tc main_v4) = val_main_v4 (F := Ideal) :=
  (by unwritten hostOps0_1 : W2 (F := Ideal) m ρ c (Proc.devRef .tc main_v4) = W1 (F := Ideal) m ρ c (Proc.devRef .tc main_v4)).trans (W1_v4 m ρ c)

theorem W3_v13 : W3 (F := Ideal) m ρ c (Proc.devRef .tc main_v13) = val_main_v13 (F := Ideal) (m ((c.tc : Thread nD τ).loc main_arg5)) :=
  s2_v13 (W2 m ρ c) _ (W2_v4 m ρ c) (W2_v5 m ρ c)

theorem W3_c_4 : W3 (F := Ideal) m ρ c (Proc.devRef .tc main_c_4) = val_main_c_4 (F := Ideal) :=
  s2_c_4 (W2 m ρ c)

theorem W4_v14 : W4 (F := Ideal) m ρ c (Proc.devRef .tc main_v14) = val_main_v14 (F := Ideal) (m ((c.tc : Thread nD τ).loc main_arg5)) :=
  s3_v14 (W3 m ρ c) _ (W3_c_4 m ρ c) (W3_v13 m ρ c)

theorem W5_v15 : W5 (F := Ideal) m ρ c (Proc.devRef .tc main_v15) = val_main_v15 (F := Ideal) (m ((c.tc : Thread nD τ).loc main_arg5)) :=
  s4_v15 (W4 m ρ c) _ (W4_v14 m ρ c)

theorem W5_v16 : W5 (F := Ideal) m ρ c (Proc.devRef .tc main_v16) = val_main_v110 (F := Ideal) :=
  s4_v16 (W4 m ρ c)

theorem W5_c_6 : W5 (F := Ideal) m ρ c (Proc.devRef .tc main_c_6) = val_main_c_15 (F := Ideal) :=
  s4_c_6 (W4 m ρ c)

theorem W5_arg6 : W5 (F := Ideal) m ρ c (Proc.devRef .tc main_arg6) = m ((c.tc : Thread nD τ).loc main_arg6) :=
  calc W5 (F := Ideal) m ρ c (Proc.devRef .tc main_arg6)
    _ = W4 (F := Ideal) m ρ c (Proc.devRef .tc main_arg6) := by unwritten hostOps0_4
    _ = W3 (F := Ideal) m ρ c (Proc.devRef .tc main_arg6) := by unwritten hostOps0_3
    _ = W2 (F := Ideal) m ρ c (Proc.devRef .tc main_arg6) := by unwritten hostOps0_2
    _ = W1 (F := Ideal) m ρ c (Proc.devRef .tc main_arg6) := by unwritten hostOps0_1
    _ = W0 (F := Ideal) m ρ c (Proc.devRef .tc main_arg6) := by unwritten hostOps0
    _ = m ((c.tc : Thread nD τ).loc main_arg6) := rfl

theorem W6_v17 : W6 (F := Ideal) m ρ c (Proc.devRef .tc main_v17) = val_main_v111 (F := Ideal) (m ((c.tc : Thread nD τ).loc main_arg6)) :=
  s5_v17 (W5 m ρ c) _ (W5_c_6 m ρ c) (W5_arg6 m ρ c)

theorem W6_v16 : W6 (F := Ideal) m ρ c (Proc.devRef .tc main_v16) = val_main_v110 (F := Ideal) :=
  (by unwritten hostOps0_5 : W6 (F := Ideal) m ρ c (Proc.devRef .tc main_v16) = W5 (F := Ideal) m ρ c (Proc.devRef .tc main_v16)).trans (W5_v16 m ρ c)

theorem W7_v25 : W7 (F := Ideal) m ρ c (Proc.devRef .tc main_v25) = val_main_v119 (F := Ideal) (m ((c.tc : Thread nD τ).loc main_arg6)) :=
  s6_v25 (W6 m ρ c) _ (W6_v16 m ρ c) (W6_v17 m ρ c)

theorem W7_c_10 : W7 (F := Ideal) m ρ c (Proc.devRef .tc main_c_10) = val_main_c_19 (F := Ideal) :=
  s6_c_10 (W6 m ρ c)

theorem W8_v26 : W8 (F := Ideal) m ρ c (Proc.devRef .tc main_v26) = val_main_v120 (F := Ideal) (m ((c.tc : Thread nD τ).loc main_arg6)) :=
  s7_v26 (W7 m ρ c) _ (W7_c_10 m ρ c) (W7_v25 m ρ c)

end Run

theorem deg_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W9 (F := Ideal) m ρ c (Proc.devRef .tc Cert.KernelIdeal.main_v15)
      = Cert.ReferenceIdeal.Read.val_main_v15 (F := Ideal)
          (m ((c.tc : Thread Cert.KernelIdeal.nD Cert.KernelIdeal.τ).loc Cert.KernelIdeal.main_arg5)) :=
  calc W9 (F := Ideal) m ρ c (Proc.devRef .tc main_v15)
    _ = W8 (F := Ideal) m ρ c (Proc.devRef .tc main_v15) := by unwritten hostOps0_8
    _ = W7 (F := Ideal) m ρ c (Proc.devRef .tc main_v15) := by unwritten hostOps0_7
    _ = W6 (F := Ideal) m ρ c (Proc.devRef .tc main_v15) := by unwritten hostOps0_6
    _ = W5 (F := Ideal) m ρ c (Proc.devRef .tc main_v15) := by unwritten hostOps0_5
    _ = _ := W5_v15 m ρ c

theorem cnt_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W9 (F := Ideal) m ρ c (Proc.devRef .tc Cert.KernelIdeal.main_v27)
      = Cert.ReferenceIdeal.Read.val_main_v121 (F := Ideal)
          (m ((c.tc : Thread Cert.KernelIdeal.nD Cert.KernelIdeal.τ).loc Cert.KernelIdeal.main_arg6)) :=
  s8_v27 (W8 m ρ c) _ (W8_v26 m ρ c)

end Cert.DegCnt

end
-- ==== Proof.PreDecode.lean ====
import proofs.«416123_j75222057222468_1_alg».proof.Pre_finite_inputs
import Idealize.ShloMosaic.Lib.ReduceAll
import Idealize.ShloMosaic.Lib.StableHlo.Predicate
import Idealize.ShloMosaic.Lib.ValueIdx

namespace Cert.Pre_finite_inputs.Decode

open Idealize.ShloMosaic Idealize.ShloMosaic.ValueIdx

instance : Subsingleton S_.Idx := ⟨fun _ _ => funext fun d => d.elim0⟩

theorem row0_apply (ei : IVec S2x800000 32) (hsl : S2x800000.Slices ![0, 0] S1x800000)
    (hsc : S1x800000.ShapeCasts S800000) (e : Fin 800000) :
    shapeCast S800000 (extractStridedSlice S1x800000 ![0, 0] ei hsl) hsc (ix1 e) = ei (ix2 (0 : Fin 2) e) := by

  have hk : Shape.reshapeEquiv hsc (ix1 e) = (ix2 (0 : Fin 1) e : S1x800000.Idx) :=
    Shape.reshapeEquiv_eq_of_rowMajor hsc (by
      rw [Shape.rowMajor_val_two, Shape.rowMajor_val_one]
      show 0 * 800000 + e.val = e.val
      omega)
  unfold shapeCast
  rw [hk]
  unfold extractStridedSlice

  refine congrArg ei (funext fun a => Fin.ext ?_)
  match a with
  | ⟨0, _⟩ => rfl
  | ⟨1, _⟩ => show 0 + e.val = e.val; omega

theorem word_of_nonneg {w : BitVec 32} (h0 : 0 ≤ w.toInt) : w = BitVec.ofNat 32 w.toInt.toNat := by
  have hlt : 2 * w.toNat < 2 ^ 32 := BitVec.toInt_pos_iff.1 h0
  have hi : w.toInt = (w.toNat : Int) := BitVec.toInt_eq_toNat_of_lt hlt
  apply BitVec.eq_of_toNat_eq
  rw [BitVec.toNat_ofNat, hi, Int.toNat_natCast]
  exact (Nat.mod_eq_of_lt w.isLt).symm

theorem toNat_lt_of_range {w : BitVec 32} (h : 0 ≤ w.toInt ∧ w.toInt < 50000) : w.toInt.toNat < 50000 := by
  omega

def srcN (ei : IVec S2x800000 32)
    (hr : ∀ e : Fin 800000, 0 ≤ (ei (ix2 (0 : Fin 2) e)).toInt ∧ (ei (ix2 (0 : Fin 2) e)).toInt < 50000)
    (e : Fin 800000) : Fin 50000 :=
  ⟨(ei (ix2 (0 : Fin 2) e)).toInt.toNat, toNat_lt_of_range (hr e)⟩

theorem word_srcN (ei : IVec S2x800000 32)
    (hr : ∀ e : Fin 800000, 0 ≤ (ei (ix2 (0 : Fin 2) e)).toInt ∧ (ei (ix2 (0 : Fin 2) e)).toInt < 50000)
    (e : Fin 800000) : ei (ix2 (0 : Fin 2) e) = BitVec.ofNat 32 (srcN ei hr e).val :=
  word_of_nonneg (hr e).1

variable [Cert.Pre_finite_inputs.Facts]

theorem src_range (a0 : FVec Ideal S50000x128 .f32) (a1 : FVec Ideal S3x128x128 .f32) (a2 : FVec Ideal S3x128 .f32)
    (a3 : FVec Ideal S3x128x128 .f32) (a4 : FVec Ideal S3x128 .f32) (ei : IVec S2x800000 32) (bvec : IVec S50000 32)
    (h : Cert.Pre_finite_inputs.fn (F := Ideal) a0 a1 a2 a3 a4 ei bvec = (fun _ => 1#1)) :
    ∀ e : Fin 800000, 0 ≤ (ei (ix2 (0 : Fin 2) e)).toInt ∧ (ei (ix2 (0 : Fin 2) e)).toInt < 50000 := by
  intro e

  have h0 := congrFun h ix0
  dsimp only [fn, fn_part1] at h0
  obtain ⟨-, hall⟩ := IntOp.andi_eq_one.1 h0

  have he := Host.reduce_andi_all _ _ _ _ _ hall (ix1 e)
  obtain ⟨hge, hlt⟩ := IntOp.andi_eq_one.1 he
  have hge' := IntOp.cmpi_sge.1 hge
  have hlt' := IntOp.cmpi_slt.1 hlt
  rw [row0_apply] at hge' hlt'

  exact ⟨hge', hlt'⟩

end Cert.Pre_finite_inputs.Decode
-- ==== Proof.lean ====
import proofs.«416123_j75222057222468_1_alg».proof.Defs
import proofs.«416123_j75222057222468_1_alg».proof.Proof.Gen.Kernel
import proofs.«416123_j75222057222468_1_alg».proof.Proof.Gen.Kernel.Frame
import proofs.«416123_j75222057222468_1_alg».proof.Proof.Gen.KernelIdeal
import proofs.«416123_j75222057222468_1_alg».proof.Proof.Gen.KernelIdeal.Frame
import proofs.«416123_j75222057222468_1_alg».proof.Proof.Gen.ReferenceIdeal
import proofs.«416123_j75222057222468_1_alg».proof.Proof.Gen.Pre_finite_inputs
import proofs.«416123_j75222057222468_1_alg».proof.Proof.RefOps
import proofs.«416123_j75222057222468_1_alg».proof.Proof.RefStages
import proofs.«416123_j75222057222468_1_alg».proof.Proof.RefRunStaged
import proofs.«416123_j75222057222468_1_alg».proof.Proof.RefValue
import proofs.«416123_j75222057222468_1_alg».proof.Proof.RefPool
import proofs.«416123_j75222057222468_1_alg».proof.Proof.KernelRun
import proofs.«416123_j75222057222468_1_alg».proof.Proof.KernelChain
import proofs.«416123_j75222057222468_1_alg».proof.Proof.KernelPrelude
import proofs.«416123_j75222057222468_1_alg».proof.Proof.KernelPrelude2
import proofs.«416123_j75222057222468_1_alg».proof.Proof.KernelValue
import proofs.«416123_j75222057222468_1_alg».proof.Proof.DegCnt
import proofs.«416123_j75222057222468_1_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunStaged.run (F := Ideal) m ρ)

theorem preserves : Cert.preserves_Kernel_KernelIdeal := trivial

theorem algebraic : Cert.algebraic_KernelIdeal_ReferenceIdeal := by
  intro m ρ m' ρ' hpre hagree

  have hr := fun c : Dev Cert.KernelIdeal.nD =>
    Cert.Pre_finite_inputs.Decode.src_range _ _ _ _ _ _ _ (hpre c)
  refine ⟨fun c => GnnSpec.refValue
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (Cert.Pre_finite_inputs.Decode.srcN _ (hr c))
      (GnnSpec.edgeRow (m ((c.tc : Thread Cert.KernelIdeal.nD Cert.KernelIdeal.τ).loc Cert.KernelIdeal.main_arg5)) 1)
      (m ((c.tc : Thread Cert.KernelIdeal.nD Cert.KernelIdeal.τ).loc Cert.KernelIdeal.main_arg6))
      (Cert.ReferenceIdeal.Read.val_main_v15 (F := Ideal)
        (m ((c.tc : Thread Cert.KernelIdeal.nD Cert.KernelIdeal.τ).loc Cert.KernelIdeal.main_arg5)))
      (Cert.ReferenceIdeal.Read.val_main_v121 (F := Ideal)
        (m ((c.tc : Thread Cert.KernelIdeal.nD Cert.KernelIdeal.τ).loc Cert.KernelIdeal.main_arg6))), ?_, ?_⟩
  ·
    refine (θ_run Cert.KernelIdeal.defs _ _).mono (fun r h c => ⟨(h c).1.trans ?_, (h c).2⟩)
      (Cert.KernelIdeal.RunValue.run (F := Ideal) m ρ)
    rw [Cert.KernelIdeal.KernelValue.value_of m ρ c (Cert.KernelIdeal.Chain.result m ρ c)
      (Cert.KernelIdeal.Prelude.v30_eq m ρ c) (Cert.KernelIdeal.Prelude.v41_eq m ρ c)
      (Cert.KernelIdeal.Prelude.v44_eq m ρ c) (Cert.KernelIdeal.Prelude2.W9_v38 m ρ c)
      (Cert.KernelIdeal.Prelude2.W9_v35 m ρ c)
      (Cert.Pre_finite_inputs.Decode.srcN _ (hr c))
      (fun e => Cert.Pre_finite_inputs.Decode.word_srcN _ (hr c) e),
      Cert.DegCnt.deg_eq m ρ c, Cert.DegCnt.cnt_eq m ρ c]
  ·
    refine (θ_run Cert.ReferenceIdeal.defs _ _).mono (fun r h c => ⟨(h c).1.trans ?_, (h c).2⟩)
      (Cert.ReferenceIdeal.RunStaged.run (F := Ideal) m' ρ')
    rw [(hagree c).1, (hagree c).2.1, (hagree c).2.2.1,
      (hagree c).2.2.2.1, (hagree c).2.2.2.2.1, (hagree c).2.2.2.2.2.1, (hagree c).2.2.2.2.2.2]
    exact Cert.ReferenceIdeal.RefPool.result_eq _ _ _ _ _ _ _ (Cert.Pre_finite_inputs.Decode.srcN _ (hr c))
      (Cert.ReferenceIdeal.RefValue.tower_eq _ _ _ _ _ _ (Cert.Pre_finite_inputs.Decode.srcN _ (hr c))
        (fun e => Cert.Pre_finite_inputs.Decode.word_srcN _ (hr c) e))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
